-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v212)) (v1 : (c : Dev Cert.KernelIdeal.nD) → Buf (Elt Ideal) ((c.tc : Thread Cert.KernelIdeal.nD Cert.KernelIdeal.τ).loc Cert.KernelIdeal.main_v217)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212) = v0 c
          ∧ r.2.mem ((c.tc : Thread Cert.KernelIdeal.nD Cert.KernelIdeal.τ).loc Cert.KernelIdeal.main_v217) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S2x64x32768 : S_.BroadcastsInDim S2x64x32768 (![] : Fin 0 → Fin S2x64x32768.rank)
  reducesTo_S2x64x32768_S_d0_1_2 : S2x64x32768.ReducesTo [0, 1, 2] S_
  bcast_S_S512x512 : S_.BroadcastsInDim S512x512 (![] : Fin 0 → Fin S512x512.rank)
  reducesTo_S512x512_S_d0_1 : S512x512.ReducesTo [0, 1] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S195x64 : S_.BroadcastsInDim S195x64 (![] : Fin 0 → Fin S195x64.rank)
  reducesTo_S195x64_S_d0_1 : S195x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S384x128 .f32) (main_arg8 : FVec F S128 .f32) (main_arg9 : FVec F S384x64 .f32) (main_arg10 : FVec F S64 .f32) (main_arg11 : FVec F S64x1 .f32) (main_arg12 : FVec F S1 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) (main_v13 : IVec S_ 1) (main_v16 : IVec S195x128 1) : IVec S_ 1 :=
  let main_c_5 : IVec S_ 1 := constantI S_ 1 1#1
  let main_v17 : IVec S_ 1 := (fun x v => Host.reduce IntOp.andi x v reducesTo_S195x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S195x64 .f32 := Host.absf main_arg5
  let main_cst_8 : FVec F S_ .f32 := constant S_ .f32 0x7F800000#32
  let main_v25 : FVec F S195x64 .f32 := broadcastInDim S195x64 ![] bcast_S_S195x64 main_cst_8
  let main_v26 : IVec S195x64 1 := cmpf .olt main_v24 main_v25
  let main_c_9 : IVec S_ 1 := constantI S_ 1 1#1
  let main_v27 : IVec S_ 1 := (fun x v => Host.reduce IntOp.andi x v reducesTo_S195x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x512 .f32) (main_arg1 : FVec F S2x64x32768 .f32) (main_arg2 : FVec F S512x512 .f32) (main_arg3 : FVec F S195x128 .f32) (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S2x64x32768 .f32 := Host.absf main_arg1
  let main_cst_0 : FVec F S_ .f32 := constant S_ .f32 0x7F800000#32
  let main_v5 : FVec F S2x64x32768 .f32 := broadcastInDim S2x64x32768 ![] bcast_S_S2x64x32768 main_cst_0
  let main_v6 : IVec S2x64x32768 1 := cmpf .olt main_v4 main_v5
  let main_c_1 : IVec S_ 1 := constantI S_ 1 1#1
  let main_v7 : IVec S_ 1 := (fun x v => Host.reduce IntOp.andi x v reducesTo_S2x64x32768_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S195x128 .f32 := Host.absf main_arg3
  let main_cst_4 : FVec F S_ .f32 := constant S_ .f32 0x7F800000#32
  let main_v15 : FVec F S195x128 .f32 := broadcastInDim S195x128 ![] bcast_S_S195x128 main_cst_4
  let main_v16 : IVec S195x128 1 := cmpf .olt main_v14 main_v15
  fn_part1 (F := F) main_arg4 main_arg5 main_arg6 main_arg7 main_arg8 main_arg9 main_arg10 main_arg11 main_arg12 main_v13 main_v16
-- ==== Kernel.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S512x64 : Shape := ⟨2, ![512, 64]⟩
abbrev S2x64x512x64 : Shape := ⟨4, ![2, 64, 512, 64]⟩
abbrev S65x3x128 : Shape := ⟨3, ![65, 3, 128]⟩
abbrev S1x3x128 : Shape := ⟨3, ![1, 3, 128]⟩
abbrev S3x128 : Shape := ⟨2, ![3, 128]⟩
abbrev S3x64 : Shape := ⟨2, ![3, 64]⟩
abbrev S_ : Shape := ⟨0, ![]⟩
abbrev S3x256 : Shape := ⟨2, ![3, 256]⟩
abbrev S6x256 : Shape := ⟨2, ![6, 256]⟩
abbrev S64x1x128 : Shape := ⟨3, ![64, 1, 128]⟩
abbrev S64x128 : Shape := ⟨2, ![64, 128]⟩
abbrev S64x64 : Shape := ⟨2, ![64, 64]⟩
abbrev S64x256 : Shape := ⟨2, ![64, 256]⟩
abbrev S128x256 : Shape := ⟨2, ![128, 256]⟩
abbrev S1x128x256 : Shape := ⟨3, ![1, 128, 256]⟩
abbrev S3x128x256 : Shape := ⟨3, ![3, 128, 256]⟩
abbrev S65x3x64 : Shape := ⟨3, ![65, 3, 64]⟩
abbrev S1x3x64 : Shape := ⟨3, ![1, 3, 64]⟩
abbrev S6x128 : Shape := ⟨2, ![6, 128]⟩
abbrev S64x1x64 : Shape := ⟨3, ![64, 1, 64]⟩
abbrev S128x128 : Shape := ⟨2, ![128, 128]⟩
abbrev S1x128x128 : Shape := ⟨3, ![1, 128, 128]⟩
abbrev S3x128x128 : Shape := ⟨3, ![3, 128, 128]⟩
abbrev S128x3x128 : Shape := ⟨3, ![128, 3, 128]⟩
abbrev S128x3x64 : Shape := ⟨3, ![128, 3, 64]⟩
abbrev S256 : Shape := ⟨1, ![256]⟩
abbrev S1x256 : Shape := ⟨2, ![1, 256]⟩
abbrev S1x128 : Shape := ⟨2, ![1, 128]⟩
abbrev S64x2 : Shape := ⟨2, ![64, 2]⟩
abbrev S128x2 : Shape := ⟨2, ![128, 2]⟩
abbrev S1x1 : Shape := ⟨2, ![1, 1]⟩
abbrev S512 : Shape := ⟨1, ![512]⟩
abbrev S512x1 : Shape := ⟨2, ![512, 1]⟩
abbrev S1x512 : Shape := ⟨2, ![1, 512]⟩
abbrev S512x64x1 : Shape := ⟨3, ![512, 64, 1]⟩
abbrev S512x64x3 : Shape := ⟨3, ![512, 64, 3]⟩
abbrev S64x512x3 : Shape := ⟨3, ![64, 512, 3]⟩
abbrev S1x64x512x64 : Shape := ⟨4, ![1, 64, 512, 64]⟩
abbrev S64x512x64 : Shape := ⟨3, ![64, 512, 64]⟩
abbrev S64x512x1 : Shape := ⟨3, ![64, 512, 1]⟩
abbrev S2x512x3 : Shape := ⟨3, ![2, 512, 3]⟩
abbrev S2x512x64 : Shape := ⟨3, ![2, 512, 64]⟩
abbrev S2x512x1 : Shape := ⟨3, ![2, 512, 1]⟩
abbrev S1x512x3 : Shape := ⟨3, ![1, 512, 3]⟩
abbrev S512x3 : Shape := ⟨2, ![512, 3]⟩
abbrev S512x6 : Shape := ⟨2, ![512, 6]⟩
abbrev S1x512x64 : Shape := ⟨3, ![1, 512, 64]⟩
abbrev S512x128 : Shape := ⟨2, ![512, 128]⟩
abbrev S512x256 : Shape := ⟨2, ![512, 256]⟩
abbrev S512x2 : Shape := ⟨2, ![512, 2]⟩
abbrev S1x512x1 : Shape := ⟨3, ![1, 512, 1]⟩
abbrev S64x32768 : Shape := ⟨2, ![64, 32768]⟩
abbrev S1x64x32768 : Shape := ⟨3, ![1, 64, 32768]⟩

abbrev nBuf : Space → Nat
  | .hbm => 256
  | .vmem => 33
  | .smem => 0
  | _ => 0

abbrev hbmTy0_0 (i : Nat) : BufTy := match i % 128 with
  | 0 => ⟨S64x512, .f32⟩
  | 1 => ⟨S2x64x32768, .f32⟩
  | 2 => ⟨S512x512, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S512x64, .f32⟩
  | 14 => ⟨S2x64x512x64, .f32⟩
  | 15 => ⟨S65x3x128, .f32⟩
  | 16 => ⟨S1x3x128, .f32⟩
  | 17 => ⟨S3x128, .f32⟩
  | 18 => ⟨S3x64, .f32⟩
  | 19 => ⟨S3x64, .f32⟩
  | 20 => ⟨S_, .f32⟩
  | 21 => ⟨S3x64, .f32⟩
  | 22 => ⟨S3x256, .f32⟩
  | 23 => ⟨S3x256, .f32⟩
  | 24 => ⟨S6x256, .f32⟩
  | 25 => ⟨S64x1x128, .f32⟩
  | 26 => ⟨S64x128, .f32⟩
  | 27 => ⟨S64x64, .f32⟩
  | 28 => ⟨S64x64, .f32⟩
  | 29 => ⟨S_, .f32⟩
  | 30 => ⟨S64x64, .f32⟩
  | 31 => ⟨S64x256, .f32⟩
  | 32 => ⟨S64x256, .f32⟩
  | 33 => ⟨S128x256, .f32⟩
  | 34 => ⟨S64x1x128, .f32⟩
  | 35 => ⟨S64x128, .f32⟩
  | 36 => ⟨S64x64, .f32⟩
  | 37 => ⟨S64x64, .f32⟩
  | 38 => ⟨S_, .f32⟩
  | 39 => ⟨S64x64, .f32⟩
  | 40 => ⟨S64x256, .f32⟩
  | 41 => ⟨S64x256, .f32⟩
  | 42 => ⟨S128x256, .f32⟩
  | 43 => ⟨S64x1x128, .f32⟩
  | 44 => ⟨S64x128, .f32⟩
  | 45 => ⟨S64x64, .f32⟩
  | 46 => ⟨S64x64, .f32⟩
  | 47 => ⟨S_, .f32⟩
  | 48 => ⟨S64x64, .f32⟩
  | 49 => ⟨S64x256, .f32⟩
  | 50 => ⟨S64x256, .f32⟩
  | 51 => ⟨S128x256, .f32⟩
  | 52 => ⟨S1x128x256, .f32⟩
  | 53 => ⟨S1x128x256, .f32⟩
  | 54 => ⟨S1x128x256, .f32⟩
  | 55 => ⟨S3x128x256, .f32⟩
  | 56 => ⟨S65x3x64, .f32⟩
  | 57 => ⟨S1x3x64, .f32⟩
  | 58 => ⟨S3x64, .f32⟩
  | 59 => ⟨S_, .f32⟩
  | 60 => ⟨S3x64, .f32⟩
  | 61 => ⟨S3x128, .f32⟩
  | 62 => ⟨S3x128, .f32⟩
  | 63 => ⟨S6x128, .f32⟩
  | 64 => ⟨S64x1x64, .f32⟩
  | 65 => ⟨S64x64, .f32⟩
  | 66 => ⟨S_, .f32⟩
  | 67 => ⟨S64x64, .f32⟩
  | 68 => ⟨S64x128, .f32⟩
  | 69 => ⟨S64x128, .f32⟩
  | 70 => ⟨S128x128, .f32⟩
  | 71 => ⟨S64x1x64, .f32⟩
  | 72 => ⟨S64x64, .f32⟩
  | 73 => ⟨S_, .f32⟩
  | 74 => ⟨S64x64, .f32⟩
  | 75 => ⟨S64x128, .f32⟩
  | 76 => ⟨S64x128, .f32⟩
  | 77 => ⟨S128x128, .f32⟩
  | 78 => ⟨S64x1x64, .f32⟩
  | 79 => ⟨S64x64, .f32⟩
  | 80 => ⟨S_, .f32⟩
  | 81 => ⟨S64x64, .f32⟩
  | 82 => ⟨S64x128, .f32⟩
  | 83 => ⟨S64x128, .f32⟩
  | 84 => ⟨S128x128, .f32⟩
  | 85 => ⟨S1x128x128, .f32⟩
  | 86 => ⟨S1x128x128, .f32⟩
  | 87 => ⟨S1x128x128, .f32⟩
  | 88 => ⟨S3x128x128, .f32⟩
  | 89 => ⟨S128x3x128, .f32⟩
  | 90 => ⟨S64x1x128, .f32⟩
  | 91 => ⟨S64x128, .f32⟩
  | 92 => ⟨S64x64, .f32⟩
  | 93 => ⟨S64x64, .f32⟩
  | 94 => ⟨S_, .f32⟩
  | 95 => ⟨S64x64, .f32⟩
  | 96 => ⟨S64x256, .f32⟩
  | 97 => ⟨S64x256, .f32⟩
  | 98 => ⟨S128x256, .f32⟩
  | 99 => ⟨S64x1x128, .f32⟩
  | 100 => ⟨S64x128, .f32⟩
  | 101 => ⟨S64x64, .f32⟩
  | 102 => ⟨S64x64, .f32⟩
  | 103 => ⟨S_, .f32⟩
  | 104 => ⟨S64x64, .f32⟩
  | 105 => ⟨S64x256, .f32⟩
  | 106 => ⟨S64x256, .f32⟩
  | 107 => ⟨S128x256, .f32⟩
  | 108 => ⟨S64x1x128, .f32⟩
  | 109 => ⟨S64x128, .f32⟩
  | 110 => ⟨S64x64, .f32⟩
  | 111 => ⟨S64x64, .f32⟩
  | 112 => ⟨S_, .f32⟩
  | 113 => ⟨S64x64, .f32⟩
  | 114 => ⟨S64x256, .f32⟩
  | 115 => ⟨S64x256, .f32⟩
  | 116 => ⟨S128x256, .f32⟩
  | 117 => ⟨S1x128x256, .f32⟩
  | 118 => ⟨S1x128x256, .f32⟩
  | 119 => ⟨S1x128x256, .f32⟩
  | 120 => ⟨S3x128x256, .f32⟩
  | 121 => ⟨S64x1x128, .f32⟩
  | 122 => ⟨S64x128, .f32⟩
  | 123 => ⟨S64x64, .f32⟩
  | 124 => ⟨S64x64, .f32⟩
  | 125 => ⟨S_, .f32⟩
  | 126 => ⟨S64x64, .f32⟩
  | 127 => ⟨S64x256, .f32⟩
  | _ => ⟨S64x512, .f32⟩

abbrev hbmTy0_1 (i : Nat) : BufTy := match i % 128 with
  | 0 => ⟨S64x256, .f32⟩
  | 1 => ⟨S128x256, .f32⟩
  | 2 => ⟨S64x1x128, .f32⟩
  | 3 => ⟨S64x128, .f32⟩
  | 4 => ⟨S64x64, .f32⟩
  | 5 => ⟨S64x64, .f32⟩
  | 6 => ⟨S_, .f32⟩
  | 7 => ⟨S64x64, .f32⟩
  | 8 => ⟨S64x256, .f32⟩
  | 9 => ⟨S64x256, .f32⟩
  | 10 => ⟨S128x256, .f32⟩
  | 11 => ⟨S64x1x128, .f32⟩
  | 12 => ⟨S64x128, .f32⟩
  | 13 => ⟨S64x64, .f32⟩
  | 14 => ⟨S64x64, .f32⟩
  | 15 => ⟨S_, .f32⟩
  | 16 => ⟨S64x64, .f32⟩
  | 17 => ⟨S64x256, .f32⟩
  | 18 => ⟨S64x256, .f32⟩
  | 19 => ⟨S128x256, .f32⟩
  | 20 => ⟨S1x128x256, .f32⟩
  | 21 => ⟨S1x128x256, .f32⟩
  | 22 => ⟨S1x128x256, .f32⟩
  | 23 => ⟨S3x128x256, .f32⟩
  | 24 => ⟨S128x3x64, .f32⟩
  | 25 => ⟨S64x1x64, .f32⟩
  | 26 => ⟨S64x64, .f32⟩
  | 27 => ⟨S_, .f32⟩
  | 28 => ⟨S64x64, .f32⟩
  | 29 => ⟨S64x128, .f32⟩
  | 30 => ⟨S64x128, .f32⟩
  | 31 => ⟨S128x128, .f32⟩
  | 32 => ⟨S64x1x64, .f32⟩
  | 33 => ⟨S64x64, .f32⟩
  | 34 => ⟨S_, .f32⟩
  | 35 => ⟨S64x64, .f32⟩
  | 36 => ⟨S64x128, .f32⟩
  | 37 => ⟨S64x128, .f32⟩
  | 38 => ⟨S128x128, .f32⟩
  | 39 => ⟨S64x1x64, .f32⟩
  | 40 => ⟨S64x64, .f32⟩
  | 41 => ⟨S_, .f32⟩
  | 42 => ⟨S64x64, .f32⟩
  | 43 => ⟨S64x128, .f32⟩
  | 44 => ⟨S64x128, .f32⟩
  | 45 => ⟨S128x128, .f32⟩
  | 46 => ⟨S1x128x128, .f32⟩
  | 47 => ⟨S1x128x128, .f32⟩
  | 48 => ⟨S1x128x128, .f32⟩
  | 49 => ⟨S3x128x128, .f32⟩
  | 50 => ⟨S64x1x64, .f32⟩
  | 51 => ⟨S64x64, .f32⟩
  | 52 => ⟨S_, .f32⟩
  | 53 => ⟨S64x64, .f32⟩
  | 54 => ⟨S64x128, .f32⟩
  | 55 => ⟨S64x128, .f32⟩
  | 56 => ⟨S128x128, .f32⟩
  | 57 => ⟨S64x1x64, .f32⟩
  | 58 => ⟨S64x64, .f32⟩
  | 59 => ⟨S_, .f32⟩
  | 60 => ⟨S64x64, .f32⟩
  | 61 => ⟨S64x128, .f32⟩
  | 62 => ⟨S64x128, .f32⟩
  | 63 => ⟨S128x128, .f32⟩
  | 64 => ⟨S64x1x64, .f32⟩
  | 65 => ⟨S64x64, .f32⟩
  | 66 => ⟨S_, .f32⟩
  | 67 => ⟨S64x64, .f32⟩
  | 68 => ⟨S64x128, .f32⟩
  | 69 => ⟨S64x128, .f32⟩
  | 70 => ⟨S128x128, .f32⟩
  | 71 => ⟨S1x128x128, .f32⟩
  | 72 => ⟨S1x128x128, .f32⟩
  | 73 => ⟨S1x128x128, .f32⟩
  | 74 => ⟨S3x128x128, .f32⟩
  | 75 => ⟨S64, .f32⟩
  | 76 => ⟨S64, .f32⟩
  | 77 => ⟨S64, .f32⟩
  | 78 => ⟨S64, .f32⟩
  | 79 => ⟨S256, .f32⟩
  | 80 => ⟨S1x256, .f32⟩
  | 81 => ⟨S128, .f32⟩
  | 82 => ⟨S1x128, .f32⟩
  | 83 => ⟨S64, .f32⟩
  | 84 => ⟨S64, .f32⟩
  | 85 => ⟨S64, .f32⟩
  | 86 => ⟨S64, .f32⟩
  | 87 => ⟨S256, .f32⟩
  | 88 => ⟨S1x256, .f32⟩
  | 89 => ⟨S128, .f32⟩
  | 90 => ⟨S1x128, .f32⟩
  | 91 => ⟨S_, .f32⟩
  | 92 => ⟨S64x1, .f32⟩
  | 93 => ⟨S64x2, .f32⟩
  | 94 => ⟨S64x2, .f32⟩
  | 95 => ⟨S128x2, .f32⟩
  | 96 => ⟨S1x1, .f32⟩
  | 97 => ⟨S6x256, .bf16⟩
  | 98 => ⟨S3x128x256, .bf16⟩
  | 99 => ⟨S6x128, .bf16⟩
  | 100 => ⟨S3x128x128, .bf16⟩
  | 101 => ⟨S3x128x256, .bf16⟩
  | 102 => ⟨S3x128x256, .bf16⟩
  | 103 => ⟨S3x128x128, .bf16⟩
  | 104 => ⟨S3x128x128, .bf16⟩
  | 105 => ⟨S128x2, .bf16⟩
  | 106 => ⟨S512x512, .f32⟩
  | 107 => ⟨S512x512, .f32⟩
  | 108 => ⟨S512x64, .f32⟩
  | 109 => ⟨S512x64, .f32⟩
  | 110 => ⟨S512x64x1, .f32⟩
  | 111 => ⟨S512x64x1, .f32⟩
  | 112 => ⟨S512x64x1, .f32⟩
  | 113 => ⟨S512x64x3, .f32⟩
  | 114 => ⟨S64x512x3, .f32⟩
  | 115 => ⟨S1x64x512x64, .f32⟩
  | 116 => ⟨S64x512x64, .f32⟩
  | 117 => ⟨S1x64x512x64, .f32⟩
  | 118 => ⟨S64x512x64, .f32⟩
  | 119 => ⟨S64x512x1, .f32⟩
  | 120 => ⟨S64x512x64, .f32⟩
  | 121 => ⟨S64x512x64, .f32⟩
  | 122 => ⟨S64x512, .f32⟩
  | 123 => ⟨S64x32768, .f32⟩
  | 124 => ⟨S64x32768, .f32⟩
  | 125 => ⟨S1x64x32768, .f32⟩
  | 126 => ⟨S1x64x32768, .f32⟩
  | 127 => ⟨S2x64x32768, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x64, .f32⟩
  | .local _ .vmem, ⟨3, _⟩ => ⟨S512x512, .f32⟩
  | .local _ .vmem, ⟨4, _⟩ => ⟨S512x64, .f32⟩
  | .local _ .vmem, ⟨5, _⟩ => ⟨S512x64, .f32⟩
  | .local _ .vmem, ⟨6, _⟩ => ⟨S512x512, .f32⟩
  | .local _ .vmem, ⟨7, _⟩ => ⟨S2x512x3, .f32⟩
  | .local _ .vmem, ⟨8, _⟩ => ⟨S2x512x3, .f32⟩
  | .local _ .vmem, ⟨9, _⟩ => ⟨S2x512x64, .f32⟩
  | .local _ .vmem, ⟨10, _⟩ => ⟨S2x512x64, .f32⟩
  | .local _ .vmem, ⟨11, _⟩ => ⟨S2x512x64, .f32⟩
  | .local _ .vmem, ⟨12, _⟩ => ⟨S2x512x64, .f32⟩
  | .local _ .vmem, ⟨13, _⟩ => ⟨S6x256, .bf16⟩
  | .local _ .vmem, ⟨14, _⟩ => ⟨S3x128x256, .bf16⟩
  | .local _ .vmem, ⟨15, _⟩ => ⟨S1x256, .f32⟩
  | .local _ .vmem, ⟨16, _⟩ => ⟨S6x128, .bf16⟩
  | .local _ .vmem, ⟨17, _⟩ => ⟨S3x128x128, .bf16⟩
  | .local _ .vmem, ⟨18, _⟩ => ⟨S1x128, .f32⟩
  | .local _ .vmem, ⟨19, _⟩ => ⟨S3x128x256, .bf16⟩
  | .local _ .vmem, ⟨20, _⟩ => ⟨S3x128x256, .bf16⟩
  | .local _ .vmem, ⟨21, _⟩ => ⟨S1x256, .f32⟩
  | .local _ .vmem, ⟨22, _⟩ => ⟨S3x128x128, .bf16⟩
  | .local _ .vmem, ⟨23, _⟩ => ⟨S3x128x128, .bf16⟩
  | .local _ .vmem, ⟨24, _⟩ => ⟨S1x128, .f32⟩
  | .local _ .vmem, ⟨25, _⟩ => ⟨S128x2, .bf16⟩
  | .local _ .vmem, ⟨26, _⟩ => ⟨S1x1, .f32⟩
  | .local _ .vmem, ⟨27, _⟩ => ⟨S2x512x1, .f32⟩
  | .local _ .vmem, ⟨28, _⟩ => ⟨S2x512x1, .f32⟩
  | .local _ .vmem, ⟨29, _⟩ => ⟨S2x512x64, .f32⟩
  | .local _ .vmem, ⟨30, _⟩ => ⟨S2x512x64, .f32⟩
  | .local _ .vmem, ⟨31, _⟩ => ⟨S2x512x64, .f32⟩
  | .local _ .vmem, ⟨32, _⟩ => ⟨S2x512x64, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_6 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_7 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_8 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_9 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_10 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_11 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_12 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_13 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_cst_14 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_15 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_cst_16 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_cst_17 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_cst_18 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_cst_19 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201_0 : Ref sig .tc := ⟨.hbm, 235, rfl⟩
abbrev main_v201_1 : Ref sig .tc := ⟨.hbm, 236, rfl⟩
abbrev main_v201_2 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211_0 : Ref sig .tc := ⟨.hbm, 247, rfl⟩
abbrev main_v211_1 : Ref sig .tc := ⟨.hbm, 248, rfl⟩
abbrev main_v211_2 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg16_0 : Ref sig .tc := ⟨.vmem, 25, rfl⟩
abbrev cc1_stg17_0 : Ref sig .tc := ⟨.vmem, 26, rfl⟩
abbrev cc1_stg18_0 : Ref sig .tc := ⟨.vmem, 27, rfl⟩
abbrev cc1_stg18_1 : Ref sig .tc := ⟨.vmem, 28, rfl⟩
abbrev cc1_stg19_0 : Ref sig .tc := ⟨.vmem, 29, rfl⟩
abbrev cc1_stg19_1 : Ref sig .tc := ⟨.vmem, 30, rfl⟩
abbrev cc1_stg20_0 : Ref sig .tc := ⟨.vmem, 31, rfl⟩
abbrev cc1_stg20_1 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem15_0 : DmaSem sig := 24
abbrev cc1_sem16_0 : DmaSem sig := 25
abbrev cc1_sem17_0 : DmaSem sig := 26
abbrev cc1_sem18_0 : DmaSem sig := 27
abbrev cc1_sem18_1 : DmaSem sig := 28
abbrev cc1_sem19_0 : DmaSem sig := 29
abbrev cc1_sem19_1 : DmaSem sig := 30
abbrev cc1_sem20_0 : DmaSem sig := 31
abbrev cc1_sem20_1 : DmaSem sig := 32

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_19 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_20 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S6x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x128x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S6x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3x128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S3x128x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S3x128x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S3x128x128 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S3x128x128 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S128x2 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S2x512x1 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S2x512x64 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S2x512x64 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

class Facts₀ : Prop where
  transposes_S64x512_S512x64_1_0 : S64x512.Transposes [1, 0] S512x64
  shapeCasts_S2x64x32768_S2x64x512x64 : S2x64x32768.ShapeCasts S2x64x512x64
  shapeCasts_S195x128_S65x3x128 : S195x128.ShapeCasts S65x3x128
  slices_S65x3x128_S1x3x128_0_0_0 : S65x3x128.Slices ![0, 0, 0] S1x3x128
  shapeCasts_S1x3x128_S3x128 : S1x3x128.ShapeCasts S3x128
  slices_S3x128_S3x64_0_0 : S3x128.Slices ![0, 0] S3x64
  slices_S3x128_S3x64_0_64 : S3x128.Slices ![0, 64] S3x64
  bcast_S_S3x64 : S_.BroadcastsInDim S3x64 (![] : Fin 0 → Fin S3x64.rank)
  concatenates_S3x64_S3x64_S3x64_S3x64_S3x256_d1 : Shape.Concatenates [S3x64, S3x64, S3x64, S3x64] S3x256 1
  concatenates_S3x256_S3x256_S6x256_d0 : Shape.Concatenates [S3x256, S3x256] S6x256 0
  slices_S65x3x128_S64x1x128_1_0_0 : S65x3x128.Slices ![1, 0, 0] S64x1x128
  shapeCasts_S64x1x128_S64x128 : S64x1x128.ShapeCasts S64x128
  slices_S64x128_S64x64_0_0 : S64x128.Slices ![0, 0] S64x64
  slices_S64x128_S64x64_0_64 : S64x128.Slices ![0, 64] S64x64
  bcast_S_S64x64 : S_.BroadcastsInDim S64x64 (![] : Fin 0 → Fin S64x64.rank)
  concatenates_S64x64_S64x64_S64x64_S64x64_S64x256_d1 : Shape.Concatenates [S64x64, S64x64, S64x64, S64x64] S64x256 1
  concatenates_S64x256_S64x256_S128x256_d0 : Shape.Concatenates [S64x256, S64x256] S128x256 0
  slices_S65x3x128_S64x1x128_1_1_0 : S65x3x128.Slices ![1, 1, 0] S64x1x128
  slices_S65x3x128_S64x1x128_1_2_0 : S65x3x128.Slices ![1, 2, 0] S64x1x128
  bcast_S128x256_S1x128x256_1_2 : S128x256.BroadcastsInDim S1x128x256 (![1, 2] : Fin 2 → Fin S1x128x256.rank)
  concatenates_S1x128x256_S1x128x256_S1x128x256_S3x128x256_d0 : Shape.Concatenates [S1x128x256, S1x128x256, S1x128x256] S3x128x256 0
  shapeCasts_S195x64_S65x3x64 : S195x64.ShapeCasts S65x3x64
  slices_S65x3x64_S1x3x64_0_0_0 : S65x3x64.Slices ![0, 0, 0] S1x3x64
  shapeCasts_S1x3x64_S3x64 : S1x3x64.ShapeCasts S3x64
  concatenates_S3x64_S3x64_S3x128_d1 : Shape.Concatenates [S3x64, S3x64] S3x128 1
  concatenates_S3x128_S3x128_S6x128_d0 : Shape.Concatenates [S3x128, S3x128] S6x128 0
  slices_S65x3x64_S64x1x64_1_0_0 : S65x3x64.Slices ![1, 0, 0] S64x1x64
  shapeCasts_S64x1x64_S64x64 : S64x1x64.ShapeCasts S64x64
  concatenates_S64x64_S64x64_S64x128_d1 : Shape.Concatenates [S64x64, S64x64] S64x128 1
  concatenates_S64x128_S64x128_S128x128_d0 : Shape.Concatenates [S64x128, S64x128] S128x128 0
  slices_S65x3x64_S64x1x64_1_1_0 : S65x3x64.Slices ![1, 1, 0] S64x1x64
  slices_S65x3x64_S64x1x64_1_2_0 : S65x3x64.Slices ![1, 2, 0] S64x1x64
  bcast_S128x128_S1x128x128_1_2 : S128x128.BroadcastsInDim S1x128x128 (![1, 2] : Fin 2 → Fin S1x128x128.rank)
  concatenates_S1x128x128_S1x128x128_S1x128x128_S3x128x128_d0 : Shape.Concatenates [S1x128x128, S1x128x128, S1x128x128] S3x128x128 0
  shapeCasts_S384x128_S128x3x128 : S384x128.ShapeCasts S128x3x128
  slices_S128x3x128_S64x1x128_0_0_0 : S128x3x128.Slices ![0, 0, 0] S64x1x128
  slices_S128x3x128_S64x1x128_0_1_0 : S128x3x128.Slices ![0, 1, 0] S64x1x128
  slices_S128x3x128_S64x1x128_0_2_0 : S128x3x128.Slices ![0, 2, 0] S64x1x128
  slices_S128x3x128_S64x1x128_64_0_0 : S128x3x128.Slices ![64, 0, 0] S64x1x128
  slices_S128x3x128_S64x1x128_64_1_0 : S128x3x128.Slices ![64, 1, 0] S64x1x128
  slices_S128x3x128_S64x1x128_64_2_0 : S128x3x128.Slices ![64, 2, 0] S64x1x128
  shapeCasts_S384x64_S128x3x64 : S384x64.ShapeCasts S128x3x64
  slices_S128x3x64_S64x1x64_0_0_0 : S128x3x64.Slices ![0, 0, 0] S64x1x64
  slices_S128x3x64_S64x1x64_0_1_0 : S128x3x64.Slices ![0, 1, 0] S64x1x64
  slices_S128x3x64_S64x1x64_0_2_0 : S128x3x64.Slices ![0, 2, 0] S64x1x64
  slices_S128x3x64_S64x1x64_64_0_0 : S128x3x64.Slices ![64, 0, 0] S64x1x64
  slices_S128x3x64_S64x1x64_64_1_0 : S128x3x64.Slices ![64, 1, 0] S64x1x64
  slices_S128x3x64_S64x1x64_64_2_0 : S128x3x64.Slices ![64, 2, 0] S64x1x64
  slices_S128_S64_0 : S128.Slices ![0] S64
  slices_S128_S64_64 : S128.Slices ![64] S64
  concatenates_S64_S64_S64_S64_S256_d0 : Shape.Concatenates [S64, S64, S64, S64] S256 0
  shapeCasts_S256_S1x256 : S256.ShapeCasts S1x256
  concatenates_S64_S64_S128_d0 : Shape.Concatenates [S64, S64] S128 0
  shapeCasts_S128_S1x128 : S128.ShapeCasts S1x128
  bcast_S_S64x1 : S_.BroadcastsInDim S64x1 (![] : Fin 0 → Fin S64x1.rank)
  concatenates_S64x1_S64x1_S64x2_d1 : Shape.Concatenates [S64x1, S64x1] S64x2 1
  concatenates_S64x2_S64x2_S128x2_d0 : Shape.Concatenates [S64x2, S64x2] S128x2 0
  shapeCasts_S1_S1x1 : S1.ShapeCasts S1x1
  bitsLt_bf16_f32 : FTy.bits .bf16 < FTy.bits .f32
  transposes_S512x512_S512x512_1_0 : S512x512.Transposes [1, 0] S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  reduces_S512x512_S512_2 : S512x512.Reduces [0] S512
  shapeCasts_S512_S1x512 : S512.ShapeCasts S1x512
  broadcasts_S512x1_S512x512 : S512x1.Broadcasts S512x512
  broadcasts_S1x512_S512x512 : S1x512.Broadcasts S512x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  bcast_S512x64_S512x64x1_0_1 : S512x64.BroadcastsInDim S512x64x1 (![0, 1] : Fin 2 → Fin S512x64x1.rank)
  concatenates_S512x64x1_S512x64x1_S512x64x1_S512x64x3_d2 : Shape.Concatenates [S512x64x1, S512x64x1, S512x64x1] S512x64x3 2
  transposes_S512x64x3_S64x512x3_1_0_2 : S512x64x3.Transposes [1, 0, 2] S64x512x3
  slices_S2x64x512x64_S1x64x512x64_0_0_0_0 : S2x64x512x64.Slices ![0, 0, 0, 0] S1x64x512x64
  shapeCasts_S1x64x512x64_S64x512x64 : S1x64x512x64.ShapeCasts S64x512x64
  slices_S2x64x512x64_S1x64x512x64_1_0_0_0 : S2x64x512x64.Slices ![1, 0, 0, 0] S1x64x512x64
  inb_S2x512x3_S1x512x3_0_0_0 : ∀ a, (![0, 0, 0] : Fin 3 → Nat) a + S1x512x3.size a ≤ S2x512x3.size a
  h_S1x512x3 : 0 < S1x512x3.numel
  shapeCasts_S1x512x3_S512x3 : S1x512x3.ShapeCasts S512x3
  inb_S2x512x3_S1x512x3_1_0_0 : ∀ a, (![1, 0, 0] : Fin 3 → Nat) a + S1x512x3.size a ≤ S2x512x3.size a
  concatenates_S512x3_S512x3_S512x6_d1 : Shape.Concatenates [S512x3, S512x3] S512x6 1
  inb_S2x512x64_S1x512x64_0_0_0 : ∀ a, (![0, 0, 0] : Fin 3 → Nat) a + S1x512x64.size a ≤ S2x512x64.size a
  h_S1x512x64 : 0 < S1x512x64.numel
  shapeCasts_S1x512x64_S512x64 : S1x512x64.ShapeCasts S512x64
  inb_S2x512x64_S1x512x64_1_0_0 : ∀ a, (![1, 0, 0] : Fin 3 → Nat) a + S1x512x64.size a ≤ S2x512x64.size a
  concatenates_S512x64_S512x64_S512x128_d1 : Shape.Concatenates [S512x64, S512x64] S512x128 1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S6x256_S6x256_0_0 : ∀ a, (![0, 0] : Fin 2 → Nat) a + S6x256.size a ≤ S6x256.size a
  h_S6x256 : 0 < S6x256.numel
  shapeCasts_S6x256_S6x256 : S6x256.ShapeCasts S6x256
  broadcasts_S1x256_S512x256 : S1x256.Broadcasts S512x256
  inb_S3x128x256_S1x128x256_0_0_0 : ∀ a, (![0, 0, 0] : Fin 3 → Nat) a + S1x128x256.size a ≤ S3x128x256.size a
  h_S1x128x256 : 0 < S1x128x256.numel
  shapeCasts_S1x128x256_S128x256 : S1x128x256.ShapeCasts S128x256
  inb_S3x128x256_S1x128x256_1_0_0 : ∀ a, (![1, 0, 0] : Fin 3 → Nat) a + S1x128x256.size a ≤ S3x128x256.size a
  inb_S3x128x256_S1x128x256_2_0_0 : ∀ a, (![2, 0, 0] : Fin 3 → Nat) a + S1x128x256.size a ≤ S3x128x256.size a
  slices_S512x256_o0_0_S512x128 : S512x256.Slices ![0, 0] S512x128
  slices_S512x256_o0_128_S512x128 : S512x256.Slices ![0, 128] S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S6x128_S6x128_0_0 : ∀ a, (![0, 0] : Fin 2 → Nat) a + S6x128.size a ≤ S6x128.size a
  h_S6x128 : 0 < S6x128.numel
  shapeCasts_S6x128_S6x128 : S6x128.ShapeCasts S6x128
  broadcasts_S1x128_S512x128 : S1x128.Broadcasts S512x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  slices_S512x128_o0_0_S512x64 : S512x128.Slices ![0, 0] S512x64
  shapeCasts_S512x64_S1x512x64 : S512x64.ShapeCasts S1x512x64
  slices_S512x128_o0_64_S512x64 : S512x128.Slices ![0, 64] S512x64
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x2 : S1x1.Broadcasts S512x2
  slices_S512x2_o0_0_S512x1 : S512x2.Slices ![0, 0] S512x1
  inb_S2x512x1_S1x512x1_0_0_0 : ∀ a, (![0, 0, 0] : Fin 3 → Nat) a + S1x512x1.size a ≤ S2x512x1.size a
  h_S1x512x1 : 0 < S1x512x1.numel
  shapeCasts_S1x512x1_S512x1 : S1x512x1.ShapeCasts S512x1
  shapeCasts_S512x1_S1x512x1 : S512x1.ShapeCasts S1x512x1
  slices_S512x2_o0_1_S512x1 : S512x2.Slices ![0, 1] S512x1
  inb_S2x512x1_S1x512x1_1_0_0 : ∀ a, (![1, 0, 0] : Fin 3 → Nat) a + S1x512x1.size a ≤ S2x512x1.size a
  shapeCasts_S64x512x1_S64x512 : S64x512x1.ShapeCasts S64x512
  shapeCasts_S64x512x64_S64x32768 : S64x512x64.ShapeCasts S64x32768
  bcast_S64x32768_S1x64x32768_1_2 : S64x32768.BroadcastsInDim S1x64x32768 (![1, 2] : Fin 2 → Fin S1x64x32768.rank)
  concatenates_S1x64x32768_S1x64x32768_S2x64x32768_d0 : Shape.Concatenates [S1x64x32768, S1x64x32768] S2x64x32768 0
  dot_S512x512_S512x64_S512x64_1_0_0_1_n_n_wf : DotDims.WF S512x512 S512x64 S512x64 [1] [0] [0] [1] [] []
  dot_S512x6_S6x256_S512x256_1_0_0_1_n_n_wf : DotDims.WF S512x6 S6x256 S512x256 [1] [0] [0] [1] [] []
  dot_S512x128_S128x256_S512x256_1_0_0_1_n_n_wf : DotDims.WF S512x128 S128x256 S512x256 [1] [0] [0] [1] [] []
  dot_S512x512_S512x128_S512x128_1_0_0_1_n_n_wf : DotDims.WF S512x512 S512x128 S512x128 [1] [0] [0] [1] [] []
  dot_S512x6_S6x128_S512x128_1_0_0_1_n_n_wf : DotDims.WF S512x6 S6x128 S512x128 [1] [0] [0] [1] [] []
  dot_S512x128_S128x128_S512x128_1_0_0_1_n_n_wf : DotDims.WF S512x128 S128x128 S512x128 [1] [0] [0] [1] [] []
  dot_S512x128_S128x2_S512x2_1_0_0_1_n_n_wf : DotDims.WF S512x128 S128x2 S512x2 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .f32 = 32 ∨ (Rect.block (s := S512x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x512x3.size a ≤ S64x512x3.size a
  hwx1_1 : ∀ i : grid1.Coords, EltTy.bits .f32 = 32 ∨ (Rect.block (s := S64x512x3) S2x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x512x64.size a ≤ S64x512x64.size a
  hwx1_2 : ∀ i : grid1.Coords, EltTy.bits .f32 = 32 ∨ (Rect.block (s := S64x512x64) S2x512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x512x64.size a ≤ S64x512x64.size a
  hwx1_3 : ∀ i : grid1.Coords, EltTy.bits .f32 = 32 ∨ (Rect.block (s := S64x512x64) S2x512x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S6x256.size a ≤ S6x256.size a
  hwx1_4 : ∀ i : grid1.Coords, EltTy.bits .bf16 = 32 ∨ (Rect.block (s := S6x256) S6x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x128x256.size a ≤ S3x128x256.size a
  hwx1_5 : ∀ i : grid1.Coords, EltTy.bits .bf16 = 32 ∨ (Rect.block (s := S3x128x256) S3x128x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S6x128.size a ≤ S6x128.size a
  hwx1_7 : ∀ i : grid1.Coords, EltTy.bits .bf16 = 32 ∨ (Rect.block (s := S6x128) S6x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S3x128x128.size a ≤ S3x128x128.size a
  hwx1_8 : ∀ i : grid1.Coords, EltTy.bits .bf16 = 32 ∨ (Rect.block (s := S3x128x128) S3x128x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S3x128x256.size a ≤ S3x128x256.size a
  hwx1_10 : ∀ i : grid1.Coords, EltTy.bits .bf16 = 32 ∨ (Rect.block (s := S3x128x256) S3x128x256.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S3x128x256.size a ≤ S3x128x256.size a
  hwx1_11 : ∀ i : grid1.Coords, EltTy.bits .bf16 = 32 ∨ (Rect.block (s := S3x128x256) S3x128x256.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x256.size a
  hwx1_12 : ∀ i : grid1.Coords, EltTy.bits .f32 = 32 ∨ (Rect.block (s := S1x256) S1x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S3x128x128.size a ≤ S3x128x128.size a
  hwx1_13 : ∀ i : grid1.Coords, EltTy.bits .bf16 = 32 ∨ (Rect.block (s := S3x128x128) S3x128x128.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S3x128x128.size a ≤ S3x128x128.size a
  hwx1_14 : ∀ i : grid1.Coords, EltTy.bits .bf16 = 32 ∨ (Rect.block (s := S3x128x128) S3x128x128.size (cc1_transform_14 i) (hinb1_14 i)).WholeWords (EltTy.packing .bf16)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x128.size a ≤ S1x128.size a
  hwx1_15 : ∀ i : grid1.Coords, EltTy.bits .f32 = 32 ∨ (Rect.block (s := S1x128) S1x128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S128x2.size a ≤ S128x2.size a
  hwx1_16 : ∀ i : grid1.Coords, EltTy.bits .bf16 = 32 ∨ (Rect.block (s := S128x2) S128x2.size (cc1_transform_16 i) (hinb1_16 i)).WholeWords (EltTy.packing .bf16)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x1.size a ≤ S1x1.size a
  hwx1_17 : ∀ i : grid1.Coords, EltTy.bits .f32 = 32 ∨ (Rect.block (s := S1x1) S1x1.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S2x512x1.size a ≤ S64x512x1.size a
  hwx1_18 : ∀ i : grid1.Coords, EltTy.bits .f32 = 32 ∨ (Rect.block (s := S64x512x1) S2x512x1.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S2x512x64.size a ≤ S64x512x64.size a
  hwx1_19 : ∀ i : grid1.Coords, EltTy.bits .f32 = 32 ∨ (Rect.block (s := S64x512x64) S2x512x64.size (cc1_transform_19 i) (hinb1_19 i)).WholeWords (EltTy.packing .f32)
  hstage1_20 : ∀ j, (stage1_20 j).IsWhole
  nbuf1_20 : grid1.bufCount reads1_20 false = 2
  hreads1_20 : ∀ i i' : grid1.Coords, (∀ a, reads1_20 a = true → i a = i' a) → cc1_transform_20 i = cc1_transform_20 i'
  hinb1_20 : ∀ (i : grid1.Coords) a, (cc1_transform_20 i a + 1) * S2x512x64.size a ≤ S64x512x64.size a
  hwx1_20 : ∀ i : grid1.Coords, EltTy.bits .f32 = 32 ∨ (Rect.block (s := S64x512x64) S2x512x64.size (cc1_transform_20 i) (hinb1_20 i)).WholeWords (EltTy.packing .f32)

variable [Facts₀]

def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x6_S6x256_S512x256_1_0_0_1_n_n : DotDims S512x6 S6x256 S512x256 where
  lhsContracting := [1]
  rhsContracting := [0]
  lhsNonContracting := [0]
  rhsNonContracting := [1]
  lhsBatch := []
  rhsBatch := []
  wf := dot_S512x6_S6x256_S512x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x6_S6x128_S512x128_1_0_0_1_n_n : DotDims S512x6 S6x128 S512x128 where
  lhsContracting := [1]
  rhsContracting := [0]
  lhsNonContracting := [0]
  rhsNonContracting := [1]
  lhsBatch := []
  rhsBatch := []
  wf := dot_S512x6_S6x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_v200) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v201_0) true false (stage0_3 0) (sem0_3 0) (Memref.isWhole_whole _) (hstage0_3 0)

abbrev win0_4 : Pipeline.Window sig grid0 :=
  Pipeline.Window.whole (Memref.whole main_v201_1) true false (stage0_4 0) (sem0_4 0) (Memref.isWhole_whole _) (hstage0_4 0)

abbrev win0_5 : Pipeline.Window sig grid0 :=
  Pipeline.Window.whole (Memref.whole main_v201_2) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v201_0) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v206) S2x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v208) S2x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v210) S2x512x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v191) S6x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v192) S3x128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v175) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v193) S6x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v194) S3x128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v177) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v195) S3x128x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v196) S3x128x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v183) S1x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v197) S3x128x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v198) S3x128x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v185) S1x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v199) S128x2.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v190) S1x1.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v211_0) S2x512x1.size cc1_transform_18 reads1_18 true false 2 stage1_18 sem1_18
    hrank1 hreads1_18 hinb1_18 nbuf1_18 (Memref.isWhole_whole _) hwx1_18 hstage1_18

abbrev win1_19 : Pipeline.Window sig grid1 :=
  Pipeline.Window.ofSpec (Memref.whole main_v211_1) S2x512x64.size cc1_transform_19 reads1_19 true false 2 stage1_19 sem1_19
    hrank1 hreads1_19 hinb1_19 nbuf1_19 (Memref.isWhole_whole _) hwx1_19 hstage1_19

abbrev win1_20 : Pipeline.Window sig grid1 :=
  Pipeline.Window.ofSpec (Memref.whole main_v211_2) S2x512x64.size cc1_transform_20 reads1_20 true false 2 stage1_20 sem1_20
    hrank1 hreads1_20 hinb1_20 nbuf1_20 (Memref.isWhole_whole _) hwx1_20 hstage1_20

abbrev win1 : Fin 21 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | ⟨_ + 21, h⟩ => absurd h (Nat.not_lt.2 (Nat.le_add_left _ _))
abbrev spec1 : Fin 21 → Pipeline.WinSpec sig grid1.rank := fun w => (win1 w).toWinSpec

class Facts : Prop extends Facts₀ where

variable [Facts]
-- ==== ReferenceIdeal.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩
abbrev S512 : Shape := ⟨1, ![512]⟩
abbrev S512x1 : Shape := ⟨2, ![512, 1]⟩
abbrev S1x512 : Shape := ⟨2, ![1, 512]⟩
abbrev S1x64x32768 : Shape := ⟨3, ![1, 64, 32768]⟩
abbrev S64x32768 : Shape := ⟨2, ![64, 32768]⟩
abbrev S64x512x1 : Shape := ⟨3, ![64, 512, 1]⟩
abbrev S64x512x64 : Shape := ⟨3, ![64, 512, 64]⟩
abbrev S64x512x65 : Shape := ⟨3, ![64, 512, 65]⟩
abbrev S512x65x64 : Shape := ⟨3, ![512, 65, 64]⟩
abbrev S512x4160 : Shape := ⟨2, ![512, 4160]⟩
abbrev S1x512x4160 : Shape := ⟨3, ![1, 512, 4160]⟩
abbrev S3x512x4160 : Shape := ⟨3, ![3, 512, 4160]⟩
abbrev S3x512x65x64 : Shape := ⟨4, ![3, 512, 65, 64]⟩
abbrev S64x512x65x3 : Shape := ⟨4, ![64, 512, 65, 3]⟩
abbrev S32768x195 : Shape := ⟨2, ![32768, 195]⟩
abbrev S32768x128 : Shape := ⟨2, ![32768, 128]⟩
abbrev S1x128 : Shape := ⟨2, ![1, 128]⟩
abbrev S64x65536 : Shape := ⟨2, ![64, 65536]⟩
abbrev S64x512x128 : Shape := ⟨3, ![64, 512, 128]⟩
abbrev S32768x64 : Shape := ⟨2, ![32768, 64]⟩
abbrev S1x64 : Shape := ⟨2, ![1, 64]⟩
abbrev S512x128x64 : Shape := ⟨3, ![512, 128, 64]⟩
abbrev S512x8192 : Shape := ⟨2, ![512, 8192]⟩
abbrev S1x512x8192 : Shape := ⟨3, ![1, 512, 8192]⟩
abbrev S3x512x8192 : Shape := ⟨3, ![3, 512, 8192]⟩
abbrev S3x512x128x64 : Shape := ⟨4, ![3, 512, 128, 64]⟩
abbrev S64x512x128x3 : Shape := ⟨4, ![64, 512, 128, 3]⟩
abbrev S32768x384 : Shape := ⟨2, ![32768, 384]⟩
abbrev S32768x1 : Shape := ⟨2, ![32768, 1]⟩
abbrev S1x1 : Shape := ⟨2, ![1, 1]⟩

abbrev nBuf : Space → Nat
  | .hbm => 200
  | .vmem => 0
  | .smem => 0
  | _ => 0

abbrev hbmTy0_0 (i : Nat) : BufTy := match i % 128 with
  | 0 => ⟨S64x512, .f32⟩
  | 1 => ⟨S2x64x32768, .f32⟩
  | 2 => ⟨S512x512, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S512x512, .f32⟩
  | 14 => ⟨S512x512, .f32⟩
  | 15 => ⟨S_, .f32⟩
  | 16 => ⟨S512, .f32⟩
  | 17 => ⟨S_, .f32⟩
  | 18 => ⟨S512, .f32⟩
  | 19 => ⟨S512, .i1⟩
  | 20 => ⟨S512, .f32⟩
  | 21 => ⟨S_, .f32⟩
  | 22 => ⟨S512, .f32⟩
  | 23 => ⟨S512, .f32⟩
  | 24 => ⟨S_, .f32⟩
  | 25 => ⟨S_, .f32⟩
  | 26 => ⟨S512, .f32⟩
  | 27 => ⟨S512, .f32⟩
  | 28 => ⟨S512x512, .i32⟩
  | 29 => ⟨S512x512, .i32⟩
  | 30 => ⟨S_, .i32⟩
  | 31 => ⟨S512x512, .i32⟩
  | 32 => ⟨S512x512, .i32⟩
  | 33 => ⟨S512x512, .i1⟩
  | 34 => ⟨S512x512, .f32⟩
  | 35 => ⟨S512x1, .f32⟩
  | 36 => ⟨S512x512, .f32⟩
  | 37 => ⟨S512x512, .f32⟩
  | 38 => ⟨S1x512, .f32⟩
  | 39 => ⟨S512x512, .f32⟩
  | 40 => ⟨S512x512, .f32⟩
  | 41 => ⟨S512x512, .f32⟩
  | 42 => ⟨S_, .f32⟩
  | 43 => ⟨S512x512, .f32⟩
  | 44 => ⟨S512x512, .f32⟩
  | 45 => ⟨S512x512, .i32⟩
  | 46 => ⟨S512x512, .i32⟩
  | 47 => ⟨S_, .i32⟩
  | 48 => ⟨S512x512, .i32⟩
  | 49 => ⟨S512x512, .i32⟩
  | 50 => ⟨S512x512, .i1⟩
  | 51 => ⟨S512x512, .f32⟩
  | 52 => ⟨S512x512, .f32⟩
  | 53 => ⟨S1x64x32768, .f32⟩
  | 54 => ⟨S64x32768, .f32⟩
  | 55 => ⟨S64x512x1, .f32⟩
  | 56 => ⟨S64x512x64, .f32⟩
  | 57 => ⟨S64x512x65, .f32⟩
  | 58 => ⟨S512x65x64, .f32⟩
  | 59 => ⟨S512x4160, .f32⟩
  | 60 => ⟨S512x4160, .f32⟩
  | 61 => ⟨S512x4160, .f32⟩
  | 62 => ⟨S_, .f32⟩
  | 63 => ⟨S512x4160, .f32⟩
  | 64 => ⟨S512x4160, .f32⟩
  | 65 => ⟨S512x4160, .f32⟩
  | 66 => ⟨S1x512x4160, .f32⟩
  | 67 => ⟨S1x512x4160, .f32⟩
  | 68 => ⟨S1x512x4160, .f32⟩
  | 69 => ⟨S3x512x4160, .f32⟩
  | 70 => ⟨S3x512x65x64, .f32⟩
  | 71 => ⟨S64x512x65x3, .f32⟩
  | 72 => ⟨S32768x195, .f32⟩
  | 73 => ⟨S32768x128, .f32⟩
  | 74 => ⟨S1x128, .f32⟩
  | 75 => ⟨S32768x128, .f32⟩
  | 76 => ⟨S32768x128, .f32⟩
  | 77 => ⟨S64x65536, .f32⟩
  | 78 => ⟨S64x65536, .f32⟩
  | 79 => ⟨S64x65536, .f32⟩
  | 80 => ⟨S_, .f32⟩
  | 81 => ⟨S64x65536, .f32⟩
  | 82 => ⟨S64x65536, .f32⟩
  | 83 => ⟨S_, .f32⟩
  | 84 => ⟨S64x65536, .f32⟩
  | 85 => ⟨S64x65536, .f32⟩
  | 86 => ⟨S64x512x128, .f32⟩
  | 87 => ⟨S64x512x64, .f32⟩
  | 88 => ⟨S64x32768, .f32⟩
  | 89 => ⟨S64x512x64, .f32⟩
  | 90 => ⟨S64x32768, .f32⟩
  | 91 => ⟨S64x32768, .f32⟩
  | 92 => ⟨S64x512x1, .f32⟩
  | 93 => ⟨S64x512x64, .f32⟩
  | 94 => ⟨S64x512x65, .f32⟩
  | 95 => ⟨S512x65x64, .f32⟩
  | 96 => ⟨S512x4160, .f32⟩
  | 97 => ⟨S512x4160, .f32⟩
  | 98 => ⟨S512x4160, .f32⟩
  | 99 => ⟨S_, .f32⟩
  | 100 => ⟨S512x4160, .f32⟩
  | 101 => ⟨S512x4160, .f32⟩
  | 102 => ⟨S512x4160, .f32⟩
  | 103 => ⟨S1x512x4160, .f32⟩
  | 104 => ⟨S1x512x4160, .f32⟩
  | 105 => ⟨S1x512x4160, .f32⟩
  | 106 => ⟨S3x512x4160, .f32⟩
  | 107 => ⟨S3x512x65x64, .f32⟩
  | 108 => ⟨S64x512x65x3, .f32⟩
  | 109 => ⟨S32768x195, .f32⟩
  | 110 => ⟨S32768x64, .f32⟩
  | 111 => ⟨S1x64, .f32⟩
  | 112 => ⟨S32768x64, .f32⟩
  | 113 => ⟨S32768x64, .f32⟩
  | 114 => ⟨S64x32768, .f32⟩
  | 115 => ⟨S64x32768, .f32⟩
  | 116 => ⟨S64x32768, .f32⟩
  | 117 => ⟨S_, .f32⟩
  | 118 => ⟨S64x32768, .f32⟩
  | 119 => ⟨S64x32768, .f32⟩
  | 120 => ⟨S64x32768, .f32⟩
  | 121 => ⟨S64x32768, .f32⟩
  | 122 => ⟨S1x64x32768, .f32⟩
  | 123 => ⟨S64x32768, .f32⟩
  | 124 => ⟨S64x512x64, .f32⟩
  | 125 => ⟨S64x512x64, .f32⟩
  | 126 => ⟨S64x512x128, .f32⟩
  | 127 => ⟨S512x128x64, .f32⟩
  | _ => ⟨S64x512, .f32⟩

abbrev hbmTy0_1 (i : Nat) : BufTy := match i % 128 with
  | 0 => ⟨S512x8192, .f32⟩
  | 1 => ⟨S512x8192, .f32⟩
  | 2 => ⟨S512x8192, .f32⟩
  | 3 => ⟨S_, .f32⟩
  | 4 => ⟨S512x8192, .f32⟩
  | 5 => ⟨S512x8192, .f32⟩
  | 6 => ⟨S512x8192, .f32⟩
  | 7 => ⟨S1x512x8192, .f32⟩
  | 8 => ⟨S1x512x8192, .f32⟩
  | 9 => ⟨S1x512x8192, .f32⟩
  | 10 => ⟨S3x512x8192, .f32⟩
  | 11 => ⟨S3x512x128x64, .f32⟩
  | 12 => ⟨S64x512x128x3, .f32⟩
  | 13 => ⟨S32768x384, .f32⟩
  | 14 => ⟨S32768x128, .f32⟩
  | 15 => ⟨S1x128, .f32⟩
  | 16 => ⟨S32768x128, .f32⟩
  | 17 => ⟨S32768x128, .f32⟩
  | 18 => ⟨S64x65536, .f32⟩
  | 19 => ⟨S64x65536, .f32⟩
  | 20 => ⟨S64x65536, .f32⟩
  | 21 => ⟨S_, .f32⟩
  | 22 => ⟨S64x65536, .f32⟩
  | 23 => ⟨S64x65536, .f32⟩
  | 24 => ⟨S_, .f32⟩
  | 25 => ⟨S64x65536, .f32⟩
  | 26 => ⟨S64x65536, .f32⟩
  | 27 => ⟨S64x512x128, .f32⟩
  | 28 => ⟨S64x512x64, .f32⟩
  | 29 => ⟨S64x32768, .f32⟩
  | 30 => ⟨S64x512x64, .f32⟩
  | 31 => ⟨S64x32768, .f32⟩
  | 32 => ⟨S64x32768, .f32⟩
  | 33 => ⟨S64x512x64, .f32⟩
  | 34 => ⟨S64x512x64, .f32⟩
  | 35 => ⟨S64x512x128, .f32⟩
  | 36 => ⟨S512x128x64, .f32⟩
  | 37 => ⟨S512x8192, .f32⟩
  | 38 => ⟨S512x8192, .f32⟩
  | 39 => ⟨S512x8192, .f32⟩
  | 40 => ⟨S_, .f32⟩
  | 41 => ⟨S512x8192, .f32⟩
  | 42 => ⟨S512x8192, .f32⟩
  | 43 => ⟨S512x8192, .f32⟩
  | 44 => ⟨S1x512x8192, .f32⟩
  | 45 => ⟨S1x512x8192, .f32⟩
  | 46 => ⟨S1x512x8192, .f32⟩
  | 47 => ⟨S3x512x8192, .f32⟩
  | 48 => ⟨S3x512x128x64, .f32⟩
  | 49 => ⟨S64x512x128x3, .f32⟩
  | 50 => ⟨S32768x384, .f32⟩
  | 51 => ⟨S32768x64, .f32⟩
  | 52 => ⟨S1x64, .f32⟩
  | 53 => ⟨S32768x64, .f32⟩
  | 54 => ⟨S32768x64, .f32⟩
  | 55 => ⟨S64x32768, .f32⟩
  | 56 => ⟨S64x32768, .f32⟩
  | 57 => ⟨S64x32768, .f32⟩
  | 58 => ⟨S_, .f32⟩
  | 59 => ⟨S64x32768, .f32⟩
  | 60 => ⟨S64x32768, .f32⟩
  | 61 => ⟨S64x32768, .f32⟩
  | 62 => ⟨S64x32768, .f32⟩
  | 63 => ⟨S32768x64, .f32⟩
  | 64 => ⟨S32768x1, .f32⟩
  | 65 => ⟨S1x1, .f32⟩
  | 66 => ⟨S32768x1, .f32⟩
  | 67 => ⟨S32768x1, .f32⟩
  | 68 => ⟨S64x512, .f32⟩
  | 69 => ⟨S1x64x32768, .f32⟩
  | 70 => ⟨S1x64x32768, .f32⟩
  | 71 => ⟨S2x64x32768, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_6 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_8 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_9 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_10 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_11 : Ref sig .tc := ⟨.hbm, 149, rfl⟩
abbrev main_v121 : Ref sig .tc := ⟨.hbm, 150, rfl⟩
abbrev main_v122 : Ref sig .tc := ⟨.hbm, 151, rfl⟩
abbrev main_cst_12 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_13 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_14 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩

abbrev nD : Nat := 1
abbrev τ : Topo := Topo.v7x

variable {F : FTy → Type} [FloatOps F]

class Facts₀ : Prop where
  transposes_S512x512_S512x512_1_0 : S512x512.Transposes [1, 0] S512x512
  reducesTo_S512x512_S512_d1 : S512x512.ReducesTo [1] S512
  h_S_ : 0 < S_.numel
  bcast_S_S512 : S_.BroadcastsInDim S512 (![] : Fin 0 → Fin S512.rank)
  bcast_S_S512x512 : S_.BroadcastsInDim S512x512 (![] : Fin 0 → Fin S512x512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  slices_S2x64x32768_S1x64x32768_0_0_0 : S2x64x32768.Slices ![0, 0, 0] S1x64x32768
  shapeCasts_S1x64x32768_S64x32768 : S1x64x32768.ShapeCasts S64x32768
  shapeCasts_S64x512_S64x512x1 : S64x512.ShapeCasts S64x512x1
  shapeCasts_S64x32768_S64x512x64 : S64x32768.ShapeCasts S64x512x64
  concatenates_S64x512x1_S64x512x64_S64x512x65_d2 : Shape.Concatenates [S64x512x1, S64x512x64] S64x512x65 2
  transposes_S64x512x65_S512x65x64_1_2_0 : S64x512x65.Transposes [1, 2, 0] S512x65x64
  shapeCasts_S512x65x64_S512x4160 : S512x65x64.ShapeCasts S512x4160
  bcast_S_S512x4160 : S_.BroadcastsInDim S512x4160 (![] : Fin 0 → Fin S512x4160.rank)
  bcast_S512x4160_S1x512x4160_1_2 : S512x4160.BroadcastsInDim S1x512x4160 (![1, 2] : Fin 2 → Fin S1x512x4160.rank)
  concatenates_S1x512x4160_S1x512x4160_S1x512x4160_S3x512x4160_d0 : Shape.Concatenates [S1x512x4160, S1x512x4160, S1x512x4160] S3x512x4160 0
  shapeCasts_S3x512x4160_S3x512x65x64 : S3x512x4160.ShapeCasts S3x512x65x64
  transposes_S3x512x65x64_S64x512x65x3_3_1_2_0 : S3x512x65x64.Transposes [3, 1, 2, 0] S64x512x65x3
  shapeCasts_S64x512x65x3_S32768x195 : S64x512x65x3.ShapeCasts S32768x195
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  shapeCasts_S32768x128_S64x65536 : S32768x128.ShapeCasts S64x65536
  bcast_S_S64x65536 : S_.BroadcastsInDim S64x65536 (![] : Fin 0 → Fin S64x65536.rank)
  shapeCasts_S64x65536_S64x512x128 : S64x65536.ShapeCasts S64x512x128
  slices_S64x512x128_S64x512x64_0_0_0 : S64x512x128.Slices ![0, 0, 0] S64x512x64
  shapeCasts_S64x512x64_S64x32768 : S64x512x64.ShapeCasts S64x32768
  slices_S64x512x128_S64x512x64_0_0_64 : S64x512x128.Slices ![0, 0, 64] S64x512x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  shapeCasts_S32768x64_S64x32768 : S32768x64.ShapeCasts S64x32768
  bcast_S_S64x32768 : S_.BroadcastsInDim S64x32768 (![] : Fin 0 → Fin S64x32768.rank)
  slices_S2x64x32768_S1x64x32768_1_0_0 : S2x64x32768.Slices ![1, 0, 0] S1x64x32768
  concatenates_S64x512x64_S64x512x64_S64x512x128_d2 : Shape.Concatenates [S64x512x64, S64x512x64] S64x512x128 2
  transposes_S64x512x128_S512x128x64_1_2_0 : S64x512x128.Transposes [1, 2, 0] S512x128x64
  shapeCasts_S512x128x64_S512x8192 : S512x128x64.ShapeCasts S512x8192
  bcast_S_S512x8192 : S_.BroadcastsInDim S512x8192 (![] : Fin 0 → Fin S512x8192.rank)
  bcast_S512x8192_S1x512x8192_1_2 : S512x8192.BroadcastsInDim S1x512x8192 (![1, 2] : Fin 2 → Fin S1x512x8192.rank)
  concatenates_S1x512x8192_S1x512x8192_S1x512x8192_S3x512x8192_d0 : Shape.Concatenates [S1x512x8192, S1x512x8192, S1x512x8192] S3x512x8192 0
  shapeCasts_S3x512x8192_S3x512x128x64 : S3x512x8192.ShapeCasts S3x512x128x64
  transposes_S3x512x128x64_S64x512x128x3_3_1_2_0 : S3x512x128x64.Transposes [3, 1, 2, 0] S64x512x128x3
  shapeCasts_S64x512x128x3_S32768x384 : S64x512x128x3.ShapeCasts S32768x384
  shapeCasts_S64x32768_S32768x64 : S64x32768.ShapeCasts S32768x64
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S64x512 : S32768x1.ShapeCasts S64x512
  bcast_S64x32768_S1x64x32768_1_2 : S64x32768.BroadcastsInDim S1x64x32768 (![1, 2] : Fin 2 → Fin S1x64x32768.rank)
  concatenates_S1x64x32768_S1x64x32768_S2x64x32768_d0 : Shape.Concatenates [S1x64x32768, S1x64x32768] S2x64x32768 0
  dot_S512x512_S512x4160_S512x4160_1_0_0_1_n_n_wf : DotDims.WF S512x512 S512x4160 S512x4160 [1] [0] [0] [1] [] []
  dot_S32768x195_S195x128_S32768x128_1_0_0_1_n_n_wf : DotDims.WF S32768x195 S195x128 S32768x128 [1] [0] [0] [1] [] []
  dot_S32768x195_S195x64_S32768x64_1_0_0_1_n_n_wf : DotDims.WF S32768x195 S195x64 S32768x64 [1] [0] [0] [1] [] []
  dot_S512x512_S512x8192_S512x8192_1_0_0_1_n_n_wf : DotDims.WF S512x512 S512x8192 S512x8192 [1] [0] [0] [1] [] []
  dot_S32768x384_S384x128_S32768x128_1_0_0_1_n_n_wf : DotDims.WF S32768x384 S384x128 S32768x128 [1] [0] [0] [1] [] []
  dot_S32768x384_S384x64_S32768x64_1_0_0_1_n_n_wf : DotDims.WF S32768x384 S384x64 S32768x64 [1] [0] [0] [1] [] []
  dot_S32768x64_S64x1_S32768x1_1_0_0_1_n_n_wf : DotDims.WF S32768x64 S64x1 S32768x1 [1] [0] [0] [1] [] []

variable [Facts₀]

def dot_S512x512_S512x4160_S512x4160_1_0_0_1_n_n : DotDims S512x512 S512x4160 S512x4160 where
  lhsContracting := [1]
  rhsContracting := [0]
  lhsNonContracting := [0]
  rhsNonContracting := [1]
  lhsBatch := []
  rhsBatch := []
  wf := dot_S512x512_S512x4160_S512x4160_1_0_0_1_n_n_wf
def dot_S32768x195_S195x128_S32768x128_1_0_0_1_n_n : DotDims S32768x195 S195x128 S32768x128 where
  lhsContracting := [1]
  rhsContracting := [0]
  lhsNonContracting := [0]
  rhsNonContracting := [1]
  lhsBatch := []
  rhsBatch := []
  wf := dot_S32768x195_S195x128_S32768x128_1_0_0_1_n_n_wf
def dot_S32768x195_S195x64_S32768x64_1_0_0_1_n_n : DotDims S32768x195 S195x64 S32768x64 where
  lhsContracting := [1]
  rhsContracting := [0]
  lhsNonContracting := [0]
  rhsNonContracting := [1]
  lhsBatch := []
  rhsBatch := []
  wf := dot_S32768x195_S195x64_S32768x64_1_0_0_1_n_n_wf
def dot_S512x512_S512x8192_S512x8192_1_0_0_1_n_n : DotDims S512x512 S512x8192 S512x8192 where
  lhsContracting := [1]
  rhsContracting := [0]
  lhsNonContracting := [0]
  rhsNonContracting := [1]
  lhsBatch := []
  rhsBatch := []
  wf := dot_S512x512_S512x8192_S512x8192_1_0_0_1_n_n_wf
def dot_S32768x384_S384x128_S32768x128_1_0_0_1_n_n : DotDims S32768x384 S384x128 S32768x128 where
  lhsContracting := [1]
  rhsContracting := [0]
  lhsNonContracting := [0]
  rhsNonContracting := [1]
  lhsBatch := []
  rhsBatch := []
  wf := dot_S32768x384_S384x128_S32768x128_1_0_0_1_n_n_wf
def dot_S32768x384_S384x64_S32768x64_1_0_0_1_n_n : DotDims S32768x384 S384x64 S32768x64 where
  lhsContracting := [1]
  rhsContracting := [0]
  lhsNonContracting := [0]
  rhsNonContracting := [1]
  lhsBatch := []
  rhsBatch := []
  wf := dot_S32768x384_S384x64_S32768x64_1_0_0_1_n_n_wf
def dot_S32768x64_S64x1_S32768x1_1_0_0_1_n_n : DotDims S32768x64 S64x1 S32768x1 where
  lhsContracting := [1]
  rhsContracting := [0]
  lhsNonContracting := [0]
  rhsNonContracting := [1]
  lhsBatch := []
  rhsBatch := []
  wf := dot_S32768x64_S64x1_S32768x1_1_0_0_1_n_n_wf

class Facts : Prop extends Facts₀ where

variable [Facts]
-- ==== Proof.K.Body0.lean ====
import proofs.«104790_g19069654794669_cont_sun_m_30_11_alg».proof.Proof.Gen.Kernel.Launch
import proofs.«104790_g19069654794669_cont_sun_m_30_11_alg».proof.Proof.Gen.Kernel.Skeleton
import proofs.«104790_g19069654794669_cont_sun_m_30_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA : Rect S512x512 := Rect.unit (s := S512x512) ![0, 0] S512x512.size inb_S512x512_S512x512_0_0
abbrev rB : Rect S512x64 := Rect.unit (s := S512x64) ![0, 0] S512x64.size inb_S512x64_S512x64_0_0

def out0_3 (x0 x1 : Vec F S512x512 .f32) : Vec F S512x512 .f32 :=
  View.canon [⟨rA, k0_pay2 (View.ld x0 rA) (View.ld x1 rA)⟩]

def out0_4 (x0 x1 : Vec F S512x512 .f32) (x2 : Vec F S512x64 .f32) : Vec F S512x64 .f32 :=
  View.canon [⟨rB, k0_pay4 (View.ld x0 rA) (View.ld x1 rA) (View.ld x2 rB)⟩]

def out0_5 (x0 x1 : Vec F S512x512 .f32) (x2 : Vec F S512x64 .f32) : Vec F S512x64 .f32 :=
  View.canon [⟨rB, k0_pay1 (k0_pay3 (View.ld x2 rB)) (k0_pay5 (View.ld x0 rA) (View.ld x1 rA) (View.ld x2 rB))⟩]

theorem cover0_A (p : Vec F S512x512 .f32) : ∀ y, ∃ pc ∈ ([⟨rA, p⟩] : List (View.Piece (Elt F) S512x512 .f32)), y ∈ pc.1.set :=
  View.cover_of_tiled _ S512x512.size (by rfl)

theorem cover0_B (p : Vec F S512x64 .f32) : ∀ y, ∃ pc ∈ ([⟨rB, p⟩] : List (View.Piece (Elt F) S512x64 .f32)), y ∈ pc.1.set :=
  View.cover_of_tiled _ S512x64.size (by rfl)

-- The one store of each output covers its buffer, so what the buffer held does not matter.
theorem sound_kernel0 (c : Dev nD) (E : Set ℕ) (arg0 : Memref sig .tc .vmem S512x512 .f32) (harg0 : arg0.IsWhole) (arg1 : Memref sig .tc .vmem S512x512 .f32) (harg1 : arg1.IsWhole) (arg2 : Memref sig .tc .vmem S512x64 .f32) (harg2 : arg2.IsWhole) (arg3 : Memref sig .tc .vmem S512x512 .f32) (harg3 : arg3.IsWhole) (arg4 : Memref sig .tc .vmem S512x64 .f32) (harg4 : arg4.IsWhole) (arg5 : Memref sig .tc .vmem S512x64 .f32) (harg5 : arg5.IsWhole)
    (x0 x1 : Vec F S512x512 .f32) (x2 : Vec F S512x64 .f32) (R₁ R₂ : sProp 𝕄) {D0 D1 D2 D3 D4 D5 : Type}
    (g3 : D3 → Vec F S512x512 .f32) (g4 : D4 → Vec F S512x64 .f32) (g5 : D5 → Vec F S512x64 .f32) :
    iprop(R₁ ∗ R₂ ∗ (∃ _ : D0, owns c arg0 fullShare x0) ∗ (∃ _ : D1, owns c arg1 fullShare x1) ∗ (∃ _ : D2, owns c arg2 fullShare x2)
        ∗ (∃ d, owns c arg3 fullShare (g3 d)) ∗ (∃ d, owns c arg4 fullShare (g4 d)) ∗ (∃ d, owns c arg5 fullShare (g5 d)))
      ⊢ wp frame (wpE (defs₀ (F := F)) Variants.none c none) E (cc0__prep_kernel arg0 harg0 arg1 harg1 arg2 harg2 arg3 harg3 arg4 harg4 arg5 harg5) fun _ =>
        iprop(R₁ ∗ R₂ ∗ owns c arg0 fullShare x0 ∗ owns c arg1 fullShare x1 ∗ owns c arg2 fullShare x2
          ∗ owns c arg3 fullShare (out0_3 x0 x1) ∗ owns c arg4 fullShare (out0_4 x0 x1 x2) ∗ owns c arg5 fullShare (out0_5 x0 x1 x2)) := by
  simp only [cc0__prep_kernel_eq_skeleton]; unfold cc0__prep_kernel_skel
  simp only [k0_part1_eq_skeleton]; unfold k0_part1_skel
  unfold owns
  iintro ⟨HR₁, HR₂, ⟨%d0, %f0, %hf0, H0⟩, ⟨%d1, %f1, %hf1, H1⟩, ⟨%d2, %f2, %hf2, H2⟩, ⟨%d3, %f3, -, H3⟩, ⟨%d4, %f4, -, H4⟩, ⟨%d5, %f5, -, H5⟩⟩
  subst hf0 hf1 hf2
  sl_exec
  sl_step
  isplitl [HR₁]; · iexact HR₁
  isplitl [HR₂]; · iexact HR₂
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_A _)
  isplitl [H4]
  · iexists _; isplitr
    swap; · iexact H4
    ipureintro
    exact View.read_writes_eq_canon _ _ _ (cover0_B _)
  iexists _; isplitr
  swap; · iexact H5
  ipureintro
  exact View.read_writes_eq_canon _ _ _ (cover0_B _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0_0 (c : Dev nD) (t : Fin cfg0.N) (d) : (dat0 V c).before 0 t d = (dat0 V c).fetched 0 t d :=
  (dat0 V c).before_in_eq_fetched 0 rfl (fun _ => rfl) (fun _ _ _ => rfl) (fun _ => by dsimp only [dat0]; rfl) t d
theorem before0_1 (c : Dev nD) (t : Fin cfg0.N) (d) : (dat0 V c).before 1 t d = (dat0 V c).fetched 1 t d :=
  (dat0 V c).before_in_eq_fetched 1 rfl (fun _ => rfl) (fun _ _ _ => rfl) (fun _ => by dsimp only [dat0]; rfl) t d
theorem before0_2 (c : Dev nD) (t : Fin cfg0.N) (d) : (dat0 V c).before 2 t d = (dat0 V c).fetched 2 t d :=
  (dat0 V c).before_in_eq_fetched 2 rfl (fun _ => rfl) (fun _ _ _ => rfl) (fun _ => by dsimp only [dat0]; rfl) t d

theorem body_obligation0 (c : Dev nD) : BodyObligation (dat0 (F := F) V c) (defs₀ (F := F)) Variants.none () Set.univ := fun t => by
  rw [bigSep_W0, bigSep_W0]
  simp only [before0_0, before0_1, before0_2]
  dsimp only [dat0]
  exact sound_kernel0 c _ _ _ _ _ _ _ _ _ _ _ _ _ (iblk0 V c 0 t) (iblk0 V c 1 t) (iblk0 V c 2 t) _ _ _ _ _

end Region0

end Cert.Kernel.Hand

end
-- ==== Proof.K.Body1Defs.lean ====
import proofs.«104790_g19069654794669_cont_sun_m_30_11_alg».proof.Proof.Gen.Kernel.Launch
import proofs.«104790_g19069654794669_cont_sun_m_30_11_alg».proof.Proof.Gen.Kernel.Skeleton
import proofs.«104790_g19069654794669_cont_sun_m_30_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

structure Ins (F : FTy → Type) [FloatOps F] where
  x0 : Vec F S512x512 .f32
  x1 : Vec F S2x512x3 .f32
  x2 : Vec F S2x512x64 .f32
  x3 : Vec F S2x512x64 .f32
  x4 : Vec F S6x256 .bf16
  x5 : Vec F S3x128x256 .bf16
  x6 : Vec F S1x256 .f32
  x7 : Vec F S6x128 .bf16
  x8 : Vec F S3x128x128 .bf16
  x9 : Vec F S1x128 .f32
  x10 : Vec F S3x128x256 .bf16
  x11 : Vec F S3x128x256 .bf16
  x12 : Vec F S1x256 .f32
  x13 : Vec F S3x128x128 .bf16
  x14 : Vec F S3x128x128 .bf16
  x15 : Vec F S1x128 .f32
  x16 : Vec F S128x2 .bf16
  x17 : Vec F S1x1 .f32

noncomputable def ins1 (c : Dev nD) (t : Fin cfg1.N) : Ins F :=
  ⟨iblk1 V c 0 t, iblk1 V c 1 t, iblk1 V c 2 t, iblk1 V c 3 t, iblk1 V c 4 t, iblk1 V c 5 t, iblk1 V c 6 t,
   iblk1 V c 7 t, iblk1 V c 8 t, iblk1 V c 9 t, iblk1 V c 10 t, iblk1 V c 11 t, iblk1 V c 12 t, iblk1 V c 13 t,
   iblk1 V c 14 t, iblk1 V c 15 t, iblk1 V c 16 t, iblk1 V c 17 t⟩

noncomputable def ld_v0 (I : Ins F) : Vec F S512x512 .f32 := View.ld I.x0 (Rect.unit (s := S512x512) ![0, 0] S512x512.size inb_S512x512_S512x512_0_0)

noncomputable def ld_v3 (I : Ins F) : Vec F S1x512x3 .f32 := View.ld I.x1 (Rect.unit (s := S2x512x3) ![0, 0, 0] S1x512x3.size inb_S2x512x3_S1x512x3_0_0_0)
noncomputable def ld_v5 (I : Ins F) : Vec F S1x512x3 .f32 := View.ld I.x1 (Rect.unit (s := S2x512x3) ![1, 0, 0] S1x512x3.size inb_S2x512x3_S1x512x3_1_0_0)

noncomputable def ld_v8 (I : Ins F) : Vec F S1x512x64 .f32 := View.ld I.x2 (Rect.unit (s := S2x512x64) ![0, 0, 0] S1x512x64.size inb_S2x512x64_S1x512x64_0_0_0)
noncomputable def ld_v10 (I : Ins F) : Vec F S1x512x64 .f32 := View.ld I.x2 (Rect.unit (s := S2x512x64) ![1, 0, 0] S1x512x64.size inb_S2x512x64_S1x512x64_1_0_0)

noncomputable def ld_v13 (I : Ins F) : Vec F S1x256 .f32 := View.ld I.x6 (Rect.unit (s := S1x256) ![0, 0] S1x256.size inb_S1x256_S1x256_0_0)
noncomputable def ld_v15 (I : Ins F) : Vec F S6x256 .bf16 := View.ld I.x4 (Rect.unit (s := S6x256) ![0, 0] S6x256.size inb_S6x256_S6x256_0_0)
noncomputable def ld_v21 (I : Ins F) : Vec F S1x128x256 .bf16 := View.ld I.x5 (Rect.unit (s := S3x128x256) ![0, 0, 0] S1x128x256.size inb_S3x128x256_S1x128x256_0_0_0)
noncomputable def ld_v28 (I : Ins F) : Vec F S1x128x256 .bf16 := View.ld I.x5 (Rect.unit (s := S3x128x256) ![1, 0, 0] S1x128x256.size inb_S3x128x256_S1x128x256_1_0_0)
noncomputable def ld_v38 (I : Ins F) : Vec F S1x128x256 .bf16 := View.ld I.x5 (Rect.unit (s := S3x128x256) ![2, 0, 0] S1x128x256.size inb_S3x128x256_S1x128x256_2_0_0)

noncomputable def ld_v47 (I : Ins F) : Vec F S1x128 .f32 := View.ld I.x9 (Rect.unit (s := S1x128) ![0, 0] S1x128.size inb_S1x128_S1x128_0_0)
noncomputable def ld_v49 (I : Ins F) : Vec F S6x128 .bf16 := View.ld I.x7 (Rect.unit (s := S6x128) ![0, 0] S6x128.size inb_S6x128_S6x128_0_0)
noncomputable def ld_v55 (I : Ins F) : Vec F S1x128x128 .bf16 := View.ld I.x8 (Rect.unit (s := S3x128x128) ![0, 0, 0] S1x128x128.size inb_S3x128x128_S1x128x128_0_0_0)
noncomputable def ld_v62 (I : Ins F) : Vec F S1x128x128 .bf16 := View.ld I.x8 (Rect.unit (s := S3x128x128) ![1, 0, 0] S1x128x128.size inb_S3x128x128_S1x128x128_1_0_0)
noncomputable def ld_v72 (I : Ins F) : Vec F S1x128x128 .bf16 := View.ld I.x8 (Rect.unit (s := S3x128x128) ![2, 0, 0] S1x128x128.size inb_S3x128x128_S1x128x128_2_0_0)

noncomputable def ld_v91 (I : Ins F) : Vec F S1x512x64 .f32 := View.ld I.x3 (Rect.unit (s := S2x512x64) ![0, 0, 0] S1x512x64.size inb_S2x512x64_S1x512x64_0_0_0)
noncomputable def ld_v93 (I : Ins F) : Vec F S1x512x64 .f32 := View.ld I.x3 (Rect.unit (s := S2x512x64) ![1, 0, 0] S1x512x64.size inb_S2x512x64_S1x512x64_1_0_0)

noncomputable def ld_v96 (I : Ins F) : Vec F S1x256 .f32 := View.ld I.x12 (Rect.unit (s := S1x256) ![0, 0] S1x256.size inb_S1x256_S1x256_0_0)
noncomputable def ld_v98 (I : Ins F) : Vec F S1x128x256 .bf16 := View.ld I.x10 (Rect.unit (s := S3x128x256) ![0, 0, 0] S1x128x256.size inb_S3x128x256_S1x128x256_0_0_0)
noncomputable def ld_v104 (I : Ins F) : Vec F S1x128x256 .bf16 := View.ld I.x11 (Rect.unit (s := S3x128x256) ![0, 0, 0] S1x128x256.size inb_S3x128x256_S1x128x256_0_0_0)
noncomputable def ld_v111 (I : Ins F) : Vec F S1x128x256 .bf16 := View.ld I.x10 (Rect.unit (s := S3x128x256) ![1, 0, 0] S1x128x256.size inb_S3x128x256_S1x128x256_1_0_0)
noncomputable def ld_v118 (I : Ins F) : Vec F S1x128x256 .bf16 := View.ld I.x11 (Rect.unit (s := S3x128x256) ![1, 0, 0] S1x128x256.size inb_S3x128x256_S1x128x256_1_0_0)
noncomputable def ld_v128 (I : Ins F) : Vec F S1x128x256 .bf16 := View.ld I.x10 (Rect.unit (s := S3x128x256) ![2, 0, 0] S1x128x256.size inb_S3x128x256_S1x128x256_2_0_0)
noncomputable def ld_v138 (I : Ins F) : Vec F S1x128x256 .bf16 := View.ld I.x11 (Rect.unit (s := S3x128x256) ![2, 0, 0] S1x128x256.size inb_S3x128x256_S1x128x256_2_0_0)

noncomputable def ld_v147 (I : Ins F) : Vec F S1x128 .f32 := View.ld I.x15 (Rect.unit (s := S1x128) ![0, 0] S1x128.size inb_S1x128_S1x128_0_0)
noncomputable def ld_v149 (I : Ins F) : Vec F S1x128x128 .bf16 := View.ld I.x13 (Rect.unit (s := S3x128x128) ![0, 0, 0] S1x128x128.size inb_S3x128x128_S1x128x128_0_0_0)
noncomputable def ld_v155 (I : Ins F) : Vec F S1x128x128 .bf16 := View.ld I.x13 (Rect.unit (s := S3x128x128) ![1, 0, 0] S1x128x128.size inb_S3x128x128_S1x128x128_1_0_0)
noncomputable def ld_v160 (I : Ins F) : Vec F S1x128x128 .bf16 := View.ld I.x13 (Rect.unit (s := S3x128x128) ![2, 0, 0] S1x128x128.size inb_S3x128x128_S1x128x128_2_0_0)
noncomputable def ld_v165 (I : Ins F) : Vec F S1x128x128 .bf16 := View.ld I.x14 (Rect.unit (s := S3x128x128) ![0, 0, 0] S1x128x128.size inb_S3x128x128_S1x128x128_0_0_0)
noncomputable def ld_v172 (I : Ins F) : Vec F S1x128x128 .bf16 := View.ld I.x14 (Rect.unit (s := S3x128x128) ![1, 0, 0] S1x128x128.size inb_S3x128x128_S1x128x128_1_0_0)
noncomputable def ld_v182 (I : Ins F) : Vec F S1x128x128 .bf16 := View.ld I.x14 (Rect.unit (s := S3x128x128) ![2, 0, 0] S1x128x128.size inb_S3x128x128_S1x128x128_2_0_0)

noncomputable def ld_v201 (I : Ins F) : Vec F S128x2 .bf16 := View.ld I.x16 (Rect.unit (s := S128x2) ![0, 0] S128x2.size inb_S128x2_S128x2_0_0)
noncomputable def ld_v205 (I : Ins F) : Vec F S1x1 .f32 := View.ld I.x17 (Rect.unit (s := S1x1) ![0, 0] S1x1.size inb_S1x1_S1x1_0_0)

noncomputable def val_v2 (I : Ins F) : FVec F S512x512 .bf16 := k1_pay3 (ld_v0 I)
noncomputable def val_v7 (I : Ins F) : FVec F S512x6 .f32 := k1_pay4 (ld_v3 I) (ld_v5 I)
noncomputable def val_v12 (I : Ins F) : FVec F S512x128 .f32 := k1_pay5 (ld_v8 I) (ld_v10 I)
noncomputable def val_v25 (I : Ins F) : FVec F S512x256 .f32 := k1_pay6 (ld_v3 I) (ld_v5 I) (ld_v8 I) (ld_v10 I) (ld_v13 I) (ld_v15 I) (ld_v21 I)
noncomputable def val_v27 (I : Ins F) : FVec F S512x128 .f32 := k1_pay7 (ld_v0 I) (ld_v8 I) (ld_v10 I)
noncomputable def val_v29 (I : Ins F) : FVec F S128x256 .bf16 := k1_pay8 (ld_v28 I)
noncomputable def val_v30 (I : Ins F) : FVec F S512x128 .bf16 := k1_pay9 (ld_v0 I) (ld_v8 I) (ld_v10 I)
noncomputable def val_cst_24 (I : Ins F) : FVec F S512x256 .f32 := constant S512x256 .f32 0x00000000#32

noncomputable def val_v45 (I : Ins F) : FVec F S512x128 .f32 := k1_pay11 (val_v2 I) (val_v12 I) (val_v25 I) (val_v27 I) (val_v29 I) (val_v30 I) (val_cst_24 I) (ld_v38 I)
noncomputable def val_v46 (I : Ins F) : FVec F S512x128 .f32 := k1_pay12 (val_v2 I) (val_v12 I) (val_v25 I) (val_v27 I) (val_v29 I) (val_v30 I) (val_cst_24 I) (ld_v38 I)
noncomputable def val_v66 (I : Ins F) : FVec F S512x128 .f32 := k1_pay14 (val_v2 I) (val_v7 I) (val_v12 I) (val_v25 I) (val_v27 I) (val_v29 I) (val_v30 I) (val_cst_24 I) (ld_v38 I) (ld_v47 I) (ld_v49 I) (ld_v55 I) (ld_v62 I)
noncomputable def val_v68 (I : Ins F) : FVec F S512x128 .f32 := k1_pay15 (val_v2 I) (val_v12 I) (val_v25 I) (val_v27 I) (val_v29 I) (val_v30 I) (val_cst_24 I) (ld_v38 I)
noncomputable def val_cst_45 (I : Ins F) : F .f32 := Scalar.ofBits .f32 0x40000000#32

noncomputable def val_v82 (I : Ins F) : FVec F S512x128 .f32 := k1_pay16 (val_v12 I) (val_v45 I) (val_v46 I) (val_v66 I) (val_v68 I) (val_cst_45 I) (ld_v72 I)
noncomputable def val_v95 (I : Ins F) : FVec F S512x128 .f32 := k1_pay19 (ld_v91 I) (ld_v93 I)
noncomputable def val_v103 (I : Ins F) : FVec F S512x256 .f32 := k1_pay20 (val_v12 I) (val_v45 I) (val_v46 I) (val_v66 I) (val_v68 I) (val_cst_45 I) (ld_v72 I) (ld_v96 I) (ld_v98 I)

noncomputable def val_v110 (I : Ins F) : FVec F S512x128 .f32 := k1_pay21 (val_v2 I) (val_v82 I)
noncomputable def val_v127 (I : Ins F) : FVec F S512x128 .f32 := k1_pay23 (val_v2 I) (val_v82 I)
noncomputable def val_v132 (I : Ins F) : FVec F S512x256 .f32 := k1_pay24 (val_v2 I) (val_v82 I) (val_v95 I) (val_v103 I) (ld_v104 I) (ld_v111 I) (ld_v118 I) (ld_v128 I)
noncomputable def val_v137 (I : Ins F) : FVec F S512x128 .f32 := k1_pay25 (val_v2 I) (val_v95 I)
noncomputable def val_v138 (I : Ins F) : Vec F S1x128x256 .bf16 := ld_v138 I

noncomputable def val_v145 (I : Ins F) : FVec F S512x128 .f32 := k1_pay27 (val_v132 I) (val_v137 I) (val_v138 I)
noncomputable def val_v146 (I : Ins F) : FVec F S512x128 .f32 := k1_pay28 (val_v95 I) (val_v132 I) (val_v137 I) (val_v138 I)
noncomputable def val_v169 (I : Ins F) : FVec F S512x128 .f32 := k1_pay29 (val_v82 I) (val_v95 I) (val_v110 I) (val_v127 I) (val_v132 I) (val_v137 I) (val_v138 I) (ld_v147 I) (ld_v149 I) (ld_v155 I) (ld_v160 I) (ld_v165 I)
noncomputable def val_v171 (I : Ins F) : FVec F S512x128 .f32 := k1_pay30 (val_v2 I) (val_v95 I) (val_v132 I) (val_v137 I) (val_v138 I)
noncomputable def val_v173 (I : Ins F) : FVec F S128x128 .bf16 := k1_pay31 (ld_v172 I)
noncomputable def val_v174 (I : Ins F) : FVec F S512x128 .bf16 := k1_pay32 (val_v2 I) (val_v95 I) (val_v132 I) (val_v137 I) (val_v138 I)
noncomputable def val_cst_117 (I : Ins F) : FVec F S512x128 .f32 := constant S512x128 .f32 0x00000000#32

noncomputable def val_v208 (I : Ins F) : FVec F S512x2 .f32 := k1_pay36 (val_v2 I) (val_v95 I) (val_v145 I) (val_v146 I) (val_v169 I) (val_v171 I) (val_v173 I) (val_v174 I) (val_cst_117 I) (ld_v182 I) (ld_v201 I) (ld_v205 I)
noncomputable def val_v209 (I : Ins F) : FVec F S512x1 .f32 := k1_pay37 (val_v2 I) (val_v95 I) (val_v145 I) (val_v146 I) (val_v169 I) (val_v171 I) (val_v173 I) (val_v174 I) (val_cst_117 I) (ld_v182 I) (ld_v201 I) (ld_v205 I)

noncomputable def out1_18 (I : Ins F) : Vec F S2x512x1 .f32 :=
  View.canon [⟨Rect.unit (s := S2x512x1) ![1, 0, 0] S1x512x1.size inb_S2x512x1_S1x512x1_1_0_0, k1_pay2 (val_v208 I)⟩,
    ⟨Rect.unit (s := S2x512x1) ![0, 0, 0] S1x512x1.size inb_S2x512x1_S1x512x1_0_0_0, k1_pay1 (val_v209 I)⟩]

noncomputable def out1_19 (I : Ins F) : Vec F S2x512x64 .f32 :=
  View.canon [⟨Rect.unit (s := S2x512x64) ![1, 0, 0] S1x512x64.size inb_S2x512x64_S1x512x64_1_0_0,
      k1_pay18 (val_v12 I) (val_v45 I) (val_v46 I) (val_v66 I) (val_v68 I) (val_cst_45 I) (ld_v72 I)⟩,
    ⟨Rect.unit (s := S2x512x64) ![0, 0, 0] S1x512x64.size inb_S2x512x64_S1x512x64_0_0_0,
      k1_pay17 (val_v12 I) (val_v45 I) (val_v46 I) (val_v66 I) (val_v68 I) (val_cst_45 I) (ld_v72 I)⟩]

noncomputable def out1_20 (I : Ins F) : Vec F S2x512x64 .f32 :=
  View.canon [⟨Rect.unit (s := S2x512x64) ![1, 0, 0] S1x512x64.size inb_S2x512x64_S1x512x64_1_0_0,
      k1_pay35 (val_v2 I) (val_v95 I) (val_v145 I) (val_v146 I) (val_v169 I) (val_v171 I) (val_v173 I) (val_v174 I) (val_cst_117 I) (ld_v182 I)⟩,
    ⟨Rect.unit (s := S2x512x64) ![0, 0, 0] S1x512x64.size inb_S2x512x64_S1x512x64_0_0_0,
      k1_pay34 (val_v2 I) (val_v95 I) (val_v145 I) (val_v146 I) (val_v169 I) (val_v171 I) (val_v173 I) (val_v174 I) (val_cst_117 I) (ld_v182 I)⟩]

theorem cover1_18 (p0 p1 : Vec F S1x512x1 .f32) (y : S2x512x1.Idx) :
    ∃ pc ∈ ([⟨Rect.unit (s := S2x512x1) ![1, 0, 0] S1x512x1.size inb_S2x512x1_S1x512x1_1_0_0, p0⟩,
        ⟨Rect.unit (s := S2x512x1) ![0, 0, 0] S1x512x1.size inb_S2x512x1_S1x512x1_0_0_0, p1⟩] : List (View.Piece (Elt F) S2x512x1 .f32)), y ∈ pc.1.set :=
  View.cover_of_tiled [⟨Rect.unit (s := S2x512x1) ![1, 0, 0] S1x512x1.size inb_S2x512x1_S1x512x1_1_0_0, p0⟩,
    ⟨Rect.unit (s := S2x512x1) ![0, 0, 0] S1x512x1.size inb_S2x512x1_S1x512x1_0_0_0, p1⟩] S1x512x1.size (by rfl) y

theorem cover1_19 (p0 p1 : Vec F S1x512x64 .f32) (y : S2x512x64.Idx) :
    ∃ pc ∈ ([⟨Rect.unit (s := S2x512x64) ![1, 0, 0] S1x512x64.size inb_S2x512x64_S1x512x64_1_0_0, p0⟩,
        ⟨Rect.unit (s := S2x512x64) ![0, 0, 0] S1x512x64.size inb_S2x512x64_S1x512x64_0_0_0, p1⟩] : List (View.Piece (Elt F) S2x512x64 .f32)), y ∈ pc.1.set :=
  View.cover_of_tiled [⟨Rect.unit (s := S2x512x64) ![1, 0, 0] S1x512x64.size inb_S2x512x64_S1x512x64_1_0_0, p0⟩,
    ⟨Rect.unit (s := S2x512x64) ![0, 0, 0] S1x512x64.size inb_S2x512x64_S1x512x64_0_0_0, p1⟩] S1x512x64.size (by rfl) y

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => out1_18 (ins1 V c t)
    | ⟨19, _⟩ => out1_19 (ins1 V c t)
    | ⟨20, _⟩ => out1_20 (ins1 V c t)
    | ⟨_ + 21, h⟩ => absurd h (Nat.not_lt.2 (Nat.le_add_left _ _))
  Φ _ := Pipeline.ΦA spec1 c
  q _ := fullShare
  owed _ := 0

theorem after1_18 (c : Dev nD) (t : Fin cfg1.N) : (dat1 V c).after 18 t = out1_18 (ins1 V c t) := by dsimp only [dat1]
theorem after1_19 (c : Dev nD) (t : Fin cfg1.N) : (dat1 V c).after 19 t = out1_19 (ins1 V c t) := by dsimp only [dat1]
theorem after1_20 (c : Dev nD) (t : Fin cfg1.N) : (dat1 V c).after 20 t = out1_20 (ins1 V c t) := by dsimp only [dat1]

end Regions

end Cert.Kernel.Hand

end
-- ==== Proof.K.RunDefs.lean ====
import proofs.«104790_g19069654794669_cont_sun_m_30_11_alg».proof.Proof.K.Body0
import proofs.«104790_g19069654794669_cont_sun_m_30_11_alg».proof.Proof.K.Body1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem writes_sub_of_mem {Ws : List (Ref sig .tc)} {y : Ref sig .tc} (h : y ∈ Ws) :
    ({Proc.devRef (τ := τ) .tc y} : Finset (DevRef τ sig)) ⊆ (Ws.map (Proc.devRef (τ := τ) .tc)).toFinset :=
  Finset.singleton_subset_iff.mpr (List.mem_toFinset.mpr (List.mem_map_of_mem h))

abbrev main_part0_ops0_W : List (Ref sig .tc) :=
  [main_v0, main_v1, main_v2, main_v3, main_v4, main_v5, main_v6, main_cst, main_v7, main_v8, main_v9, main_v10, main_v11, main_v12, main_v13, main_v14, main_cst_0, main_v15, main_v16, main_v17, main_v18, main_v19, main_v20, main_v21, main_v22, main_cst_1, main_v23, main_v24, main_v25, main_v26, main_v27, main_v28, main_v29, main_v30, main_cst_2, main_v31, main_v32, main_v33, main_v34, main_v35, main_v36, main_v37, main_v38, main_v39, main_v40, main_v41, main_cst_3, main_v42, main_v43, main_v44, main_v45, main_v46, main_v47, main_cst_4, main_v48, main_v49, main_v50, main_v51, main_v52, main_v53]

theorem main_part0_ops0_fresh : (main_part0_ops0 : List (HloOp τ sig (Elt F))).Forall fun op => op.fresh = ∅ := by
  repeat first | refine ⟨rfl, ?_⟩ | rfl

abbrev main_part1_ops0_W : List (Ref sig .tc) :=
  [main_cst_5, main_v54, main_v55, main_v56, main_v57, main_v58, main_v59, main_cst_6, main_v60, main_v61, main_v62, main_v63, main_v64, main_v65, main_v66, main_v67, main_v68, main_v69, main_v70, main_v71, main_v72, main_cst_7, main_v73, main_v74, main_v75, main_v76, main_v77, main_v78, main_v79, main_v80, main_cst_8, main_v81, main_v82, main_v83, main_v84, main_v85, main_v86, main_v87, main_v88, main_cst_9, main_v89, main_v90, main_v91, main_v92, main_v93, main_v94, main_v95, main_v96, main_v97, main_v98, main_v99, main_v100, main_cst_10, main_v101, main_v102, main_v103, main_v104, main_v105, main_v106, main_v107]

theorem main_part1_ops0_fresh : (main_part1_ops0 : List (HloOp τ sig (Elt F))).Forall fun op => op.fresh = ∅ := by
  repeat first | refine ⟨rfl, ?_⟩ | rfl

abbrev main_part2_ops0_W : List (Ref sig .tc) :=
  [main_v108, main_cst_11, main_v109, main_v110, main_v111, main_v112, main_v113, main_v114, main_v115, main_v116, main_cst_12, main_v117, main_v118, main_v119, main_v120, main_v121, main_v122, main_v123, main_v124, main_v125, main_v126, main_v127, main_cst_13, main_v128, main_v129, main_v130, main_v131, main_v132, main_v133, main_cst_14, main_v134, main_v135, main_v136, main_v137, main_v138, main_v139, main_cst_15, main_v140, main_v141, main_v142, main_v143, main_v144, main_v145, main_v146, main_v147, main_v148, main_v149, main_cst_16, main_v150, main_v151, main_v152, main_v153, main_v154, main_v155, main_cst_17, main_v156, main_v157, main_v158, main_v159, main_v160]

theorem main_part2_ops0_fresh : (main_part2_ops0 : List (HloOp τ sig (Elt F))).Forall fun op => op.fresh = ∅ := by
  repeat first | refine ⟨rfl, ?_⟩ | rfl

abbrev main_part3_ops0_W : List (Ref sig .tc) :=
  [main_v161, main_cst_18, main_v162, main_v163, main_v164, main_v165, main_v166, main_v167, main_v168, main_v169, main_v170, main_v171, main_v172, main_v173, main_v174, main_v175, main_v176, main_v177, main_v178, main_v179, main_v180, main_v181, main_v182, main_v183, main_v184, main_v185, main_cst_19, main_v186, main_v187, main_v188, main_v189, main_v190, main_v191, main_v192, main_v193, main_v194, main_v195, main_v196, main_v197, main_v198, main_v199, main_v200]

theorem main_part3_ops0_fresh : (main_part3_ops0 : List (HloOp τ sig (Elt F))).Forall fun op => op.fresh = ∅ := by
  repeat first | refine ⟨rfl, ?_⟩ | rfl

abbrev main_part3_ops1_W : List (Ref sig .tc) :=
  [main_v202, main_v203, main_v204, main_v205, main_v206, main_v207, main_v208, main_v209, main_v210]

theorem main_part3_ops1_fresh : (main_part3_ops1 : List (HloOp τ sig (Elt F))).Forall fun op => op.fresh = ∅ := by
  repeat first | refine ⟨rfl, ?_⟩ | rfl

abbrev main_part3_ops2_W : List (Ref sig .tc) :=
  [main_v212, main_v213, main_v214, main_v215, main_v216, main_v217]

theorem main_part3_ops2_fresh : (main_part3_ops2 : List (HloOp τ sig (Elt F))).Forall fun op => op.fresh = ∅ := by
  repeat first | refine ⟨rfl, ?_⟩ | rfl

abbrev W0 : Dev nD → Valuation τ sig (Elt F) := fun c b => (s₀ m ρ).mem ((c : Dev nD), b)

abbrev W1 : Dev nD → Valuation τ sig (Elt F) := fun c => StableHlo.after main_part0_ops0 (W0 m ρ c)

abbrev W2 : Dev nD → Valuation τ sig (Elt F) := fun c => StableHlo.after main_part1_ops0 (W1 m ρ c)

abbrev W3 : Dev nD → Valuation τ sig (Elt F) := fun c => StableHlo.after main_part2_ops0 (W2 m ρ c)

abbrev W4 : Dev nD → Valuation τ sig (Elt F) := fun c => StableHlo.after main_part3_ops0 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb

abbrev V5 : (c : Dev nD) → (b : Ref sig .tc) → Buf (Elt F) ((c : Thread nD τ).loc b) := fun c b => W5 m ρ c b

theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after main_part3_ops1 (W5 m ρ c)

abbrev V6 : (c : Dev nD) → (b : Ref sig .tc) → Buf (Elt F) ((c : Thread nD τ).loc b) := fun c b => W6 m ρ c b

def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb

abbrev V7 : (c : Dev nD) → (b : Ref sig .tc) → Buf (Elt F) ((c : Thread nD τ).loc b) := fun c b => W7 m ρ c b

theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

abbrev W8 : Dev nD → Valuation τ sig (Elt F) := fun c => StableHlo.after main_part3_ops2 (W7 m ρ c)

theorem W1_of (c : Dev nD) (r : Ref sig .tc) (h : r ∉ main_part0_ops0_W) :
    W1 m ρ c (Proc.devRef .tc r) = W0 m ρ c (Proc.devRef .tc r) :=
  StableHlo.after_of_writes_sub main_part0_ops0 _ (by repeat first | refine ⟨writes_sub_of_mem (by decide), ?_⟩ | exact writes_sub_of_mem (by decide)) h
theorem W2_of (c : Dev nD) (r : Ref sig .tc) (h : r ∉ main_part1_ops0_W) :
    W2 m ρ c (Proc.devRef .tc r) = W1 m ρ c (Proc.devRef .tc r) :=
  StableHlo.after_of_writes_sub main_part1_ops0 _ (by repeat first | refine ⟨writes_sub_of_mem (by decide), ?_⟩ | exact writes_sub_of_mem (by decide)) h
theorem W3_of (c : Dev nD) (r : Ref sig .tc) (h : r ∉ main_part2_ops0_W) :
    W3 m ρ c (Proc.devRef .tc r) = W2 m ρ c (Proc.devRef .tc r) :=
  StableHlo.after_of_writes_sub main_part2_ops0 _ (by repeat first | refine ⟨writes_sub_of_mem (by decide), ?_⟩ | exact writes_sub_of_mem (by decide)) h
theorem W4_of (c : Dev nD) (r : Ref sig .tc) (h : r ∉ main_part3_ops0_W) :
    W4 m ρ c (Proc.devRef .tc r) = W3 m ρ c (Proc.devRef .tc r) :=
  StableHlo.after_of_writes_sub main_part3_ops0 _ (by repeat first | refine ⟨writes_sub_of_mem (by decide), ?_⟩ | exact writes_sub_of_mem (by decide)) h
theorem W6_of (c : Dev nD) (r : Ref sig .tc) (h : r ∉ main_part3_ops1_W) :
    W6 m ρ c (Proc.devRef .tc r) = W5 m ρ c (Proc.devRef .tc r) :=
  StableHlo.after_of_writes_sub main_part3_ops1 _ (by repeat first | refine ⟨writes_sub_of_mem (by decide), ?_⟩ | exact writes_sub_of_mem (by decide)) h
theorem W8_of (c : Dev nD) (r : Ref sig .tc) (h : r ∉ main_part3_ops2_W) :
    W8 m ρ c (Proc.devRef .tc r) = W7 m ρ c (Proc.devRef .tc r) :=
  StableHlo.after_of_writes_sub main_part3_ops2 _ (by repeat first | refine ⟨writes_sub_of_mem (by decide), ?_⟩ | exact writes_sub_of_mem (by decide)) h

theorem W8_of_host (c : Dev nD) (r : Ref sig .tc)
    (h : r ∉ main_part0_ops0_W ∧ r ∉ main_part1_ops0_W ∧ r ∉ main_part2_ops0_W ∧ r ∉ main_part3_ops0_W ∧ r ∉ main_part3_ops1_W ∧ r ∉ main_part3_ops2_W)
    (h5 : W5 m ρ c (Proc.devRef .tc r) = W4 m ρ c (Proc.devRef .tc r)) (h7 : ∀ w, Pipeline.arrRef spec1 w ≠ r) :
    W8 m ρ c (Proc.devRef .tc r) = m ((c : Thread nD τ).loc r) :=
  (W8_of m ρ c r h.2.2.2.2.2).trans <| (W7_of_ne m ρ c r h7).trans <| (W6_of m ρ c r h.2.2.2.2.1).trans <| h5.trans <|
    (W4_of m ρ c r h.2.2.2.1).trans <| (W3_of m ρ c r h.2.2.1).trans <| (W2_of m ρ c r h.2.1).trans (W1_of m ρ c r h.1)

theorem W8_main_arg0 (c : Dev nD) : W8 m ρ c (Proc.devRef .tc main_arg0) = m ((c : Thread nD τ).loc main_arg0) :=
  W8_of_host m ρ c _ (by decide) (W5_of_ne m ρ c _ (by decide)) (by decide)
theorem W8_main_arg1 (c : Dev nD) : W8 m ρ c (Proc.devRef .tc main_arg1) = m ((c : Thread nD τ).loc main_arg1) :=
  W8_of_host m ρ c _ (by decide) (W5_of_ne m ρ c _ (by decide)) (by decide)
theorem W8_main_arg2 (c : Dev nD) : W8 m ρ c (Proc.devRef .tc main_arg2) = m ((c : Thread nD τ).loc main_arg2) :=
  W8_of_host m ρ c _ (by decide) ((W5_arr m ρ c 0).trans (((dat0 (V4 m ρ) c).arrAt_in 0 rfl _).trans (A_eq0 (V4 m ρ) c 0))) (by decide)
theorem W8_main_arg3 (c : Dev nD) : W8 m ρ c (Proc.devRef .tc main_arg3) = m ((c : Thread nD τ).loc main_arg3) :=
  W8_of_host m ρ c _ (by decide) (W5_of_ne m ρ c _ (by decide)) (by decide)
theorem W8_main_arg4 (c : Dev nD) : W8 m ρ c (Proc.devRef .tc main_arg4) = m ((c : Thread nD τ).loc main_arg4) :=
  W8_of_host m ρ c _ (by decide) (W5_of_ne m ρ c _ (by decide)) (by decide)
theorem W8_main_arg5 (c : Dev nD) : W8 m ρ c (Proc.devRef .tc main_arg5) = m ((c : Thread nD τ).loc main_arg5) :=
  W8_of_host m ρ c _ (by decide) (W5_of_ne m ρ c _ (by decide)) (by decide)
theorem W8_main_arg6 (c : Dev nD) : W8 m ρ c (Proc.devRef .tc main_arg6) = m ((c : Thread nD τ).loc main_arg6) :=
  W8_of_host m ρ c _ (by decide) (W5_of_ne m ρ c _ (by decide)) (by decide)
theorem W8_main_arg7 (c : Dev nD) : W8 m ρ c (Proc.devRef .tc main_arg7) = m ((c : Thread nD τ).loc main_arg7) :=
  W8_of_host m ρ c _ (by decide) (W5_of_ne m ρ c _ (by decide)) (by decide)
theorem W8_main_arg8 (c : Dev nD) : W8 m ρ c (Proc.devRef .tc main_arg8) = m ((c : Thread nD τ).loc main_arg8) :=
  W8_of_host m ρ c _ (by decide) (W5_of_ne m ρ c _ (by decide)) (by decide)
theorem W8_main_arg9 (c : Dev nD) : W8 m ρ c (Proc.devRef .tc main_arg9) = m ((c : Thread nD τ).loc main_arg9) :=
  W8_of_host m ρ c _ (by decide) (W5_of_ne m ρ c _ (by decide)) (by decide)
theorem W8_main_arg10 (c : Dev nD) : W8 m ρ c (Proc.devRef .tc main_arg10) = m ((c : Thread nD τ).loc main_arg10) :=
  W8_of_host m ρ c _ (by decide) (W5_of_ne m ρ c _ (by decide)) (by decide)
theorem W8_main_arg11 (c : Dev nD) : W8 m ρ c (Proc.devRef .tc main_arg11) = m ((c : Thread nD τ).loc main_arg11) :=
  W8_of_host m ρ c _ (by decide) (W5_of_ne m ρ c _ (by decide)) (by decide)
theorem W8_main_arg12 (c : Dev nD) : W8 m ρ c (Proc.devRef .tc main_arg12) = m ((c : Thread nD τ).loc main_arg12) :=
  W8_of_host m ρ c _ (by decide) (W5_of_ne m ρ c _ (by decide)) (by decide)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Body1.lean ====
import proofs.«104790_g19069654794669_cont_sun_m_30_11_alg».proof.Proof.K.Body1Defs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

-- A load through a rectangle of a buffer that reads `X` reads `X` at the rectangle's indices.
theorem ldEq {κ : Kind} {sp : Space} {s : Shape} {e : EltTy} {v : View sig κ sp s e} {f : v.ty.Contents (Elt F)} {X : s.Idx → Elt F e}
    (h : v.read (Elt F) f = X) (r : Rect s) : v.readAt (Elt F) r f = View.ld X r := by subst h; rfl

-- The two stores of each output tile its buffer, so what the buffer held does not matter.
theorem sound_kernel1 (c : Dev nD) (E : Set ℕ) (i : grid1.Coords) (arg1 : Memref sig .tc .vmem S512x512 .f32) (harg1 : arg1.IsWhole) (arg2 : Memref sig .tc .vmem S2x512x3 .f32) (harg2 : arg2.IsWhole) (arg3 : Memref sig .tc .vmem S2x512x64 .f32) (harg3 : arg3.IsWhole) (arg4 : Memref sig .tc .vmem S2x512x64 .f32) (harg4 : arg4.IsWhole) (arg5 : Memref sig .tc .vmem S6x256 .bf16) (harg5 : arg5.IsWhole) (arg6 : Memref sig .tc .vmem S3x128x256 .bf16) (harg6 : arg6.IsWhole) (arg7 : Memref sig .tc .vmem S1x256 .f32) (harg7 : arg7.IsWhole) (arg8 : Memref sig .tc .vmem S6x128 .bf16) (harg8 : arg8.IsWhole) (arg9 : Memref sig .tc .vmem S3x128x128 .bf16) (harg9 : arg9.IsWhole) (arg10 : Memref sig .tc .vmem S1x128 .f32) (harg10 : arg10.IsWhole) (arg11 : Memref sig .tc .vmem S3x128x256 .bf16) (harg11 : arg11.IsWhole) (arg12 : Memref sig .tc .vmem S3x128x256 .bf16) (harg12 : arg12.IsWhole) (arg13 : Memref sig .tc .vmem S1x256 .f32) (harg13 : arg13.IsWhole) (arg14 : Memref sig .tc .vmem S3x128x128 .bf16) (harg14 : arg14.IsWhole) (arg15 : Memref sig .tc .vmem S3x128x128 .bf16) (harg15 : arg15.IsWhole) (arg16 : Memref sig .tc .vmem S1x128 .f32) (harg16 : arg16.IsWhole) (arg17 : Memref sig .tc .vmem S128x2 .bf16) (harg17 : arg17.IsWhole) (arg18 : Memref sig .tc .vmem S1x1 .f32) (harg18 : arg18.IsWhole) (arg19 : Memref sig .tc .vmem S2x512x1 .f32) (harg19 : arg19.IsWhole) (arg20 : Memref sig .tc .vmem S2x512x64 .f32) (harg20 : arg20.IsWhole) (arg21 : Memref sig .tc .vmem S2x512x64 .f32) (harg21 : arg21.IsWhole)
    (I : Ins F) (R₁ R₂ : sProp 𝕄) {D0 D1 D2 D3 D4 D5 D6 D7 D8 D9 D10 D11 D12 D13 D14 D15 D16 D17 D18 D19 D20 : Type}
    (g18 : D18 → Vec F S2x512x1 .f32) (g19 : D19 → Vec F S2x512x64 .f32) (g20 : D20 → Vec F S2x512x64 .f32) :
    iprop(R₁ ∗ R₂ ∗ (∃ _ : D0, owns c arg1 fullShare I.x0) ∗ (∃ _ : D1, owns c arg2 fullShare I.x1) ∗ (∃ _ : D2, owns c arg3 fullShare I.x2) ∗ (∃ _ : D3, owns c arg4 fullShare I.x3) ∗ (∃ _ : D4, owns c arg5 fullShare I.x4) ∗ (∃ _ : D5, owns c arg6 fullShare I.x5) ∗ (∃ _ : D6, owns c arg7 fullShare I.x6) ∗ (∃ _ : D7, owns c arg8 fullShare I.x7) ∗ (∃ _ : D8, owns c arg9 fullShare I.x8) ∗ (∃ _ : D9, owns c arg10 fullShare I.x9) ∗ (∃ _ : D10, owns c arg11 fullShare I.x10) ∗ (∃ _ : D11, owns c arg12 fullShare I.x11) ∗ (∃ _ : D12, owns c arg13 fullShare I.x12) ∗ (∃ _ : D13, owns c arg14 fullShare I.x13) ∗ (∃ _ : D14, owns c arg15 fullShare I.x14) ∗ (∃ _ : D15, owns c arg16 fullShare I.x15) ∗ (∃ _ : D16, owns c arg17 fullShare I.x16) ∗ (∃ _ : D17, owns c arg18 fullShare I.x17)
        ∗ (∃ d, owns c arg19 fullShare (g18 d)) ∗ (∃ d, owns c arg20 fullShare (g19 d)) ∗ (∃ d, owns c arg21 fullShare (g20 d)))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) fun _ =>
        iprop(R₁ ∗ R₂ ∗ owns c arg1 fullShare I.x0 ∗ owns c arg2 fullShare I.x1 ∗ owns c arg3 fullShare I.x2 ∗ owns c arg4 fullShare I.x3 ∗ owns c arg5 fullShare I.x4 ∗ owns c arg6 fullShare I.x5 ∗ owns c arg7 fullShare I.x6 ∗ owns c arg8 fullShare I.x7 ∗ owns c arg9 fullShare I.x8 ∗ owns c arg10 fullShare I.x9 ∗ owns c arg11 fullShare I.x10 ∗ owns c arg12 fullShare I.x11 ∗ owns c arg13 fullShare I.x12 ∗ owns c arg14 fullShare I.x13 ∗ owns c arg15 fullShare I.x14 ∗ owns c arg16 fullShare I.x15 ∗ owns c arg17 fullShare I.x16 ∗ owns c arg18 fullShare I.x17
          ∗ owns c arg19 fullShare (out1_18 I) ∗ owns c arg20 fullShare (out1_19 I) ∗ owns c arg21 fullShare (out1_20 I)) := by
  simp only [cc1__main_kernel_eq_skeleton]; unfold cc1__main_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  unfold owns
  iintro ⟨HR₁, HR₂, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, -, H18⟩, ⟨%d19, %f19, -, H19⟩, ⟨%d20, %f20, -, H20⟩⟩
  have e_v0 := ldEq hf0 (Rect.unit (s := S512x512) ![0, 0] S512x512.size inb_S512x512_S512x512_0_0)
  have e_v3 := ldEq hf1 (Rect.unit (s := S2x512x3) ![0, 0, 0] S1x512x3.size inb_S2x512x3_S1x512x3_0_0_0)
  have e_v5 := ldEq hf1 (Rect.unit (s := S2x512x3) ![1, 0, 0] S1x512x3.size inb_S2x512x3_S1x512x3_1_0_0)
  have e_v8 := ldEq hf2 (Rect.unit (s := S2x512x64) ![0, 0, 0] S1x512x64.size inb_S2x512x64_S1x512x64_0_0_0)
  have e_v10 := ldEq hf2 (Rect.unit (s := S2x512x64) ![1, 0, 0] S1x512x64.size inb_S2x512x64_S1x512x64_1_0_0)
  have e_v13 := ldEq hf6 (Rect.unit (s := S1x256) ![0, 0] S1x256.size inb_S1x256_S1x256_0_0)
  have e_v15 := ldEq hf4 (Rect.unit (s := S6x256) ![0, 0] S6x256.size inb_S6x256_S6x256_0_0)
  have e_v21 := ldEq hf5 (Rect.unit (s := S3x128x256) ![0, 0, 0] S1x128x256.size inb_S3x128x256_S1x128x256_0_0_0)
  have e_v28 := ldEq hf5 (Rect.unit (s := S3x128x256) ![1, 0, 0] S1x128x256.size inb_S3x128x256_S1x128x256_1_0_0)
  have e_v38 := ldEq hf5 (Rect.unit (s := S3x128x256) ![2, 0, 0] S1x128x256.size inb_S3x128x256_S1x128x256_2_0_0)
  have e_v47 := ldEq hf9 (Rect.unit (s := S1x128) ![0, 0] S1x128.size inb_S1x128_S1x128_0_0)
  have e_v49 := ldEq hf7 (Rect.unit (s := S6x128) ![0, 0] S6x128.size inb_S6x128_S6x128_0_0)
  have e_v55 := ldEq hf8 (Rect.unit (s := S3x128x128) ![0, 0, 0] S1x128x128.size inb_S3x128x128_S1x128x128_0_0_0)
  have e_v62 := ldEq hf8 (Rect.unit (s := S3x128x128) ![1, 0, 0] S1x128x128.size inb_S3x128x128_S1x128x128_1_0_0)
  have e_v72 := ldEq hf8 (Rect.unit (s := S3x128x128) ![2, 0, 0] S1x128x128.size inb_S3x128x128_S1x128x128_2_0_0)
  have e_v91 := ldEq hf3 (Rect.unit (s := S2x512x64) ![0, 0, 0] S1x512x64.size inb_S2x512x64_S1x512x64_0_0_0)
  have e_v93 := ldEq hf3 (Rect.unit (s := S2x512x64) ![1, 0, 0] S1x512x64.size inb_S2x512x64_S1x512x64_1_0_0)
  have e_v96 := ldEq hf12 (Rect.unit (s := S1x256) ![0, 0] S1x256.size inb_S1x256_S1x256_0_0)
  have e_v98 := ldEq hf10 (Rect.unit (s := S3x128x256) ![0, 0, 0] S1x128x256.size inb_S3x128x256_S1x128x256_0_0_0)
  have e_v104 := ldEq hf11 (Rect.unit (s := S3x128x256) ![0, 0, 0] S1x128x256.size inb_S3x128x256_S1x128x256_0_0_0)
  have e_v111 := ldEq hf10 (Rect.unit (s := S3x128x256) ![1, 0, 0] S1x128x256.size inb_S3x128x256_S1x128x256_1_0_0)
  have e_v118 := ldEq hf11 (Rect.unit (s := S3x128x256) ![1, 0, 0] S1x128x256.size inb_S3x128x256_S1x128x256_1_0_0)
  have e_v128 := ldEq hf10 (Rect.unit (s := S3x128x256) ![2, 0, 0] S1x128x256.size inb_S3x128x256_S1x128x256_2_0_0)
  have e_v138 := ldEq hf11 (Rect.unit (s := S3x128x256) ![2, 0, 0] S1x128x256.size inb_S3x128x256_S1x128x256_2_0_0)
  have e_v147 := ldEq hf15 (Rect.unit (s := S1x128) ![0, 0] S1x128.size inb_S1x128_S1x128_0_0)
  have e_v149 := ldEq hf13 (Rect.unit (s := S3x128x128) ![0, 0, 0] S1x128x128.size inb_S3x128x128_S1x128x128_0_0_0)
  have e_v155 := ldEq hf13 (Rect.unit (s := S3x128x128) ![1, 0, 0] S1x128x128.size inb_S3x128x128_S1x128x128_1_0_0)
  have e_v160 := ldEq hf13 (Rect.unit (s := S3x128x128) ![2, 0, 0] S1x128x128.size inb_S3x128x128_S1x128x128_2_0_0)
  have e_v165 := ldEq hf14 (Rect.unit (s := S3x128x128) ![0, 0, 0] S1x128x128.size inb_S3x128x128_S1x128x128_0_0_0)
  have e_v172 := ldEq hf14 (Rect.unit (s := S3x128x128) ![1, 0, 0] S1x128x128.size inb_S3x128x128_S1x128x128_1_0_0)
  have e_v182 := ldEq hf14 (Rect.unit (s := S3x128x128) ![2, 0, 0] S1x128x128.size inb_S3x128x128_S1x128x128_2_0_0)
  have e_v201 := ldEq hf16 (Rect.unit (s := S128x2) ![0, 0] S128x2.size inb_S128x2_S128x2_0_0)
  have e_v205 := ldEq hf17 (Rect.unit (s := S1x1) ![0, 0] S1x1.size inb_S1x1_S1x1_0_0)
  sl_exec
  sl_step
  isplitl [HR₁]; · iexact HR₁
  isplitl [HR₂]; · iexact HR₂
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  isplitl [H13]
  · iexists f13; isplitr; · ipureintro; exact hf13
    iexact H13
  isplitl [H14]
  · iexists f14; isplitr; · ipureintro; exact hf14
    iexact H14
  isplitl [H15]
  · iexists f15; isplitr; · ipureintro; exact hf15
    iexact H15
  isplitl [H16]
  · iexists f16; isplitr; · ipureintro; exact hf16
    iexact H16
  isplitl [H17]
  · iexists f17; isplitr; · ipureintro; exact hf17
    iexact H17
  isplitl [H18]
  · iexists _; isplitr
    swap; · iexact H18
    ipureintro
    refine (View.read_writes_eq_canon _ _ _ (cover1_18 _ _)).trans ?_
    dsimp only
    rfl
  isplitl [H19]
  · iexists _; isplitr
    swap; · iexact H19
    ipureintro
    refine (View.read_writes_eq_canon _ _ _ (cover1_19 _ _)).trans ?_
    dsimp only
    rfl
  iexists _; isplitr
  swap; · iexact H20
  ipureintro
  refine (View.read_writes_eq_canon _ _ _ (cover1_19 _ _)).trans ?_
  dsimp only
  rfl

theorem before1_0 (c : Dev nD) (t : Fin cfg1.N) (d) : (dat1 V c).before 0 t d = (dat1 V c).fetched 0 t d :=
  (dat1 V c).before_in_eq_fetched 0 rfl (fun _ => rfl) (fun _ _ _ => rfl) (fun _ => by dsimp only [dat1]; rfl) t d
theorem before1_1 (c : Dev nD) (t : Fin cfg1.N) (d) : (dat1 V c).before 1 t d = (dat1 V c).fetched 1 t d :=
  (dat1 V c).before_in_eq_fetched 1 rfl (fun _ => rfl) (fun _ _ _ => rfl) (fun _ => by dsimp only [dat1]; rfl) t d
theorem before1_2 (c : Dev nD) (t : Fin cfg1.N) (d) : (dat1 V c).before 2 t d = (dat1 V c).fetched 2 t d :=
  (dat1 V c).before_in_eq_fetched 2 rfl (fun _ => rfl) (fun _ _ _ => rfl) (fun _ => by dsimp only [dat1]; rfl) t d
theorem before1_3 (c : Dev nD) (t : Fin cfg1.N) (d) : (dat1 V c).before 3 t d = (dat1 V c).fetched 3 t d :=
  (dat1 V c).before_in_eq_fetched 3 rfl (fun _ => rfl) (fun _ _ _ => rfl) (fun _ => by dsimp only [dat1]; rfl) t d
theorem before1_4 (c : Dev nD) (t : Fin cfg1.N) (d) : (dat1 V c).before 4 t d = (dat1 V c).fetched 4 t d :=
  (dat1 V c).before_in_eq_fetched 4 rfl (fun _ => rfl) (fun _ _ _ => rfl) (fun _ => by dsimp only [dat1]; rfl) t d
theorem before1_5 (c : Dev nD) (t : Fin cfg1.N) (d) : (dat1 V c).before 5 t d = (dat1 V c).fetched 5 t d :=
  (dat1 V c).before_in_eq_fetched 5 rfl (fun _ => rfl) (fun _ _ _ => rfl) (fun _ => by dsimp only [dat1]; rfl) t d
theorem before1_6 (c : Dev nD) (t : Fin cfg1.N) (d) : (dat1 V c).before 6 t d = (dat1 V c).fetched 6 t d :=
  (dat1 V c).before_in_eq_fetched 6 rfl (fun _ => rfl) (fun _ _ _ => rfl) (fun _ => by dsimp only [dat1]; rfl) t d
theorem before1_7 (c : Dev nD) (t : Fin cfg1.N) (d) : (dat1 V c).before 7 t d = (dat1 V c).fetched 7 t d :=
  (dat1 V c).before_in_eq_fetched 7 rfl (fun _ => rfl) (fun _ _ _ => rfl) (fun _ => by dsimp only [dat1]; rfl) t d
theorem before1_8 (c : Dev nD) (t : Fin cfg1.N) (d) : (dat1 V c).before 8 t d = (dat1 V c).fetched 8 t d :=
  (dat1 V c).before_in_eq_fetched 8 rfl (fun _ => rfl) (fun _ _ _ => rfl) (fun _ => by dsimp only [dat1]; rfl) t d
theorem before1_9 (c : Dev nD) (t : Fin cfg1.N) (d) : (dat1 V c).before 9 t d = (dat1 V c).fetched 9 t d :=
  (dat1 V c).before_in_eq_fetched 9 rfl (fun _ => rfl) (fun _ _ _ => rfl) (fun _ => by dsimp only [dat1]; rfl) t d
theorem before1_10 (c : Dev nD) (t : Fin cfg1.N) (d) : (dat1 V c).before 10 t d = (dat1 V c).fetched 10 t d :=
  (dat1 V c).before_in_eq_fetched 10 rfl (fun _ => rfl) (fun _ _ _ => rfl) (fun _ => by dsimp only [dat1]; rfl) t d
theorem before1_11 (c : Dev nD) (t : Fin cfg1.N) (d) : (dat1 V c).before 11 t d = (dat1 V c).fetched 11 t d :=
  (dat1 V c).before_in_eq_fetched 11 rfl (fun _ => rfl) (fun _ _ _ => rfl) (fun _ => by dsimp only [dat1]; rfl) t d
theorem before1_12 (c : Dev nD) (t : Fin cfg1.N) (d) : (dat1 V c).before 12 t d = (dat1 V c).fetched 12 t d :=
  (dat1 V c).before_in_eq_fetched 12 rfl (fun _ => rfl) (fun _ _ _ => rfl) (fun _ => by dsimp only [dat1]; rfl) t d
theorem before1_13 (c : Dev nD) (t : Fin cfg1.N) (d) : (dat1 V c).before 13 t d = (dat1 V c).fetched 13 t d :=
  (dat1 V c).before_in_eq_fetched 13 rfl (fun _ => rfl) (fun _ _ _ => rfl) (fun _ => by dsimp only [dat1]; rfl) t d
theorem before1_14 (c : Dev nD) (t : Fin cfg1.N) (d) : (dat1 V c).before 14 t d = (dat1 V c).fetched 14 t d :=
  (dat1 V c).before_in_eq_fetched 14 rfl (fun _ => rfl) (fun _ _ _ => rfl) (fun _ => by dsimp only [dat1]; rfl) t d
theorem before1_15 (c : Dev nD) (t : Fin cfg1.N) (d) : (dat1 V c).before 15 t d = (dat1 V c).fetched 15 t d :=
  (dat1 V c).before_in_eq_fetched 15 rfl (fun _ => rfl) (fun _ _ _ => rfl) (fun _ => by dsimp only [dat1]; rfl) t d
theorem before1_16 (c : Dev nD) (t : Fin cfg1.N) (d) : (dat1 V c).before 16 t d = (dat1 V c).fetched 16 t d :=
  (dat1 V c).before_in_eq_fetched 16 rfl (fun _ => rfl) (fun _ _ _ => rfl) (fun _ => by dsimp only [dat1]; rfl) t d
theorem before1_17 (c : Dev nD) (t : Fin cfg1.N) (d) : (dat1 V c).before 17 t d = (dat1 V c).fetched 17 t d :=
  (dat1 V c).before_in_eq_fetched 17 rfl (fun _ => rfl) (fun _ _ _ => rfl) (fun _ => by dsimp only [dat1]; rfl) t d

theorem body_obligation1 (c : Dev nD) : BodyObligation (dat1 (F := F) V c) (defs₀ (F := F)) Variants.none () Set.univ := fun t => by
  rw [bigSep_W1, bigSep_W1]
  simp only [before1_0, before1_1, before1_2, before1_3, before1_4, before1_5, before1_6, before1_7, before1_8, before1_9, before1_10, before1_11, before1_12, before1_13, before1_14, before1_15, before1_16, before1_17]
  dsimp only [dat1]
  exact sound_kernel1 c _ _ _ _ _ _ _ _ _ _ _ _ _ _ _ _ _ _ _ _ _ _ _ _ _ _ _ _ _ _ _ _ _ _ _ _ _ _ _ _ _ _ _ _ (ins1 V c t) _ _ _ _ _

end Regions

end Cert.Kernel.Hand

end
-- ==== Proof.K.Run.lean ====
import proofs.«104790_g19069654794669_cont_sun_m_30_11_alg».proof.Proof.K.RunDefs
import proofs.«104790_g19069654794669_cont_sun_m_30_11_alg».proof.Proof.K.Body0
import proofs.«104790_g19069654794669_cont_sun_m_30_11_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W8 m ρ c) ∗ ∃ r, prngReg c r)

set_option backward.isDefEq.respectTransparency.types false in
def regOf (p : Fin 2) (lf : Pipeline.LaunchFacts (nD := nD) (τ := τ) cfgs p) (Wa Wb : Dev nD → Valuation τ sig (Elt F))
    (hbody : ∀ c, Pipeline.BodyObligationLoose (pdats m ρ p c) (defs₀ (F := F)) 𝒱₀ () Set.univ)
    (howed : ∀ c t, (pdats m ρ p c).owed t = 0) (hrec : ∀ c t, (pdats m ρ p c).recorded t = Set.univ) (hq : ∀ c w, (pdats m ρ p c).q w = fullShare)
    (hΦ : ∀ c i, (pdats m ρ p c).Φ i = Pipeline.ΦA (Pipeline.pin (pcfgs (F := F)) adm p).spec c)
    (hA : ∀ c w, (pdats m ρ p c).A w = Wa c (Pipeline.arrRef (Pipeline.pin (pcfgs (F := F)) adm p).spec w))
    (hF : ∀ c w, (pdats m ρ p c).arrAt w (Pipeline.pin (pcfgs (F := F)) adm p).N = Wb c (Pipeline.arrRef (Pipeline.pin (pcfgs (F := F)) adm p).spec w))
    (hrest : ∀ c b, b ∉ Finset.univ.image (Pipeline.arrRef (Pipeline.pin (pcfgs (F := F)) adm p).spec) → Wb c (Proc.devRef .tc b) = Wa c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => Wa c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wa c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wa c b) (fun b => Wb c b) ((pdats m ρ p c).arrAt · _) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W4 m ρ) (W5 m ρ) (fun c => (body_obligation0 (V4 m ρ) c).loose) (fun _ _ => rfl) (fun _ _ => rfl) (fun _ _ => rfl)
    (fun _ _ => rfl) (fun _ _ => rfl) (hF0 m ρ) (hrest0 m ρ)

set_option backward.isDefEq.respectTransparency.types false in
def reg1 : Pipeline.RegionSeg (pcfgs (F := F)) adm (pdats m ρ) () defs₀ 𝒱₀ L lv 1 :=
  regOf m ρ 1 launch1 (W6 m ρ) (W7 m ρ) (fun c => (body_obligation1 (V6 m ρ) c).loose) (fun _ _ => rfl) (fun _ _ => rfl) (fun _ _ => rfl)
    (fun _ _ => rfl) (fun _ _ => rfl) (hF1 m ρ) (hrest1 m ρ)

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .host (hseg main_part2_ops0 main_part2_ops0_sub main_part2_ops0_fresh (W2 m ρ)),
    .host (hseg main_part3_ops0 main_part3_ops0_sub main_part3_ops0_fresh (W3 m ρ)),
    .region (reg0 m ρ),
    .host (hseg main_part3_ops1 main_part3_ops1_sub main_part3_ops1_fresh (W5 m ρ)),
    .region (reg1 m ρ),
    .host (hseg main_part3_ops2 main_part3_ops2_sub main_part3_ops2_fresh (W7 m ρ)) ]

theorem main_run (c : Dev nD) : main (F := F) c = Pipeline.Seg.run (segs m ρ) := (main_chain_windows c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c)⟩) (run_all m ρ)

end Cert.Kernel.Hand

end
-- ==== Proof.KI.Body0.lean ====
import proofs.«104790_g19069654794669_cont_sun_m_30_11_alg».proof.Proof.Gen.KernelIdeal.Launch
import proofs.«104790_g19069654794669_cont_sun_m_30_11_alg».proof.Proof.Gen.KernelIdeal.Skeleton
import proofs.«104790_g19069654794669_cont_sun_m_30_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA : Rect S512x512 := Rect.unit (s := S512x512) ![0, 0] S512x512.size inb_S512x512_S512x512_0_0
abbrev rB : Rect S512x64 := Rect.unit (s := S512x64) ![0, 0] S512x64.size inb_S512x64_S512x64_0_0

def out0_3 (x0 x1 : Vec F S512x512 .f32) : Vec F S512x512 .f32 :=
  View.canon [⟨rA, k0_pay2 (View.ld x0 rA) (View.ld x1 rA)⟩]

def out0_4 (x0 x1 : Vec F S512x512 .f32) (x2 : Vec F S512x64 .f32) : Vec F S512x64 .f32 :=
  View.canon [⟨rB, k0_pay4 (View.ld x0 rA) (View.ld x1 rA) (View.ld x2 rB)⟩]

def out0_5 (x0 x1 : Vec F S512x512 .f32) (x2 : Vec F S512x64 .f32) : Vec F S512x64 .f32 :=
  View.canon [⟨rB, k0_pay1 (k0_pay3 (View.ld x2 rB)) (k0_pay5 (View.ld x0 rA) (View.ld x1 rA) (View.ld x2 rB))⟩]

theorem cover0_A (p : Vec F S512x512 .f32) : ∀ y, ∃ pc ∈ ([⟨rA, p⟩] : List (View.Piece (Elt F) S512x512 .f32)), y ∈ pc.1.set :=
  View.cover_of_tiled _ S512x512.size (by rfl)

theorem cover0_B (p : Vec F S512x64 .f32) : ∀ y, ∃ pc ∈ ([⟨rB, p⟩] : List (View.Piece (Elt F) S512x64 .f32)), y ∈ pc.1.set :=
  View.cover_of_tiled _ S512x64.size (by rfl)

-- The one store of each output covers its buffer, so what the buffer held does not matter.
theorem sound_kernel0 (c : Dev nD) (E : Set ℕ) (arg0 : Memref sig .tc .vmem S512x512 .f32) (harg0 : arg0.IsWhole) (arg1 : Memref sig .tc .vmem S512x512 .f32) (harg1 : arg1.IsWhole) (arg2 : Memref sig .tc .vmem S512x64 .f32) (harg2 : arg2.IsWhole) (arg3 : Memref sig .tc .vmem S512x512 .f32) (harg3 : arg3.IsWhole) (arg4 : Memref sig .tc .vmem S512x64 .f32) (harg4 : arg4.IsWhole) (arg5 : Memref sig .tc .vmem S512x64 .f32) (harg5 : arg5.IsWhole)
    (x0 x1 : Vec F S512x512 .f32) (x2 : Vec F S512x64 .f32) (R₁ R₂ : sProp 𝕄) {D0 D1 D2 D3 D4 D5 : Type}
    (g3 : D3 → Vec F S512x512 .f32) (g4 : D4 → Vec F S512x64 .f32) (g5 : D5 → Vec F S512x64 .f32) :
    iprop(R₁ ∗ R₂ ∗ (∃ _ : D0, owns c arg0 fullShare x0) ∗ (∃ _ : D1, owns c arg1 fullShare x1) ∗ (∃ _ : D2, owns c arg2 fullShare x2)
        ∗ (∃ d, owns c arg3 fullShare (g3 d)) ∗ (∃ d, owns c arg4 fullShare (g4 d)) ∗ (∃ d, owns c arg5 fullShare (g5 d)))
      ⊢ wp frame (wpE (defs₀ (F := F)) Variants.none c none) E (cc0__prep_kernel arg0 harg0 arg1 harg1 arg2 harg2 arg3 harg3 arg4 harg4 arg5 harg5) fun _ =>
        iprop(R₁ ∗ R₂ ∗ owns c arg0 fullShare x0 ∗ owns c arg1 fullShare x1 ∗ owns c arg2 fullShare x2
          ∗ owns c arg3 fullShare (out0_3 x0 x1) ∗ owns c arg4 fullShare (out0_4 x0 x1 x2) ∗ owns c arg5 fullShare (out0_5 x0 x1 x2)) := by
  simp only [cc0__prep_kernel_eq_skeleton]; unfold cc0__prep_kernel_skel
  simp only [k0_part1_eq_skeleton]; unfold k0_part1_skel
  unfold owns
  iintro ⟨HR₁, HR₂, ⟨%d0, %f0, %hf0, H0⟩, ⟨%d1, %f1, %hf1, H1⟩, ⟨%d2, %f2, %hf2, H2⟩, ⟨%d3, %f3, -, H3⟩, ⟨%d4, %f4, -, H4⟩, ⟨%d5, %f5, -, H5⟩⟩
  subst hf0 hf1 hf2
  sl_exec
  sl_step
  isplitl [HR₁]; · iexact HR₁
  isplitl [HR₂]; · iexact HR₂
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_A _)
  isplitl [H4]
  · iexists _; isplitr
    swap; · iexact H4
    ipureintro
    exact View.read_writes_eq_canon _ _ _ (cover0_B _)
  iexists _; isplitr
  swap; · iexact H5
  ipureintro
  exact View.read_writes_eq_canon _ _ _ (cover0_B _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0_0 (c : Dev nD) (t : Fin cfg0.N) (d) : (dat0 V c).before 0 t d = (dat0 V c).fetched 0 t d :=
  (dat0 V c).before_in_eq_fetched 0 rfl (fun _ => rfl) (fun _ _ _ => rfl) (fun _ => by dsimp only [dat0]; rfl) t d
theorem before0_1 (c : Dev nD) (t : Fin cfg0.N) (d) : (dat0 V c).before 1 t d = (dat0 V c).fetched 1 t d :=
  (dat0 V c).before_in_eq_fetched 1 rfl (fun _ => rfl) (fun _ _ _ => rfl) (fun _ => by dsimp only [dat0]; rfl) t d
theorem before0_2 (c : Dev nD) (t : Fin cfg0.N) (d) : (dat0 V c).before 2 t d = (dat0 V c).fetched 2 t d :=
  (dat0 V c).before_in_eq_fetched 2 rfl (fun _ => rfl) (fun _ _ _ => rfl) (fun _ => by dsimp only [dat0]; rfl) t d

theorem body_obligation0 (c : Dev nD) : BodyObligation (dat0 (F := F) V c) (defs₀ (F := F)) Variants.none () Set.univ := fun t => by
  rw [bigSep_W0, bigSep_W0]
  simp only [before0_0, before0_1, before0_2]
  dsimp only [dat0]
  exact sound_kernel0 c _ _ _ _ _ _ _ _ _ _ _ _ _ (iblk0 V c 0 t) (iblk0 V c 1 t) (iblk0 V c 2 t) _ _ _ _ _

end Region0

end Cert.KernelIdeal.Hand

end
-- ==== Proof.KI.Body1Defs.lean ====
import proofs.«104790_g19069654794669_cont_sun_m_30_11_alg».proof.Proof.Gen.KernelIdeal.Launch
import proofs.«104790_g19069654794669_cont_sun_m_30_11_alg».proof.Proof.Gen.KernelIdeal.Skeleton
import proofs.«104790_g19069654794669_cont_sun_m_30_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

structure Ins (F : FTy → Type) [FloatOps F] where
  x0 : Vec F S512x512 .f32
  x1 : Vec F S2x512x3 .f32
  x2 : Vec F S2x512x64 .f32
  x3 : Vec F S2x512x64 .f32
  x4 : Vec F S6x256 .bf16
  x5 : Vec F S3x128x256 .bf16
  x6 : Vec F S1x256 .f32
  x7 : Vec F S6x128 .bf16
  x8 : Vec F S3x128x128 .bf16
  x9 : Vec F S1x128 .f32
  x10 : Vec F S3x128x256 .bf16
  x11 : Vec F S3x128x256 .bf16
  x12 : Vec F S1x256 .f32
  x13 : Vec F S3x128x128 .bf16
  x14 : Vec F S3x128x128 .bf16
  x15 : Vec F S1x128 .f32
  x16 : Vec F S128x2 .bf16
  x17 : Vec F S1x1 .f32

noncomputable def ins1 (c : Dev nD) (t : Fin cfg1.N) : Ins F :=
  ⟨iblk1 V c 0 t, iblk1 V c 1 t, iblk1 V c 2 t, iblk1 V c 3 t, iblk1 V c 4 t, iblk1 V c 5 t, iblk1 V c 6 t,
   iblk1 V c 7 t, iblk1 V c 8 t, iblk1 V c 9 t, iblk1 V c 10 t, iblk1 V c 11 t, iblk1 V c 12 t, iblk1 V c 13 t,
   iblk1 V c 14 t, iblk1 V c 15 t, iblk1 V c 16 t, iblk1 V c 17 t⟩

noncomputable def ld_v0 (I : Ins F) : Vec F S512x512 .f32 := View.ld I.x0 (Rect.unit (s := S512x512) ![0, 0] S512x512.size inb_S512x512_S512x512_0_0)

noncomputable def ld_v3 (I : Ins F) : Vec F S1x512x3 .f32 := View.ld I.x1 (Rect.unit (s := S2x512x3) ![0, 0, 0] S1x512x3.size inb_S2x512x3_S1x512x3_0_0_0)
noncomputable def ld_v5 (I : Ins F) : Vec F S1x512x3 .f32 := View.ld I.x1 (Rect.unit (s := S2x512x3) ![1, 0, 0] S1x512x3.size inb_S2x512x3_S1x512x3_1_0_0)

noncomputable def ld_v8 (I : Ins F) : Vec F S1x512x64 .f32 := View.ld I.x2 (Rect.unit (s := S2x512x64) ![0, 0, 0] S1x512x64.size inb_S2x512x64_S1x512x64_0_0_0)
noncomputable def ld_v10 (I : Ins F) : Vec F S1x512x64 .f32 := View.ld I.x2 (Rect.unit (s := S2x512x64) ![1, 0, 0] S1x512x64.size inb_S2x512x64_S1x512x64_1_0_0)

noncomputable def ld_v13 (I : Ins F) : Vec F S1x256 .f32 := View.ld I.x6 (Rect.unit (s := S1x256) ![0, 0] S1x256.size inb_S1x256_S1x256_0_0)
noncomputable def ld_v15 (I : Ins F) : Vec F S6x256 .bf16 := View.ld I.x4 (Rect.unit (s := S6x256) ![0, 0] S6x256.size inb_S6x256_S6x256_0_0)
noncomputable def ld_v21 (I : Ins F) : Vec F S1x128x256 .bf16 := View.ld I.x5 (Rect.unit (s := S3x128x256) ![0, 0, 0] S1x128x256.size inb_S3x128x256_S1x128x256_0_0_0)
noncomputable def ld_v28 (I : Ins F) : Vec F S1x128x256 .bf16 := View.ld I.x5 (Rect.unit (s := S3x128x256) ![1, 0, 0] S1x128x256.size inb_S3x128x256_S1x128x256_1_0_0)
noncomputable def ld_v38 (I : Ins F) : Vec F S1x128x256 .bf16 := View.ld I.x5 (Rect.unit (s := S3x128x256) ![2, 0, 0] S1x128x256.size inb_S3x128x256_S1x128x256_2_0_0)

noncomputable def ld_v47 (I : Ins F) : Vec F S1x128 .f32 := View.ld I.x9 (Rect.unit (s := S1x128) ![0, 0] S1x128.size inb_S1x128_S1x128_0_0)
noncomputable def ld_v49 (I : Ins F) : Vec F S6x128 .bf16 := View.ld I.x7 (Rect.unit (s := S6x128) ![0, 0] S6x128.size inb_S6x128_S6x128_0_0)
noncomputable def ld_v55 (I : Ins F) : Vec F S1x128x128 .bf16 := View.ld I.x8 (Rect.unit (s := S3x128x128) ![0, 0, 0] S1x128x128.size inb_S3x128x128_S1x128x128_0_0_0)
noncomputable def ld_v62 (I : Ins F) : Vec F S1x128x128 .bf16 := View.ld I.x8 (Rect.unit (s := S3x128x128) ![1, 0, 0] S1x128x128.size inb_S3x128x128_S1x128x128_1_0_0)
noncomputable def ld_v72 (I : Ins F) : Vec F S1x128x128 .bf16 := View.ld I.x8 (Rect.unit (s := S3x128x128) ![2, 0, 0] S1x128x128.size inb_S3x128x128_S1x128x128_2_0_0)

noncomputable def ld_v91 (I : Ins F) : Vec F S1x512x64 .f32 := View.ld I.x3 (Rect.unit (s := S2x512x64) ![0, 0, 0] S1x512x64.size inb_S2x512x64_S1x512x64_0_0_0)
noncomputable def ld_v93 (I : Ins F) : Vec F S1x512x64 .f32 := View.ld I.x3 (Rect.unit (s := S2x512x64) ![1, 0, 0] S1x512x64.size inb_S2x512x64_S1x512x64_1_0_0)

noncomputable def ld_v96 (I : Ins F) : Vec F S1x256 .f32 := View.ld I.x12 (Rect.unit (s := S1x256) ![0, 0] S1x256.size inb_S1x256_S1x256_0_0)
noncomputable def ld_v98 (I : Ins F) : Vec F S1x128x256 .bf16 := View.ld I.x10 (Rect.unit (s := S3x128x256) ![0, 0, 0] S1x128x256.size inb_S3x128x256_S1x128x256_0_0_0)
noncomputable def ld_v104 (I : Ins F) : Vec F S1x128x256 .bf16 := View.ld I.x11 (Rect.unit (s := S3x128x256) ![0, 0, 0] S1x128x256.size inb_S3x128x256_S1x128x256_0_0_0)
noncomputable def ld_v111 (I : Ins F) : Vec F S1x128x256 .bf16 := View.ld I.x10 (Rect.unit (s := S3x128x256) ![1, 0, 0] S1x128x256.size inb_S3x128x256_S1x128x256_1_0_0)
noncomputable def ld_v118 (I : Ins F) : Vec F S1x128x256 .bf16 := View.ld I.x11 (Rect.unit (s := S3x128x256) ![1, 0, 0] S1x128x256.size inb_S3x128x256_S1x128x256_1_0_0)
noncomputable def ld_v128 (I : Ins F) : Vec F S1x128x256 .bf16 := View.ld I.x10 (Rect.unit (s := S3x128x256) ![2, 0, 0] S1x128x256.size inb_S3x128x256_S1x128x256_2_0_0)
noncomputable def ld_v138 (I : Ins F) : Vec F S1x128x256 .bf16 := View.ld I.x11 (Rect.unit (s := S3x128x256) ![2, 0, 0] S1x128x256.size inb_S3x128x256_S1x128x256_2_0_0)

noncomputable def ld_v147 (I : Ins F) : Vec F S1x128 .f32 := View.ld I.x15 (Rect.unit (s := S1x128) ![0, 0] S1x128.size inb_S1x128_S1x128_0_0)
noncomputable def ld_v149 (I : Ins F) : Vec F S1x128x128 .bf16 := View.ld I.x13 (Rect.unit (s := S3x128x128) ![0, 0, 0] S1x128x128.size inb_S3x128x128_S1x128x128_0_0_0)
noncomputable def ld_v155 (I : Ins F) : Vec F S1x128x128 .bf16 := View.ld I.x13 (Rect.unit (s := S3x128x128) ![1, 0, 0] S1x128x128.size inb_S3x128x128_S1x128x128_1_0_0)
noncomputable def ld_v160 (I : Ins F) : Vec F S1x128x128 .bf16 := View.ld I.x13 (Rect.unit (s := S3x128x128) ![2, 0, 0] S1x128x128.size inb_S3x128x128_S1x128x128_2_0_0)
noncomputable def ld_v165 (I : Ins F) : Vec F S1x128x128 .bf16 := View.ld I.x14 (Rect.unit (s := S3x128x128) ![0, 0, 0] S1x128x128.size inb_S3x128x128_S1x128x128_0_0_0)
noncomputable def ld_v172 (I : Ins F) : Vec F S1x128x128 .bf16 := View.ld I.x14 (Rect.unit (s := S3x128x128) ![1, 0, 0] S1x128x128.size inb_S3x128x128_S1x128x128_1_0_0)
noncomputable def ld_v182 (I : Ins F) : Vec F S1x128x128 .bf16 := View.ld I.x14 (Rect.unit (s := S3x128x128) ![2, 0, 0] S1x128x128.size inb_S3x128x128_S1x128x128_2_0_0)

noncomputable def ld_v201 (I : Ins F) : Vec F S128x2 .bf16 := View.ld I.x16 (Rect.unit (s := S128x2) ![0, 0] S128x2.size inb_S128x2_S128x2_0_0)
noncomputable def ld_v205 (I : Ins F) : Vec F S1x1 .f32 := View.ld I.x17 (Rect.unit (s := S1x1) ![0, 0] S1x1.size inb_S1x1_S1x1_0_0)

noncomputable def val_v2 (I : Ins F) : FVec F S512x512 .bf16 := k1_pay3 (ld_v0 I)
noncomputable def val_v7 (I : Ins F) : FVec F S512x6 .f32 := k1_pay4 (ld_v3 I) (ld_v5 I)
noncomputable def val_v12 (I : Ins F) : FVec F S512x128 .f32 := k1_pay5 (ld_v8 I) (ld_v10 I)
noncomputable def val_v25 (I : Ins F) : FVec F S512x256 .f32 := k1_pay6 (ld_v3 I) (ld_v5 I) (ld_v8 I) (ld_v10 I) (ld_v13 I) (ld_v15 I) (ld_v21 I)
noncomputable def val_v27 (I : Ins F) : FVec F S512x128 .f32 := k1_pay7 (ld_v0 I) (ld_v8 I) (ld_v10 I)
noncomputable def val_v29 (I : Ins F) : FVec F S128x256 .bf16 := k1_pay8 (ld_v28 I)
noncomputable def val_v30 (I : Ins F) : FVec F S512x128 .bf16 := k1_pay9 (ld_v0 I) (ld_v8 I) (ld_v10 I)
noncomputable def val_cst_24 (I : Ins F) : FVec F S512x256 .f32 := constant S512x256 .f32 0x00000000#32

noncomputable def val_v45 (I : Ins F) : FVec F S512x128 .f32 := k1_pay11 (val_v2 I) (val_v12 I) (val_v25 I) (val_v27 I) (val_v29 I) (val_v30 I) (val_cst_24 I) (ld_v38 I)
noncomputable def val_v46 (I : Ins F) : FVec F S512x128 .f32 := k1_pay12 (val_v2 I) (val_v12 I) (val_v25 I) (val_v27 I) (val_v29 I) (val_v30 I) (val_cst_24 I) (ld_v38 I)
noncomputable def val_v66 (I : Ins F) : FVec F S512x128 .f32 := k1_pay14 (val_v2 I) (val_v7 I) (val_v12 I) (val_v25 I) (val_v27 I) (val_v29 I) (val_v30 I) (val_cst_24 I) (ld_v38 I) (ld_v47 I) (ld_v49 I) (ld_v55 I) (ld_v62 I)
noncomputable def val_v68 (I : Ins F) : FVec F S512x128 .f32 := k1_pay15 (val_v2 I) (val_v12 I) (val_v25 I) (val_v27 I) (val_v29 I) (val_v30 I) (val_cst_24 I) (ld_v38 I)
noncomputable def val_cst_45 (I : Ins F) : F .f32 := Scalar.ofBits .f32 0x40000000#32

noncomputable def val_v82 (I : Ins F) : FVec F S512x128 .f32 := k1_pay16 (val_v12 I) (val_v45 I) (val_v46 I) (val_v66 I) (val_v68 I) (val_cst_45 I) (ld_v72 I)
noncomputable def val_v95 (I : Ins F) : FVec F S512x128 .f32 := k1_pay19 (ld_v91 I) (ld_v93 I)
noncomputable def val_v103 (I : Ins F) : FVec F S512x256 .f32 := k1_pay20 (val_v12 I) (val_v45 I) (val_v46 I) (val_v66 I) (val_v68 I) (val_cst_45 I) (ld_v72 I) (ld_v96 I) (ld_v98 I)

noncomputable def val_v110 (I : Ins F) : FVec F S512x128 .f32 := k1_pay21 (val_v2 I) (val_v82 I)
noncomputable def val_v127 (I : Ins F) : FVec F S512x128 .f32 := k1_pay23 (val_v2 I) (val_v82 I)
noncomputable def val_v132 (I : Ins F) : FVec F S512x256 .f32 := k1_pay24 (val_v2 I) (val_v82 I) (val_v95 I) (val_v103 I) (ld_v104 I) (ld_v111 I) (ld_v118 I) (ld_v128 I)
noncomputable def val_v137 (I : Ins F) : FVec F S512x128 .f32 := k1_pay25 (val_v2 I) (val_v95 I)
noncomputable def val_v138 (I : Ins F) : Vec F S1x128x256 .bf16 := ld_v138 I

noncomputable def val_v145 (I : Ins F) : FVec F S512x128 .f32 := k1_pay27 (val_v132 I) (val_v137 I) (val_v138 I)
noncomputable def val_v146 (I : Ins F) : FVec F S512x128 .f32 := k1_pay28 (val_v95 I) (val_v132 I) (val_v137 I) (val_v138 I)
noncomputable def val_v169 (I : Ins F) : FVec F S512x128 .f32 := k1_pay29 (val_v82 I) (val_v95 I) (val_v110 I) (val_v127 I) (val_v132 I) (val_v137 I) (val_v138 I) (ld_v147 I) (ld_v149 I) (ld_v155 I) (ld_v160 I) (ld_v165 I)
noncomputable def val_v171 (I : Ins F) : FVec F S512x128 .f32 := k1_pay30 (val_v2 I) (val_v95 I) (val_v132 I) (val_v137 I) (val_v138 I)
noncomputable def val_v173 (I : Ins F) : FVec F S128x128 .bf16 := k1_pay31 (ld_v172 I)
noncomputable def val_v174 (I : Ins F) : FVec F S512x128 .bf16 := k1_pay32 (val_v2 I) (val_v95 I) (val_v132 I) (val_v137 I) (val_v138 I)
noncomputable def val_cst_117 (I : Ins F) : FVec F S512x128 .f32 := constant S512x128 .f32 0x00000000#32

noncomputable def val_v208 (I : Ins F) : FVec F S512x2 .f32 := k1_pay36 (val_v2 I) (val_v95 I) (val_v145 I) (val_v146 I) (val_v169 I) (val_v171 I) (val_v173 I) (val_v174 I) (val_cst_117 I) (ld_v182 I) (ld_v201 I) (ld_v205 I)
noncomputable def val_v209 (I : Ins F) : FVec F S512x1 .f32 := k1_pay37 (val_v2 I) (val_v95 I) (val_v145 I) (val_v146 I) (val_v169 I) (val_v171 I) (val_v173 I) (val_v174 I) (val_cst_117 I) (ld_v182 I) (ld_v201 I) (ld_v205 I)

noncomputable def out1_18 (I : Ins F) : Vec F S2x512x1 .f32 :=
  View.canon [⟨Rect.unit (s := S2x512x1) ![1, 0, 0] S1x512x1.size inb_S2x512x1_S1x512x1_1_0_0, k1_pay2 (val_v208 I)⟩,
    ⟨Rect.unit (s := S2x512x1) ![0, 0, 0] S1x512x1.size inb_S2x512x1_S1x512x1_0_0_0, k1_pay1 (val_v209 I)⟩]

noncomputable def out1_19 (I : Ins F) : Vec F S2x512x64 .f32 :=
  View.canon [⟨Rect.unit (s := S2x512x64) ![1, 0, 0] S1x512x64.size inb_S2x512x64_S1x512x64_1_0_0,
      k1_pay18 (val_v12 I) (val_v45 I) (val_v46 I) (val_v66 I) (val_v68 I) (val_cst_45 I) (ld_v72 I)⟩,
    ⟨Rect.unit (s := S2x512x64) ![0, 0, 0] S1x512x64.size inb_S2x512x64_S1x512x64_0_0_0,
      k1_pay17 (val_v12 I) (val_v45 I) (val_v46 I) (val_v66 I) (val_v68 I) (val_cst_45 I) (ld_v72 I)⟩]

noncomputable def out1_20 (I : Ins F) : Vec F S2x512x64 .f32 :=
  View.canon [⟨Rect.unit (s := S2x512x64) ![1, 0, 0] S1x512x64.size inb_S2x512x64_S1x512x64_1_0_0,
      k1_pay35 (val_v2 I) (val_v95 I) (val_v145 I) (val_v146 I) (val_v169 I) (val_v171 I) (val_v173 I) (val_v174 I) (val_cst_117 I) (ld_v182 I)⟩,
    ⟨Rect.unit (s := S2x512x64) ![0, 0, 0] S1x512x64.size inb_S2x512x64_S1x512x64_0_0_0,
      k1_pay34 (val_v2 I) (val_v95 I) (val_v145 I) (val_v146 I) (val_v169 I) (val_v171 I) (val_v173 I) (val_v174 I) (val_cst_117 I) (ld_v182 I)⟩]

theorem cover1_18 (p0 p1 : Vec F S1x512x1 .f32) (y : S2x512x1.Idx) :
    ∃ pc ∈ ([⟨Rect.unit (s := S2x512x1) ![1, 0, 0] S1x512x1.size inb_S2x512x1_S1x512x1_1_0_0, p0⟩,
        ⟨Rect.unit (s := S2x512x1) ![0, 0, 0] S1x512x1.size inb_S2x512x1_S1x512x1_0_0_0, p1⟩] : List (View.Piece (Elt F) S2x512x1 .f32)), y ∈ pc.1.set :=
  View.cover_of_tiled [⟨Rect.unit (s := S2x512x1) ![1, 0, 0] S1x512x1.size inb_S2x512x1_S1x512x1_1_0_0, p0⟩,
    ⟨Rect.unit (s := S2x512x1) ![0, 0, 0] S1x512x1.size inb_S2x512x1_S1x512x1_0_0_0, p1⟩] S1x512x1.size (by rfl) y

theorem cover1_19 (p0 p1 : Vec F S1x512x64 .f32) (y : S2x512x64.Idx) :
    ∃ pc ∈ ([⟨Rect.unit (s := S2x512x64) ![1, 0, 0] S1x512x64.size inb_S2x512x64_S1x512x64_1_0_0, p0⟩,
        ⟨Rect.unit (s := S2x512x64) ![0, 0, 0] S1x512x64.size inb_S2x512x64_S1x512x64_0_0_0, p1⟩] : List (View.Piece (Elt F) S2x512x64 .f32)), y ∈ pc.1.set :=
  View.cover_of_tiled [⟨Rect.unit (s := S2x512x64) ![1, 0, 0] S1x512x64.size inb_S2x512x64_S1x512x64_1_0_0, p0⟩,
    ⟨Rect.unit (s := S2x512x64) ![0, 0, 0] S1x512x64.size inb_S2x512x64_S1x512x64_0_0_0, p1⟩] S1x512x64.size (by rfl) y

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => out1_18 (ins1 V c t)
    | ⟨19, _⟩ => out1_19 (ins1 V c t)
    | ⟨20, _⟩ => out1_20 (ins1 V c t)
    | ⟨_ + 21, h⟩ => absurd h (Nat.not_lt.2 (Nat.le_add_left _ _))
  Φ _ := Pipeline.ΦA spec1 c
  q _ := fullShare
  owed _ := 0

theorem after1_18 (c : Dev nD) (t : Fin cfg1.N) : (dat1 V c).after 18 t = out1_18 (ins1 V c t) := by dsimp only [dat1]
theorem after1_19 (c : Dev nD) (t : Fin cfg1.N) : (dat1 V c).after 19 t = out1_19 (ins1 V c t) := by dsimp only [dat1]
theorem after1_20 (c : Dev nD) (t : Fin cfg1.N) : (dat1 V c).after 20 t = out1_20 (ins1 V c t) := by dsimp only [dat1]

end Regions

end Cert.KernelIdeal.Hand

end
-- ==== Proof.KI.RunDefs.lean ====
import proofs.«104790_g19069654794669_cont_sun_m_30_11_alg».proof.Proof.KI.Body0
import proofs.«104790_g19069654794669_cont_sun_m_30_11_alg».proof.Proof.KI.Body1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem writes_sub_of_mem {Ws : List (Ref sig .tc)} {y : Ref sig .tc} (h : y ∈ Ws) :
    ({Proc.devRef (τ := τ) .tc y} : Finset (DevRef τ sig)) ⊆ (Ws.map (Proc.devRef (τ := τ) .tc)).toFinset :=
  Finset.singleton_subset_iff.mpr (List.mem_toFinset.mpr (List.mem_map_of_mem h))

abbrev main_part0_ops0_W : List (Ref sig .tc) :=
  [main_v0, main_v1, main_v2, main_v3, main_v4, main_v5, main_v6, main_cst, main_v7, main_v8, main_v9, main_v10, main_v11, main_v12, main_v13, main_v14, main_cst_0, main_v15, main_v16, main_v17, main_v18, main_v19, main_v20, main_v21, main_v22, main_cst_1, main_v23, main_v24, main_v25, main_v26, main_v27, main_v28, main_v29, main_v30, main_cst_2, main_v31, main_v32, main_v33, main_v34, main_v35, main_v36, main_v37, main_v38, main_v39, main_v40, main_v41, main_cst_3, main_v42, main_v43, main_v44, main_v45, main_v46, main_v47, main_cst_4, main_v48, main_v49, main_v50, main_v51, main_v52, main_v53]

theorem main_part0_ops0_fresh : (main_part0_ops0 : List (HloOp τ sig (Elt F))).Forall fun op => op.fresh = ∅ := by
  repeat first | refine ⟨rfl, ?_⟩ | rfl

abbrev main_part1_ops0_W : List (Ref sig .tc) :=
  [main_cst_5, main_v54, main_v55, main_v56, main_v57, main_v58, main_v59, main_cst_6, main_v60, main_v61, main_v62, main_v63, main_v64, main_v65, main_v66, main_v67, main_v68, main_v69, main_v70, main_v71, main_v72, main_cst_7, main_v73, main_v74, main_v75, main_v76, main_v77, main_v78, main_v79, main_v80, main_cst_8, main_v81, main_v82, main_v83, main_v84, main_v85, main_v86, main_v87, main_v88, main_cst_9, main_v89, main_v90, main_v91, main_v92, main_v93, main_v94, main_v95, main_v96, main_v97, main_v98, main_v99, main_v100, main_cst_10, main_v101, main_v102, main_v103, main_v104, main_v105, main_v106, main_v107]

theorem main_part1_ops0_fresh : (main_part1_ops0 : List (HloOp τ sig (Elt F))).Forall fun op => op.fresh = ∅ := by
  repeat first | refine ⟨rfl, ?_⟩ | rfl

abbrev main_part2_ops0_W : List (Ref sig .tc) :=
  [main_v108, main_cst_11, main_v109, main_v110, main_v111, main_v112, main_v113, main_v114, main_v115, main_v116, main_cst_12, main_v117, main_v118, main_v119, main_v120, main_v121, main_v122, main_v123, main_v124, main_v125, main_v126, main_v127, main_cst_13, main_v128, main_v129, main_v130, main_v131, main_v132, main_v133, main_cst_14, main_v134, main_v135, main_v136, main_v137, main_v138, main_v139, main_cst_15, main_v140, main_v141, main_v142, main_v143, main_v144, main_v145, main_v146, main_v147, main_v148, main_v149, main_cst_16, main_v150, main_v151, main_v152, main_v153, main_v154, main_v155, main_cst_17, main_v156, main_v157, main_v158, main_v159, main_v160]

theorem main_part2_ops0_fresh : (main_part2_ops0 : List (HloOp τ sig (Elt F))).Forall fun op => op.fresh = ∅ := by
  repeat first | refine ⟨rfl, ?_⟩ | rfl

abbrev main_part3_ops0_W : List (Ref sig .tc) :=
  [main_v161, main_cst_18, main_v162, main_v163, main_v164, main_v165, main_v166, main_v167, main_v168, main_v169, main_v170, main_v171, main_v172, main_v173, main_v174, main_v175, main_v176, main_v177, main_v178, main_v179, main_v180, main_v181, main_v182, main_v183, main_v184, main_v185, main_cst_19, main_v186, main_v187, main_v188, main_v189, main_v190, main_v191, main_v192, main_v193, main_v194, main_v195, main_v196, main_v197, main_v198, main_v199, main_v200]

theorem main_part3_ops0_fresh : (main_part3_ops0 : List (HloOp τ sig (Elt F))).Forall fun op => op.fresh = ∅ := by
  repeat first | refine ⟨rfl, ?_⟩ | rfl

abbrev main_part3_ops1_W : List (Ref sig .tc) :=
  [main_v202, main_v203, main_v204, main_v205, main_v206, main_v207, main_v208, main_v209, main_v210]

theorem main_part3_ops1_fresh : (main_part3_ops1 : List (HloOp τ sig (Elt F))).Forall fun op => op.fresh = ∅ := by
  repeat first | refine ⟨rfl, ?_⟩ | rfl

abbrev main_part3_ops2_W : List (Ref sig .tc) :=
  [main_v212, main_v213, main_v214, main_v215, main_v216, main_v217]

theorem main_part3_ops2_fresh : (main_part3_ops2 : List (HloOp τ sig (Elt F))).Forall fun op => op.fresh = ∅ := by
  repeat first | refine ⟨rfl, ?_⟩ | rfl

abbrev W0 : Dev nD → Valuation τ sig (Elt F) := fun c b => (s₀ m ρ).mem ((c : Dev nD), b)

abbrev W1 : Dev nD → Valuation τ sig (Elt F) := fun c => StableHlo.after main_part0_ops0 (W0 m ρ c)

abbrev W2 : Dev nD → Valuation τ sig (Elt F) := fun c => StableHlo.after main_part1_ops0 (W1 m ρ c)

abbrev W3 : Dev nD → Valuation τ sig (Elt F) := fun c => StableHlo.after main_part2_ops0 (W2 m ρ c)

abbrev W4 : Dev nD → Valuation τ sig (Elt F) := fun c => StableHlo.after main_part3_ops0 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb

abbrev V5 : (c : Dev nD) → (b : Ref sig .tc) → Buf (Elt F) ((c : Thread nD τ).loc b) := fun c b => W5 m ρ c b

theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after main_part3_ops1 (W5 m ρ c)

abbrev V6 : (c : Dev nD) → (b : Ref sig .tc) → Buf (Elt F) ((c : Thread nD τ).loc b) := fun c b => W6 m ρ c b

def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb

abbrev V7 : (c : Dev nD) → (b : Ref sig .tc) → Buf (Elt F) ((c : Thread nD τ).loc b) := fun c b => W7 m ρ c b

theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

abbrev W8 : Dev nD → Valuation τ sig (Elt F) := fun c => StableHlo.after main_part3_ops2 (W7 m ρ c)

theorem W1_of (c : Dev nD) (r : Ref sig .tc) (h : r ∉ main_part0_ops0_W) :
    W1 m ρ c (Proc.devRef .tc r) = W0 m ρ c (Proc.devRef .tc r) :=
  StableHlo.after_of_writes_sub main_part0_ops0 _ (by repeat first | refine ⟨writes_sub_of_mem (by decide), ?_⟩ | exact writes_sub_of_mem (by decide)) h
theorem W2_of (c : Dev nD) (r : Ref sig .tc) (h : r ∉ main_part1_ops0_W) :
    W2 m ρ c (Proc.devRef .tc r) = W1 m ρ c (Proc.devRef .tc r) :=
  StableHlo.after_of_writes_sub main_part1_ops0 _ (by repeat first | refine ⟨writes_sub_of_mem (by decide), ?_⟩ | exact writes_sub_of_mem (by decide)) h
theorem W3_of (c : Dev nD) (r : Ref sig .tc) (h : r ∉ main_part2_ops0_W) :
    W3 m ρ c (Proc.devRef .tc r) = W2 m ρ c (Proc.devRef .tc r) :=
  StableHlo.after_of_writes_sub main_part2_ops0 _ (by repeat first | refine ⟨writes_sub_of_mem (by decide), ?_⟩ | exact writes_sub_of_mem (by decide)) h
theorem W4_of (c : Dev nD) (r : Ref sig .tc) (h : r ∉ main_part3_ops0_W) :
    W4 m ρ c (Proc.devRef .tc r) = W3 m ρ c (Proc.devRef .tc r) :=
  StableHlo.after_of_writes_sub main_part3_ops0 _ (by repeat first | refine ⟨writes_sub_of_mem (by decide), ?_⟩ | exact writes_sub_of_mem (by decide)) h
theorem W6_of (c : Dev nD) (r : Ref sig .tc) (h : r ∉ main_part3_ops1_W) :
    W6 m ρ c (Proc.devRef .tc r) = W5 m ρ c (Proc.devRef .tc r) :=
  StableHlo.after_of_writes_sub main_part3_ops1 _ (by repeat first | refine ⟨writes_sub_of_mem (by decide), ?_⟩ | exact writes_sub_of_mem (by decide)) h
theorem W8_of (c : Dev nD) (r : Ref sig .tc) (h : r ∉ main_part3_ops2_W) :
    W8 m ρ c (Proc.devRef .tc r) = W7 m ρ c (Proc.devRef .tc r) :=
  StableHlo.after_of_writes_sub main_part3_ops2 _ (by repeat first | refine ⟨writes_sub_of_mem (by decide), ?_⟩ | exact writes_sub_of_mem (by decide)) h

theorem W8_of_host (c : Dev nD) (r : Ref sig .tc)
    (h : r ∉ main_part0_ops0_W ∧ r ∉ main_part1_ops0_W ∧ r ∉ main_part2_ops0_W ∧ r ∉ main_part3_ops0_W ∧ r ∉ main_part3_ops1_W ∧ r ∉ main_part3_ops2_W)
    (h5 : W5 m ρ c (Proc.devRef .tc r) = W4 m ρ c (Proc.devRef .tc r)) (h7 : ∀ w, Pipeline.arrRef spec1 w ≠ r) :
    W8 m ρ c (Proc.devRef .tc r) = m ((c : Thread nD τ).loc r) :=
  (W8_of m ρ c r h.2.2.2.2.2).trans <| (W7_of_ne m ρ c r h7).trans <| (W6_of m ρ c r h.2.2.2.2.1).trans <| h5.trans <|
    (W4_of m ρ c r h.2.2.2.1).trans <| (W3_of m ρ c r h.2.2.1).trans <| (W2_of m ρ c r h.2.1).trans (W1_of m ρ c r h.1)

theorem W8_main_arg0 (c : Dev nD) : W8 m ρ c (Proc.devRef .tc main_arg0) = m ((c : Thread nD τ).loc main_arg0) :=
  W8_of_host m ρ c _ (by decide) (W5_of_ne m ρ c _ (by decide)) (by decide)
theorem W8_main_arg1 (c : Dev nD) : W8 m ρ c (Proc.devRef .tc main_arg1) = m ((c : Thread nD τ).loc main_arg1) :=
  W8_of_host m ρ c _ (by decide) (W5_of_ne m ρ c _ (by decide)) (by decide)
theorem W8_main_arg2 (c : Dev nD) : W8 m ρ c (Proc.devRef .tc main_arg2) = m ((c : Thread nD τ).loc main_arg2) :=
  W8_of_host m ρ c _ (by decide) ((W5_arr m ρ c 0).trans (((dat0 (V4 m ρ) c).arrAt_in 0 rfl _).trans (A_eq0 (V4 m ρ) c 0))) (by decide)
theorem W8_main_arg3 (c : Dev nD) : W8 m ρ c (Proc.devRef .tc main_arg3) = m ((c : Thread nD τ).loc main_arg3) :=
  W8_of_host m ρ c _ (by decide) (W5_of_ne m ρ c _ (by decide)) (by decide)
theorem W8_main_arg4 (c : Dev nD) : W8 m ρ c (Proc.devRef .tc main_arg4) = m ((c : Thread nD τ).loc main_arg4) :=
  W8_of_host m ρ c _ (by decide) (W5_of_ne m ρ c _ (by decide)) (by decide)
theorem W8_main_arg5 (c : Dev nD) : W8 m ρ c (Proc.devRef .tc main_arg5) = m ((c : Thread nD τ).loc main_arg5) :=
  W8_of_host m ρ c _ (by decide) (W5_of_ne m ρ c _ (by decide)) (by decide)
theorem W8_main_arg6 (c : Dev nD) : W8 m ρ c (Proc.devRef .tc main_arg6) = m ((c : Thread nD τ).loc main_arg6) :=
  W8_of_host m ρ c _ (by decide) (W5_of_ne m ρ c _ (by decide)) (by decide)
theorem W8_main_arg7 (c : Dev nD) : W8 m ρ c (Proc.devRef .tc main_arg7) = m ((c : Thread nD τ).loc main_arg7) :=
  W8_of_host m ρ c _ (by decide) (W5_of_ne m ρ c _ (by decide)) (by decide)
theorem W8_main_arg8 (c : Dev nD) : W8 m ρ c (Proc.devRef .tc main_arg8) = m ((c : Thread nD τ).loc main_arg8) :=
  W8_of_host m ρ c _ (by decide) (W5_of_ne m ρ c _ (by decide)) (by decide)
theorem W8_main_arg9 (c : Dev nD) : W8 m ρ c (Proc.devRef .tc main_arg9) = m ((c : Thread nD τ).loc main_arg9) :=
  W8_of_host m ρ c _ (by decide) (W5_of_ne m ρ c _ (by decide)) (by decide)
theorem W8_main_arg10 (c : Dev nD) : W8 m ρ c (Proc.devRef .tc main_arg10) = m ((c : Thread nD τ).loc main_arg10) :=
  W8_of_host m ρ c _ (by decide) (W5_of_ne m ρ c _ (by decide)) (by decide)
theorem W8_main_arg11 (c : Dev nD) : W8 m ρ c (Proc.devRef .tc main_arg11) = m ((c : Thread nD τ).loc main_arg11) :=
  W8_of_host m ρ c _ (by decide) (W5_of_ne m ρ c _ (by decide)) (by decide)
theorem W8_main_arg12 (c : Dev nD) : W8 m ρ c (Proc.devRef .tc main_arg12) = m ((c : Thread nD τ).loc main_arg12) :=
  W8_of_host m ρ c _ (by decide) (W5_of_ne m ρ c _ (by decide)) (by decide)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Body1.lean ====
import proofs.«104790_g19069654794669_cont_sun_m_30_11_alg».proof.Proof.KI.Body1Defs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

-- A load through a rectangle of a buffer that reads `X` reads `X` at the rectangle's indices.
theorem ldEq {κ : Kind} {sp : Space} {s : Shape} {e : EltTy} {v : View sig κ sp s e} {f : v.ty.Contents (Elt F)} {X : s.Idx → Elt F e}
    (h : v.read (Elt F) f = X) (r : Rect s) : v.readAt (Elt F) r f = View.ld X r := by subst h; rfl

-- The two stores of each output tile its buffer, so what the buffer held does not matter.
theorem sound_kernel1 (c : Dev nD) (E : Set ℕ) (i : grid1.Coords) (arg1 : Memref sig .tc .vmem S512x512 .f32) (harg1 : arg1.IsWhole) (arg2 : Memref sig .tc .vmem S2x512x3 .f32) (harg2 : arg2.IsWhole) (arg3 : Memref sig .tc .vmem S2x512x64 .f32) (harg3 : arg3.IsWhole) (arg4 : Memref sig .tc .vmem S2x512x64 .f32) (harg4 : arg4.IsWhole) (arg5 : Memref sig .tc .vmem S6x256 .bf16) (harg5 : arg5.IsWhole) (arg6 : Memref sig .tc .vmem S3x128x256 .bf16) (harg6 : arg6.IsWhole) (arg7 : Memref sig .tc .vmem S1x256 .f32) (harg7 : arg7.IsWhole) (arg8 : Memref sig .tc .vmem S6x128 .bf16) (harg8 : arg8.IsWhole) (arg9 : Memref sig .tc .vmem S3x128x128 .bf16) (harg9 : arg9.IsWhole) (arg10 : Memref sig .tc .vmem S1x128 .f32) (harg10 : arg10.IsWhole) (arg11 : Memref sig .tc .vmem S3x128x256 .bf16) (harg11 : arg11.IsWhole) (arg12 : Memref sig .tc .vmem S3x128x256 .bf16) (harg12 : arg12.IsWhole) (arg13 : Memref sig .tc .vmem S1x256 .f32) (harg13 : arg13.IsWhole) (arg14 : Memref sig .tc .vmem S3x128x128 .bf16) (harg14 : arg14.IsWhole) (arg15 : Memref sig .tc .vmem S3x128x128 .bf16) (harg15 : arg15.IsWhole) (arg16 : Memref sig .tc .vmem S1x128 .f32) (harg16 : arg16.IsWhole) (arg17 : Memref sig .tc .vmem S128x2 .bf16) (harg17 : arg17.IsWhole) (arg18 : Memref sig .tc .vmem S1x1 .f32) (harg18 : arg18.IsWhole) (arg19 : Memref sig .tc .vmem S2x512x1 .f32) (harg19 : arg19.IsWhole) (arg20 : Memref sig .tc .vmem S2x512x64 .f32) (harg20 : arg20.IsWhole) (arg21 : Memref sig .tc .vmem S2x512x64 .f32) (harg21 : arg21.IsWhole)
    (I : Ins F) (R₁ R₂ : sProp 𝕄) {D0 D1 D2 D3 D4 D5 D6 D7 D8 D9 D10 D11 D12 D13 D14 D15 D16 D17 D18 D19 D20 : Type}
    (g18 : D18 → Vec F S2x512x1 .f32) (g19 : D19 → Vec F S2x512x64 .f32) (g20 : D20 → Vec F S2x512x64 .f32) :
    iprop(R₁ ∗ R₂ ∗ (∃ _ : D0, owns c arg1 fullShare I.x0) ∗ (∃ _ : D1, owns c arg2 fullShare I.x1) ∗ (∃ _ : D2, owns c arg3 fullShare I.x2) ∗ (∃ _ : D3, owns c arg4 fullShare I.x3) ∗ (∃ _ : D4, owns c arg5 fullShare I.x4) ∗ (∃ _ : D5, owns c arg6 fullShare I.x5) ∗ (∃ _ : D6, owns c arg7 fullShare I.x6) ∗ (∃ _ : D7, owns c arg8 fullShare I.x7) ∗ (∃ _ : D8, owns c arg9 fullShare I.x8) ∗ (∃ _ : D9, owns c arg10 fullShare I.x9) ∗ (∃ _ : D10, owns c arg11 fullShare I.x10) ∗ (∃ _ : D11, owns c arg12 fullShare I.x11) ∗ (∃ _ : D12, owns c arg13 fullShare I.x12) ∗ (∃ _ : D13, owns c arg14 fullShare I.x13) ∗ (∃ _ : D14, owns c arg15 fullShare I.x14) ∗ (∃ _ : D15, owns c arg16 fullShare I.x15) ∗ (∃ _ : D16, owns c arg17 fullShare I.x16) ∗ (∃ _ : D17, owns c arg18 fullShare I.x17)
        ∗ (∃ d, owns c arg19 fullShare (g18 d)) ∗ (∃ d, owns c arg20 fullShare (g19 d)) ∗ (∃ d, owns c arg21 fullShare (g20 d)))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) fun _ =>
        iprop(R₁ ∗ R₂ ∗ owns c arg1 fullShare I.x0 ∗ owns c arg2 fullShare I.x1 ∗ owns c arg3 fullShare I.x2 ∗ owns c arg4 fullShare I.x3 ∗ owns c arg5 fullShare I.x4 ∗ owns c arg6 fullShare I.x5 ∗ owns c arg7 fullShare I.x6 ∗ owns c arg8 fullShare I.x7 ∗ owns c arg9 fullShare I.x8 ∗ owns c arg10 fullShare I.x9 ∗ owns c arg11 fullShare I.x10 ∗ owns c arg12 fullShare I.x11 ∗ owns c arg13 fullShare I.x12 ∗ owns c arg14 fullShare I.x13 ∗ owns c arg15 fullShare I.x14 ∗ owns c arg16 fullShare I.x15 ∗ owns c arg17 fullShare I.x16 ∗ owns c arg18 fullShare I.x17
          ∗ owns c arg19 fullShare (out1_18 I) ∗ owns c arg20 fullShare (out1_19 I) ∗ owns c arg21 fullShare (out1_20 I)) := by
  simp only [cc1__main_kernel_eq_skeleton]; unfold cc1__main_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  unfold owns
  iintro ⟨HR₁, HR₂, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, -, H18⟩, ⟨%d19, %f19, -, H19⟩, ⟨%d20, %f20, -, H20⟩⟩
  have e_v0 := ldEq hf0 (Rect.unit (s := S512x512) ![0, 0] S512x512.size inb_S512x512_S512x512_0_0)
  have e_v3 := ldEq hf1 (Rect.unit (s := S2x512x3) ![0, 0, 0] S1x512x3.size inb_S2x512x3_S1x512x3_0_0_0)
  have e_v5 := ldEq hf1 (Rect.unit (s := S2x512x3) ![1, 0, 0] S1x512x3.size inb_S2x512x3_S1x512x3_1_0_0)
  have e_v8 := ldEq hf2 (Rect.unit (s := S2x512x64) ![0, 0, 0] S1x512x64.size inb_S2x512x64_S1x512x64_0_0_0)
  have e_v10 := ldEq hf2 (Rect.unit (s := S2x512x64) ![1, 0, 0] S1x512x64.size inb_S2x512x64_S1x512x64_1_0_0)
  have e_v13 := ldEq hf6 (Rect.unit (s := S1x256) ![0, 0] S1x256.size inb_S1x256_S1x256_0_0)
  have e_v15 := ldEq hf4 (Rect.unit (s := S6x256) ![0, 0] S6x256.size inb_S6x256_S6x256_0_0)
  have e_v21 := ldEq hf5 (Rect.unit (s := S3x128x256) ![0, 0, 0] S1x128x256.size inb_S3x128x256_S1x128x256_0_0_0)
  have e_v28 := ldEq hf5 (Rect.unit (s := S3x128x256) ![1, 0, 0] S1x128x256.size inb_S3x128x256_S1x128x256_1_0_0)
  have e_v38 := ldEq hf5 (Rect.unit (s := S3x128x256) ![2, 0, 0] S1x128x256.size inb_S3x128x256_S1x128x256_2_0_0)
  have e_v47 := ldEq hf9 (Rect.unit (s := S1x128) ![0, 0] S1x128.size inb_S1x128_S1x128_0_0)
  have e_v49 := ldEq hf7 (Rect.unit (s := S6x128) ![0, 0] S6x128.size inb_S6x128_S6x128_0_0)
  have e_v55 := ldEq hf8 (Rect.unit (s := S3x128x128) ![0, 0, 0] S1x128x128.size inb_S3x128x128_S1x128x128_0_0_0)
  have e_v62 := ldEq hf8 (Rect.unit (s := S3x128x128) ![1, 0, 0] S1x128x128.size inb_S3x128x128_S1x128x128_1_0_0)
  have e_v72 := ldEq hf8 (Rect.unit (s := S3x128x128) ![2, 0, 0] S1x128x128.size inb_S3x128x128_S1x128x128_2_0_0)
  have e_v91 := ldEq hf3 (Rect.unit (s := S2x512x64) ![0, 0, 0] S1x512x64.size inb_S2x512x64_S1x512x64_0_0_0)
  have e_v93 := ldEq hf3 (Rect.unit (s := S2x512x64) ![1, 0, 0] S1x512x64.size inb_S2x512x64_S1x512x64_1_0_0)
  have e_v96 := ldEq hf12 (Rect.unit (s := S1x256) ![0, 0] S1x256.size inb_S1x256_S1x256_0_0)
  have e_v98 := ldEq hf10 (Rect.unit (s := S3x128x256) ![0, 0, 0] S1x128x256.size inb_S3x128x256_S1x128x256_0_0_0)
  have e_v104 := ldEq hf11 (Rect.unit (s := S3x128x256) ![0, 0, 0] S1x128x256.size inb_S3x128x256_S1x128x256_0_0_0)
  have e_v111 := ldEq hf10 (Rect.unit (s := S3x128x256) ![1, 0, 0] S1x128x256.size inb_S3x128x256_S1x128x256_1_0_0)
  have e_v118 := ldEq hf11 (Rect.unit (s := S3x128x256) ![1, 0, 0] S1x128x256.size inb_S3x128x256_S1x128x256_1_0_0)
  have e_v128 := ldEq hf10 (Rect.unit (s := S3x128x256) ![2, 0, 0] S1x128x256.size inb_S3x128x256_S1x128x256_2_0_0)
  have e_v138 := ldEq hf11 (Rect.unit (s := S3x128x256) ![2, 0, 0] S1x128x256.size inb_S3x128x256_S1x128x256_2_0_0)
  have e_v147 := ldEq hf15 (Rect.unit (s := S1x128) ![0, 0] S1x128.size inb_S1x128_S1x128_0_0)
  have e_v149 := ldEq hf13 (Rect.unit (s := S3x128x128) ![0, 0, 0] S1x128x128.size inb_S3x128x128_S1x128x128_0_0_0)
  have e_v155 := ldEq hf13 (Rect.unit (s := S3x128x128) ![1, 0, 0] S1x128x128.size inb_S3x128x128_S1x128x128_1_0_0)
  have e_v160 := ldEq hf13 (Rect.unit (s := S3x128x128) ![2, 0, 0] S1x128x128.size inb_S3x128x128_S1x128x128_2_0_0)
  have e_v165 := ldEq hf14 (Rect.unit (s := S3x128x128) ![0, 0, 0] S1x128x128.size inb_S3x128x128_S1x128x128_0_0_0)
  have e_v172 := ldEq hf14 (Rect.unit (s := S3x128x128) ![1, 0, 0] S1x128x128.size inb_S3x128x128_S1x128x128_1_0_0)
  have e_v182 := ldEq hf14 (Rect.unit (s := S3x128x128) ![2, 0, 0] S1x128x128.size inb_S3x128x128_S1x128x128_2_0_0)
  have e_v201 := ldEq hf16 (Rect.unit (s := S128x2) ![0, 0] S128x2.size inb_S128x2_S128x2_0_0)
  have e_v205 := ldEq hf17 (Rect.unit (s := S1x1) ![0, 0] S1x1.size inb_S1x1_S1x1_0_0)
  sl_exec
  sl_step
  isplitl [HR₁]; · iexact HR₁
  isplitl [HR₂]; · iexact HR₂
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  isplitl [H13]
  · iexists f13; isplitr; · ipureintro; exact hf13
    iexact H13
  isplitl [H14]
  · iexists f14; isplitr; · ipureintro; exact hf14
    iexact H14
  isplitl [H15]
  · iexists f15; isplitr; · ipureintro; exact hf15
    iexact H15
  isplitl [H16]
  · iexists f16; isplitr; · ipureintro; exact hf16
    iexact H16
  isplitl [H17]
  · iexists f17; isplitr; · ipureintro; exact hf17
    iexact H17
  isplitl [H18]
  · iexists _; isplitr
    swap; · iexact H18
    ipureintro
    refine (View.read_writes_eq_canon _ _ _ (cover1_18 _ _)).trans ?_
    dsimp only
    rfl
  isplitl [H19]
  · iexists _; isplitr
    swap; · iexact H19
    ipureintro
    refine (View.read_writes_eq_canon _ _ _ (cover1_19 _ _)).trans ?_
    dsimp only
    rfl
  iexists _; isplitr
  swap; · iexact H20
  ipureintro
  refine (View.read_writes_eq_canon _ _ _ (cover1_19 _ _)).trans ?_
  dsimp only
  rfl

theorem before1_0 (c : Dev nD) (t : Fin cfg1.N) (d) : (dat1 V c).before 0 t d = (dat1 V c).fetched 0 t d :=
  (dat1 V c).before_in_eq_fetched 0 rfl (fun _ => rfl) (fun _ _ _ => rfl) (fun _ => by dsimp only [dat1]; rfl) t d
theorem before1_1 (c : Dev nD) (t : Fin cfg1.N) (d) : (dat1 V c).before 1 t d = (dat1 V c).fetched 1 t d :=
  (dat1 V c).before_in_eq_fetched 1 rfl (fun _ => rfl) (fun _ _ _ => rfl) (fun _ => by dsimp only [dat1]; rfl) t d
theorem before1_2 (c : Dev nD) (t : Fin cfg1.N) (d) : (dat1 V c).before 2 t d = (dat1 V c).fetched 2 t d :=
  (dat1 V c).before_in_eq_fetched 2 rfl (fun _ => rfl) (fun _ _ _ => rfl) (fun _ => by dsimp only [dat1]; rfl) t d
theorem before1_3 (c : Dev nD) (t : Fin cfg1.N) (d) : (dat1 V c).before 3 t d = (dat1 V c).fetched 3 t d :=
  (dat1 V c).before_in_eq_fetched 3 rfl (fun _ => rfl) (fun _ _ _ => rfl) (fun _ => by dsimp only [dat1]; rfl) t d
theorem before1_4 (c : Dev nD) (t : Fin cfg1.N) (d) : (dat1 V c).before 4 t d = (dat1 V c).fetched 4 t d :=
  (dat1 V c).before_in_eq_fetched 4 rfl (fun _ => rfl) (fun _ _ _ => rfl) (fun _ => by dsimp only [dat1]; rfl) t d
theorem before1_5 (c : Dev nD) (t : Fin cfg1.N) (d) : (dat1 V c).before 5 t d = (dat1 V c).fetched 5 t d :=
  (dat1 V c).before_in_eq_fetched 5 rfl (fun _ => rfl) (fun _ _ _ => rfl) (fun _ => by dsimp only [dat1]; rfl) t d
theorem before1_6 (c : Dev nD) (t : Fin cfg1.N) (d) : (dat1 V c).before 6 t d = (dat1 V c).fetched 6 t d :=
  (dat1 V c).before_in_eq_fetched 6 rfl (fun _ => rfl) (fun _ _ _ => rfl) (fun _ => by dsimp only [dat1]; rfl) t d
theorem before1_7 (c : Dev nD) (t : Fin cfg1.N) (d) : (dat1 V c).before 7 t d = (dat1 V c).fetched 7 t d :=
  (dat1 V c).before_in_eq_fetched 7 rfl (fun _ => rfl) (fun _ _ _ => rfl) (fun _ => by dsimp only [dat1]; rfl) t d
theorem before1_8 (c : Dev nD) (t : Fin cfg1.N) (d) : (dat1 V c).before 8 t d = (dat1 V c).fetched 8 t d :=
  (dat1 V c).before_in_eq_fetched 8 rfl (fun _ => rfl) (fun _ _ _ => rfl) (fun _ => by dsimp only [dat1]; rfl) t d
theorem before1_9 (c : Dev nD) (t : Fin cfg1.N) (d) : (dat1 V c).before 9 t d = (dat1 V c).fetched 9 t d :=
  (dat1 V c).before_in_eq_fetched 9 rfl (fun _ => rfl) (fun _ _ _ => rfl) (fun _ => by dsimp only [dat1]; rfl) t d
theorem before1_10 (c : Dev nD) (t : Fin cfg1.N) (d) : (dat1 V c).before 10 t d = (dat1 V c).fetched 10 t d :=
  (dat1 V c).before_in_eq_fetched 10 rfl (fun _ => rfl) (fun _ _ _ => rfl) (fun _ => by dsimp only [dat1]; rfl) t d
theorem before1_11 (c : Dev nD) (t : Fin cfg1.N) (d) : (dat1 V c).before 11 t d = (dat1 V c).fetched 11 t d :=
  (dat1 V c).before_in_eq_fetched 11 rfl (fun _ => rfl) (fun _ _ _ => rfl) (fun _ => by dsimp only [dat1]; rfl) t d
theorem before1_12 (c : Dev nD) (t : Fin cfg1.N) (d) : (dat1 V c).before 12 t d = (dat1 V c).fetched 12 t d :=
  (dat1 V c).before_in_eq_fetched 12 rfl (fun _ => rfl) (fun _ _ _ => rfl) (fun _ => by dsimp only [dat1]; rfl) t d
theorem before1_13 (c : Dev nD) (t : Fin cfg1.N) (d) : (dat1 V c).before 13 t d = (dat1 V c).fetched 13 t d :=
  (dat1 V c).before_in_eq_fetched 13 rfl (fun _ => rfl) (fun _ _ _ => rfl) (fun _ => by dsimp only [dat1]; rfl) t d
theorem before1_14 (c : Dev nD) (t : Fin cfg1.N) (d) : (dat1 V c).before 14 t d = (dat1 V c).fetched 14 t d :=
  (dat1 V c).before_in_eq_fetched 14 rfl (fun _ => rfl) (fun _ _ _ => rfl) (fun _ => by dsimp only [dat1]; rfl) t d
theorem before1_15 (c : Dev nD) (t : Fin cfg1.N) (d) : (dat1 V c).before 15 t d = (dat1 V c).fetched 15 t d :=
  (dat1 V c).before_in_eq_fetched 15 rfl (fun _ => rfl) (fun _ _ _ => rfl) (fun _ => by dsimp only [dat1]; rfl) t d
theorem before1_16 (c : Dev nD) (t : Fin cfg1.N) (d) : (dat1 V c).before 16 t d = (dat1 V c).fetched 16 t d :=
  (dat1 V c).before_in_eq_fetched 16 rfl (fun _ => rfl) (fun _ _ _ => rfl) (fun _ => by dsimp only [dat1]; rfl) t d
theorem before1_17 (c : Dev nD) (t : Fin cfg1.N) (d) : (dat1 V c).before 17 t d = (dat1 V c).fetched 17 t d :=
  (dat1 V c).before_in_eq_fetched 17 rfl (fun _ => rfl) (fun _ _ _ => rfl) (fun _ => by dsimp only [dat1]; rfl) t d

theorem body_obligation1 (c : Dev nD) : BodyObligation (dat1 (F := F) V c) (defs₀ (F := F)) Variants.none () Set.univ := fun t => by
  rw [bigSep_W1, bigSep_W1]
  simp only [before1_0, before1_1, before1_2, before1_3, before1_4, before1_5, before1_6, before1_7, before1_8, before1_9, before1_10, before1_11, before1_12, before1_13, before1_14, before1_15, before1_16, before1_17]
  dsimp only [dat1]
  exact sound_kernel1 c _ _ _ _ _ _ _ _ _ _ _ _ _ _ _ _ _ _ _ _ _ _ _ _ _ _ _ _ _ _ _ _ _ _ _ _ _ _ _ _ _ _ _ _ (ins1 V c t) _ _ _ _ _

end Regions

end Cert.KernelIdeal.Hand

end
-- ==== Proof.KI.Run.lean ====
import proofs.«104790_g19069654794669_cont_sun_m_30_11_alg».proof.Proof.KI.RunDefs
import proofs.«104790_g19069654794669_cont_sun_m_30_11_alg».proof.Proof.KI.Body0
import proofs.«104790_g19069654794669_cont_sun_m_30_11_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W8 m ρ c) ∗ ∃ r, prngReg c r)

set_option backward.isDefEq.respectTransparency.types false in
def regOf (p : Fin 2) (lf : Pipeline.LaunchFacts (nD := nD) (τ := τ) cfgs p) (Wa Wb : Dev nD → Valuation τ sig (Elt F))
    (hbody : ∀ c, Pipeline.BodyObligationLoose (pdats m ρ p c) (defs₀ (F := F)) 𝒱₀ () Set.univ)
    (howed : ∀ c t, (pdats m ρ p c).owed t = 0) (hrec : ∀ c t, (pdats m ρ p c).recorded t = Set.univ) (hq : ∀ c w, (pdats m ρ p c).q w = fullShare)
    (hΦ : ∀ c i, (pdats m ρ p c).Φ i = Pipeline.ΦA (Pipeline.pin (pcfgs (F := F)) adm p).spec c)
    (hA : ∀ c w, (pdats m ρ p c).A w = Wa c (Pipeline.arrRef (Pipeline.pin (pcfgs (F := F)) adm p).spec w))
    (hF : ∀ c w, (pdats m ρ p c).arrAt w (Pipeline.pin (pcfgs (F := F)) adm p).N = Wb c (Pipeline.arrRef (Pipeline.pin (pcfgs (F := F)) adm p).spec w))
    (hrest : ∀ c b, b ∉ Finset.univ.image (Pipeline.arrRef (Pipeline.pin (pcfgs (F := F)) adm p).spec) → Wb c (Proc.devRef .tc b) = Wa c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => Wa c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wa c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wa c b) (fun b => Wb c b) ((pdats m ρ p c).arrAt · _) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W4 m ρ) (W5 m ρ) (fun c => (body_obligation0 (V4 m ρ) c).loose) (fun _ _ => rfl) (fun _ _ => rfl) (fun _ _ => rfl)
    (fun _ _ => rfl) (fun _ _ => rfl) (hF0 m ρ) (hrest0 m ρ)

set_option backward.isDefEq.respectTransparency.types false in
def reg1 : Pipeline.RegionSeg (pcfgs (F := F)) adm (pdats m ρ) () defs₀ 𝒱₀ L lv 1 :=
  regOf m ρ 1 launch1 (W6 m ρ) (W7 m ρ) (fun c => (body_obligation1 (V6 m ρ) c).loose) (fun _ _ => rfl) (fun _ _ => rfl) (fun _ _ => rfl)
    (fun _ _ => rfl) (fun _ _ => rfl) (hF1 m ρ) (hrest1 m ρ)

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .host (hseg main_part2_ops0 main_part2_ops0_sub main_part2_ops0_fresh (W2 m ρ)),
    .host (hseg main_part3_ops0 main_part3_ops0_sub main_part3_ops0_fresh (W3 m ρ)),
    .region (reg0 m ρ),
    .host (hseg main_part3_ops1 main_part3_ops1_sub main_part3_ops1_fresh (W5 m ρ)),
    .region (reg1 m ρ),
    .host (hseg main_part3_ops2 main_part3_ops2_sub main_part3_ops2_fresh (W7 m ρ)) ]

theorem main_run (c : Dev nD) : main (F := F) c = Pipeline.Seg.run (segs m ρ) := (main_chain_windows c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c)⟩) (run_all m ρ)

end Cert.KernelIdeal.Hand

end
-- ==== Proof.Val.HostA.lean ====
import proofs.«104790_g19069654794669_cont_sun_m_30_11_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.ShloMosaic.ValueIdx
  Idealize.ShloMosaic.StableHlo

abbrev WhA (F0 : Valuation τ sig (Elt Ideal)) : Valuation τ sig (Elt Ideal) :=
  StableHlo.after main_part3_ops0 (StableHlo.after main_part2_ops0 (StableHlo.after main_part1_ops0 (StableHlo.after main_part0_ops0 F0)))

variable (F0 : Valuation τ sig (Elt Ideal))

set_option maxHeartbeats 2000000

theorem hw_v0 (n : Fin 512) (b : Fin 64) :
    (WhA F0 (Proc.devRef .tc main_v0) : S512x64.Idx → EReal) (ix2 n b)
      = (F0 (Proc.devRef .tc main_arg0) : S64x512.Idx → EReal) (ix2 b n) := by
  dsimp only [WhA]
  after_results_simp
  exact transpose_ix2_apply _ _ n b

theorem hw_v1 (l : Fin 2) (b : Fin 64) (n : Fin 512) (u : Fin 64) :
    (WhA F0 (Proc.devRef .tc main_v1) : S2x64x512x64.Idx → EReal) (ix4 l b n u)
      = (F0 (Proc.devRef .tc main_arg1) : S2x64x32768.Idx → EReal)
          (ix3 l b ⟨n.val * 64 + u.val, by have := n.isLt; have := u.isLt; omega⟩) := by
  dsimp only [WhA]
  after_results_simp
  exact shapeCast_apply (s := S2x64x32768) (t := S2x64x512x64) _ _ _ _ (by
    rw [Shape.rowMajor_val_three, Shape.rowMajor_val_four]
    show (l.val * 64 + b.val) * 32768 + (n.val * 64 + u.val) = ((l.val * 64 + b.val) * 512 + n.val) * 64 + u.val
    omega)

theorem hw_v200 (i j : Fin 512) :
    (WhA F0 (Proc.devRef .tc main_v200) : S512x512.Idx → EReal) (ix2 i j)
      = (F0 (Proc.devRef .tc main_arg2) : S512x512.Idx → EReal) (ix2 j i) := by
  dsimp only [WhA]
  after_results_simp
  exact transpose_ix2_apply _ _ i j

end Cert.KernelIdeal.Hand

end
-- ==== Proof.Spec.lean ====
import Idealize.ShloMosaic.PureOps.Ideal
import Mathlib.Algebra.BigOperators.Group.Finset.Basic

noncomputable section

namespace Cert.Spec

open Idealize.ShloMosaic
open scoped BigOperators

def amax (adj : Fin 512 → Fin 512 → EReal) (i j : Fin 512) : EReal := max (adj i j) (adj j i)

def deg (adj : Fin 512 → Fin 512 → EReal) (i : Fin 512) : EReal := ∑ j, amax adj i j

def dis (adj : Fin 512 → Fin 512 → EReal) (i : Fin 512) : EReal :=
  if 0 < deg adj i then Ideal.div 1 (Ideal.sqrt (deg adj i)) else 0

def sup (adj : Fin 512 → Fin 512 → EReal) (i j : Fin 512) : EReal := -(dis adj i * amax adj i j * dis adj j)

def diff (S : Fin 512 → Fin 512 → EReal) (v : Fin 512 → EReal) (n : Fin 512) : EReal := ∑ m, S n m * v m

def cheb (S : Fin 512 → Fin 512 → EReal) (k : Fin 3) (v : Fin 512 → EReal) : Fin 512 → EReal :=
  match k with
  | 0 => v
  | 1 => diff S v
  | 2 => fun n => 2 * diff S (diff S v) n - v n

def feat0 (x : Fin 512 → EReal) (st : Fin 512 → Fin 64 → EReal) (f : Fin 65) : Fin 512 → EReal :=
  Fin.cases x (fun u m => st m u) f

def feat1 (x : Fin 512 → Fin 64 → EReal) (st : Fin 512 → Fin 64 → EReal) (f : Fin 128) : Fin 512 → EReal :=
  Fin.addCases (m := 64) (n := 64) (fun u m => x m u) (fun u m => st m u) f

def gconv0 {no : ℕ} (S : Fin 512 → Fin 512 → EReal) (X : Fin 65 → Fin 512 → EReal)
    (W : Fin 195 → Fin no → EReal) (bias : Fin no → EReal) (n : Fin 512) (q : Fin no) : EReal :=
  (∑ j : Fin 195, cheb S ⟨j.val % 3, Nat.mod_lt _ (by decide)⟩ (X ⟨j.val / 3, by have := j.isLt; omega⟩) n * W j q) + bias q

def gconv1 {no : ℕ} (S : Fin 512 → Fin 512 → EReal) (X : Fin 128 → Fin 512 → EReal)
    (W : Fin 384 → Fin no → EReal) (bias : Fin no → EReal) (n : Fin 512) (q : Fin no) : EReal :=
  (∑ j : Fin 384, cheb S ⟨j.val % 3, Nat.mod_lt _ (by decide)⟩ (X ⟨j.val / 3, by have := j.isLt; omega⟩) n * W j q) + bias q

def gate (g : Fin 512 → Fin 128 → EReal) (n : Fin 512) (q : Fin 128) : EReal := Ideal.logistic (g n q)

def mix (uu st cc : EReal) : EReal := uu * st + (1 - uu) * Ideal.tanh cc

section Cell

variable (S : Fin 512 → Fin 512 → EReal)

def gate0 (x : Fin 512 → EReal) (st : Fin 512 → Fin 64 → EReal) (Wru : Fin 195 → Fin 128 → EReal) (bru : Fin 128 → EReal)
    (n : Fin 512) (q : Fin 128) : EReal := gate (gconv0 S (feat0 x st) Wru bru) n q
def rs0 (x : Fin 512 → EReal) (st : Fin 512 → Fin 64 → EReal) (Wru : Fin 195 → Fin 128 → EReal) (bru : Fin 128 → EReal)
    (n : Fin 512) (u : Fin 64) : EReal := gate0 S x st Wru bru n (Fin.castAdd 64 u) * st n u
def cell0 (x : Fin 512 → EReal) (st : Fin 512 → Fin 64 → EReal) (Wru : Fin 195 → Fin 128 → EReal) (bru : Fin 128 → EReal)
    (Wc : Fin 195 → Fin 64 → EReal) (bc : Fin 64 → EReal) (n : Fin 512) (u : Fin 64) : EReal :=
  mix (gate0 S x st Wru bru n (Fin.natAdd 64 u)) (st n u) (gconv0 S (feat0 x (rs0 S x st Wru bru)) Wc bc n u)

def gate1 (x st : Fin 512 → Fin 64 → EReal) (Wru : Fin 384 → Fin 128 → EReal) (bru : Fin 128 → EReal)
    (n : Fin 512) (q : Fin 128) : EReal := gate (gconv1 S (feat1 x st) Wru bru) n q
def rs1 (x st : Fin 512 → Fin 64 → EReal) (Wru : Fin 384 → Fin 128 → EReal) (bru : Fin 128 → EReal)
    (n : Fin 512) (u : Fin 64) : EReal := gate1 S x st Wru bru n (Fin.castAdd 64 u) * st n u
def cell1 (x st : Fin 512 → Fin 64 → EReal) (Wru : Fin 384 → Fin 128 → EReal) (bru : Fin 128 → EReal)
    (Wc : Fin 384 → Fin 64 → EReal) (bc : Fin 64 → EReal) (n : Fin 512) (u : Fin 64) : EReal :=
  mix (gate1 S x st Wru bru n (Fin.natAdd 64 u)) (st n u) (gconv1 S (feat1 x (rs1 S x st Wru bru)) Wc bc n u)

def proj (h : Fin 512 → Fin 64 → EReal) (Wp : Fin 64 → EReal) (bp : EReal) (n : Fin 512) : EReal := (∑ u : Fin 64, h n u * Wp u) + bp

end Cell

section Model

variable (inp : Fin 64 → Fin 512 → EReal) (hid : Fin 2 → Fin 64 → Fin 512 → Fin 64 → EReal)
  (adj : Fin 512 → Fin 512 → EReal)
  (Wru0 : Fin 195 → Fin 128 → EReal) (bru0 : Fin 128 → EReal) (Wc0 : Fin 195 → Fin 64 → EReal) (bc0 : Fin 64 → EReal)
  (Wru1 : Fin 384 → Fin 128 → EReal) (bru1 : Fin 128 → EReal) (Wc1 : Fin 384 → Fin 64 → EReal) (bc1 : Fin 64 → EReal)
  (Wp : Fin 64 → EReal) (bp : EReal)

def h0 (b : Fin 64) : Fin 512 → Fin 64 → EReal := cell0 (sup adj) (inp b) (hid 0 b) Wru0 bru0 Wc0 bc0
def h1 (b : Fin 64) : Fin 512 → Fin 64 → EReal :=
  cell1 (sup adj) (h0 inp hid adj Wru0 bru0 Wc0 bc0 b) (hid 1 b) Wru1 bru1 Wc1 bc1
def out (b : Fin 64) (n : Fin 512) : EReal :=
  proj (h1 inp hid adj Wru0 bru0 Wc0 bc0 Wru1 bru1 Wc1 bc1 b) Wp bp n

end Model

end Cert.Spec

end
-- ==== Proof.Pair.lean ====
import Mathlib.Data.EReal.Basic

noncomputable section

namespace Cert.Pair

def ru {r : ℕ} (w : Fin r → Fin 128 → EReal) (j : Fin (2 * r)) (c : Fin 256) : EReal :=
  if h : j.val / r = (c.val / 64) % 2 then
    w ⟨j.val % r, Nat.mod_lt _ (Nat.pos_of_ne_zero (by rintro rfl; exact absurd j.isLt (by simp)))⟩
      ⟨(c.val / 128) * 64 + c.val % 64, by have := c.isLt; omega⟩
  else 0

def cc {r : ℕ} (w : Fin r → Fin 64 → EReal) (j : Fin (2 * r)) (c : Fin 128) : EReal :=
  if h : j.val / r = c.val / 64 then
    w ⟨j.val % r, Nat.mod_lt _ (Nat.pos_of_ne_zero (by rintro rfl; exact absurd j.isLt (by simp)))⟩
      ⟨c.val % 64, Nat.mod_lt _ (by decide)⟩
  else 0

def pp (w : Fin 64 → EReal) (j : Fin 128) (c : Fin 2) : EReal :=
  if j.val / 64 = c.val then w ⟨j.val % 64, Nat.mod_lt _ (by decide)⟩ else 0

def bru (b : Fin 128 → EReal) (c : Fin 256) : EReal := b ⟨(c.val / 128) * 64 + c.val % 64, by have := c.isLt; omega⟩

def bcc (b : Fin 64 → EReal) (c : Fin 128) : EReal := b ⟨c.val % 64, Nat.mod_lt _ (by decide)⟩

end Cert.Pair

end
-- ==== Proof.Adapt.lean ====
import proofs.«104790_g19069654794669_cont_sun_m_30_11_alg».proof.Proof.Spec
import Idealize.ShloMosaic.Lib.ValueIdx

noncomputable section

namespace Cert.Adapt

open Idealize.ShloMosaic Idealize.ShloMosaic.ValueIdx

def mat {a b : ℕ} (x : (⟨2, ![a, b]⟩ : Shape).Idx → EReal) (i : Fin a) (j : Fin b) : EReal := x (ix2 i j)
def vec {a : ℕ} (x : (⟨1, ![a]⟩ : Shape).Idx → EReal) (i : Fin a) : EReal := x (ix1 i)
def hid (x1 : (⟨3, ![2, 64, 32768]⟩ : Shape).Idx → EReal) (l : Fin 2) (b : Fin 64) (n : Fin 512) (u : Fin 64) : EReal :=
  x1 (ix3 l b ⟨n.val * 64 + u.val, by have := n.isLt; have := u.isLt; omega⟩)
def col (x11 : (⟨2, ![64, 1]⟩ : Shape).Idx → EReal) (u : Fin 64) : EReal := x11 (ix2 u 0)
def scal (x12 : (⟨1, ![1]⟩ : Shape).Idx → EReal) : EReal := x12 (ix1 0)

section

variable (x0 : (⟨2, ![64, 512]⟩ : Shape).Idx → EReal) (x1 : (⟨3, ![2, 64, 32768]⟩ : Shape).Idx → EReal)
  (x2 : (⟨2, ![512, 512]⟩ : Shape).Idx → EReal)
  (x3 : (⟨2, ![195, 128]⟩ : Shape).Idx → EReal) (x4 : (⟨1, ![128]⟩ : Shape).Idx → EReal)
  (x5 : (⟨2, ![195, 64]⟩ : Shape).Idx → EReal) (x6 : (⟨1, ![64]⟩ : Shape).Idx → EReal)
  (x7 : (⟨2, ![384, 128]⟩ : Shape).Idx → EReal) (x8 : (⟨1, ![128]⟩ : Shape).Idx → EReal)
  (x9 : (⟨2, ![384, 64]⟩ : Shape).Idx → EReal) (x10 : (⟨1, ![64]⟩ : Shape).Idx → EReal)
  (x11 : (⟨2, ![64, 1]⟩ : Shape).Idx → EReal) (x12 : (⟨1, ![1]⟩ : Shape).Idx → EReal)

def S : Fin 512 → Fin 512 → EReal := Spec.sup (mat x2)
def H0 (b : Fin 64) : Fin 512 → Fin 64 → EReal :=
  Spec.h0 (mat x0) (hid x1) (mat x2) (mat x3) (vec x4) (mat x5) (vec x6) b
def H1 (b : Fin 64) : Fin 512 → Fin 64 → EReal :=
  Spec.h1 (mat x0) (hid x1) (mat x2) (mat x3) (vec x4) (mat x5) (vec x6) (mat x7) (vec x8) (mat x9) (vec x10) b
def R0 : (⟨2, ![64, 512]⟩ : Shape).Idx → EReal := fun i =>
  Spec.out (mat x0) (hid x1) (mat x2) (mat x3) (vec x4) (mat x5) (vec x6) (mat x7) (vec x8) (mat x9) (vec x10) (col x11) (scal x12) (i 0) (i 1)
def R1 : (⟨3, ![2, 64, 32768]⟩ : Shape).Idx → EReal := fun i =>
  (if (i 0).val = 0 then H0 x0 x1 x2 x3 x4 x5 x6 (i 1) else H1 x0 x1 x2 x3 x4 x5 x6 x7 x8 x9 x10 (i 1))
    ⟨(i 2).val / 64, by have h : (i 2).val < 32768 := (i 2).isLt; omega⟩ ⟨(i 2).val % 64, Nat.mod_lt _ (by decide)⟩

end

end Cert.Adapt

end
-- ==== Proof.LibNary3.lean ====
import Idealize.ShloMosaic.Lib.StableHlo.Run

namespace Idealize.ShloMosaic.StableHlo

open Idealize.ShloMosaic Idealize.SL.Sem

variable {τ : Topo} {sig : RefSig} {Val : EltTy → Type}

-- The result of an operation over three literal operand references, each operand read at its own reference.
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.Val.HostLib.lean ====
import proofs.«104790_g19069654794669_cont_sun_m_30_11_alg».proof.Proof.Pair
import proofs.«104790_g19069654794669_cont_sun_m_30_11_alg».proof.Proof.LibNary3
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx Idealize.ShloMosaic.StableHlo

abbrev S2 (a b : ℕ) : Shape := ⟨2, ![a, b]⟩
abbrev S3 (a b c : ℕ) : Shape := ⟨3, ![a, b, c]⟩

section Read

variable {α : Type}

-- A position below `2 r` lies in the first or in the second run of `r`.
theorem half_divmod {r j : ℕ} (hj : j < 2 * r) :
    (j / r = 0 ∧ j % r = j) ∨ (j / r = 1 ∧ j % r + r = j) := by
  rcases Nat.lt_or_ge j r with h | h
  · exact .inl ⟨Nat.div_eq_of_lt h, Nat.mod_eq_of_lt h⟩
  · exact .inr ⟨Nat.div_eq_of_lt_le (by omega) (by omega), by
      rw [Nat.mod_eq_sub_mod h, Nat.mod_eq_of_lt (by omega)]; omega⟩

theorem vcat_apply {r n : ℕ} (x y : (S2 r n).Idx → α) (h : Shape.Concatenates [S2 r n, S2 r n] (S2 (2 * r) n) 0)
    (j : Fin (2 * r)) (c : Fin n) (i : ℕ) (hi : i < r) :
    (i = j.val → concatenate (S2 (2 * r) n) 0 [⟨S2 r n, x⟩, ⟨S2 r n, y⟩] h (ix2 j c) = x (ix2 ⟨i, hi⟩ c)) ∧
    (i + r = j.val → concatenate (S2 (2 * r) n) 0 [⟨S2 r n, x⟩, ⟨S2 r n, y⟩] h (ix2 j c) = y (ix2 ⟨i, hi⟩ c)) :=
  ⟨fun e => concatenate_pair_apply_left (t := S2 (2 * r) n) 0 x y h (ix2 j c) rfl (ix2 ⟨i, hi⟩ c)
      (fun d => match d with | ⟨0, _⟩ => e | ⟨1, _⟩ => rfl),
   fun e => concatenate_pair_apply_right (t := S2 (2 * r) n) 0 x y h (ix2 j c) rfl rfl (ix2 ⟨i, hi⟩ c)
      (fun d => match d with | ⟨0, _⟩ => fun h => absurd rfl h | ⟨1, _⟩ => fun _ => rfl) e⟩

theorem hcat_apply {r m : ℕ} (x y : (S2 r m).Idx → α) (h : Shape.Concatenates [S2 r m, S2 r m] (S2 r (2 * m)) 1)
    (j : Fin r) (c : Fin (2 * m)) (i : ℕ) (hi : i < m) :
    (i = c.val → concatenate (S2 r (2 * m)) 1 [⟨S2 r m, x⟩, ⟨S2 r m, y⟩] h (ix2 j c) = x (ix2 j ⟨i, hi⟩)) ∧
    (i + m = c.val → concatenate (S2 r (2 * m)) 1 [⟨S2 r m, x⟩, ⟨S2 r m, y⟩] h (ix2 j c) = y (ix2 j ⟨i, hi⟩)) :=
  ⟨fun e => concatenate_pair_apply_left (t := S2 r (2 * m)) 1 x y h (ix2 j c) rfl (ix2 j ⟨i, hi⟩)
      (fun d => match d with | ⟨0, _⟩ => rfl | ⟨1, _⟩ => e),
   fun e => concatenate_pair_apply_right (t := S2 r (2 * m)) 1 x y h (ix2 j c) rfl rfl (ix2 j ⟨i, hi⟩)
      (fun d => match d with | ⟨0, _⟩ => fun _ => rfl | ⟨1, _⟩ => fun h => absurd rfl h) e⟩

-- Four blocks of 64 columns side by side: column `c` lies in block `c / 64` at column `c % 64`.
theorem quad_apply {R : ℕ} (p : Fin 4 → (S2 R 64).Idx → α)
    (h : Shape.Concatenates [S2 R 64, S2 R 64, S2 R 64, S2 R 64] (S2 R 256) 1) (i : Fin R) (c : Fin 256) (m : Fin 4)
    (hm : c.val / 64 = m.val) :
    concatenate (S2 R 256) 1 [⟨S2 R 64, p 0⟩, ⟨S2 R 64, p 1⟩, ⟨S2 R 64, p 2⟩, ⟨S2 R 64, p 3⟩] h (ix2 i c)
      = p m (ix2 i ⟨c.val % 64, Nat.mod_lt _ (by decide)⟩) :=
  concatenate_ofFn_apply (t := S2 R 256) 1 p h rfl 64 rfl (ix2 i c) m hm _ rfl
    (fun d => match d with | ⟨0, _⟩ => fun _ => rfl | ⟨1, _⟩ => fun hd => absurd rfl hd)

theorem stack3_apply {a b : ℕ} (ha : a ≠ 1) (hb : b ≠ 1) (x : Fin 3 → (S2 a b).Idx → α)
    (hbc : (S2 a b).BroadcastsInDim (S3 1 a b) (![1, 2] : Fin 2 → Fin 3))
    (hc : Shape.Concatenates [S3 1 a b, S3 1 a b, S3 1 a b] (S3 3 a b) 0) (k : Fin 3) (j : Fin a) (c : Fin b) :
    concatenate (S3 3 a b) 0 [⟨S3 1 a b, broadcastInDim (S3 1 a b) ![1, 2] hbc (x 0)⟩,
        ⟨S3 1 a b, broadcastInDim (S3 1 a b) ![1, 2] hbc (x 1)⟩,
        ⟨S3 1 a b, broadcastInDim (S3 1 a b) ![1, 2] hbc (x 2)⟩] hc (ix3 k j c) = x k (ix2 j c) :=
  (concatenate_ofFn_unit_apply (t := S3 3 a b) 0 (fun n => broadcastInDim (S3 1 a b) ![1, 2] hbc (x n)) hc rfl rfl
    (ix3 k j c) k rfl (ix3 0 j c) (fun d => match d with
      | ⟨0, _⟩ => fun h => absurd rfl h
      | ⟨1, _⟩ => fun _ => rfl
      | ⟨2, _⟩ => fun _ => rfl)).trans
  (broadcastInDim_apply _ hbc (x k) (ix3 0 j c) (ix2 j c) (fun d => match d with
    | ⟨0, _⟩ => by show j.val = if a = 1 then 0 else j.val; rw [if_neg ha]
    | ⟨1, _⟩ => by show c.val = if b = 1 then 0 else c.val; rw [if_neg hb]))

theorem stack3_apply0 {a b : ℕ} (ha : a ≠ 1) (hb : b ≠ 1) (x0 x1 x2 : (⟨2, ![a, b]⟩ : Shape).Idx → α)
    (hbc : (⟨2, ![a, b]⟩ : Shape).BroadcastsInDim ⟨3, ![1, a, b]⟩ (![1, 2] : Fin 2 → Fin 3))
    (hc : Shape.Concatenates [(⟨3, ![1, a, b]⟩ : Shape), ⟨3, ![1, a, b]⟩, ⟨3, ![1, a, b]⟩] ⟨3, ![3, a, b]⟩ 0)
    (j : Fin a) (c : Fin b) :
    concatenate ⟨3, ![3, a, b]⟩ 0 [⟨⟨3, ![1, a, b]⟩, broadcastInDim ⟨3, ![1, a, b]⟩ ![1, 2] hbc x0⟩,
        ⟨⟨3, ![1, a, b]⟩, broadcastInDim ⟨3, ![1, a, b]⟩ ![1, 2] hbc x1⟩,
        ⟨⟨3, ![1, a, b]⟩, broadcastInDim ⟨3, ![1, a, b]⟩ ![1, 2] hbc x2⟩] hc (ix3 0 j c) = x0 (ix2 j c) :=
  stack3_apply ha hb ![x0, x1, x2] hbc hc 0 j c

theorem stack3_apply1 {a b : ℕ} (ha : a ≠ 1) (hb : b ≠ 1) (x0 x1 x2 : (⟨2, ![a, b]⟩ : Shape).Idx → α)
    (hbc : (⟨2, ![a, b]⟩ : Shape).BroadcastsInDim ⟨3, ![1, a, b]⟩ (![1, 2] : Fin 2 → Fin 3))
    (hc : Shape.Concatenates [(⟨3, ![1, a, b]⟩ : Shape), ⟨3, ![1, a, b]⟩, ⟨3, ![1, a, b]⟩] ⟨3, ![3, a, b]⟩ 0)
    (j : Fin a) (c : Fin b) :
    concatenate ⟨3, ![3, a, b]⟩ 0 [⟨⟨3, ![1, a, b]⟩, broadcastInDim ⟨3, ![1, a, b]⟩ ![1, 2] hbc x0⟩,
        ⟨⟨3, ![1, a, b]⟩, broadcastInDim ⟨3, ![1, a, b]⟩ ![1, 2] hbc x1⟩,
        ⟨⟨3, ![1, a, b]⟩, broadcastInDim ⟨3, ![1, a, b]⟩ ![1, 2] hbc x2⟩] hc (ix3 1 j c) = x1 (ix2 j c) :=
  stack3_apply ha hb ![x0, x1, x2] hbc hc 1 j c

theorem stack3_apply2 {a b : ℕ} (ha : a ≠ 1) (hb : b ≠ 1) (x0 x1 x2 : (⟨2, ![a, b]⟩ : Shape).Idx → α)
    (hbc : (⟨2, ![a, b]⟩ : Shape).BroadcastsInDim ⟨3, ![1, a, b]⟩ (![1, 2] : Fin 2 → Fin 3))
    (hc : Shape.Concatenates [(⟨3, ![1, a, b]⟩ : Shape), ⟨3, ![1, a, b]⟩, ⟨3, ![1, a, b]⟩] ⟨3, ![3, a, b]⟩ 0)
    (j : Fin a) (c : Fin b) :
    concatenate ⟨3, ![3, a, b]⟩ 0 [⟨⟨3, ![1, a, b]⟩, broadcastInDim ⟨3, ![1, a, b]⟩ ![1, 2] hbc x0⟩,
        ⟨⟨3, ![1, a, b]⟩, broadcastInDim ⟨3, ![1, a, b]⟩ ![1, 2] hbc x1⟩,
        ⟨⟨3, ![1, a, b]⟩, broadcastInDim ⟨3, ![1, a, b]⟩ ![1, 2] hbc x2⟩] hc (ix3 2 j c) = x2 (ix2 j c) :=
  stack3_apply ha hb ![x0, x1, x2] hbc hc 2 j c

end Read

section Layouts

theorem slab_slices {G n o k : ℕ} (ho : o + 64 ≤ G) (hk : k < 3) : (S3 G 3 n).Slices ![o, k, 0] (S3 64 1 n) :=
  ⟨rfl, fun a => match a with
    | ⟨0, _⟩ => ho
    | ⟨1, _⟩ => hk
    | ⟨2, _⟩ => Nat.le_of_eq (Nat.zero_add n)⟩

abbrev slab {R G n : ℕ} (A : (S2 R n).Idx → EReal) (o k : ℕ) (hc1 : (S2 R n).ShapeCasts (S3 G 3 n))
    (hs : (S3 G 3 n).Slices ![o, k, 0] (S3 64 1 n)) (hc2 : (S3 64 1 n).ShapeCasts (S2 64 n)) : (S2 64 n).Idx → EReal :=
  shapeCast (S2 64 n) (extractStridedSlice (S3 64 1 n) ![o, k, 0] (shapeCast (S3 G 3 n) A hc1) hs) hc2

-- Row `f · 3 + k` of a matrix is feature `f` at order `k` of its rows regrouped by three.
theorem slabR_apply {R G n : ℕ} (A : (S2 R n).Idx → EReal) (o k : ℕ) (hc1 : (S2 R n).ShapeCasts (S3 G 3 n))
    (hs : (S3 G 3 n).Slices ![o, k, 0] (S3 64 1 n)) (hc2 : (S3 64 1 n).ShapeCasts (S2 64 n)) (u : Fin 64) (q : Fin n)
    (hrow : (o + u.val) * 3 + k < R) (ho : o + u.val < G) (hk : k < 3) :
    slab A o k hc1 hs hc2 (ix2 u q) = A (ix2 ⟨(o + u.val) * 3 + k, hrow⟩ q) := by
  refine (shapeCast_apply _ hc2 (ix2 u q) (ix3 u 0 q) ?_).trans ?_
  · rw [Shape.rowMajor_val_three, Shape.rowMajor_val_two]
    show (u.val * 1 + 0) * n + q.val = u.val * n + q.val
    rw [Nat.mul_one, Nat.add_zero]
  refine (extractStridedSlice_apply ![o, k, 0] _ hs (ix3 u 0 q) (ix3 ⟨o + u.val, ho⟩ ⟨k, hk⟩ q) (fun b => match b with
    | ⟨0, _⟩ => rfl
    | ⟨1, _⟩ => rfl
    | ⟨2, _⟩ => (Nat.zero_add _).symm)).trans ?_
  refine shapeCast_apply A hc1 _ _ ?_
  rw [Shape.rowMajor_val_three, Shape.rowMajor_val_two]
  rfl

abbrev headRows {R n : ℕ} (G : ℕ) (A : (S2 R n).Idx → EReal) (hc1 : (S2 R n).ShapeCasts (S3 G 3 n) := by decide)
    (hs : (S3 G 3 n).Slices ![0, 0, 0] (S3 1 3 n) := by decide) (hc2 : (S3 1 3 n).ShapeCasts (S2 3 n) := by decide) :
    (S2 3 n).Idx → EReal :=
  shapeCast (S2 3 n) (extractStridedSlice (S3 1 3 n) ![0, 0, 0] (shapeCast (S3 G 3 n) A hc1) hs) hc2

-- Feature 0 of the regrouped rows: the first three rows.
theorem head_apply {R n : ℕ} (G : ℕ) (A : (S2 R n).Idx → EReal) (k : Fin 3) (q : Fin n) (hk : k.val < R)
    (hc1 : (S2 R n).ShapeCasts (S3 G 3 n) := by decide) (hs : (S3 G 3 n).Slices ![0, 0, 0] (S3 1 3 n) := by decide)
    (hc2 : (S3 1 3 n).ShapeCasts (S2 3 n) := by decide) :
    headRows G A hc1 hs hc2 (ix2 k q) = A (ix2 ⟨k.val, hk⟩ q) := by
  have hG : 0 < G := by obtain ⟨_, h⟩ := hs; exact h ⟨0, Nat.succ_pos 2⟩
  refine (shapeCast_1ab_ab_apply _ hc2 k q).trans ?_
  refine (extractStridedSlice_apply ![0, 0, 0] _ hs (ix3 0 k q) (ix3 ⟨0, hG⟩ k q) (fun b => match b with
    | ⟨0, _⟩ => rfl
    | ⟨1, _⟩ => (Nat.zero_add _).symm
    | ⟨2, _⟩ => (Nat.zero_add _).symm)).trans ?_
  refine shapeCast_apply A hc1 _ _ ?_
  rw [Shape.rowMajor_val_three, Shape.rowMajor_val_two]
  show k.val * n + q.val = (0 * 3 + k.val) * n + q.val
  rw [Nat.zero_mul, Nat.zero_add]

abbrev zeroBlk {T : Shape} (h : (⟨0, ![]⟩ : Shape).BroadcastsInDim T ![]) : T.Idx → EReal :=
  broadcastInDim T ![] h (constant (F := Ideal) ⟨0, ![]⟩ .f32 0x00000000#32)

theorem zeros_apply {T : Shape} (h : (⟨0, ![]⟩ : Shape).BroadcastsInDim T ![]) (i : T.Idx) :
    broadcastInDim T ![] h (constant (F := Ideal) ⟨0, ![]⟩ .f32 0x00000000#32) i = 0 := Ideal.ofBits_zero_f32

abbrev gateLay {r : ℕ} (w : (S2 r 128).Idx → EReal) (z : (S2 r 64).Idx → EReal)
    (h0 : (S2 r 128).Slices ![0, 0] (S2 r 64)) (h1 : (S2 r 128).Slices ![0, 64] (S2 r 64))
    (hc4 : Shape.Concatenates [S2 r 64, S2 r 64, S2 r 64, S2 r 64] (S2 r 256) 1)
    (hc2 : Shape.Concatenates [S2 r 256, S2 r 256] (S2 (2 * r) 256) 0) : (S2 (2 * r) 256).Idx → EReal :=
  concatenate (S2 (2 * r) 256) 0
    [⟨S2 r 256, concatenate (S2 r 256) 1 [⟨S2 r 64, extractStridedSlice (S2 r 64) ![0, 0] w h0⟩, ⟨S2 r 64, z⟩,
        ⟨S2 r 64, extractStridedSlice (S2 r 64) ![0, 64] w h1⟩, ⟨S2 r 64, z⟩] hc4⟩,
     ⟨S2 r 256, concatenate (S2 r 256) 1 [⟨S2 r 64, z⟩, ⟨S2 r 64, extractStridedSlice (S2 r 64) ![0, 0] w h0⟩,
        ⟨S2 r 64, z⟩, ⟨S2 r 64, extractStridedSlice (S2 r 64) ![0, 64] w h1⟩] hc4⟩] hc2

-- The gate layout `[w_r 0 w_u 0]` over `[0 w_r 0 w_u]` of a block `w = [w_r | w_u]` is the paired gate weights.
theorem gateLay_apply {r : ℕ} (w : (S2 r 128).Idx → EReal) (z : (S2 r 64).Idx → EReal) (hz : ∀ i, z i = 0)
    (h0 : (S2 r 128).Slices ![0, 0] (S2 r 64)) (h1 : (S2 r 128).Slices ![0, 64] (S2 r 64))
    (hc4 : Shape.Concatenates [S2 r 64, S2 r 64, S2 r 64, S2 r 64] (S2 r 256) 1)
    (hc2 : Shape.Concatenates [S2 r 256, S2 r 256] (S2 (2 * r) 256) 0) (j : Fin (2 * r)) (c : Fin 256) :
    gateLay w z h0 h1 hc4 hc2 (ix2 j c) = Cert.Pair.ru (fun u q => w (ix2 u q)) j c := by
  have hcl := c.isLt
  have ir : j.val % r < r := Nat.mod_lt _ (by have := j.isLt; omega)
  let q : (S2 r 64).Idx := ix2 ⟨j.val % r, ir⟩ ⟨c.val % 64, Nat.mod_lt _ (by decide)⟩
  have Z : ¬ j.val / r = c.val / 64 % 2 → z q = Cert.Pair.ru (fun u q => w (ix2 u q)) j c :=
    fun h => by unfold Cert.Pair.ru; rw [dif_neg h]; exact hz q
  have W : ∀ (o : ℕ) (h : (S2 r 128).Slices ![0, o] (S2 r 64)), j.val / r = c.val / 64 % 2 → o = c.val / 128 * 64 →
      extractStridedSlice (S2 r 64) ![0, o] w h q = Cert.Pair.ru (fun u q => w (ix2 u q)) j c :=
    fun o h e eo => by
      unfold Cert.Pair.ru; rw [dif_pos e]
      exact slice2_axis1_apply o w h _ _ ⟨c.val / 128 * 64 + c.val % 64, by omega⟩ (by subst eo; rfl)
  rcases half_divmod j.isLt with ⟨dj, mj⟩ | ⟨dj, mj⟩
  · refine ((vcat_apply _ _ hc2 j c _ ir).1 mj).trans ?_
    rcases (show c.val / 64 = 0 ∨ c.val / 64 = 1 ∨ c.val / 64 = 2 ∨ c.val / 64 = 3 by omega) with hc | hc | hc | hc
    · exact (quad_apply ![_, _, _, _] hc4 _ c 0 hc).trans (W 0 h0 (by omega) (by omega))
    · exact (quad_apply ![_, _, _, _] hc4 _ c 1 hc).trans (Z (by omega))
    · exact (quad_apply ![_, _, _, _] hc4 _ c 2 hc).trans (W 64 h1 (by omega) (by omega))
    · exact (quad_apply ![_, _, _, _] hc4 _ c 3 hc).trans (Z (by omega))
  · refine ((vcat_apply _ _ hc2 j c _ ir).2 mj).trans ?_
    rcases (show c.val / 64 = 0 ∨ c.val / 64 = 1 ∨ c.val / 64 = 2 ∨ c.val / 64 = 3 by omega) with hc | hc | hc | hc
    · exact (quad_apply ![_, _, _, _] hc4 _ c 0 hc).trans (Z (by omega))
    · exact (quad_apply ![_, _, _, _] hc4 _ c 1 hc).trans (W 0 h0 (by omega) (by omega))
    · exact (quad_apply ![_, _, _, _] hc4 _ c 2 hc).trans (Z (by omega))
    · exact (quad_apply ![_, _, _, _] hc4 _ c 3 hc).trans (W 64 h1 (by omega) (by omega))

abbrev candLay {r m : ℕ} (w z : (S2 r m).Idx → EReal) (hc : Shape.Concatenates [S2 r m, S2 r m] (S2 r (2 * m)) 1)
    (hc2 : Shape.Concatenates [S2 r (2 * m), S2 r (2 * m)] (S2 (2 * r) (2 * m)) 0) : (S2 (2 * r) (2 * m)).Idx → EReal :=
  concatenate (S2 (2 * r) (2 * m)) 0
    [⟨S2 r (2 * m), concatenate (S2 r (2 * m)) 1 [⟨S2 r m, w⟩, ⟨S2 r m, z⟩] hc⟩,
     ⟨S2 r (2 * m), concatenate (S2 r (2 * m)) 1 [⟨S2 r m, z⟩, ⟨S2 r m, w⟩] hc⟩] hc2

-- A block laid twice along the diagonal of a matrix of zeros: the block's entry where row and column lie in the same half.
theorem candLay_apply {r m : ℕ} (w z : (S2 r m).Idx → EReal) (hz : ∀ i, z i = 0)
    (hc : Shape.Concatenates [S2 r m, S2 r m] (S2 r (2 * m)) 1)
    (hc2 : Shape.Concatenates [S2 r (2 * m), S2 r (2 * m)] (S2 (2 * r) (2 * m)) 0) (j : Fin (2 * r)) (c : Fin (2 * m)) :
    candLay w z hc hc2 (ix2 j c)
      = if h : j.val / r = c.val / m then
          w (ix2 ⟨j.val % r, Nat.mod_lt _ (by have := j.isLt; omega)⟩ ⟨c.val % m, Nat.mod_lt _ (by have := c.isLt; omega)⟩)
        else 0 := by
  have ir : j.val % r < r := Nat.mod_lt _ (by have := j.isLt; omega)
  have im : c.val % m < m := Nat.mod_lt _ (by have := c.isLt; omega)
  rcases half_divmod j.isLt with ⟨dj, mj⟩ | ⟨dj, mj⟩ <;> rcases half_divmod c.isLt with ⟨dc, mc⟩ | ⟨dc, mc⟩
  · rw [dif_pos (show j.val / r = c.val / m by omega)]
    exact ((vcat_apply _ _ hc2 j c _ ir).1 mj).trans ((hcat_apply _ _ hc _ c _ im).1 mc)
  · rw [dif_neg (show ¬ j.val / r = c.val / m by omega)]
    exact ((vcat_apply _ _ hc2 j c _ ir).1 mj).trans (((hcat_apply _ _ hc _ c _ im).2 mc).trans (hz _))
  · rw [dif_neg (show ¬ j.val / r = c.val / m by omega)]
    exact ((vcat_apply _ _ hc2 j c _ ir).2 mj).trans (((hcat_apply _ _ hc _ c _ im).1 mc).trans (hz _))
  · rw [dif_pos (show j.val / r = c.val / m by omega)]
    exact ((vcat_apply _ _ hc2 j c _ ir).2 mj).trans ((hcat_apply _ _ hc _ c _ im).2 mc)

theorem candC_apply {r : ℕ} (w z : (S2 r 64).Idx → EReal) (hz : ∀ i, z i = 0)
    (hc : Shape.Concatenates [S2 r 64, S2 r 64] (S2 r (2 * 64)) 1)
    (hc2 : Shape.Concatenates [S2 r (2 * 64), S2 r (2 * 64)] (S2 (2 * r) (2 * 64)) 0) (j : Fin (2 * r)) (c : Fin 128) :
    candLay w z hc hc2 (ix2 j c) = Cert.Pair.cc (fun u q => w (ix2 u q)) j c :=
  candLay_apply w z hz hc hc2 j c

theorem pairP_apply (w z : (S2 64 1).Idx → EReal) (hz : ∀ i, z i = 0)
    (hc : Shape.Concatenates [S2 64 1, S2 64 1] (S2 64 (2 * 1)) 1)
    (hc2 : Shape.Concatenates [S2 64 (2 * 1), S2 64 (2 * 1)] (S2 (2 * 64) (2 * 1)) 0) (j : Fin 128) (c : Fin 2) :
    candLay w z hc hc2 (ix2 j c) = Cert.Pair.pp (fun u => w (ix2 u 0)) j c := by
  have hj := j.isLt
  have hcl := c.isLt
  refine (candLay_apply w z hz hc hc2 j c).trans ?_
  unfold Cert.Pair.pp
  by_cases h : j.val / 64 = c.val
  · rw [dif_pos (by omega), if_pos h]
    exact congrArg (fun q => w (ix2 _ q)) (Subsingleton.elim _ _)
  · rw [dif_neg (by omega), if_neg h]

theorem slab_apply {n : ℕ} (a : (⟨2, ![384, n]⟩ : Shape).Idx → EReal) (o kk : ℕ)
    (hc1 : (⟨2, ![384, n]⟩ : Shape).ShapeCasts ⟨3, ![128, 3, n]⟩)
    (hs : (⟨3, ![128, 3, n]⟩ : Shape).Slices ![o, kk, 0] ⟨3, ![64, 1, n]⟩)
    (hc2 : (⟨3, ![64, 1, n]⟩ : Shape).ShapeCasts ⟨2, ![64, n]⟩) (u : Fin 64) (q : Fin n)
    (hrow : (o + u.val) * 3 + kk < 384) (ho : o + u.val < 128) (hk : kk < 3) :
    shapeCast ⟨2, ![64, n]⟩ (extractStridedSlice ⟨3, ![64, 1, n]⟩ ![o, kk, 0] (shapeCast ⟨3, ![128, 3, n]⟩ a hc1) hs) hc2 (ix2 u q)
      = a (ix2 ⟨(o + u.val) * 3 + kk, hrow⟩ q) :=
  slabR_apply a o kk hc1 hs hc2 u q hrow ho hk

theorem pairRu_apply (w : (⟨2, ![64, 128]⟩ : Shape).Idx → EReal) (z : (⟨2, ![64, 64]⟩ : Shape).Idx → EReal) (hz : ∀ i, z i = 0)
    (h0 : (⟨2, ![64, 128]⟩ : Shape).Slices ![0, 0] ⟨2, ![64, 64]⟩) (h1 : (⟨2, ![64, 128]⟩ : Shape).Slices ![0, 64] ⟨2, ![64, 64]⟩)
    (hc4 : Shape.Concatenates [(⟨2, ![64, 64]⟩ : Shape), ⟨2, ![64, 64]⟩, ⟨2, ![64, 64]⟩, ⟨2, ![64, 64]⟩] ⟨2, ![64, 256]⟩ 1)
    (hc2 : Shape.Concatenates [(⟨2, ![64, 256]⟩ : Shape), ⟨2, ![64, 256]⟩] ⟨2, ![128, 256]⟩ 0) (j : Fin 128) (c : Fin 256) :
    concatenate ⟨2, ![128, 256]⟩ 0
      [⟨⟨2, ![64, 256]⟩, concatenate ⟨2, ![64, 256]⟩ 1 [⟨⟨2, ![64, 64]⟩, extractStridedSlice ⟨2, ![64, 64]⟩ ![0, 0] w h0⟩, ⟨⟨2, ![64, 64]⟩, z⟩,
          ⟨⟨2, ![64, 64]⟩, extractStridedSlice ⟨2, ![64, 64]⟩ ![0, 64] w h1⟩, ⟨⟨2, ![64, 64]⟩, z⟩] hc4⟩,
       ⟨⟨2, ![64, 256]⟩, concatenate ⟨2, ![64, 256]⟩ 1 [⟨⟨2, ![64, 64]⟩, z⟩, ⟨⟨2, ![64, 64]⟩, extractStridedSlice ⟨2, ![64, 64]⟩ ![0, 0] w h0⟩,
          ⟨⟨2, ![64, 64]⟩, z⟩, ⟨⟨2, ![64, 64]⟩, extractStridedSlice ⟨2, ![64, 64]⟩ ![0, 64] w h1⟩] hc4⟩] hc2 (ix2 j c)
      = Cert.Pair.ru (r := 64) (fun u q => w (ix2 u q)) j c :=
  gateLay_apply w z hz h0 h1 hc4 hc2 j c

theorem pairC_apply (w z : (⟨2, ![64, 64]⟩ : Shape).Idx → EReal) (hz : ∀ i, z i = 0)
    (hc : Shape.Concatenates [(⟨2, ![64, 64]⟩ : Shape), ⟨2, ![64, 64]⟩] ⟨2, ![64, 128]⟩ 1)
    (hc2 : Shape.Concatenates [(⟨2, ![64, 128]⟩ : Shape), ⟨2, ![64, 128]⟩] ⟨2, ![128, 128]⟩ 0) (j : Fin 128) (c : Fin 128) :
    concatenate ⟨2, ![128, 128]⟩ 0
      [⟨⟨2, ![64, 128]⟩, concatenate ⟨2, ![64, 128]⟩ 1 [⟨⟨2, ![64, 64]⟩, w⟩, ⟨⟨2, ![64, 64]⟩, z⟩] hc⟩,
       ⟨⟨2, ![64, 128]⟩, concatenate ⟨2, ![64, 128]⟩ 1 [⟨⟨2, ![64, 64]⟩, z⟩, ⟨⟨2, ![64, 64]⟩, w⟩] hc⟩] hc2 (ix2 j c)
      = Cert.Pair.cc (r := 64) (fun u q => w (ix2 u q)) j c :=
  candC_apply w z hz hc hc2 j c

-- The gate bias `[b_r | b_u]` laid as `[b_r b_r b_u b_u]` in one row.
theorem bru_apply (b : (⟨1, ![128]⟩ : Shape).Idx → EReal) (c : Fin 256)
    (h0 : (⟨1, ![128]⟩ : Shape).Slices ![0] ⟨1, ![64]⟩ := by decide) (h1 : (⟨1, ![128]⟩ : Shape).Slices ![64] ⟨1, ![64]⟩ := by decide)
    (hc4 : Shape.Concatenates [(⟨1, ![64]⟩ : Shape), ⟨1, ![64]⟩, ⟨1, ![64]⟩, ⟨1, ![64]⟩] ⟨1, ![256]⟩ 0 := by decide)
    (hsc : (⟨1, ![256]⟩ : Shape).ShapeCasts ⟨2, ![1, 256]⟩ := by decide) :
    shapeCast ⟨2, ![1, 256]⟩ (concatenate ⟨1, ![256]⟩ 0 [⟨⟨1, ![64]⟩, extractStridedSlice ⟨1, ![64]⟩ ![0] b h0⟩,
        ⟨⟨1, ![64]⟩, extractStridedSlice ⟨1, ![64]⟩ ![0] b h0⟩, ⟨⟨1, ![64]⟩, extractStridedSlice ⟨1, ![64]⟩ ![64] b h1⟩,
        ⟨⟨1, ![64]⟩, extractStridedSlice ⟨1, ![64]⟩ ![64] b h1⟩] hc4) hsc (ix2 0 c)
      = Cert.Pair.bru (fun i => b (ix1 i)) c := by
  have hcl := c.isLt
  have Q := fun p m hm => concatenate_ofFn_apply (t := ⟨1, ![256]⟩) 0 (N := 4) (α := EReal) (s₁ := ⟨1, ![64]⟩) p hc4 rfl 64 rfl
    (ix1 c) m hm (ix1 ⟨c.val % 64, Nat.mod_lt _ (by decide)⟩) rfl (fun d => match d with | ⟨0, _⟩ => fun h => absurd rfl h)
  have W : ∀ (o : ℕ) (h : (⟨1, ![128]⟩ : Shape).Slices ![o] ⟨1, ![64]⟩), o = c.val / 128 * 64 →
      extractStridedSlice ⟨1, ![64]⟩ ![o] b h (ix1 ⟨c.val % 64, Nat.mod_lt _ (by decide)⟩) = Cert.Pair.bru (fun i => b (ix1 i)) c :=
    fun o h eo => extractStridedSlice_apply ![o] b h _ (ix1 ⟨c.val / 128 * 64 + c.val % 64, by omega⟩)
      (fun d => match d with | ⟨0, _⟩ => by subst eo; rfl)
  refine (shapeCast_a_1a_apply _ hsc 0 c).trans ?_
  rcases (show c.val / 64 = 0 ∨ c.val / 64 = 1 ∨ c.val / 64 = 2 ∨ c.val / 64 = 3 by omega) with hc | hc | hc | hc
  · exact (Q ![_, _, _, _] 0 hc).trans (W 0 h0 (by omega))
  · exact (Q ![_, _, _, _] 1 hc).trans (W 0 h0 (by omega))
  · exact (Q ![_, _, _, _] 2 hc).trans (W 64 h1 (by omega))
  · exact (Q ![_, _, _, _] 3 hc).trans (W 64 h1 (by omega))

-- The candidate bias laid twice in one row.
theorem bcc_apply (b : (⟨1, ![64]⟩ : Shape).Idx → EReal) (c : Fin 128)
    (hc : Shape.Concatenates [(⟨1, ![64]⟩ : Shape), ⟨1, ![64]⟩] ⟨1, ![128]⟩ 0 := by decide)
    (hsc : (⟨1, ![128]⟩ : Shape).ShapeCasts ⟨2, ![1, 128]⟩ := by decide) :
    shapeCast ⟨2, ![1, 128]⟩ (concatenate ⟨1, ![128]⟩ 0 [⟨⟨1, ![64]⟩, b⟩, ⟨⟨1, ![64]⟩, b⟩] hc) hsc (ix2 0 c)
      = Cert.Pair.bcc (fun i => b (ix1 i)) c :=
  (shapeCast_a_1a_apply _ hsc 0 c).trans (concatenate_replicate_apply (t := ⟨1, ![128]⟩) 0 2 b hc rfl (ix1 c)
    (ix1 ⟨c.val % 64, Nat.mod_lt _ (by decide)⟩) rfl (fun d => match d with | ⟨0, _⟩ => fun h => absurd rfl h))

end Layouts

section Apart

variable {τ' : Topo} {sig' : RefSig} {Val : EltTy → Type}

def ap1 {α β : Type} (f : α → β) (a : α) : β := f a
def ap2 {α β γ : Type} (f : α → β → γ) (a : α) (b : β) : γ := f a b
def ap3 {x a b y : Ref sig' .tc}
    (f : ((k : Fin 3) → ((![x, a, b] : Fin 3 → Ref sig' .tc) k).ty.Contents Val) → y.ty.Contents Val)
    (A : x.ty.Contents Val) (B : a.ty.Contents Val) (C : b.ty.Contents Val) : y.ty.Contents Val :=
  f (Fin.cons A (Fin.cons B (Fin.cons C (fun i => i.elim0))))
def ap4 {x a b c y : Ref sig' .tc}
    (f : ((k : Fin 4) → ((![x, a, b, c] : Fin 4 → Ref sig' .tc) k).ty.Contents Val) → y.ty.Contents Val)
    (A : x.ty.Contents Val) (B : a.ty.Contents Val) (C : b.ty.Contents Val) (D : c.ty.Contents Val) : y.ty.Contents Val :=
  f (Fin.cons A (Fin.cons B (Fin.cons C (Fin.cons D (fun i => i.elim0)))))

theorem unary_res {x y : Ref sig' .tc} (f : x.ty.Contents Val → y.ty.Contents Val) (hx hy) (F : Valuation τ' sig' Val) :
    (unary (τ := τ') x y f hx hy).result F (no_index (Proc.devRef .tc y)) = ap1 f (F (Proc.devRef .tc x)) :=
  unary_result x y f hx hy F
theorem binary_res {a b y : Ref sig' .tc} (f : a.ty.Contents Val → b.ty.Contents Val → y.ty.Contents Val) (ha hb hy)
    (F : Valuation τ' sig' Val) :
    (binary (τ := τ') a b y f ha hb hy).result F (no_index (Proc.devRef .tc y))
      = ap2 f (F (Proc.devRef .tc a)) (F (Proc.devRef .tc b)) :=
  binary_result a b y f ha hb hy F
theorem nary3_res {x a b y : Ref sig' .tc}
    (f : ((k : Fin 3) → ((![x, a, b] : Fin 3 → Ref sig' .tc) k).ty.Contents Val) → y.ty.Contents Val) (hxs hy)
    (F : Valuation τ' sig' Val) :
    (nary (τ := τ') ![x, a, b] y f hxs hy).result F (no_index (Proc.devRef .tc y))
      = ap3 f (F (Proc.devRef .tc x)) (F (Proc.devRef .tc a)) (F (Proc.devRef .tc b)) :=
  nary3_result f hxs hy F
theorem nary4_res {x a b c y : Ref sig' .tc}
    (f : ((k : Fin 4) → ((![x, a, b, c] : Fin 4 → Ref sig' .tc) k).ty.Contents Val) → y.ty.Contents Val) (hxs hy)
    (F : Valuation τ' sig' Val) :
    (nary (τ := τ') ![x, a, b, c] y f hxs hy).result F (no_index (Proc.devRef .tc y))
      = ap4 f (F (Proc.devRef .tc x)) (F (Proc.devRef .tc a)) (F (Proc.devRef .tc b)) (F (Proc.devRef .tc c)) :=
  nary4_result f hxs hy F

macro "host_fold" : tactic =>
  `(tactic| (simp (disch := decide) only [after_cons, after_nil,
      nullary_result', unary_res, binary_res, reshape_result', nary4_res, nary3_res,
      nullary_result_ne', unary_result_ne', binary_result_ne', reshape_result_ne', nary_result_ne']
             try dsimp only [ap1, ap2, ap3, ap4]))

end Apart

end Cert.KernelIdeal.Hand

end
-- ==== Proof.Val.HostA2.lean ====
import proofs.«104790_g19069654794669_cont_sun_m_30_11_alg».proof.Proof.Gen.KernelIdeal.Launch
import proofs.«104790_g19069654794669_cont_sun_m_30_11_alg».proof.Proof.Spec
import proofs.«104790_g19069654794669_cont_sun_m_30_11_alg».proof.Proof.Pair
import proofs.«104790_g19069654794669_cont_sun_m_30_11_alg».proof.Proof.Adapt
import proofs.«104790_g19069654794669_cont_sun_m_30_11_alg».proof.Proof.LibNary3
import proofs.«104790_g19069654794669_cont_sun_m_30_11_alg».proof.Proof.Val.HostLib
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.ShloMosaic.ValueIdx
  Idealize.ShloMosaic.StableHlo

abbrev WhHostA2 (F0 : Valuation τ sig (Elt Ideal)) : Valuation τ sig (Elt Ideal) :=
  StableHlo.after main_part3_ops0 (StableHlo.after main_part2_ops0 (StableHlo.after main_part1_ops0 (StableHlo.after main_part0_ops0 F0)))

variable (F0 : Valuation τ sig (Elt Ideal))

theorem hw_v191 (j : Fin 6) (c : Fin 256) :
    (WhHostA2 F0 (Proc.devRef .tc main_v191) : S6x256.Idx → EReal) (ix2 j c)
      = Pair.ru (r := 3) (fun k q => Adapt.mat (F0 (Proc.devRef .tc main_arg3) : S195x128.Idx → EReal)
          ⟨k.val, by have := k.isLt; omega⟩ q) j c := by
  dsimp only [WhHostA2]
  host_fold
  rw [truncf_apply]
  exact (gateLay_apply (r := 3) (headRows 65 (F0 (Proc.devRef .tc main_arg3) : S195x128.Idx → EReal)) _ (zeros_apply (T := S2 3 64) (by decide))
      (by decide) (by decide) (by decide) (by decide) j c).trans
    (congrArg (fun w => Pair.ru (r := 3) w j c) (funext fun k => funext fun q => head_apply 65 _ k q _))

theorem hw_v175 (c : Fin 256) :
    (WhHostA2 F0 (Proc.devRef .tc main_v175) : S1x256.Idx → EReal) (ix2 0 c)
      = Pair.bru (Adapt.vec (F0 (Proc.devRef .tc main_arg4) : S128.Idx → EReal)) c := by
  dsimp only [WhHostA2]
  host_fold
  exact bru_apply _ c

end Cert.KernelIdeal.Hand

end
-- ==== Proof.Val.HostA3.lean ====
import proofs.«104790_g19069654794669_cont_sun_m_30_11_alg».proof.Proof.Gen.KernelIdeal.Launch
import proofs.«104790_g19069654794669_cont_sun_m_30_11_alg».proof.Proof.Spec
import proofs.«104790_g19069654794669_cont_sun_m_30_11_alg».proof.Proof.Pair
import proofs.«104790_g19069654794669_cont_sun_m_30_11_alg».proof.Proof.Adapt
import proofs.«104790_g19069654794669_cont_sun_m_30_11_alg».proof.Proof.LibNary3
import proofs.«104790_g19069654794669_cont_sun_m_30_11_alg».proof.Proof.Val.HostLib
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.ShloMosaic.ValueIdx
  Idealize.ShloMosaic.StableHlo

abbrev WhHostA3 (F0 : Valuation τ sig (Elt Ideal)) : Valuation τ sig (Elt Ideal) :=
  StableHlo.after main_part3_ops0 (StableHlo.after main_part2_ops0 (StableHlo.after main_part1_ops0 (StableHlo.after main_part0_ops0 F0)))

variable (F0 : Valuation τ sig (Elt Ideal))

theorem hw_v193 (j : Fin 6) (c : Fin 128) :
    (WhHostA3 F0 (Proc.devRef .tc main_v193) : S6x128.Idx → EReal) (ix2 j c)
      = Pair.cc (r := 3) (fun k q => Adapt.mat (F0 (Proc.devRef .tc main_arg5) : S195x64.Idx → EReal)
          ⟨k.val, by have := k.isLt; omega⟩ q) j c := by
  dsimp only [WhHostA3]
  host_fold
  rw [truncf_apply]
  exact (candC_apply (r := 3) (headRows 65 (F0 (Proc.devRef .tc main_arg5) : S195x64.Idx → EReal)) _ (zeros_apply (T := S2 3 64) (by decide))
      (by decide) (by decide) j c).trans
    (congrArg (fun w => Pair.cc (r := 3) w j c) (funext fun k => funext fun q => head_apply 65 _ k q _))

theorem hw_v177 (c : Fin 128) :
    (WhHostA3 F0 (Proc.devRef .tc main_v177) : S1x128.Idx → EReal) (ix2 0 c)
      = Pair.bcc (Adapt.vec (F0 (Proc.devRef .tc main_arg6) : S64.Idx → EReal)) c := by
  dsimp only [WhHostA3]
  host_fold
  exact bcc_apply _ c

end Cert.KernelIdeal.Hand

end
-- ==== Proof.Val.HostLib2.lean ====
import Idealize.ShloMosaic.Lib.Pipeline.Value
import Idealize.ShloMosaic.Lib.ValueIdx

noncomputable section

namespace Cert.KernelIdeal.Hand

open Idealize.ShloMosaic Idealize.ShloMosaic.ValueIdx

theorem slabG_apply {R G n : ℕ} (a : (⟨2, ![R, n]⟩ : Shape).Idx → EReal) (o kk : ℕ)
    (hc1 : (⟨2, ![R, n]⟩ : Shape).ShapeCasts ⟨3, ![G, 3, n]⟩)
    (hs : (⟨3, ![G, 3, n]⟩ : Shape).Slices ![o, kk, 0] ⟨3, ![64, 1, n]⟩)
    (hc2 : (⟨3, ![64, 1, n]⟩ : Shape).ShapeCasts ⟨2, ![64, n]⟩) (u : Fin 64) (q : Fin n)
    (hrow : (o + u.val) * 3 + kk < R) (ho : o + u.val < G) (hk : kk < 3) :
    shapeCast ⟨2, ![64, n]⟩ (extractStridedSlice ⟨3, ![64, 1, n]⟩ ![o, kk, 0] (shapeCast ⟨3, ![G, 3, n]⟩ a hc1) hs) hc2 (ix2 u q)
      = a (ix2 ⟨(o + u.val) * 3 + kk, hrow⟩ q) := by
  refine (shapeCast_apply _ hc2 (ix2 u q) (ix3 u 0 q) ?_).trans ?_
  · rw [Shape.rowMajor_val_three, Shape.rowMajor_val_two]
    show (u.val * 1 + 0) * n + q.val = u.val * n + q.val
    rw [Nat.mul_one, Nat.add_zero]
  refine (extractStridedSlice_apply ![o, kk, 0] _ hs (ix3 u 0 q) (ix3 ⟨o + u.val, ho⟩ ⟨kk, hk⟩ q) (fun b => match b with
    | ⟨0, _⟩ => rfl
    | ⟨1, _⟩ => rfl
    | ⟨2, _⟩ => by show q.val = 0 + q.val; omega)).trans ?_
  refine shapeCast_apply a hc1 _ _ ?_
  rw [Shape.rowMajor_val_three, Shape.rowMajor_val_two]
  rfl

end Cert.KernelIdeal.Hand

end
-- ==== Proof.Val.HostA4.lean ====
import proofs.«104790_g19069654794669_cont_sun_m_30_11_alg».proof.Proof.Gen.KernelIdeal.Launch
import proofs.«104790_g19069654794669_cont_sun_m_30_11_alg».proof.Proof.Spec
import proofs.«104790_g19069654794669_cont_sun_m_30_11_alg».proof.Proof.Pair
import proofs.«104790_g19069654794669_cont_sun_m_30_11_alg».proof.Proof.Adapt
import proofs.«104790_g19069654794669_cont_sun_m_30_11_alg».proof.Proof.LibNary3
import proofs.«104790_g19069654794669_cont_sun_m_30_11_alg».proof.Proof.Val.HostLib
import proofs.«104790_g19069654794669_cont_sun_m_30_11_alg».proof.Proof.Val.HostLib2
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo

abbrev WhHostA4 (F0 : Valuation τ sig (Elt Ideal)) : Valuation τ sig (Elt Ideal) :=
  StableHlo.after main_part3_ops0 (StableHlo.after main_part2_ops0 (StableHlo.after main_part1_ops0 (StableHlo.after main_part0_ops0 F0)))

private abbrev stRows (A : S195x128.Idx → EReal) (k : ℕ) (hs : S65x3x128.Slices ![1, k, 0] S64x1x128) : S64x128.Idx → EReal :=
  shapeCast S64x128 (extractStridedSlice S64x1x128 ![1, k, 0] (shapeCast S65x3x128 A shapeCasts_S195x128_S65x3x128) hs)
    shapeCasts_S64x1x128_S64x128

private abbrev z64 : S64x64.Idx → EReal := broadcastInDim S64x64 ![] bcast_S_S64x64 (constant (F := Ideal) S_ .f32 0x00000000#32)

private abbrev gatePair (w : S64x128.Idx → EReal) : S128x256.Idx → EReal :=
  concatenate S128x256 0
    [⟨S64x256, concatenate S64x256 1 [⟨S64x64, extractStridedSlice S64x64 ![0, 0] w slices_S64x128_S64x64_0_0⟩, ⟨S64x64, z64⟩,
        ⟨S64x64, extractStridedSlice S64x64 ![0, 64] w slices_S64x128_S64x64_0_64⟩, ⟨S64x64, z64⟩]
        concatenates_S64x64_S64x64_S64x64_S64x64_S64x256_d1⟩,
     ⟨S64x256, concatenate S64x256 1 [⟨S64x64, z64⟩, ⟨S64x64, extractStridedSlice S64x64 ![0, 0] w slices_S64x128_S64x64_0_0⟩,
        ⟨S64x64, z64⟩, ⟨S64x64, extractStridedSlice S64x64 ![0, 64] w slices_S64x128_S64x64_0_64⟩]
        concatenates_S64x64_S64x64_S64x64_S64x64_S64x256_d1⟩]
    concatenates_S64x256_S64x256_S128x256_d0

private theorem gatePair_stRows (A : S195x128.Idx → EReal) (k : ℕ) (hs : S65x3x128.Slices ![1, k, 0] S64x1x128) (hk : k < 3)
    (row : Fin 64 → Fin 195) (hrow : ∀ u : Fin 64, (row u).val = (1 + u.val) * 3 + k) (j : Fin 128) (c : Fin 256) :
    gatePair (stRows A k hs) (ix2 j c) = Cert.Pair.ru (r := 64) (fun u q => Cert.Adapt.mat A (row u) q) j c := by
  refine (pairRu_apply _ _ (fun i => zeros_apply _ i) slices_S64x128_S64x64_0_0 slices_S64x128_S64x64_0_64
    concatenates_S64x64_S64x64_S64x64_S64x64_S64x256_d1 concatenates_S64x256_S64x256_S128x256_d0 j c).trans ?_
  refine congrArg (fun w => Cert.Pair.ru (r := 64) w j c) (funext fun u => funext fun q => ?_)
  have hu := u.isLt
  have hlt : (1 + u.val) * 3 + k < 195 := by omega
  refine (slabG_apply A 1 k shapeCasts_S195x128_S65x3x128 hs shapeCasts_S64x1x128_S64x128 u q hlt (by omega) hk).trans ?_
  rw [show row u = ⟨(1 + u.val) * 3 + k, hlt⟩ from Fin.ext (hrow u)]
  rfl

variable (F0 : Valuation τ sig (Elt Ideal))

set_option maxHeartbeats 4000000 in
theorem hw_v192 (k : Fin 3) (j : Fin 128) (c : Fin 256) :
    (WhHostA4 F0 (Proc.devRef .tc main_v192) : S3x128x256.Idx → EReal) (ix3 k j c)
      = Cert.Pair.ru (r := 64) (fun u q => Cert.Adapt.mat (F0 (Proc.devRef .tc main_arg3) : S195x128.Idx → EReal)
          ⟨(1 + u.val) * 3 + k.val, by have := k.isLt; have := u.isLt; omega⟩ q) j c := by
  dsimp only [WhHostA4]
  host_fold
  rw [truncf_apply]
  match k with
  | ⟨0, _⟩ =>
    exact (stack3_apply0 (by decide) (by decide)
      (gatePair (stRows (F0 (Proc.devRef .tc main_arg3)) 0 slices_S65x3x128_S64x1x128_1_0_0))
      (gatePair (stRows (F0 (Proc.devRef .tc main_arg3)) 1 slices_S65x3x128_S64x1x128_1_1_0))
      (gatePair (stRows (F0 (Proc.devRef .tc main_arg3)) 2 slices_S65x3x128_S64x1x128_1_2_0))
      bcast_S128x256_S1x128x256_1_2 concatenates_S1x128x256_S1x128x256_S1x128x256_S3x128x256_d0 j c).trans
      (gatePair_stRows (F0 (Proc.devRef .tc main_arg3)) 0 slices_S65x3x128_S64x1x128_1_0_0 (by omega) _
        (fun u => rfl) j c)
  | ⟨1, _⟩ =>
    exact (stack3_apply1 (by decide) (by decide)
      (gatePair (stRows (F0 (Proc.devRef .tc main_arg3)) 0 slices_S65x3x128_S64x1x128_1_0_0))
      (gatePair (stRows (F0 (Proc.devRef .tc main_arg3)) 1 slices_S65x3x128_S64x1x128_1_1_0))
      (gatePair (stRows (F0 (Proc.devRef .tc main_arg3)) 2 slices_S65x3x128_S64x1x128_1_2_0))
      bcast_S128x256_S1x128x256_1_2 concatenates_S1x128x256_S1x128x256_S1x128x256_S3x128x256_d0 j c).trans
      (gatePair_stRows (F0 (Proc.devRef .tc main_arg3)) 1 slices_S65x3x128_S64x1x128_1_1_0 (by omega) _
        (fun u => rfl) j c)
  | ⟨2, _⟩ =>
    exact (stack3_apply2 (by decide) (by decide)
      (gatePair (stRows (F0 (Proc.devRef .tc main_arg3)) 0 slices_S65x3x128_S64x1x128_1_0_0))
      (gatePair (stRows (F0 (Proc.devRef .tc main_arg3)) 1 slices_S65x3x128_S64x1x128_1_1_0))
      (gatePair (stRows (F0 (Proc.devRef .tc main_arg3)) 2 slices_S65x3x128_S64x1x128_1_2_0))
      bcast_S128x256_S1x128x256_1_2 concatenates_S1x128x256_S1x128x256_S1x128x256_S3x128x256_d0 j c).trans
      (gatePair_stRows (F0 (Proc.devRef .tc main_arg3)) 2 slices_S65x3x128_S64x1x128_1_2_0 (by omega) _
        (fun u => rfl) j c)

end Cert.KernelIdeal.Hand

end
-- ==== Proof.Val.HostA5.lean ====
import proofs.«104790_g19069654794669_cont_sun_m_30_11_alg».proof.Proof.Gen.KernelIdeal.Launch
import proofs.«104790_g19069654794669_cont_sun_m_30_11_alg».proof.Proof.Spec
import proofs.«104790_g19069654794669_cont_sun_m_30_11_alg».proof.Proof.Pair
import proofs.«104790_g19069654794669_cont_sun_m_30_11_alg».proof.Proof.Adapt
import proofs.«104790_g19069654794669_cont_sun_m_30_11_alg».proof.Proof.LibNary3
import proofs.«104790_g19069654794669_cont_sun_m_30_11_alg».proof.Proof.Val.HostLib
import proofs.«104790_g19069654794669_cont_sun_m_30_11_alg».proof.Proof.Val.HostLib2
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo

abbrev WhHostA5 (F0 : Valuation τ sig (Elt Ideal)) : Valuation τ sig (Elt Ideal) :=
  StableHlo.after main_part3_ops0 (StableHlo.after main_part2_ops0 (StableHlo.after main_part1_ops0 (StableHlo.after main_part0_ops0 F0)))

private abbrev stRowsC (A : S195x64.Idx → EReal) (k : ℕ) (hs : S65x3x64.Slices ![1, k, 0] S64x1x64) : S64x64.Idx → EReal :=
  shapeCast S64x64 (extractStridedSlice S64x1x64 ![1, k, 0] (shapeCast S65x3x64 A shapeCasts_S195x64_S65x3x64) hs)
    shapeCasts_S64x1x64_S64x64

private abbrev z64c : S64x64.Idx → EReal := broadcastInDim S64x64 ![] bcast_S_S64x64 (constant (F := Ideal) S_ .f32 0x00000000#32)

private abbrev candPair (w : S64x64.Idx → EReal) : S128x128.Idx → EReal :=
  concatenate S128x128 0
    [⟨S64x128, concatenate S64x128 1 [⟨S64x64, w⟩, ⟨S64x64, z64c⟩] concatenates_S64x64_S64x64_S64x128_d1⟩,
     ⟨S64x128, concatenate S64x128 1 [⟨S64x64, z64c⟩, ⟨S64x64, w⟩] concatenates_S64x64_S64x64_S64x128_d1⟩]
    concatenates_S64x128_S64x128_S128x128_d0

private theorem candPair_stRows (A : S195x64.Idx → EReal) (k : ℕ) (hs : S65x3x64.Slices ![1, k, 0] S64x1x64) (hk : k < 3)
    (row : Fin 64 → Fin 195) (hrow : ∀ u : Fin 64, (row u).val = (1 + u.val) * 3 + k) (j c : Fin 128) :
    candPair (stRowsC A k hs) (ix2 j c) = Cert.Pair.cc (r := 64) (fun u q => Cert.Adapt.mat A (row u) q) j c := by
  refine (pairC_apply _ _ (fun i => zeros_apply _ i) concatenates_S64x64_S64x64_S64x128_d1
    concatenates_S64x128_S64x128_S128x128_d0 j c).trans ?_
  refine congrArg (fun w => Cert.Pair.cc (r := 64) w j c) (funext fun u => funext fun q => ?_)
  have hu := u.isLt
  have hlt : (1 + u.val) * 3 + k < 195 := by omega
  refine (slabG_apply A 1 k shapeCasts_S195x64_S65x3x64 hs shapeCasts_S64x1x64_S64x64 u q hlt (by omega) hk).trans ?_
  rw [show row u = ⟨(1 + u.val) * 3 + k, hlt⟩ from Fin.ext (hrow u)]
  rfl

variable (F0 : Valuation τ sig (Elt Ideal))

set_option maxHeartbeats 4000000 in
theorem hw_v194 (k : Fin 3) (j : Fin 128) (c : Fin 128) :
    (WhHostA5 F0 (Proc.devRef .tc main_v194) : S3x128x128.Idx → EReal) (ix3 k j c)
      = Cert.Pair.cc (r := 64) (fun u q => Cert.Adapt.mat (F0 (Proc.devRef .tc main_arg5) : S195x64.Idx → EReal)
          ⟨(1 + u.val) * 3 + k.val, by have := k.isLt; have := u.isLt; omega⟩ q) j c := by
  dsimp only [WhHostA5]
  host_fold
  rw [truncf_apply]
  match k with
  | ⟨0, _⟩ =>
    exact (stack3_apply0 (by decide) (by decide)
      (candPair (stRowsC (F0 (Proc.devRef .tc main_arg5)) 0 slices_S65x3x64_S64x1x64_1_0_0))
      (candPair (stRowsC (F0 (Proc.devRef .tc main_arg5)) 1 slices_S65x3x64_S64x1x64_1_1_0))
      (candPair (stRowsC (F0 (Proc.devRef .tc main_arg5)) 2 slices_S65x3x64_S64x1x64_1_2_0))
      bcast_S128x128_S1x128x128_1_2 concatenates_S1x128x128_S1x128x128_S1x128x128_S3x128x128_d0 j c).trans
      (candPair_stRows (F0 (Proc.devRef .tc main_arg5)) 0 slices_S65x3x64_S64x1x64_1_0_0 (by omega) _
        (fun u => rfl) j c)
  | ⟨1, _⟩ =>
    exact (stack3_apply1 (by decide) (by decide)
      (candPair (stRowsC (F0 (Proc.devRef .tc main_arg5)) 0 slices_S65x3x64_S64x1x64_1_0_0))
      (candPair (stRowsC (F0 (Proc.devRef .tc main_arg5)) 1 slices_S65x3x64_S64x1x64_1_1_0))
      (candPair (stRowsC (F0 (Proc.devRef .tc main_arg5)) 2 slices_S65x3x64_S64x1x64_1_2_0))
      bcast_S128x128_S1x128x128_1_2 concatenates_S1x128x128_S1x128x128_S1x128x128_S3x128x128_d0 j c).trans
      (candPair_stRows (F0 (Proc.devRef .tc main_arg5)) 1 slices_S65x3x64_S64x1x64_1_1_0 (by omega) _
        (fun u => rfl) j c)
  | ⟨2, _⟩ =>
    exact (stack3_apply2 (by decide) (by decide)
      (candPair (stRowsC (F0 (Proc.devRef .tc main_arg5)) 0 slices_S65x3x64_S64x1x64_1_0_0))
      (candPair (stRowsC (F0 (Proc.devRef .tc main_arg5)) 1 slices_S65x3x64_S64x1x64_1_1_0))
      (candPair (stRowsC (F0 (Proc.devRef .tc main_arg5)) 2 slices_S65x3x64_S64x1x64_1_2_0))
      bcast_S128x128_S1x128x128_1_2 concatenates_S1x128x128_S1x128x128_S1x128x128_S3x128x128_d0 j c).trans
      (candPair_stRows (F0 (Proc.devRef .tc main_arg5)) 2 slices_S65x3x64_S64x1x64_1_2_0 (by omega) _
        (fun u => rfl) j c)

end Cert.KernelIdeal.Hand

end
-- ==== Proof.Val.HostB2.lean ====
import proofs.«104790_g19069654794669_cont_sun_m_30_11_alg».proof.Proof.Gen.KernelIdeal.Launch
import proofs.«104790_g19069654794669_cont_sun_m_30_11_alg».proof.Proof.Spec
import proofs.«104790_g19069654794669_cont_sun_m_30_11_alg».proof.Proof.Pair
import proofs.«104790_g19069654794669_cont_sun_m_30_11_alg».proof.Proof.Adapt
import proofs.«104790_g19069654794669_cont_sun_m_30_11_alg».proof.Proof.LibNary3
import proofs.«104790_g19069654794669_cont_sun_m_30_11_alg».proof.Proof.Val.HostLib
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo

abbrev WhHostB2 (F0 : Valuation τ sig (Elt Ideal)) : Valuation τ sig (Elt Ideal) :=
  StableHlo.after main_part3_ops0 (StableHlo.after main_part2_ops0 (StableHlo.after main_part1_ops0 (StableHlo.after main_part0_ops0 F0)))

private abbrev slabT (a : S384x128.Idx → EReal) (o k : ℕ) (hs : S128x3x128.Slices ![o, k, 0] S64x1x128) : S64x128.Idx → EReal :=
  shapeCast S64x128 (extractStridedSlice S64x1x128 ![o, k, 0] (shapeCast S128x3x128 a shapeCasts_S384x128_S128x3x128) hs)
    shapeCasts_S64x1x128_S64x128

private abbrev zeroT : S64x64.Idx → EReal :=
  broadcastInDim S64x64 ![] bcast_S_S64x64 (constant (F := Ideal) S_ .f32 0x00000000#32)

private abbrev pairT (w : S64x128.Idx → EReal) : S128x256.Idx → EReal :=
  concatenate S128x256 0
    [⟨S64x256, concatenate S64x256 1 [⟨S64x64, extractStridedSlice S64x64 ![0, 0] w slices_S64x128_S64x64_0_0⟩, ⟨S64x64, zeroT⟩,
        ⟨S64x64, extractStridedSlice S64x64 ![0, 64] w slices_S64x128_S64x64_0_64⟩, ⟨S64x64, zeroT⟩]
        concatenates_S64x64_S64x64_S64x64_S64x64_S64x256_d1⟩,
     ⟨S64x256, concatenate S64x256 1 [⟨S64x64, zeroT⟩, ⟨S64x64, extractStridedSlice S64x64 ![0, 0] w slices_S64x128_S64x64_0_0⟩,
        ⟨S64x64, zeroT⟩, ⟨S64x64, extractStridedSlice S64x64 ![0, 64] w slices_S64x128_S64x64_0_64⟩]
        concatenates_S64x64_S64x64_S64x64_S64x64_S64x256_d1⟩]
    concatenates_S64x256_S64x256_S128x256_d0

private abbrev stackT (x0 x1 x2 : S128x256.Idx → EReal) : S3x128x256.Idx → EReal :=
  concatenate S3x128x256 0
    [⟨S1x128x256, broadcastInDim S1x128x256 ![1, 2] bcast_S128x256_S1x128x256_1_2 x0⟩,
     ⟨S1x128x256, broadcastInDim S1x128x256 ![1, 2] bcast_S128x256_S1x128x256_1_2 x1⟩,
     ⟨S1x128x256, broadcastInDim S1x128x256 ![1, 2] bcast_S128x256_S1x128x256_1_2 x2⟩]
    concatenates_S1x128x256_S1x128x256_S1x128x256_S3x128x256_d0

private theorem stack_at (a : S384x128.Idx → EReal) (o : ℕ) (ho : o + 64 ≤ 128)
    (hs0 : S128x3x128.Slices ![o, 0, 0] S64x1x128) (hs1 : S128x3x128.Slices ![o, 1, 0] S64x1x128) (hs2 : S128x3x128.Slices ![o, 2, 0] S64x1x128)
    (k : Fin 3) (j : Fin 128) (c : Fin 256) :
    stackT (pairT (slabT a o 0 hs0)) (pairT (slabT a o 1 hs1)) (pairT (slabT a o 2 hs2)) (ix3 k j c)
      = Cert.Pair.ru (r := 64) (fun u q => a (ix2 ⟨(o + u.val) * 3 + k.val, by have := k.isLt; have := u.isLt; omega⟩ q)) j c := by
  match k with
  | ⟨0, _⟩ =>
    refine (stack3_apply0 (a := 128) (b := 256) (by decide) (by decide) (pairT (slabT a o 0 hs0)) (pairT (slabT a o 1 hs1)) (pairT (slabT a o 2 hs2))
      bcast_S128x256_S1x128x256_1_2 concatenates_S1x128x256_S1x128x256_S1x128x256_S3x128x256_d0 j c).trans ?_
    refine (pairRu_apply (slabT a o 0 hs0) zeroT (fun i => zeros_apply _ i) slices_S64x128_S64x64_0_0 slices_S64x128_S64x64_0_64
      concatenates_S64x64_S64x64_S64x64_S64x64_S64x256_d1 concatenates_S64x256_S64x256_S128x256_d0 j c).trans ?_
    refine congrArg (fun w => Cert.Pair.ru (r := 64) w j c) (funext fun u => funext fun q => ?_)
    exact slab_apply (n := 128) a o 0 shapeCasts_S384x128_S128x3x128 hs0 shapeCasts_S64x1x128_S64x128 u q
      (by have := u.isLt; omega) (by have := u.isLt; omega) (by omega)
  | ⟨1, _⟩ =>
    refine (stack3_apply1 (a := 128) (b := 256) (by decide) (by decide) (pairT (slabT a o 0 hs0)) (pairT (slabT a o 1 hs1)) (pairT (slabT a o 2 hs2))
      bcast_S128x256_S1x128x256_1_2 concatenates_S1x128x256_S1x128x256_S1x128x256_S3x128x256_d0 j c).trans ?_
    refine (pairRu_apply (slabT a o 1 hs1) zeroT (fun i => zeros_apply _ i) slices_S64x128_S64x64_0_0 slices_S64x128_S64x64_0_64
      concatenates_S64x64_S64x64_S64x64_S64x64_S64x256_d1 concatenates_S64x256_S64x256_S128x256_d0 j c).trans ?_
    refine congrArg (fun w => Cert.Pair.ru (r := 64) w j c) (funext fun u => funext fun q => ?_)
    exact slab_apply (n := 128) a o 1 shapeCasts_S384x128_S128x3x128 hs1 shapeCasts_S64x1x128_S64x128 u q
      (by have := u.isLt; omega) (by have := u.isLt; omega) (by omega)
  | ⟨2, _⟩ =>
    refine (stack3_apply2 (a := 128) (b := 256) (by decide) (by decide) (pairT (slabT a o 0 hs0)) (pairT (slabT a o 1 hs1)) (pairT (slabT a o 2 hs2))
      bcast_S128x256_S1x128x256_1_2 concatenates_S1x128x256_S1x128x256_S1x128x256_S3x128x256_d0 j c).trans ?_
    refine (pairRu_apply (slabT a o 2 hs2) zeroT (fun i => zeros_apply _ i) slices_S64x128_S64x64_0_0 slices_S64x128_S64x64_0_64
      concatenates_S64x64_S64x64_S64x64_S64x64_S64x256_d1 concatenates_S64x256_S64x256_S128x256_d0 j c).trans ?_
    refine congrArg (fun w => Cert.Pair.ru (r := 64) w j c) (funext fun u => funext fun q => ?_)
    exact slab_apply (n := 128) a o 2 shapeCasts_S384x128_S128x3x128 hs2 shapeCasts_S64x1x128_S64x128 u q
      (by have := u.isLt; omega) (by have := u.isLt; omega) (by omega)

variable (F0 : Valuation τ sig (Elt Ideal))

set_option maxHeartbeats 4000000 in
theorem hw_v195 (k : Fin 3) (j : Fin 128) (c : Fin 256) :
    (WhHostB2 F0 (Proc.devRef .tc main_v195) : S3x128x256.Idx → EReal) (ix3 k j c)
      = Cert.Pair.ru (r := 64) (fun u q => Cert.Adapt.mat (F0 (Proc.devRef .tc main_arg7) : S384x128.Idx → EReal)
          ⟨u.val * 3 + k.val, by have := k.isLt; have := u.isLt; omega⟩ q) j c := by
  dsimp only [WhHostB2]
  host_fold
  rw [truncf_apply]
  refine Eq.trans (stack_at (F0 (Proc.devRef .tc main_arg7) : S384x128.Idx → EReal) 0 (by omega)
    slices_S128x3x128_S64x1x128_0_0_0 slices_S128x3x128_S64x1x128_0_1_0 slices_S128x3x128_S64x1x128_0_2_0 k j c) ?_
  refine congrArg (fun w => Cert.Pair.ru (r := 64) w j c) (funext fun u => funext fun q => ?_)
  exact congrArg (fun r => (F0 (Proc.devRef .tc main_arg7) : S384x128.Idx → EReal) (ix2 r q)) (Fin.ext (by show (0 + u.val) * 3 + k.val = u.val * 3 + k.val; omega))

set_option maxHeartbeats 4000000 in
theorem hw_v196 (k : Fin 3) (j : Fin 128) (c : Fin 256) :
    (WhHostB2 F0 (Proc.devRef .tc main_v196) : S3x128x256.Idx → EReal) (ix3 k j c)
      = Cert.Pair.ru (r := 64) (fun u q => Cert.Adapt.mat (F0 (Proc.devRef .tc main_arg7) : S384x128.Idx → EReal)
          ⟨(64 + u.val) * 3 + k.val, by have := k.isLt; have := u.isLt; omega⟩ q) j c := by
  dsimp only [WhHostB2]
  host_fold
  rw [truncf_apply]
  exact stack_at (F0 (Proc.devRef .tc main_arg7) : S384x128.Idx → EReal) 64 (by omega)
    slices_S128x3x128_S64x1x128_64_0_0 slices_S128x3x128_S64x1x128_64_1_0 slices_S128x3x128_S64x1x128_64_2_0 k j c

end Cert.KernelIdeal.Hand

end
-- ==== Proof.Val.HostB3.lean ====
import proofs.«104790_g19069654794669_cont_sun_m_30_11_alg».proof.Proof.Gen.KernelIdeal.Launch
import proofs.«104790_g19069654794669_cont_sun_m_30_11_alg».proof.Proof.Spec
import proofs.«104790_g19069654794669_cont_sun_m_30_11_alg».proof.Proof.Pair
import proofs.«104790_g19069654794669_cont_sun_m_30_11_alg».proof.Proof.Adapt
import proofs.«104790_g19069654794669_cont_sun_m_30_11_alg».proof.Proof.LibNary3
import proofs.«104790_g19069654794669_cont_sun_m_30_11_alg».proof.Proof.Val.HostLib
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo

abbrev WhHostB3 (F0 : Valuation τ sig (Elt Ideal)) : Valuation τ sig (Elt Ideal) :=
  StableHlo.after main_part3_ops0 (StableHlo.after main_part2_ops0 (StableHlo.after main_part1_ops0 (StableHlo.after main_part0_ops0 F0)))

private abbrev blkOf (A : S384x64.Idx → EReal) (o k : ℕ) (hs : S128x3x64.Slices ![o, k, 0] S64x1x64) : S64x64.Idx → EReal :=
  shapeCast S64x64 (extractStridedSlice S64x1x64 ![o, k, 0] (shapeCast S128x3x64 A shapeCasts_S384x64_S128x3x64) hs)
    shapeCasts_S64x1x64_S64x64

private abbrev zero64 : S64x64.Idx → EReal := broadcastInDim S64x64 ![] bcast_S_S64x64 (constant (F := Ideal) S_ .f32 0x00000000#32)

private abbrev pairOf (w : S64x64.Idx → EReal) : S128x128.Idx → EReal :=
  concatenate S128x128 0
    [⟨S64x128, concatenate S64x128 1 [⟨S64x64, w⟩, ⟨S64x64, zero64⟩] concatenates_S64x64_S64x64_S64x128_d1⟩,
     ⟨S64x128, concatenate S64x128 1 [⟨S64x64, zero64⟩, ⟨S64x64, w⟩] concatenates_S64x64_S64x64_S64x128_d1⟩]
    concatenates_S64x128_S64x128_S128x128_d0

private theorem blk (A : S384x64.Idx → EReal) (o k : ℕ) (hs : S128x3x64.Slices ![o, k, 0] S64x1x64) (ho : o + 64 ≤ 128) (hk : k < 3)
    (u q : Fin 64) (r : Fin 384) (hr : r.val = (o + u.val) * 3 + k) :
    blkOf A o k hs (ix2 u q) = Cert.Adapt.mat A r q := by
  have hu := u.isLt
  have hlt : (o + u.val) * 3 + k < 384 := by omega
  refine (slab_apply A o k shapeCasts_S384x64_S128x3x64 hs shapeCasts_S64x1x64_S64x64 u q hlt (by omega) hk).trans ?_
  rw [show r = ⟨(o + u.val) * 3 + k, hlt⟩ from Fin.ext hr]
  rfl

private theorem pair_blk (A : S384x64.Idx → EReal) (o k : ℕ) (hs : S128x3x64.Slices ![o, k, 0] S64x1x64) (ho : o + 64 ≤ 128) (hk : k < 3)
    (row : Fin 64 → Fin 384) (hrow : ∀ u : Fin 64, (row u).val = (o + u.val) * 3 + k) (j c : Fin 128) :
    pairOf (blkOf A o k hs) (ix2 j c) = Cert.Pair.cc (r := 64) (fun u q => Cert.Adapt.mat A (row u) q) j c := by
  refine (pairC_apply _ _ (fun i => zeros_apply _ i) concatenates_S64x64_S64x64_S64x128_d1
    concatenates_S64x128_S64x128_S128x128_d0 j c).trans ?_
  refine congrArg (fun w => Cert.Pair.cc (r := 64) w j c) (funext fun u => funext fun q => ?_)
  exact blk A o k hs ho hk u q (row u) (hrow u)

variable (F0 : Valuation τ sig (Elt Ideal))

set_option maxHeartbeats 2000000 in
theorem hw_v197 (k : Fin 3) (j : Fin 128) (c : Fin 128) :
    (WhHostB3 F0 (Proc.devRef .tc main_v197) : S3x128x128.Idx → EReal) (ix3 k j c)
      = Cert.Pair.cc (r := 64) (fun u q => Cert.Adapt.mat (F0 (Proc.devRef .tc main_arg9) : S384x64.Idx → EReal)
          ⟨u.val * 3 + k.val, by have := k.isLt; have := u.isLt; omega⟩ q) j c := by
  dsimp only [WhHostB3]
  host_fold
  rw [truncf_apply]
  match k with
  | ⟨0, _⟩ =>
    exact (stack3_apply0 (by decide) (by decide)
      (pairOf (blkOf (F0 (Proc.devRef .tc main_arg9)) 0 0 slices_S128x3x64_S64x1x64_0_0_0))
      (pairOf (blkOf (F0 (Proc.devRef .tc main_arg9)) 0 1 slices_S128x3x64_S64x1x64_0_1_0))
      (pairOf (blkOf (F0 (Proc.devRef .tc main_arg9)) 0 2 slices_S128x3x64_S64x1x64_0_2_0))
      bcast_S128x128_S1x128x128_1_2 concatenates_S1x128x128_S1x128x128_S1x128x128_S3x128x128_d0 j c).trans
      (pair_blk (F0 (Proc.devRef .tc main_arg9)) 0 0 slices_S128x3x64_S64x1x64_0_0_0 (by omega) (by omega) _
        (fun u => by show u.val * 3 + 0 = (0 + u.val) * 3 + 0; omega) j c)
  | ⟨1, _⟩ =>
    exact (stack3_apply1 (by decide) (by decide)
      (pairOf (blkOf (F0 (Proc.devRef .tc main_arg9)) 0 0 slices_S128x3x64_S64x1x64_0_0_0))
      (pairOf (blkOf (F0 (Proc.devRef .tc main_arg9)) 0 1 slices_S128x3x64_S64x1x64_0_1_0))
      (pairOf (blkOf (F0 (Proc.devRef .tc main_arg9)) 0 2 slices_S128x3x64_S64x1x64_0_2_0))
      bcast_S128x128_S1x128x128_1_2 concatenates_S1x128x128_S1x128x128_S1x128x128_S3x128x128_d0 j c).trans
      (pair_blk (F0 (Proc.devRef .tc main_arg9)) 0 1 slices_S128x3x64_S64x1x64_0_1_0 (by omega) (by omega) _
        (fun u => by show u.val * 3 + 1 = (0 + u.val) * 3 + 1; omega) j c)
  | ⟨2, _⟩ =>
    exact (stack3_apply2 (by decide) (by decide)
      (pairOf (blkOf (F0 (Proc.devRef .tc main_arg9)) 0 0 slices_S128x3x64_S64x1x64_0_0_0))
      (pairOf (blkOf (F0 (Proc.devRef .tc main_arg9)) 0 1 slices_S128x3x64_S64x1x64_0_1_0))
      (pairOf (blkOf (F0 (Proc.devRef .tc main_arg9)) 0 2 slices_S128x3x64_S64x1x64_0_2_0))
      bcast_S128x128_S1x128x128_1_2 concatenates_S1x128x128_S1x128x128_S1x128x128_S3x128x128_d0 j c).trans
      (pair_blk (F0 (Proc.devRef .tc main_arg9)) 0 2 slices_S128x3x64_S64x1x64_0_2_0 (by omega) (by omega) _
        (fun u => by show u.val * 3 + 2 = (0 + u.val) * 3 + 2; omega) j c)

set_option maxHeartbeats 2000000 in
theorem hw_v198 (k : Fin 3) (j : Fin 128) (c : Fin 128) :
    (WhHostB3 F0 (Proc.devRef .tc main_v198) : S3x128x128.Idx → EReal) (ix3 k j c)
      = Cert.Pair.cc (r := 64) (fun u q => Cert.Adapt.mat (F0 (Proc.devRef .tc main_arg9) : S384x64.Idx → EReal)
          ⟨(64 + u.val) * 3 + k.val, by have := k.isLt; have := u.isLt; omega⟩ q) j c := by
  dsimp only [WhHostB3]
  host_fold
  rw [truncf_apply]
  match k with
  | ⟨0, _⟩ =>
    exact (stack3_apply0 (by decide) (by decide)
      (pairOf (blkOf (F0 (Proc.devRef .tc main_arg9)) 64 0 slices_S128x3x64_S64x1x64_64_0_0))
      (pairOf (blkOf (F0 (Proc.devRef .tc main_arg9)) 64 1 slices_S128x3x64_S64x1x64_64_1_0))
      (pairOf (blkOf (F0 (Proc.devRef .tc main_arg9)) 64 2 slices_S128x3x64_S64x1x64_64_2_0))
      bcast_S128x128_S1x128x128_1_2 concatenates_S1x128x128_S1x128x128_S1x128x128_S3x128x128_d0 j c).trans
      (pair_blk (F0 (Proc.devRef .tc main_arg9)) 64 0 slices_S128x3x64_S64x1x64_64_0_0 (by omega) (by omega) _
        (fun u => by show (64 + u.val) * 3 + 0 = (64 + u.val) * 3 + 0; omega) j c)
  | ⟨1, _⟩ =>
    exact (stack3_apply1 (by decide) (by decide)
      (pairOf (blkOf (F0 (Proc.devRef .tc main_arg9)) 64 0 slices_S128x3x64_S64x1x64_64_0_0))
      (pairOf (blkOf (F0 (Proc.devRef .tc main_arg9)) 64 1 slices_S128x3x64_S64x1x64_64_1_0))
      (pairOf (blkOf (F0 (Proc.devRef .tc main_arg9)) 64 2 slices_S128x3x64_S64x1x64_64_2_0))
      bcast_S128x128_S1x128x128_1_2 concatenates_S1x128x128_S1x128x128_S1x128x128_S3x128x128_d0 j c).trans
      (pair_blk (F0 (Proc.devRef .tc main_arg9)) 64 1 slices_S128x3x64_S64x1x64_64_1_0 (by omega) (by omega) _
        (fun u => by show (64 + u.val) * 3 + 1 = (64 + u.val) * 3 + 1; omega) j c)
  | ⟨2, _⟩ =>
    exact (stack3_apply2 (by decide) (by decide)
      (pairOf (blkOf (F0 (Proc.devRef .tc main_arg9)) 64 0 slices_S128x3x64_S64x1x64_64_0_0))
      (pairOf (blkOf (F0 (Proc.devRef .tc main_arg9)) 64 1 slices_S128x3x64_S64x1x64_64_1_0))
      (pairOf (blkOf (F0 (Proc.devRef .tc main_arg9)) 64 2 slices_S128x3x64_S64x1x64_64_2_0))
      bcast_S128x128_S1x128x128_1_2 concatenates_S1x128x128_S1x128x128_S1x128x128_S3x128x128_d0 j c).trans
      (pair_blk (F0 (Proc.devRef .tc main_arg9)) 64 2 slices_S128x3x64_S64x1x64_64_2_0 (by omega) (by omega) _
        (fun u => by show (64 + u.val) * 3 + 2 = (64 + u.val) * 3 + 2; omega) j c)

end Cert.KernelIdeal.Hand

end
-- ==== Proof.Val.HostB.lean ====
import proofs.«104790_g19069654794669_cont_sun_m_30_11_alg».proof.Proof.Gen.KernelIdeal.Launch
import proofs.«104790_g19069654794669_cont_sun_m_30_11_alg».proof.Proof.Spec
import proofs.«104790_g19069654794669_cont_sun_m_30_11_alg».proof.Proof.Pair
import proofs.«104790_g19069654794669_cont_sun_m_30_11_alg».proof.Proof.Adapt
import proofs.«104790_g19069654794669_cont_sun_m_30_11_alg».proof.Proof.LibNary3
import proofs.«104790_g19069654794669_cont_sun_m_30_11_alg».proof.Proof.Val.HostLib
import proofs.«104790_g19069654794669_cont_sun_m_30_11_alg».proof.Proof.Val.HostB2
import proofs.«104790_g19069654794669_cont_sun_m_30_11_alg».proof.Proof.Val.HostB3
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo

abbrev WhB (F0 : Valuation τ sig (Elt Ideal)) : Valuation τ sig (Elt Ideal) :=
  StableHlo.after main_part3_ops0 (StableHlo.after main_part2_ops0 (StableHlo.after main_part1_ops0 (StableHlo.after main_part0_ops0 F0)))

variable (F0 : Valuation τ sig (Elt Ideal))

set_option maxHeartbeats 4000000 in
theorem hw_v190 : (WhB F0 (Proc.devRef .tc main_v190) : S1x1.Idx → EReal) (ix2 0 0)
    = Cert.Adapt.scal (F0 (Proc.devRef .tc main_arg12) : S1.Idx → EReal) := by
  dsimp only [WhB]
  host_fold
  exact shapeCast_a_1a_apply _ _ 0 0

set_option maxHeartbeats 4000000 in
theorem hw_v199 (j : Fin 128) (c : Fin 2) : (WhB F0 (Proc.devRef .tc main_v199) : S128x2.Idx → EReal) (ix2 j c)
    = Cert.Pair.pp (Cert.Adapt.col (F0 (Proc.devRef .tc main_arg11) : S64x1.Idx → EReal)) j c := by
  dsimp only [WhB]
  host_fold
  rw [truncf_apply]
  exact pairP_apply (F0 (Proc.devRef .tc main_arg11)) _ (zeros_apply (T := S2 64 1) (by decide)) (by decide) (by decide) j c

set_option maxHeartbeats 4000000 in
theorem hw_v183 (c : Fin 256) : (WhB F0 (Proc.devRef .tc main_v183) : S1x256.Idx → EReal) (ix2 0 c)
    = Cert.Pair.bru (Cert.Adapt.vec (F0 (Proc.devRef .tc main_arg8) : S128.Idx → EReal)) c := by
  dsimp only [WhB]
  host_fold
  exact bru_apply _ c

set_option maxHeartbeats 4000000 in
theorem hw_v185 (c : Fin 128) : (WhB F0 (Proc.devRef .tc main_v185) : S1x128.Idx → EReal) (ix2 0 c)
    = Cert.Pair.bcc (Cert.Adapt.vec (F0 (Proc.devRef .tc main_arg10) : S64.Idx → EReal)) c := by
  dsimp only [WhB]
  host_fold
  exact bcc_apply _ c

end Cert.KernelIdeal.Hand

end
-- ==== Proof.Val.HostL.lean ====
import proofs.«104790_g19069654794669_cont_sun_m_30_11_alg».proof.Proof.Gen.KernelIdeal.Launch
import proofs.«104790_g19069654794669_cont_sun_m_30_11_alg».proof.Proof.LibNary3
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

local macro "host_results" : tactic =>
  `(tactic| (simp only [after_cons, after_nil]
             repeat (first
               | rw [nullary_result] | rw [unary_result] | rw [binary_result] | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

variable (G : Valuation τ sig (Elt Ideal))

theorem hl_v206 (b : Fin 64) (n : Fin 512) (k : Fin 3) :
    (StableHlo.after main_part3_ops1 G (Proc.devRef .tc main_v206) : S64x512x3.Idx → EReal) (ix3 b n k)
      = (match k with
         | 0 => (G (Proc.devRef .tc main_v0) : S512x64.Idx → EReal) (ix2 n b)
         | 1 => (G (Proc.devRef .tc main_v201_1) : S512x64.Idx → EReal) (ix2 n b)
         | 2 => (G (Proc.devRef .tc main_v201_2) : S512x64.Idx → EReal) (ix2 n b)) := by
  host_results
  refine (transpose_apply [1, 0, 2] _ transposes_S512x64x3_S64x512x3_1_0_2 (ix3 b n k) (ix3 n b k)
    (fun a => match a with | ⟨0, _⟩ => rfl | ⟨1, _⟩ => rfl | ⟨2, _⟩ => rfl)).trans ?_
  refine (concatenate_ofFn_unit_apply (t := S512x64x3) 2 (fun i => broadcastInDim S512x64x1 ![0, 1] bcast_S512x64_S512x64x1_0_1
      ((![G (Proc.devRef .tc main_v0), G (Proc.devRef .tc main_v201_1), G (Proc.devRef .tc main_v201_2)] :
        Fin 3 → S512x64.Idx → EReal) i)) _ rfl rfl (ix3 n b k) k rfl (ix3 n b 0)
    (fun a => match a with | ⟨0, _⟩ => fun _ => rfl | ⟨1, _⟩ => fun _ => rfl | ⟨2, _⟩ => fun h => absurd rfl h)).trans ?_
  refine (broadcastInDim_apply _ bcast_S512x64_S512x64x1_0_1 _ (ix3 n b 0) (ix2 n b)
    (fun a => match a with | ⟨0, _⟩ => rfl | ⟨1, _⟩ => rfl)).trans ?_
  match k with
  | ⟨0, _⟩ => rfl
  | ⟨1, _⟩ => rfl
  | ⟨2, _⟩ => rfl

-- Half `l` of the state: the slice at offset `l` of the leading axis, its unit axis dropped.
private theorem hl_half (l : Fin 2) (hs : S2x64x512x64.Slices ![l.val, 0, 0, 0] S1x64x512x64) (b : Fin 64) (n : Fin 512) (u : Fin 64) :
    shapeCast S64x512x64 (extractStridedSlice S1x64x512x64 ![l.val, 0, 0, 0] (G (Proc.devRef .tc main_v1)) hs)
        shapeCasts_S1x64x512x64_S64x512x64 (ix3 b n u)
      = (G (Proc.devRef .tc main_v1) : S2x64x512x64.Idx → EReal) (ix4 l b n u) :=
  (shapeCast_1abc_abc_apply _ _ b n u).trans (extractStridedSlice_apply _ _ hs (ix4 0 b n u) (ix4 l b n u)
    (fun a => match a with
      | ⟨0, _⟩ => rfl
      | ⟨1, _⟩ => (Nat.zero_add _).symm
      | ⟨2, _⟩ => (Nat.zero_add _).symm
      | ⟨3, _⟩ => (Nat.zero_add _).symm))

theorem hl_v208 (b : Fin 64) (n : Fin 512) (u : Fin 64) :
    (StableHlo.after main_part3_ops1 G (Proc.devRef .tc main_v208) : S64x512x64.Idx → EReal) (ix3 b n u)
      = (G (Proc.devRef .tc main_v1) : S2x64x512x64.Idx → EReal) (ix4 0 b n u) := by
  host_results
  exact hl_half G 0 slices_S2x64x512x64_S1x64x512x64_0_0_0_0 b n u

theorem hl_v210 (b : Fin 64) (n : Fin 512) (u : Fin 64) :
    (StableHlo.after main_part3_ops1 G (Proc.devRef .tc main_v210) : S64x512x64.Idx → EReal) (ix3 b n u)
      = (G (Proc.devRef .tc main_v1) : S2x64x512x64.Idx → EReal) (ix4 1 b n u) := by
  host_results
  exact hl_half G 1 slices_S2x64x512x64_S1x64x512x64_1_0_0_0 b n u

private theorem hl_writes_sub {Ws : List (Ref sig .tc)} {y : Ref sig .tc} (h : y ∈ Ws) :
    ({Proc.devRef (τ := τ) .tc y} : Finset (DevRef τ sig)) ⊆ (Ws.map (Proc.devRef (τ := τ) .tc)).toFinset :=
  Finset.singleton_subset_iff.mpr (List.mem_toFinset.mpr (List.mem_map_of_mem h))

theorem hl_keep1 (r : Ref sig .tc)
    (hr : r ∉ ([main_v202, main_v203, main_v204, main_v205, main_v206, main_v207, main_v208, main_v209, main_v210] : List (Ref sig .tc))) :
    StableHlo.after main_part3_ops1 G (Proc.devRef .tc r) = G (Proc.devRef .tc r) :=
  StableHlo.after_of_writes_sub main_part3_ops1 G
    (W := [main_v202, main_v203, main_v204, main_v205, main_v206, main_v207, main_v208, main_v209, main_v210])
    (by refine ⟨?_, ?_, ?_, ?_, ?_, ?_, ?_, ?_, ?_⟩ <;> exact hl_writes_sub (by decide)) hr

theorem hl_v212 (b : Fin 64) (n : Fin 512) :
    (StableHlo.after main_part3_ops2 G (Proc.devRef .tc main_v212) : S64x512.Idx → EReal) (ix2 b n)
      = (G (Proc.devRef .tc main_v211_0) : S64x512x1.Idx → EReal) (ix3 b n 0) := by
  host_results
  exact shapeCast_apply _ shapeCasts_S64x512x1_S64x512 (ix2 b n) (ix3 b n 0)
    (by rewrite [Shape.rowMajor_val_three, Shape.rowMajor_val_two]
        show (b.val * 512 + n.val) * 1 + 0 = b.val * 512 + n.val
        omega)

theorem hl_v217 (l : Fin 2) (b : Fin 64) (n : Fin 512) (u : Fin 64) :
    (StableHlo.after main_part3_ops2 G (Proc.devRef .tc main_v217) : S2x64x32768.Idx → EReal)
        (ix3 l b ⟨n.val * 64 + u.val, by have := n.isLt; have := u.isLt; omega⟩)
      = (if l.val = 0 then (G (Proc.devRef .tc main_v211_1) : S64x512x64.Idx → EReal) (ix3 b n u)
         else (G (Proc.devRef .tc main_v211_2) : S64x512x64.Idx → EReal) (ix3 b n u)) := by
  host_results
  have hp : n.val * 64 + u.val < 32768 := by have := n.isLt; have := u.isLt; omega
  have flat : ∀ X : S64x512x64.Idx → EReal, broadcastInDim S1x64x32768 ![1, 2] bcast_S64x32768_S1x64x32768_1_2
      (shapeCast S64x32768 X shapeCasts_S64x512x64_S64x32768) (ix3 0 b ⟨_, hp⟩) = X (ix3 b n u) := fun X =>
    (broadcastInDim_apply _ bcast_S64x32768_S1x64x32768_1_2 _ (ix3 0 b ⟨_, hp⟩) (ix2 b ⟨_, hp⟩)
      (fun a => match a with | ⟨0, _⟩ => rfl | ⟨1, _⟩ => rfl)).trans
    (shapeCast_apply _ shapeCasts_S64x512x64_S64x32768 (ix2 b ⟨_, hp⟩) (ix3 b n u)
      (by rewrite [Shape.rowMajor_val_three, Shape.rowMajor_val_two]
          show (b.val * 512 + n.val) * 64 + u.val = b.val * 32768 + (n.val * 64 + u.val)
          omega))
  match l with
  | ⟨0, _⟩ =>
    exact Eq.trans (concatenate_pair_apply_left (t := S2x64x32768) 0 _ _ concatenates_S1x64x32768_S1x64x32768_S2x64x32768_d0 _ rfl
      (ix3 0 b ⟨_, hp⟩ : S1x64x32768.Idx) (fun a => match a with | ⟨0, _⟩ => rfl | ⟨1, _⟩ => rfl | ⟨2, _⟩ => rfl))
      ((flat _).trans (if_pos rfl).symm)
  | ⟨1, _⟩ =>
    exact Eq.trans (concatenate_pair_apply_right (t := S2x64x32768) 0 _ _ concatenates_S1x64x32768_S1x64x32768_S2x64x32768_d0 _ rfl rfl
      (ix3 0 b ⟨_, hp⟩ : S1x64x32768.Idx) (fun a ha => match a, ha with | ⟨0, _⟩, h => absurd rfl h | ⟨1, _⟩, _ => rfl | ⟨2, _⟩, _ => rfl) rfl)
      ((flat _).trans (if_neg Nat.one_ne_zero).symm)

end Cert.KernelIdeal.Hand

end
-- ==== Proof.Val.Reg0.lean ====
import proofs.«104790_g19069654794669_cont_sun_m_30_11_alg».proof.Proof.KI.Body0
import proofs.«104790_g19069654794669_cont_sun_m_30_11_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

-- A sum along either axis of a square matrix, read at the other axis's coordinate.
section Sums
variable (v : FVec Ideal S512x512 .f32) (hφ : FTy.f32 = FTy.f32 ∨ FTy.f32 = FTy.bf16)
  (hacc : (0x00000000#32 : BitVec 32) = 0x00000000#32)

theorem rowsum_apply (h : S512x512.Reduces [1] S512) (i : Fin 512) :
    multiReduction .add [1] S512 v 0x00000000#32 h hφ hacc (ix1 i) = ∑ j : Fin 512, v (ix2 i j) :=
  (Ideal.multiReduction_add_single v 0x00000000#32 h hφ hacc (ix1 i)).trans
    (Finset.sum_congr rfl fun k _ => congrArg v (funext fun a => by match a with | ⟨0, _⟩ => rfl | ⟨1, _⟩ => rfl))

theorem colsum_apply (h : S512x512.Reduces [0] S512) (j : Fin 512) :
    multiReduction .add [0] S512 v 0x00000000#32 h hφ hacc (ix1 j) = ∑ i : Fin 512, v (ix2 i j) :=
  (Ideal.multiReduction_add_single v 0x00000000#32 h hφ hacc (ix1 j)).trans
    (Finset.sum_congr rfl fun k _ => congrArg v (funext fun a => by match a with | ⟨0, _⟩ => rfl | ⟨1, _⟩ => rfl))

end Sums

theorem one_f32 : Ideal.ofBits .f32 0x3F800000#32 = 1 := by
  simp [Ideal.ofBits, Ideal.ieee, -EReal.coe_mul] <;> norm_num
theorem two_f32 : Ideal.ofBits .f32 0x40000000#32 = 2 := by
  have h : Ideal.ofBits .f32 0x40000000#32 = ((2 : ℝ) : EReal) := by
    simp [Ideal.ofBits, Ideal.ieee, -EReal.coe_mul] <;> norm_num
  rw [h]; first | rfl | norm_cast | simp

theorem select_ogt (d z a b : EReal) :
    Scalar.select (Ideal.cmp .ogt d z) a b = if z < d then a else b := by
  by_cases h : z < d <;> simp [Scalar.select, Ideal.cmp, h]

theorem sqrt_apply {s : Shape} {φ : FTy} (a : FVec Ideal s φ) (i : s.Idx) : sqrt a i = Ideal.sqrt (a i) := rfl
theorem scalar_ofBits (φ : FTy) (b : BitVec φ.bits) : Scalar.ofBits (F := Ideal) φ b = Ideal.ofBits φ b := rfl

section Payloads
variable (x0 x1 : FVec Ideal S512x512 .f32) (x2 : FVec Ideal S512x64 .f32)
  (adj : Fin 512 → Fin 512 → EReal) (xin : Fin 64 → Fin 512 → EReal)
  (h0 : ∀ i j, x0 (ix2 i j) = adj i j) (h1 : ∀ i j, x1 (ix2 i j) = adj j i) (h2 : ∀ n b, x2 (ix2 n b) = xin b n)

theorem colsum_amax (j : Fin 512) : ∑ i : Fin 512, max (adj i j) (adj j i) = ∑ i : Fin 512, max (adj j i) (adj i j) :=
  Finset.sum_congr rfl fun i _ => max_comm _ _

include h0 h1 in
set_option maxHeartbeats 1000000 in
theorem pay2_apply (i j : Fin 512) : k0_pay2 (F := Ideal) x0 x1 (ix2 i j) = Cert.Spec.sup adj i j := by
  unfold k0_pay2
  simp only [mulf_apply, subf_apply, broadcast_apply, broadcastTo_a1_ab_apply, broadcastTo_1b_ab_apply, select_apply,
    cmpf_apply, divf_apply, sqrt_apply, shapeCast_a_a1_apply, shapeCast_a_1a_apply, rowsum_apply, colsum_apply,
    maximumf_apply, shapeCast_self, h0, h1, scalar_ofBits, Ideal.ofBits_zero_f32, one_f32, Ideal.cmpf_def, select_ogt,
    colsum_amax]
  rw [rowsum_apply, colsum_apply]
  simp only [maximumf_apply, h0, h1, colsum_amax]
  show (0 - Cert.Spec.dis adj i * Cert.Spec.amax adj i j) * Cert.Spec.dis adj j
    = -(Cert.Spec.dis adj i * Cert.Spec.amax adj i j * Cert.Spec.dis adj j)
  rw [zero_sub, EReal.neg_mul]

abbrev D0 := dot_S512x512_S512x64_S512x64_1_0_0_1_n_n

theorem lhs_dot0_0 (i : S512x64.Idx) (q : D0.contr.Idx) : (D0.lhsIdx i q 0).val = (i 0).val := by
  unfold DotDims.lhsIdx
  rw [dif_neg (show ¬(0 : Fin S512x512.rank) ∈ D0.lhsBatch by decide), dif_pos (show (0 : Fin S512x512.rank) ∈ D0.lhsNonContracting by decide)]
  rfl
theorem rhs_dot0_1 (i : S512x64.Idx) (q : D0.contr.Idx) : (D0.rhsIdx i q 1).val = (i 1).val := by
  unfold DotDims.rhsIdx
  rw [dif_neg (show ¬(1 : Fin S512x64.rank) ∈ D0.rhsBatch by decide), dif_pos (show (1 : Fin S512x64.rank) ∈ D0.rhsNonContracting by decide)]
  rfl

theorem matmul0_apply (L : FVec Ideal S512x512 .f32) (R : FVec Ideal S512x64 .f32) (n : Fin 512) (b : Fin 64) :
    matmul D0 none L R (constant (F := Ideal) S512x64 .f32 0x00000000#32) (ix2 n b) = ∑ m : Fin 512, L (ix2 n m) * R (ix2 m b) := by
  refine (Ideal.matmul_constant_zero_apply D0 none L R (ix2 n b)).trans ?_
  rw [← Equiv.sum_comp (contrEquiv1 D0 512 rfl rfl).symm]
  refine Finset.sum_congr rfl fun k _ => ?_
  have hk := contrEquiv1_symm_val D0 512 rfl rfl k
  have el : D0.lhsIdx (ix2 n b) ((contrEquiv1 D0 512 rfl rfl).symm k) = ix2 n k := funext fun a => Fin.ext (by
    match a with
    | ⟨0, _⟩ => exact lhs_dot0_0 _ _
    | ⟨1, _⟩ => exact (D0.lhsIdx_val_of_single rfl _ _).trans hk)
  have er : D0.rhsIdx (ix2 n b) ((contrEquiv1 D0 512 rfl rfl).symm k) = ix2 k b := funext fun a => Fin.ext (by
    match a with
    | ⟨0, _⟩ => exact (D0.rhsIdx_val_of_single rfl _ _).trans hk
    | ⟨1, _⟩ => exact rhs_dot0_1 _ _)
  rw [el, er]

include h0 h1 h2

theorem pay4_apply (n : Fin 512) (b : Fin 64) :
    k0_pay4 (F := Ideal) x0 x1 x2 (ix2 n b) = Cert.Spec.diff (Cert.Spec.sup adj) (xin b) n := by
  unfold k0_pay4
  refine (matmul0_apply _ _ n b).trans ?_
  unfold Cert.Spec.diff
  refine Finset.sum_congr rfl fun m _ => ?_
  rw [pay2_apply x0 x1 adj h0 h1 n m]
  unfold k0_pay3
  rw [shapeCast_self, h2]

theorem pay1_apply (n : Fin 512) (b : Fin 64) :
    k0_pay1 (F := Ideal) (k0_pay3 x2) (k0_pay5 x0 x1 x2) (ix2 n b)
      = 2 * Cert.Spec.diff (Cert.Spec.sup adj) (Cert.Spec.diff (Cert.Spec.sup adj) (xin b)) n - xin b n := by
  unfold k0_pay1 k0_pay5
  show Ideal.ofBits .f32 0x40000000#32
      * matmul D0 none (k0_pay2 (F := Ideal) x0 x1) (k0_pay4 (F := Ideal) x0 x1 x2)
          (constant (F := Ideal) S512x64 .f32 0x00000000#32) (ix2 n b)
      - k0_pay3 (F := Ideal) x2 (ix2 n b) = _
  rw [two_f32, matmul0_apply]
  unfold k0_pay3
  rw [shapeCast_self, h2]
  refine congrArg (fun s => 2 * s - xin b n) ?_
  unfold Cert.Spec.diff
  refine Finset.sum_congr rfl fun m _ => ?_
  rw [pay2_apply x0 x1 adj h0 h1 n m, pay4_apply x0 x1 x2 adj xin h0 h1 h2 m b]
  rfl

end Payloads

theorem zero_off2 : (![0, 0] : Fin 2 → Nat) = fun _ => 0 :=
  funext fun a => by match a with | ⟨0, _⟩ => rfl | ⟨1, _⟩ => rfl

theorem off0 : ∀ (w : Fin 6) (t : Fin grid0.N) (a : Fin (win0 w).shape.rank), (win0 w).index t a = 0 := by
  decide +kernel

-- Every block index is zero, so a block's element sits at its own index in the array.
theorem emb0 (w : Fin 6) (t : Fin cfg0.N) (y : ((win0 w).xblock (grid0.coords t)).Idx) (i : (win0 w).shape.Idx)
    (h : ∀ a, (y a).val = (i a).val) : ((win0 w).rect t).emb y = i :=
  funext fun a => Fin.ext (((win0 w).rect_emb_val_of_index_zero t a (off0 w t a) y).trans (h a))

section Results
variable (V : (c : Dev nD) → (b : Ref sig .tc) → Buf (Elt Ideal) ((c : Thread nD τ).loc b)) (c : Dev nD)
  (adj : Fin 512 → Fin 512 → EReal) (xin : Fin 64 → Fin 512 → EReal)

abbrev aAdj : S512x512.Idx → EReal := V c main_arg2
abbrev aAdjT : S512x512.Idx → EReal := V c main_v200
abbrev aX : S512x64.Idx → EReal := V c main_v0

theorem iblk0_0 (t : Fin cfg0.N) : iblk0 V c 0 t = (aAdj V c) :=
  funext fun j => congrArg (aAdj V c) (emb0 0 t j j fun _ => rfl)

theorem iblk0_1 (t : Fin cfg0.N) : iblk0 V c 1 t = (aAdjT V c) :=
  funext fun j => congrArg (aAdjT V c) (emb0 1 t j j fun _ => rfl)

theorem iblk0_2 (t : Fin cfg0.N) : iblk0 V c 2 t = (aX V c) :=
  funext fun j => congrArg (aX V c) (emb0 2 t j j fun _ => rfl)

theorem cut0_3 (t : Fin cfg0.N) (X G : S512x512.Idx → EReal) (h : X = G) :
    (cfg0.win 3).cut (grid0.coords t) X = ((cfg0.win 3).blk t).view.read (Elt Ideal) G :=
  h ▸ funext fun j => (congrArg X (emb0 3 t j j fun _ => rfl)).symm

theorem cut0_4 (t : Fin cfg0.N) (X G : S512x64.Idx → EReal) (h : X = G) :
    (cfg0.win 4).cut (grid0.coords t) X = ((cfg0.win 4).blk t).view.read (Elt Ideal) G :=
  h ▸ funext fun j => (congrArg X (emb0 4 t j j fun _ => rfl)).symm

theorem cut0_5 (t : Fin cfg0.N) (X G : S512x64.Idx → EReal) (h : X = G) :
    (cfg0.win 5).cut (grid0.coords t) X = ((cfg0.win 5).blk t).view.read (Elt Ideal) G :=
  h ▸ funext fun j => (congrArg X (emb0 5 t j j fun _ => rfl)).symm

theorem arr0_3 : (dat0 V c).arrAt 3 cfg0.N
    = k0_pay2 (F := Ideal) (aAdj V c) (aAdjT V c) := by
  refine (dat0 V c).arrAt_eq_of_cover 3 _ (fun t _ => ?_)
    fun i => ⟨t0_0, flush0_3 _, emb0 3 t0_0 i i (fun _ => rfl) ▸ View.emb_mem_set _ i⟩
  show (cfg0.win 3).cut (grid0.coords t) ((dat0 V c).after 3 t) = _
  rw [after0_3]
  refine cut0_3 t _ _ ?_
  unfold out0_3
  rw [View.canon_unit_zero zero_off2]
  simp only [View.ld_unit_zero (S := S512x512) zero_off2]
  rw [iblk0_0 V c t, iblk0_1 V c t]

theorem arr0_4 : (dat0 V c).arrAt 4 cfg0.N
    = k0_pay4 (F := Ideal) (aAdj V c) (aAdjT V c) (aX V c) := by
  refine (dat0 V c).arrAt_eq_of_cover 4 _ (fun t _ => ?_)
    fun i => ⟨t0_0, flush0_4 _, emb0 4 t0_0 i i (fun _ => rfl) ▸ View.emb_mem_set _ i⟩
  show (cfg0.win 4).cut (grid0.coords t) ((dat0 V c).after 4 t) = _
  rw [after0_4]
  refine cut0_4 t _ _ ?_
  unfold out0_4
  rw [View.canon_unit_zero zero_off2]
  simp only [View.ld_unit_zero (S := S512x512) zero_off2, View.ld_unit_zero (S := S512x64) zero_off2]
  rw [iblk0_0 V c t, iblk0_1 V c t, iblk0_2 V c t]

theorem arr0_5 : (dat0 V c).arrAt 5 cfg0.N
    = k0_pay1 (F := Ideal) (k0_pay3 (aX V c)) (k0_pay5 (aAdj V c) (aAdjT V c) (aX V c)) := by
  refine (dat0 V c).arrAt_eq_of_cover 5 _ (fun t _ => ?_)
    fun i => ⟨t0_0, flush0_5 _, emb0 5 t0_0 i i (fun _ => rfl) ▸ View.emb_mem_set _ i⟩
  show (cfg0.win 5).cut (grid0.coords t) ((dat0 V c).after 5 t) = _
  rw [after0_5]
  refine cut0_5 t _ _ ?_
  unfold out0_5
  rw [View.canon_unit_zero zero_off2]
  simp only [View.ld_unit_zero (S := S512x512) zero_off2, View.ld_unit_zero (S := S512x64) zero_off2]
  rw [iblk0_0 V c t, iblk0_1 V c t, iblk0_2 V c t]

variable (hadj : ∀ i j, (aAdj V c) (ix2 i j) = adj i j)
  (hadjT : ∀ i j, (aAdjT V c) (ix2 i j) = adj j i)
  (hx : ∀ n b, (aX V c) (ix2 n b) = xin b n)

include hadj hadjT in
theorem r0_sup (i j : Fin 512) :
    ((dat0 V c).arrAt 3 cfg0.N : S512x512.Idx → EReal) (ix2 i j) = Cert.Spec.sup adj i j :=
  (congrFun (arr0_3 V c) (ix2 i j)).trans (pay2_apply _ _ adj hadj hadjT i j)

include hadj hadjT hx

theorem r0_a1 (n : Fin 512) (b : Fin 64) :
    ((dat0 V c).arrAt 4 cfg0.N : S512x64.Idx → EReal) (ix2 n b) = Cert.Spec.cheb (Cert.Spec.sup adj) 1 (xin b) n :=
  (congrFun (arr0_4 V c) (ix2 n b)).trans (pay4_apply _ _ _ adj xin hadj hadjT hx n b)

theorem r0_a2 (n : Fin 512) (b : Fin 64) :
    ((dat0 V c).arrAt 5 cfg0.N : S512x64.Idx → EReal) (ix2 n b) = Cert.Spec.cheb (Cert.Spec.sup adj) 2 (xin b) n :=
  (congrFun (arr0_5 V c) (ix2 n b)).trans (pay1_apply _ _ _ adj xin hadj hadjT hx n b)

end Results

end Cert.KernelIdeal.Hand

end
-- ==== Proof.Val.Reg1.lean ====
import proofs.«104790_g19069654794669_cont_sun_m_30_11_alg».proof.Proof.KI.Body1Defs
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem row_lt (t : Fin cfg1.N) (p : Fin 2) : 2 * t.val + p.val < 64 := by
  have := lt_of_lt_of_eq t.isLt N_1; have := p.isLt; omega

theorem half_lt (b : Fin 64) : b.val / 2 < cfg1.N := by
  rw [show cfg1.N = 32 from N_1]; have := b.isLt; omega

theorem off_whole : ∀ w : Fin 21, w.val ∉ [1, 2, 3, 18, 19, 20] →
    ∀ (t : Fin grid1.N) (a : Fin (win1 w).shape.rank), (win1 w).index t a = 0 := by
  decide +kernel

theorem off_row : ∀ w : Fin 21, w.val ∈ [1, 2, 3, 18, 19, 20] → ∀ (t : Fin grid1.N) (a : Fin (win1 w).shape.rank),
    (win1 w).index t a * (win1 w).size a = if a.val = 0 then 2 * t.val else 0 := by
  decide +kernel

theorem emb_whole (w : Fin 21) (hw : w.val ∉ [1, 2, 3, 18, 19, 20]) (t : Fin cfg1.N)
    (y : ((win1 w).xblock (grid1.coords t)).Idx) (i : (win1 w).shape.Idx) (h : ∀ a, (y a).val = (i a).val) :
    ((win1 w).rect t).emb y = i :=
  funext fun a => Fin.ext (((win1 w).rect_emb_val_of_index_zero t a (off_whole w hw t a) y).trans (h a))

theorem emb_row (w : Fin 21) (hw : w.val ∈ [1, 2, 3, 18, 19, 20]) (t : Fin cfg1.N)
    (y : ((win1 w).xblock (grid1.coords t)).Idx) (i : (win1 w).shape.Idx)
    (h : ∀ a, (if a.val = 0 then 2 * t.val else 0) + (y a).val = (i a).val) : ((win1 w).rect t).emb y = i :=
  funext fun a => Fin.ext (((win1 w).rect_emb_val t y a).trans ((congrArg (· + (y a).val) (off_row w hw t a)).trans (h a)))

section Rows
variable {d : ℕ}

-- Row `y 0` of point `t`'s block is row `2 t + y 0` of the array.
theorem row_h (t : Fin cfg1.N) (y : (⟨3, ![2, 512, d]⟩ : Shape).Idx) (a : Fin 3) :
    (if a.val = 0 then 2 * t.val else 0) + (y a).val
      = ((ix3 ⟨2 * t.val + (y 0).val, row_lt t (y 0)⟩ (y 1) (y 2) : (⟨3, ![64, 512, d]⟩ : Shape).Idx) a).val := by
  match a with
  | ⟨0, _⟩ => rfl
  | ⟨1, _⟩ => exact Nat.zero_add _
  | ⟨2, _⟩ => exact Nat.zero_add _

-- Row `b` of the array is row `b % 2` of point `b / 2`'s block.
theorem cover_h (i : (⟨3, ![64, 512, d]⟩ : Shape).Idx) (a : Fin 3) :
    (if a.val = 0 then 2 * ((i 0).val / 2) else 0)
        + ((ix3 ⟨(i 0).val % 2, Nat.mod_lt _ (by decide)⟩ (i 1) (i 2) : (⟨3, ![2, 512, d]⟩ : Shape).Idx) a).val
      = (i a).val := by
  match a with
  | ⟨0, _⟩ => exact Nat.div_add_mod _ 2
  | ⟨1, _⟩ => exact Nat.zero_add _
  | ⟨2, _⟩ => exact Nat.zero_add _

variable (out : Ins Ideal → (⟨3, ![2, 512, d]⟩ : Shape).Idx → EReal) (c : Dev nD)

-- The array assembled from the blocks: row `b` is row `b % 2` of block `b / 2`.
def G1 (i : (⟨3, ![64, 512, d]⟩ : Shape).Idx) : EReal :=
  out (ins1 V c ⟨(i 0).val / 2, half_lt (i 0)⟩) (ix3 ⟨(i 0).val % 2, Nat.mod_lt _ (by decide)⟩ (i 1) (i 2))

theorem G1_row (t : Fin cfg1.N) (y : (⟨3, ![2, 512, d]⟩ : Shape).Idx) :
    G1 V out c (ix3 ⟨2 * t.val + (y 0).val, row_lt t (y 0)⟩ (y 1) (y 2)) = out (ins1 V c t) y := by
  have hy : (y 0).val < 2 := (y 0).isLt
  have h1 : (⟨(2 * t.val + (y 0).val) / 2, half_lt ⟨_, row_lt t (y 0)⟩⟩ : Fin cfg1.N) = t :=
    Fin.ext (by show (2 * t.val + (y 0).val) / 2 = t.val; omega)
  have h2 : (⟨(2 * t.val + (y 0).val) % 2, Nat.mod_lt _ (by decide)⟩ : Fin 2) = y 0 :=
    Fin.ext (by show (2 * t.val + (y 0).val) % 2 = (y 0).val; omega)
  show out (ins1 V c ⟨(2 * t.val + (y 0).val) / 2, _⟩) (ix3 ⟨(2 * t.val + (y 0).val) % 2, _⟩ (y 1) (y 2)) = _
  rw [h1, h2]
  exact congrArg (out (ins1 V c t)) (eq_ix3 y).symm

end Rows

section Ins
variable (c : Dev nD) (t : Fin cfg1.N)

theorem ins_x0 (i : S512x512.Idx) :
    (ins1 V c t).x0 i = (V c main_v201_0 : S512x512.Idx → EReal) i :=
  congrArg _ (emb_whole 0 (by decide) t i i fun _ => rfl)

theorem ins_x4 (i : S6x256.Idx) :
    (ins1 V c t).x4 i = (V c main_v191 : S6x256.Idx → EReal) i :=
  congrArg _ (emb_whole 4 (by decide) t i i fun _ => rfl)

theorem ins_x5 (i : S3x128x256.Idx) :
    (ins1 V c t).x5 i = (V c main_v192 : S3x128x256.Idx → EReal) i :=
  congrArg _ (emb_whole 5 (by decide) t i i fun _ => rfl)

theorem ins_x6 (i : S1x256.Idx) :
    (ins1 V c t).x6 i = (V c main_v175 : S1x256.Idx → EReal) i :=
  congrArg _ (emb_whole 6 (by decide) t i i fun _ => rfl)

theorem ins_x7 (i : S6x128.Idx) :
    (ins1 V c t).x7 i = (V c main_v193 : S6x128.Idx → EReal) i :=
  congrArg _ (emb_whole 7 (by decide) t i i fun _ => rfl)

theorem ins_x8 (i : S3x128x128.Idx) :
    (ins1 V c t).x8 i = (V c main_v194 : S3x128x128.Idx → EReal) i :=
  congrArg _ (emb_whole 8 (by decide) t i i fun _ => rfl)

theorem ins_x9 (i : S1x128.Idx) :
    (ins1 V c t).x9 i = (V c main_v177 : S1x128.Idx → EReal) i :=
  congrArg _ (emb_whole 9 (by decide) t i i fun _ => rfl)

theorem ins_x10 (i : S3x128x256.Idx) :
    (ins1 V c t).x10 i = (V c main_v195 : S3x128x256.Idx → EReal) i :=
  congrArg _ (emb_whole 10 (by decide) t i i fun _ => rfl)

theorem ins_x11 (i : S3x128x256.Idx) :
    (ins1 V c t).x11 i = (V c main_v196 : S3x128x256.Idx → EReal) i :=
  congrArg _ (emb_whole 11 (by decide) t i i fun _ => rfl)

theorem ins_x12 (i : S1x256.Idx) :
    (ins1 V c t).x12 i = (V c main_v183 : S1x256.Idx → EReal) i :=
  congrArg _ (emb_whole 12 (by decide) t i i fun _ => rfl)

theorem ins_x13 (i : S3x128x128.Idx) :
    (ins1 V c t).x13 i = (V c main_v197 : S3x128x128.Idx → EReal) i :=
  congrArg _ (emb_whole 13 (by decide) t i i fun _ => rfl)

theorem ins_x14 (i : S3x128x128.Idx) :
    (ins1 V c t).x14 i = (V c main_v198 : S3x128x128.Idx → EReal) i :=
  congrArg _ (emb_whole 14 (by decide) t i i fun _ => rfl)

theorem ins_x15 (i : S1x128.Idx) :
    (ins1 V c t).x15 i = (V c main_v185 : S1x128.Idx → EReal) i :=
  congrArg _ (emb_whole 15 (by decide) t i i fun _ => rfl)

theorem ins_x16 (i : S128x2.Idx) :
    (ins1 V c t).x16 i = (V c main_v199 : S128x2.Idx → EReal) i :=
  congrArg _ (emb_whole 16 (by decide) t i i fun _ => rfl)

theorem ins_x17 (i : S1x1.Idx) :
    (ins1 V c t).x17 i = (V c main_v190 : S1x1.Idx → EReal) i :=
  congrArg _ (emb_whole 17 (by decide) t i i fun _ => rfl)

theorem ins_x1 (p : Fin 2) (n : Fin 512) (k : Fin 3) :
    (ins1 V c t).x1 (ix3 p n k) = (V c main_v206 : S64x512x3.Idx → EReal) (ix3 ⟨2 * t.val + p.val, row_lt t p⟩ n k) :=
  congrArg _ (emb_row 1 (by decide) t _ _ (row_h t (ix3 p n k)))

theorem ins_x2 (p : Fin 2) (n : Fin 512) (u : Fin 64) :
    (ins1 V c t).x2 (ix3 p n u) = (V c main_v208 : S64x512x64.Idx → EReal) (ix3 ⟨2 * t.val + p.val, row_lt t p⟩ n u) :=
  congrArg _ (emb_row 2 (by decide) t _ _ (row_h t (ix3 p n u)))

theorem ins_x3 (p : Fin 2) (n : Fin 512) (u : Fin 64) :
    (ins1 V c t).x3 (ix3 p n u) = (V c main_v210 : S64x512x64.Idx → EReal) (ix3 ⟨2 * t.val + p.val, row_lt t p⟩ n u) :=
  congrArg _ (emb_row 3 (by decide) t _ _ (row_h t (ix3 p n u)))

end Ins

theorem mem_of_emb {κ : Kind} {sp : Space} {s : Shape} {e : EltTy} {v : View sig κ sp s e} {y : s.Idx} {i : v.ty.Idx}
    (h : v.emb y = i) : i ∈ v.set :=
  h ▸ v.emb_mem_set y

theorem cut18 (t : Fin cfg1.N) (X : S2x512x1.Idx → EReal) (G : S64x512x1.Idx → EReal)
    (h : ∀ y, X y = G (((win1 18).rect t).emb y)) :
    (cfg1.win 18).cut (grid1.coords t) X = ((cfg1.win 18).blk t).view.read (Elt Ideal) G :=
  funext fun y => h y

theorem r1_out (c : Dev nD) (b : Fin 64) (n : Fin 512) :
    ((dat1 V c).arrAt 18 cfg1.N : S64x512x1.Idx → EReal) (ix3 b n 0)
      = out1_18 (ins1 V c ⟨b.val / 2, half_lt b⟩) (ix3 ⟨b.val % 2, Nat.mod_lt _ (by decide)⟩ n 0) := by
  refine congrFun ((dat1 V c).arrAt_eq_of_cover 18 (G1 V out1_18 c) (fun t _ => ?_) fun i =>
    ⟨⟨(i 0).val / 2, half_lt (i 0)⟩, flush1_18 _, mem_of_emb (emb_row 18 (by decide) _ _ i (cover_h i))⟩) (ix3 b n 0)
  show (cfg1.win 18).cut (grid1.coords t) ((dat1 V c).after 18 t) = _
  rw [after1_18]
  exact cut18 t _ _ fun y => ((congrArg (G1 V out1_18 c) (emb_row 18 (by decide) t y _ (row_h t y))).trans
    (G1_row V out1_18 c t y)).symm

theorem cut19 (t : Fin cfg1.N) (X : S2x512x64.Idx → EReal) (G : S64x512x64.Idx → EReal)
    (h : ∀ y, X y = G (((win1 19).rect t).emb y)) :
    (cfg1.win 19).cut (grid1.coords t) X = ((cfg1.win 19).blk t).view.read (Elt Ideal) G :=
  funext fun y => h y

theorem r1_h0 (c : Dev nD) (b : Fin 64) (n : Fin 512) (u : Fin 64) :
    ((dat1 V c).arrAt 19 cfg1.N : S64x512x64.Idx → EReal) (ix3 b n u)
      = out1_19 (ins1 V c ⟨b.val / 2, half_lt b⟩) (ix3 ⟨b.val % 2, Nat.mod_lt _ (by decide)⟩ n u) := by
  refine congrFun ((dat1 V c).arrAt_eq_of_cover 19 (G1 V out1_19 c) (fun t _ => ?_) fun i =>
    ⟨⟨(i 0).val / 2, half_lt (i 0)⟩, flush1_19 _, mem_of_emb (emb_row 19 (by decide) _ _ i (cover_h i))⟩) (ix3 b n u)
  show (cfg1.win 19).cut (grid1.coords t) ((dat1 V c).after 19 t) = _
  rw [after1_19]
  exact cut19 t _ _ fun y => ((congrArg (G1 V out1_19 c) (emb_row 19 (by decide) t y _ (row_h t y))).trans
    (G1_row V out1_19 c t y)).symm

theorem cut20 (t : Fin cfg1.N) (X : S2x512x64.Idx → EReal) (G : S64x512x64.Idx → EReal)
    (h : ∀ y, X y = G (((win1 20).rect t).emb y)) :
    (cfg1.win 20).cut (grid1.coords t) X = ((cfg1.win 20).blk t).view.read (Elt Ideal) G :=
  funext fun y => h y

theorem r1_h1 (c : Dev nD) (b : Fin 64) (n : Fin 512) (u : Fin 64) :
    ((dat1 V c).arrAt 20 cfg1.N : S64x512x64.Idx → EReal) (ix3 b n u)
      = out1_20 (ins1 V c ⟨b.val / 2, half_lt b⟩) (ix3 ⟨b.val % 2, Nat.mod_lt _ (by decide)⟩ n u) := by
  refine congrFun ((dat1 V c).arrAt_eq_of_cover 20 (G1 V out1_20 c) (fun t _ => ?_) fun i =>
    ⟨⟨(i 0).val / 2, half_lt (i 0)⟩, flush1_20 _, mem_of_emb (emb_row 20 (by decide) _ _ i (cover_h i))⟩) (ix3 b n u)
  show (cfg1.win 20).cut (grid1.coords t) ((dat1 V c).after 20 t) = _
  rw [after1_20]
  exact cut20 t _ _ fun y => ((congrArg (G1 V out1_20 c) (emb_row 20 (by decide) t y _ (row_h t y))).trans
    (G1_row V out1_20 c t y)).symm

end Cert.KernelIdeal.Hand

end
-- ==== Proof.Val.Hyp.lean ====
import proofs.«104790_g19069654794669_cont_sun_m_30_11_alg».proof.Proof.KI.Body1Defs
import proofs.«104790_g19069654794669_cont_sun_m_30_11_alg».proof.Proof.Spec
import proofs.«104790_g19069654794669_cont_sun_m_30_11_alg».proof.Proof.Pair
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open scoped BigOperators

structure Holds (I : Ins Ideal) (S : Fin 512 → Fin 512 → EReal) (x : Fin 2 → Fin 512 → EReal)
    (st0 st1 : Fin 2 → Fin 512 → Fin 64 → EReal)
    (Wru0 : Fin 195 → Fin 128 → EReal) (bru0 : Fin 128 → EReal) (Wc0 : Fin 195 → Fin 64 → EReal) (bc0 : Fin 64 → EReal)
    (Wru1 : Fin 384 → Fin 128 → EReal) (bru1 : Fin 128 → EReal) (Wc1 : Fin 384 → Fin 64 → EReal) (bc1 : Fin 64 → EReal)
    (Wp : Fin 64 → EReal) (bp : EReal) : Prop where
  hS : ∀ n m : Fin 512, I.x0 (ix2 n m) = S n m
  hA : ∀ (p : Fin 2) (n : Fin 512) (k : Fin 3), I.x1 (ix3 p n k) = Spec.cheb S k (x p) n
  hH0 : ∀ (p : Fin 2) (n : Fin 512) (u : Fin 64), I.x2 (ix3 p n u) = st0 p n u
  hH1 : ∀ (p : Fin 2) (n : Fin 512) (u : Fin 64), I.x3 (ix3 p n u) = st1 p n u
  h4 : ∀ (j : Fin 6) (c : Fin 256), I.x4 (ix2 j c) = Pair.ru (r := 3) (fun k q => Wru0 ⟨k.val, by have := k.isLt; omega⟩ q) j c
  h5 : ∀ (k : Fin 3) (j : Fin 128) (c : Fin 256), I.x5 (ix3 k j c)
        = Pair.ru (r := 64) (fun u q => Wru0 ⟨(1 + u.val) * 3 + k.val, by have := k.isLt; have := u.isLt; omega⟩ q) j c
  h6 : ∀ c : Fin 256, I.x6 (ix2 0 c) = Pair.bru bru0 c
  h7 : ∀ (j : Fin 6) (c : Fin 128), I.x7 (ix2 j c) = Pair.cc (r := 3) (fun k q => Wc0 ⟨k.val, by have := k.isLt; omega⟩ q) j c
  h8 : ∀ (k : Fin 3) (j : Fin 128) (c : Fin 128), I.x8 (ix3 k j c)
        = Pair.cc (r := 64) (fun u q => Wc0 ⟨(1 + u.val) * 3 + k.val, by have := k.isLt; have := u.isLt; omega⟩ q) j c
  h9 : ∀ c : Fin 128, I.x9 (ix2 0 c) = Pair.bcc bc0 c
  h10 : ∀ (k : Fin 3) (j : Fin 128) (c : Fin 256), I.x10 (ix3 k j c)
        = Pair.ru (r := 64) (fun u q => Wru1 ⟨u.val * 3 + k.val, by have := k.isLt; have := u.isLt; omega⟩ q) j c
  h11 : ∀ (k : Fin 3) (j : Fin 128) (c : Fin 256), I.x11 (ix3 k j c)
        = Pair.ru (r := 64) (fun u q => Wru1 ⟨(64 + u.val) * 3 + k.val, by have := k.isLt; have := u.isLt; omega⟩ q) j c
  h12 : ∀ c : Fin 256, I.x12 (ix2 0 c) = Pair.bru bru1 c
  h13 : ∀ (k : Fin 3) (j : Fin 128) (c : Fin 128), I.x13 (ix3 k j c)
        = Pair.cc (r := 64) (fun u q => Wc1 ⟨u.val * 3 + k.val, by have := k.isLt; have := u.isLt; omega⟩ q) j c
  h14 : ∀ (k : Fin 3) (j : Fin 128) (c : Fin 128), I.x14 (ix3 k j c)
        = Pair.cc (r := 64) (fun u q => Wc1 ⟨(64 + u.val) * 3 + k.val, by have := k.isLt; have := u.isLt; omega⟩ q) j c
  h15 : ∀ c : Fin 128, I.x15 (ix2 0 c) = Pair.bcc bc1 c
  h16 : ∀ (j : Fin 128) (c : Fin 2), I.x16 (ix2 j c) = Pair.pp Wp j c
  h17 : I.x17 (ix2 0 0) = bp

end Cert.KernelIdeal.Hand

end
-- ==== Proof.Regroup.lean ====
import proofs.«104790_g19069654794669_cont_sun_m_30_11_alg».proof.Proof.Spec
import proofs.«104790_g19069654794669_cont_sun_m_30_11_alg».proof.Proof.Pair
import Mathlib.Algebra.BigOperators.Fin
import Mathlib.Data.Fintype.BigOperators
import Mathlib.Logic.Equiv.Fin.Basic
import Mathlib.Tactic.Linarith

noncomputable section

namespace Cert.Regroup

open Cert.Spec
open scoped BigOperators

theorem feat0_zero (x : Fin 512 → EReal) (st : Fin 512 → Fin 64 → EReal) : feat0 x st 0 = x :=
  Fin.cases_zero

theorem feat0_succ (x : Fin 512 → EReal) (st : Fin 512 → Fin 64 → EReal) (u : Fin 64) :
    feat0 x st u.succ = fun m => st m u :=
  Fin.cases_succ u

theorem feat1_left (x st : Fin 512 → Fin 64 → EReal) (u : Fin 64) :
    feat1 x st (Fin.castAdd 64 u) = fun m => x m u :=
  Fin.addCases_left u

theorem feat1_right (x st : Fin 512 → Fin 64 → EReal) (u : Fin 64) :
    feat1 x st (Fin.natAdd 64 u) = fun m => st m u :=
  Fin.addCases_right u

theorem sum_rows {m n : ℕ} (g : Fin (m * n) → EReal) :
    ∑ j, g j = ∑ f : Fin m, ∑ k : Fin n, g ⟨f.val * n + k.val, by
      have hf := f.isLt; have hk := k.isLt
      calc f.val * n + k.val < f.val * n + n := Nat.add_lt_add_left hk _
        _ = (f.val + 1) * n := (Nat.succ_mul _ _).symm
        _ ≤ m * n := Nat.mul_le_mul_right _ hf⟩ := by
  rw [← Equiv.sum_comp finProdFinEquiv g, Fintype.sum_prod_type]
  refine Finset.sum_congr rfl fun f _ => Finset.sum_congr rfl fun k _ => congrArg g (Fin.ext ?_)
  show k.val + n * f.val = f.val * n + k.val
  rw [Nat.mul_comm, Nat.add_comm]

theorem row_term {m no : ℕ} (S : Fin 512 → Fin 512 → EReal) (X : Fin m → Fin 512 → EReal)
    (W : Fin (m * 3) → Fin no → EReal) (n : Fin 512) (q : Fin no) (f : Fin m) (k : Fin 3)
    (j : Fin (m * 3)) (hj : j.val = f.val * 3 + k.val) (h1 : j.val % 3 < 3) (h2 : j.val / 3 < m) :
    cheb S ⟨j.val % 3, h1⟩ (X ⟨j.val / 3, h2⟩) n * W j q = cheb S k (X f) n * W j q := by
  have e1 : (⟨j.val % 3, h1⟩ : Fin 3) = k := Fin.ext (by have := k.isLt; simp only; omega)
  have e2 : (⟨j.val / 3, h2⟩ : Fin m) = f := Fin.ext (by have := k.isLt; simp only; omega)
  rw [e1, e2]

theorem gconv0_split {no : ℕ} (S : Fin 512 → Fin 512 → EReal) (X : Fin 65 → Fin 512 → EReal)
    (W : Fin 195 → Fin no → EReal) (bias : Fin no → EReal) (n : Fin 512) (q : Fin no) :
    gconv0 S X W bias n q
      = (∑ k : Fin 3, (cheb S k (X 0) n * W ⟨k.val, by have := k.isLt; omega⟩ q
          + ∑ u : Fin 64, cheb S k (X u.succ) n * W ⟨(1 + u.val) * 3 + k.val, by have := k.isLt; have := u.isLt; omega⟩ q))
        + bias q := by
  unfold gconv0
  congr 1
  rw [sum_rows (m := 65) (n := 3), Finset.sum_comm]
  refine Finset.sum_congr rfl fun k _ => ?_
  rw [Fin.sum_univ_succ]
  congr 1
  · refine (row_term S X W n q 0 k ⟨_, _⟩ rfl _ _).trans ?_
    exact congrArg (fun j => cheb S k (X 0) n * W j q) (Fin.ext (by simp))
  · refine Finset.sum_congr rfl fun u _ => ?_
    refine (row_term S X W n q u.succ k ⟨_, _⟩ rfl _ _).trans ?_
    exact congrArg (fun j => cheb S k (X u.succ) n * W j q) (Fin.ext (by simp only [Fin.val_succ]; omega))

theorem gconv1_split {no : ℕ} (S : Fin 512 → Fin 512 → EReal) (X : Fin 128 → Fin 512 → EReal)
    (W : Fin 384 → Fin no → EReal) (bias : Fin no → EReal) (n : Fin 512) (q : Fin no) :
    gconv1 S X W bias n q
      = (∑ k : Fin 3, ((∑ u : Fin 64, cheb S k (X (Fin.castAdd 64 u)) n * W ⟨u.val * 3 + k.val, by have := k.isLt; have := u.isLt; omega⟩ q)
          + ∑ u : Fin 64, cheb S k (X (Fin.natAdd 64 u)) n * W ⟨(64 + u.val) * 3 + k.val, by have := k.isLt; have := u.isLt; omega⟩ q))
        + bias q := by
  unfold gconv1
  congr 1
  rw [sum_rows (m := 128) (n := 3), Finset.sum_comm]
  refine Finset.sum_congr rfl fun k _ => ?_
  rw [Fin.sum_univ_add (a := 64) (b := 64)]
  congr 1
  · refine Finset.sum_congr rfl fun u _ => ?_
    refine (row_term S X W n q (Fin.castAdd 64 u) k ⟨_, _⟩ rfl _ _).trans ?_
    exact congrArg (fun j => cheb S k (X (Fin.castAdd 64 u)) n * W j q) (Fin.ext (by simp only [Fin.coe_castAdd]))
  · refine Finset.sum_congr rfl fun u _ => ?_
    refine (row_term S X W n q (Fin.natAdd 64 u) k ⟨_, _⟩ rfl _ _).trans ?_
    exact congrArg (fun j => cheb S k (X (Fin.natAdd 64 u)) n * W j q) (Fin.ext (by simp only [Fin.coe_natAdd]))

theorem block_div {r : ℕ} (b : ℕ) (j' : Fin r) : (b * r + j'.val) / r = b := by
  have hr : 0 < r := lt_of_le_of_lt (Nat.zero_le _) j'.isLt
  rw [Nat.add_comm, Nat.mul_comm, Nat.add_mul_div_left _ _ hr, Nat.div_eq_of_lt j'.isLt, Nat.zero_add]

theorem block_mod {r : ℕ} (b : ℕ) (j' : Fin r) : (b * r + j'.val) % r = j'.val := by
  rw [Nat.add_comm, Nat.mul_comm, Nat.add_mul_mod_self_left, Nat.mod_eq_of_lt j'.isLt]

theorem sum_block {r : ℕ} (t : Fin (2 * r) → EReal) (b : ℕ) (hb : b < 2)
    (hz : ∀ j : Fin (2 * r), j.val / r ≠ b → t j = 0) :
    ∑ j, t j = ∑ j' : Fin r, t ⟨b * r + j'.val, by
      have hj := j'.isLt
      have : b * r ≤ 1 * r := Nat.mul_le_mul_right r (Nat.lt_succ_iff.mp hb)
      omega⟩ := by
  rw [sum_rows (m := 2) (n := r), Fintype.sum_eq_single (⟨b, hb⟩ : Fin 2)]
  intro p hp
  refine Finset.sum_eq_zero fun j' _ => hz _ ?_
  show (p.val * r + j'.val) / r ≠ b
  rw [block_div]
  exact fun h => hp (Fin.ext h)

theorem sum_ru {r : ℕ} (a : Fin (2 * r) → EReal) (w : Fin r → Fin 128 → EReal) (c : Fin 256) :
    ∑ j, a j * Pair.ru w j c
      = ∑ j' : Fin r, a ⟨((c.val / 64) % 2) * r + j'.val, by have := j'.isLt; have : (c.val / 64) % 2 < 2 := Nat.mod_lt _ (by decide); nlinarith⟩
          * w j' ⟨(c.val / 128) * 64 + c.val % 64, by have := c.isLt; omega⟩ := by
  rw [sum_block (fun j => a j * Pair.ru w j c) ((c.val / 64) % 2) (Nat.mod_lt _ (by decide))]
  · refine Finset.sum_congr rfl fun j' _ => ?_
    congr 1
    unfold Pair.ru
    rw [dif_pos (block_div _ j')]
    congr 2
    exact block_mod _ j'
  · intro j hj
    show a j * Pair.ru w j c = 0
    unfold Pair.ru
    rw [dif_neg hj, mul_zero]

theorem sum_cc {r : ℕ} (a : Fin (2 * r) → EReal) (w : Fin r → Fin 64 → EReal) (c : Fin 128) :
    ∑ j, a j * Pair.cc w j c
      = ∑ j' : Fin r, a ⟨(c.val / 64) * r + j'.val, by have := j'.isLt; have := c.isLt; have : c.val / 64 < 2 := (by omega); nlinarith⟩
          * w j' ⟨c.val % 64, Nat.mod_lt _ (by decide)⟩ := by
  rw [sum_block (fun j => a j * Pair.cc w j c) (c.val / 64) (by have := c.isLt; omega)]
  · refine Finset.sum_congr rfl fun j' _ => ?_
    congr 1
    unfold Pair.cc
    rw [dif_pos (block_div _ j')]
    congr 2
    exact block_mod _ j'
  · intro j hj
    show a j * Pair.cc w j c = 0
    unfold Pair.cc
    rw [dif_neg hj, mul_zero]

theorem sum_pp (a : Fin 128 → EReal) (w : Fin 64 → EReal) (c : Fin 2) :
    ∑ j, a j * Pair.pp w j c = ∑ u : Fin 64, a ⟨c.val * 64 + u.val, by have := c.isLt; have := u.isLt; omega⟩ * w u := by
  rw [sum_block (r := 64) (fun j => a j * Pair.pp w j c) c.val c.isLt]
  · refine Finset.sum_congr rfl fun u _ => ?_
    congr 1
    unfold Pair.pp
    rw [if_pos (block_div _ u)]
    congr 1
    apply Fin.ext
    exact block_mod _ u
  · intro j hj
    show a j * Pair.pp w j c = 0
    unfold Pair.pp
    rw [if_neg hj, mul_zero]

end Cert.Regroup

end
-- ==== Proof.Val.K2Lib.lean ====
import proofs.«104790_g19069654794669_cont_sun_m_30_11_alg».proof.Proof.Gen.KernelIdeal.Skeleton
import proofs.«104790_g19069654794669_cont_sun_m_30_11_alg».proof.Proof.Regroup
import Idealize.ShloMosaic.Lib.Pipeline.FrameBody
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand.K2

open Cert.KernelIdeal Cert.KernelIdeal.Gen
open Idealize.ShloMosaic Idealize.ShloMosaic.TcCoe Idealize.ShloMosaic.ValueIdx
open scoped BigOperators

theorem ofBits_two : Ideal.ofBits .f32 0x40000000#32 = 2 := by
  simp [Ideal.ofBits, Ideal.ieee, -EReal.coe_mul]; norm_num; rfl

abbrev col (p : Fin 2) (u : Fin 64) : Fin 128 := ⟨64 * p.val + u.val, by have := p.isLt; have := u.isLt; omega⟩

-- An M×K by K×N product into a zero accumulator: entry (n, c) sums over the inner index.
theorem mm {M K N : ℕ} {φ₁ φ₂ : FTy} (a : FVec Ideal ⟨2, ![M, K]⟩ φ₁) (w : FVec Ideal ⟨2, ![K, N]⟩ φ₂) (n : Fin M) (c : Fin N) :
    matmul (DotDims.plain M K N) none a w (constant (F := Ideal) ⟨2, ![M, N]⟩ .f32 0x00000000#32) (ix2 n c)
      = ∑ j : Fin K, a (ix2 n j) * w (ix2 j c) := by
  refine (Ideal.matmul_constant_zero_apply (DotDims.plain M K N) none a w (ix2 n c)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n c) ((contrEquiv1 (DotDims.plain M K N) K rfl rfl).symm k) = ix2 n k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 n c) ((contrEquiv1 (DotDims.plain M K N) K rfl rfl).symm k) = ix2 k c :=
    funext fun ax => Fin.ext (by
      match ax with
      | ⟨0, _⟩ => exact ((DotDims.plain M K N).rhsIdx_val_of_single rfl _ _).trans hk
      | ⟨1, _⟩ => rfl)
  rw [el, er]

theorem mm_cast {M K N : ℕ} (a : FVec Ideal ⟨2, ![M, K]⟩ .f32) (w : FVec Ideal ⟨3, ![1, K, N]⟩ .bf16)
    (h : (⟨3, ![1, K, N]⟩ : Shape).ShapeCasts ⟨2, ![K, N]⟩) (n : Fin M) (c : Fin N) :
    matmul (DotDims.plain M K N) none (truncf .bf16 a bitsLt_bf16_f32) (shapeCast ⟨2, ![K, N]⟩ w h)
        (constant (F := Ideal) ⟨2, ![M, N]⟩ .f32 0x00000000#32) (ix2 n c)
      = ∑ j : Fin K, a (ix2 n j) * w (ix3 (0 : Fin 1) j c) :=
  (mm _ _ n c).trans (Finset.sum_congr rfl fun j _ => congrArg (a (ix2 n j) * ·) (shapeCast_1ab_ab_apply w h j c))

theorem hz2 : (![0, 0] : Fin 2 → ℕ) = fun _ => 0 := by
  funext a; match a with | ⟨0, _⟩ => rfl | ⟨1, _⟩ => rfl

theorem ld2 {a b : ℕ} {Val : EltTy → Type} {e : EltTy} (X : (⟨2, ![a, b]⟩ : Shape).Idx → Val e)
    (inb : ∀ ax, (![0, 0] : Fin 2 → ℕ) ax + (⟨2, ![a, b]⟩ : Shape).size ax ≤ (⟨2, ![a, b]⟩ : Shape).size ax) (i : (⟨2, ![a, b]⟩ : Shape).Idx) :
    View.ld X (Rect.unit (s := ⟨2, ![a, b]⟩) ![0, 0] (⟨2, ![a, b]⟩ : Shape).size inb) i = X i :=
  congrFun (View.ld_unit_zero (S := ⟨2, ![a, b]⟩) hz2 inb X) i

-- The [1, b, c] slice of an [a, b, c] block at leading offset o reads the block at leading index o.
theorem ld3 {a b c : ℕ} {Val : EltTy → Type} {e : EltTy} (X : (⟨3, ![a, b, c]⟩ : Shape).Idx → Val e) (o : ℕ)
    (inb : ∀ ax, (![o, 0, 0] : Fin 3 → ℕ) ax + (⟨3, ![1, b, c]⟩ : Shape).size ax ≤ (⟨3, ![a, b, c]⟩ : Shape).size ax)
    (k : Fin a) (hk : k.val = o) (i : Fin b) (j : Fin c) :
    View.ld X (Rect.unit (s := ⟨3, ![a, b, c]⟩) ![o, 0, 0] (⟨3, ![1, b, c]⟩ : Shape).size inb) (ix3 (0 : Fin 1) i j) = X (ix3 k i j) := by
  refine congrArg X (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

-- Column 64 p + u of the two leading slices of a [2, 512, 64] block packed side by side is the block at (p, ·, u).
theorem pack_ld (X : Vec Ideal S2x512x64 .f32) (p : Fin 2) (n : Fin 512) (u : Fin 64) :
    k1_pay5 (View.ld X (Rect.unit (s := S2x512x64) ![0, 0, 0] S1x512x64.size inb_S2x512x64_S1x512x64_0_0_0))
        (View.ld X (Rect.unit (s := S2x512x64) ![1, 0, 0] S1x512x64.size inb_S2x512x64_S1x512x64_1_0_0)) (ix2 n (col p u))
      = X (ix3 p n u) := by
  unfold k1_pay5
  match p with
  | ⟨0, _⟩ =>
    refine (concatenate_pair_apply_left (t := S512x128) (s₁ := S512x64) (s₂ := S512x64) 1 _ _ concatenates_S512x64_S512x64_S512x128_d1
      _ rfl (ix2 n u) (fun b => by
        match b with
        | ⟨0, _⟩ => rfl
        | ⟨1, _⟩ => show u.val = 64 * 0 + u.val; omega)).trans ?_
    exact (shapeCast_1ab_ab_apply _ shapeCasts_S1x512x64_S512x64 n u).trans (ld3 X 0 _ 0 rfl n u)
  | ⟨1, _⟩ =>
    refine (concatenate_pair_apply_right (t := S512x128) (s₁ := S512x64) (s₂ := S512x64) 1 _ _ concatenates_S512x64_S512x64_S512x128_d1
      _ rfl rfl (ix2 n u) (fun b hb => by
        match b with
        | ⟨0, _⟩ => rfl
        | ⟨1, _⟩ => exact absurd rfl hb) (by show u.val + 64 = 64 * 1 + u.val; omega)).trans ?_
    exact (shapeCast_1ab_ab_apply _ shapeCasts_S1x512x64_S512x64 n u).trans (ld3 X 1 _ 1 rfl n u)

-- A [2, 512, w] array made of its two leading [1, 512, w] slices has, at (p, n, u), slice p at (n, u).
theorem canon2 {w : ℕ} (P0 P1 : Vec Ideal ⟨3, ![1, 512, w]⟩ .f32)
    (inb0 : ∀ a, (![0, 0, 0] : Fin 3 → ℕ) a + (⟨3, ![1, 512, w]⟩ : Shape).size a ≤ (⟨3, ![2, 512, w]⟩ : Shape).size a)
    (inb1 : ∀ a, (![1, 0, 0] : Fin 3 → ℕ) a + (⟨3, ![1, 512, w]⟩ : Shape).size a ≤ (⟨3, ![2, 512, w]⟩ : Shape).size a)
    (G : Fin 2 → Fin 512 → Fin w → EReal)
    (h0 : ∀ n u, P0 (ix3 0 n u) = G 0 n u) (h1 : ∀ n u, P1 (ix3 0 n u) = G 1 n u) (p : Fin 2) (n : Fin 512) (u : Fin w) :
    View.canon ([⟨Rect.unit (s := ⟨3, ![2, 512, w]⟩) ![1, 0, 0] (⟨3, ![1, 512, w]⟩ : Shape).size inb1, P1⟩,
        ⟨Rect.unit (s := ⟨3, ![2, 512, w]⟩) ![0, 0, 0] (⟨3, ![1, 512, w]⟩ : Shape).size inb0, P0⟩] :
          List (View.Piece (Elt Ideal) ⟨3, ![2, 512, w]⟩ .f32)) (ix3 p n u)
      = G p n u := by
  have hp : p.val = 0 ∨ p.val = 1 := by have := p.isLt; omega
  rcases hp with hp | hp
  · obtain rfl : p = 0 := Fin.ext hp
    refine (View.canon_cons_of_not_mem _ _ ?_).trans ?_
    · rw [Rect.mem_set_unit]
      intro hm
      exact absurd (hm 0).1 (by show ¬ ((1 : ℕ) ≤ 0); decide)
    have e : (ix3 (0 : Fin 2) n u : (⟨3, ![2, 512, w]⟩ : Shape).Idx)
        = (Rect.unit (s := ⟨3, ![2, 512, w]⟩) ![0, 0, 0] (⟨3, ![1, 512, w]⟩ : Shape).size inb0).emb (ix3 (0 : Fin 1) n u) :=
      funext fun a => Fin.ext (by
        match a with
        | ⟨0, _⟩ => rfl
        | ⟨1, _⟩ => show n.val = 0 + 1 * n.val; omega
        | ⟨2, _⟩ => show u.val = 0 + 1 * u.val; omega)
    exact (congrArg _ e).trans ((View.canon_cons_emb _ _ _ _).trans (h0 n u))
  · obtain rfl : p = 1 := Fin.ext hp
    have e : (ix3 (1 : Fin 2) n u : (⟨3, ![2, 512, w]⟩ : Shape).Idx)
        = (Rect.unit (s := ⟨3, ![2, 512, w]⟩) ![1, 0, 0] (⟨3, ![1, 512, w]⟩ : Shape).size inb1).emb (ix3 (0 : Fin 1) n u) :=
      funext fun a => Fin.ext (by
        match a with
        | ⟨0, _⟩ => rfl
        | ⟨1, _⟩ => show n.val = 0 + 1 * n.val; omega
        | ⟨2, _⟩ => show u.val = 0 + 1 * u.val; omega)
    exact (congrArg _ e).trans ((View.canon_cons_emb _ _ _ _).trans (h1 n u))

theorem S_apply (X : Vec Ideal S512x512 .f32) (inb : ∀ ax, (![0, 0] : Fin 2 → ℕ) ax + S512x512.size ax ≤ S512x512.size ax) (i : S512x512.Idx) :
    k1_pay3 (View.ld X (Rect.unit (s := S512x512) ![0, 0] S512x512.size inb)) i = X i := by
  unfold k1_pay3
  exact (congrFun (shapeCast_self _ shapeCasts_S512x512_S512x512) i).trans (ld2 X inb i)

-- The support matrix times a packed value, at a column: one diffusion step of that column.
theorem prod_S (s : FVec Ideal S512x512 .bf16) (a : FVec Ideal S512x128 .f32) (S : Fin 512 → Fin 512 → EReal)
    (hs : ∀ n m, s (ix2 n m) = S n m) (n : Fin 512) (c : Fin 128) (A : Fin 512 → EReal) (ha : ∀ m, a (ix2 m c) = A m) :
    matmul dot_S512x512_S512x128_S512x128_1_0_0_1_n_n none s (truncf .bf16 a bitsLt_bf16_f32) (constant (F := Ideal) S512x128 .f32 0x00000000#32) (ix2 n c) = Spec.diff S A n :=
  (mm _ _ n c).trans (Finset.sum_congr rfl fun m _ => congrArg₂ (· * ·) (hs n m) (ha m))

-- Twice the support matrix applied to d, less a: the second Chebyshev term of a when d is its diffusion.
def q2 (v2 : FVec Ideal S512x512 .bf16) (a d : FVec Ideal S512x128 .f32) : FVec Ideal S512x128 .f32 :=
  subf (mulf (broadcast S512x128 (Scalar.ofBits .f32 0x40000000#32)) (matmul dot_S512x512_S512x128_S512x128_1_0_0_1_n_n none v2 (truncf .bf16 d bitsLt_bf16_f32) (constant (F := Ideal) S512x128 .f32 0x00000000#32))) a

theorem q2_eq (v2 : FVec Ideal S512x512 .bf16) (a d : FVec Ideal S512x128 .f32) (S : Fin 512 → Fin 512 → EReal)
    (hs : ∀ n m, v2 (ix2 n m) = S n m) (c : Fin 128) (A : Fin 512 → EReal) (ha : ∀ m, a (ix2 m c) = A m)
    (hd : ∀ m, d (ix2 m c) = Spec.diff S A m) (n : Fin 512) :
    q2 v2 a d (ix2 n c) = Spec.cheb S 2 A n := by
  show Ideal.ofBits .f32 0x40000000#32 * matmul dot_S512x512_S512x128_S512x128_1_0_0_1_n_n none v2 (truncf .bf16 d bitsLt_bf16_f32) (constant (F := Ideal) S512x128 .f32 0x00000000#32) (ix2 n c) - a (ix2 n c)
    = 2 * Spec.diff S (Spec.diff S A) n - A n
  exact congrArg₂ (· - ·) (congrArg₂ (· * ·) ofBits_two (prod_S v2 d S hs n c _ hd)) (ha n)

-- Bias, the input part's three terms, then the state part's three orders: the same seven terms order by order, bias last.
theorem regroup7 (bb A0 A1 A2 B0 B1 B2 : EReal) :
    (((bb + ((A0 + A1) + A2)) + B0) + B1) + B2 = (((A0 + B0) + (A1 + B1)) + (A2 + B2)) + bb := by
  ac_rfl

open Cert.Spec

theorem sum_block (a : Fin 128 → EReal) (w : Fin 64 → Fin 128 → EReal) (g p : Fin 2) (u : Fin 64) (c : Fin 256)
    (hc : c.val = 128 * g.val + 64 * p.val + u.val) :
    ∑ j : Fin 128, a j * Pair.ru (r := 64) w j c
      = ∑ j' : Fin 64, a ⟨64 * p.val + j'.val, by have := p.isLt; have := j'.isLt; omega⟩
          * w j' ⟨64 * g.val + u.val, by have := g.isLt; have := u.isLt; omega⟩ := by
  refine (Regroup.sum_ru (r := 64) a w c).trans ?_
  refine Finset.sum_congr rfl fun j' _ => ?_
  have hg := g.isLt; have hp := p.isLt; have hu := u.isLt; have hj := j'.isLt
  exact congrArg₂ (fun (i : Fin 128) (q : Fin 128) => a i * w j' q)
    (Fin.ext (by show ((c.val / 64) % 2) * 64 + j'.val = 64 * p.val + j'.val; omega))
    (Fin.ext (by show (c.val / 128) * 64 + c.val % 64 = 64 * g.val + u.val; omega))

-- A packed row against a loaded slice of paired gate weights, at column 128 g + 64 p + u: the 64 entries of batch element p against column 64 g + u.
theorem sum_pair (w : Fin 64 → Fin 128 → EReal) (a wv : Fin 128 → EReal) (A : Fin 64 → EReal) (g p : Fin 2) (u : Fin 64) (c : Fin 256)
    (hc : c.val = 128 * g.val + 64 * p.val + u.val) (hw : ∀ j, wv j = Pair.ru (r := 64) w j c) (ha : ∀ j', a (col p j') = A j') :
    ∑ j : Fin 128, a j * wv j = ∑ j' : Fin 64, A j' * w j' ⟨64 * g.val + u.val, by have := g.isLt; have := u.isLt; omega⟩ :=
  (Finset.sum_congr rfl fun j _ => congrArg (a j * ·) (hw j)).trans
    ((sum_block a w g p u c hc).trans (Finset.sum_congr rfl fun j' _ => congrArg (· * _) (ha j')))

section Cand
variable {no : ℕ} (S : Fin 512 → Fin 512 → EReal) (G R : Fin 512 → Fin 64 → EReal) (W : Fin 384 → Fin no → EReal)

def wX (k : Fin 3) : Fin 64 → Fin no → EReal :=
  fun j q => W ⟨j.val * 3 + k.val, by have := k.isLt; have := j.isLt; omega⟩ q

def wH (k : Fin 3) : Fin 64 → Fin no → EReal :=
  fun j q => W ⟨(64 + j.val) * 3 + k.val, by have := k.isLt; have := j.isLt; omega⟩ q

def candX (k : Fin 3) (n : Fin 512) (q : Fin no) : EReal :=
  ∑ j : Fin 64, Spec.cheb S k (fun m => G m j) n * wX W k j q

def candH (k : Fin 3) (n : Fin 512) (q : Fin no) : EReal :=
  ∑ j : Fin 64, Spec.cheb S k (fun m => R m j) n * wH W k j q

-- The convolution over 64 input and 64 state features, added up order by order after the bias …
theorem gconv1_alt (b : Fin no → EReal) (n : Fin 512) (q : Fin no) :
    ((((((b q + candX S G W 0 n q) + candH S R W 0 n q) + candX S G W 1 n q) + candH S R W 1 n q) + candX S G W 2 n q) + candH S R W 2 n q)
      = Spec.gconv1 S (Spec.feat1 G R) W b n q := by
  rw [Regroup.gconv1_split, Fin.sum_univ_three]
  simp only [Regroup.feat1_left, Regroup.feat1_right]
  unfold candX candH wX wH
  ac_rfl

-- … or the three input terms first, then the three state terms.
theorem cand_eq (b : Fin no → EReal) (n : Fin 512) (q : Fin no) :
    ((((((b q + candX S G W 0 n q) + candX S G W 1 n q) + candX S G W 2 n q) + candH S R W 0 n q) + candH S R W 1 n q) + candH S R W 2 n q)
      = Spec.gconv1 S (Spec.feat1 G R) W b n q := by
  rw [Regroup.gconv1_split, Fin.sum_univ_three]
  simp only [Regroup.feat1_left, Regroup.feat1_right]
  unfold candX candH wX wH
  ac_rfl
end Cand

end Cert.KernelIdeal.Hand.K2

end
-- ==== Proof.Val.K1a.lean ====
import proofs.«104790_g19069654794669_cont_sun_m_30_11_alg».proof.Proof.Val.Hyp
import proofs.«104790_g19069654794669_cont_sun_m_30_11_alg».proof.Proof.Regroup
import proofs.«104790_g19069654794669_cont_sun_m_30_11_alg».proof.Proof.Val.K2Lib

noncomputable section

namespace Cert.KernelIdeal.Hand

open Cert.KernelIdeal Cert.KernelIdeal.Gen
open Idealize.ShloMosaic Idealize.ShloMosaic.TcCoe Idealize.ShloMosaic.ValueIdx
open scoped BigOperators

theorem two_f32 : Ideal.ofBits .f32 0x40000000#32 = 2 := K2.ofBits_two

variable {I : Ins Ideal} {S : Fin 512 → Fin 512 → EReal} {x : Fin 2 → Fin 512 → EReal}
  {st0 st1 : Fin 2 → Fin 512 → Fin 64 → EReal}
  {Wru0 : Fin 195 → Fin 128 → EReal} {bru0 : Fin 128 → EReal} {Wc0 : Fin 195 → Fin 64 → EReal} {bc0 : Fin 64 → EReal}
  {Wru1 : Fin 384 → Fin 128 → EReal} {bru1 : Fin 128 → EReal} {Wc1 : Fin 384 → Fin 64 → EReal} {bc1 : Fin 64 → EReal}
  {Wp : Fin 64 → EReal} {bp : EReal}

section Paired

variable (h : Holds I S x st0 st1 Wru0 bru0 Wc0 bc0 Wru1 bru1 Wc1 bc1 Wp bp)
include h

theorem bias_ru0 (p : Fin 2) (g : ℕ) (hg : g < 2) (u : Fin 64) (c : Fin 256) (hc : c.val = 128 * g + 64 * p.val + u.val)
    (q : Fin 128) (hq : q.val = 64 * g + u.val) : I.x6 (ix2 0 c) = bru0 q := by
  refine (h.h6 c).trans ?_
  unfold Pair.bru
  have := p.isLt; have := u.isLt
  exact congrArg bru0 (Fin.ext (by show (c.val / 128) * 64 + c.val % 64 = q.val; omega))

theorem sum_in_ru0 (a : Fin 6 → EReal) (p : Fin 2) (g : ℕ) (hg : g < 2) (u : Fin 64) (c : Fin 256) (hc : c.val = 128 * g + 64 * p.val + u.val)
    (q : Fin 128) (hq : q.val = 64 * g + u.val) :
    ∑ j : Fin 6, a j * I.x4 (ix2 j c)
      = ∑ k : Fin 3, a ⟨3 * p.val + k.val, by have := p.isLt; have := k.isLt; omega⟩ * Wru0 ⟨k.val, by have := k.isLt; omega⟩ q := by
  have := p.isLt; have := u.isLt
  refine (Finset.sum_congr rfl fun j _ => congrArg (a j * ·) (h.h4 j c)).trans ?_
  refine (Regroup.sum_ru (r := 3) a _ c).trans ?_
  refine Finset.sum_congr rfl fun k _ => ?_
  have := k.isLt
  exact congrArg₂ (· * ·) (congrArg a (Fin.ext (by show ((c.val / 64) % 2) * 3 + k.val = 3 * p.val + k.val; omega)))
    (congrArg (Wru0 _) (Fin.ext (by show (c.val / 128) * 64 + c.val % 64 = q.val; omega)))

theorem sum_st_ru0 (a : Fin 128 → EReal) (k : Fin 3) (p : Fin 2) (g : ℕ) (hg : g < 2) (u : Fin 64) (c : Fin 256)
    (hc : c.val = 128 * g + 64 * p.val + u.val) (q : Fin 128) (hq : q.val = 64 * g + u.val) :
    ∑ j : Fin 128, a j * I.x5 (ix3 k j c)
      = ∑ u' : Fin 64, a (K2.col p u')
          * Wru0 ⟨(1 + u'.val) * 3 + k.val, by have := k.isLt; have := u'.isLt; omega⟩ q := by
  have := p.isLt; have := u.isLt
  refine (Finset.sum_congr rfl fun j _ => congrArg (a j * ·) (h.h5 k j c)).trans ?_
  refine (Regroup.sum_ru (r := 64) a _ c).trans ?_
  refine Finset.sum_congr rfl fun u' _ => ?_
  have := u'.isLt
  exact congrArg₂ (· * ·) (congrArg a (Fin.ext (by show ((c.val / 64) % 2) * 64 + u'.val = 64 * p.val + u'.val; omega)))
    (congrArg (Wru0 _) (Fin.ext (by show (c.val / 128) * 64 + c.val % 64 = q.val; omega)))

end Paired

section Values

variable (h : Holds I S x st0 st1 Wru0 bru0 Wc0 bc0 Wru1 bru1 Wc1 bc1 Wp bp)
include h

theorem v7_eq (p : Fin 2) (n : Fin 512) (k : Fin 3) :
    val_v7 I (ix2 n ⟨3 * p.val + k.val, by have := p.isLt; have := k.isLt; omega⟩) = Spec.cheb S k (x p) n := by
  unfold val_v7 k1_pay4 ld_v3 ld_v5
  refine Eq.trans ?_ (h.hA p n k)
  match p with
  | ⟨0, _⟩ =>
    refine (concatenate_pair_apply_left (t := S512x6) (s₁ := S512x3) (s₂ := S512x3) 1 _ _ concatenates_S512x3_S512x3_S512x6_d1
      _ rfl (ix2 n k) (fun b => by
        match b with
        | ⟨0, _⟩ => rfl
        | ⟨1, _⟩ => show k.val = 3 * 0 + k.val; omega)).trans ?_
    exact (shapeCast_1ab_ab_apply _ shapeCasts_S1x512x3_S512x3 n k).trans (K2.ld3 I.x1 0 _ 0 rfl n k)
  | ⟨1, _⟩ =>
    refine (concatenate_pair_apply_right (t := S512x6) (s₁ := S512x3) (s₂ := S512x3) 1 _ _ concatenates_S512x3_S512x3_S512x6_d1
      _ rfl rfl (ix2 n k) (fun b hb => by
        match b with
        | ⟨0, _⟩ => rfl
        | ⟨1, _⟩ => exact absurd rfl hb) (by show k.val + 3 = 3 * 1 + k.val; omega)).trans ?_
    exact (shapeCast_1ab_ab_apply _ shapeCasts_S1x512x3_S512x3 n k).trans (K2.ld3 I.x1 1 _ 1 rfl n k)

theorem v12_eq (p : Fin 2) (n : Fin 512) (u : Fin 64) : val_v12 I (ix2 n (K2.col p u)) = st0 p n u := by
  unfold val_v12 ld_v8 ld_v10
  exact (K2.pack_ld I.x2 p n u).trans (h.hH0 p n u)

theorem v2_eq (n m : Fin 512) : val_v2 I (ix2 n m) = S n m := by
  unfold val_v2 ld_v0
  exact (K2.S_apply I.x0 _ _).trans (h.hS n m)

theorem v27_eq (p : Fin 2) (n : Fin 512) (u : Fin 64) :
    val_v27 I (ix2 n (K2.col p u)) = Spec.diff S (fun m => st0 p m u) n := by
  unfold val_v27 k1_pay7 Spec.diff
  exact (K2.mm _ _ n _).trans (Finset.sum_congr rfl fun m _ => congrArg₂ (· * ·) (v2_eq h n m) (v12_eq h p m u))

theorem v30_eq (p : Fin 2) (n : Fin 512) (u : Fin 64) :
    val_v30 I (ix2 n (K2.col p u)) = Spec.diff S (fun m => st0 p m u) n := by
  unfold val_v30 k1_pay9
  exact v27_eq h p n u

omit h in
theorem v29_apply (I : Ins Ideal) (j : Fin 128) (c : Fin 256) : val_v29 I (ix2 j c) = I.x5 (ix3 1 j c) := by
  unfold val_v29 k1_pay8 ld_v28
  exact (shapeCast_1ab_ab_apply _ shapeCasts_S1x128x256_S128x256 j c).trans (K2.ld3 I.x5 1 _ 1 rfl j c)

theorem gates_eq (p : Fin 2) (g : ℕ) (hg : g < 2) (n : Fin 512) (u : Fin 64) (c : Fin 256) (hc : c.val = 128 * g + 64 * p.val + u.val)
    (q : Fin 128) (hq : q.val = 64 * g + u.val) :
    k1_pay10 (val_v2 I) (val_v12 I) (val_v25 I) (val_v27 I) (val_v29 I) (val_v30 I) (val_cst_24 I) (ld_v38 I) (ix2 n c)
      = Spec.gate0 S (x p) (st0 p) Wru0 bru0 n q := by
  unfold k1_pay10 val_v25 k1_pay6 val_cst_24 Spec.gate0 Spec.gate
  refine congrArg Ideal.logistic ((congrArg₂ (· + ·) (congrArg₂ (· + ·) (congrArg₂ (· + ·) (congrArg₂ (· + ·)
    ((broadcastTo_1b_ab_apply _ broadcasts_S1x256_S512x256 n c).trans
      ((congrFun (shapeCast_self (ld_v13 I) shapeCasts_S1x256_S1x256) (ix2 0 c)).trans ((K2.ld2 I.x6 _ _).trans (bias_ru0 h p g hg u c hc q hq))))
    ((K2.mm _ _ n c).trans ((Finset.sum_congr rfl fun j _ => congrArg (val_v7 I (ix2 n j) * ·)
        ((congrFun (shapeCast_self (ld_v15 I) shapeCasts_S6x256_S6x256) (ix2 j c)).trans (K2.ld2 I.x4 _ _))).trans
      ((sum_in_ru0 h (fun j => val_v7 I (ix2 n j)) p g hg u c hc q hq).trans
        (Finset.sum_congr rfl fun k _ => congrArg (· * _) (v7_eq h p n k))))))
    ((K2.mm_cast (val_v12 I) (ld_v21 I) _ n c).trans ((Finset.sum_congr rfl fun j _ => congrArg (val_v12 I (ix2 n j) * ·) (K2.ld3 I.x5 0 _ 0 rfl j c)).trans
      ((sum_st_ru0 h (fun j => val_v12 I (ix2 n j)) 0 p g hg u c hc q hq).trans
        (Finset.sum_congr rfl fun u' _ => congrArg (· * _) (v12_eq h p n u'))))))
    ((K2.mm _ _ n c).trans ((Finset.sum_congr rfl fun j _ => congrArg (val_v30 I (ix2 n j) * ·) (v29_apply I j c)).trans
      ((sum_st_ru0 h (fun j => val_v30 I (ix2 n j)) 1 p g hg u c hc q hq).trans
        (Finset.sum_congr rfl fun u' _ => congrArg (· * _) (v30_eq h p n u'))))))
    ((K2.mm_cast (K2.q2 (val_v2 I) (val_v12 I) (val_v27 I)) (ld_v38 I) _ n c).trans
      ((Finset.sum_congr rfl fun j _ => congrArg (K2.q2 (val_v2 I) (val_v12 I) (val_v27 I) (ix2 n j) * ·) (K2.ld3 I.x5 2 _ 2 rfl j c)).trans
      ((sum_st_ru0 h (fun j => K2.q2 (val_v2 I) (val_v12 I) (val_v27 I) (ix2 n j)) 2 p g hg u c hc q hq).trans
        (Finset.sum_congr rfl fun u' _ => congrArg (· * _)
          (K2.q2_eq _ _ _ S (v2_eq h) (K2.col p u') _ (fun m => v12_eq h p m u') (fun m => v27_eq h p m u') n)))))).trans ?_)
  rw [Regroup.gconv0_split]
  simp only [Fin.sum_univ_three, Regroup.feat0_zero, Regroup.feat0_succ]
  exact K2.regroup7 _ _ _ _ _ _ _

theorem v45_eq (p : Fin 2) (n : Fin 512) (u : Fin 64) :
    val_v45 I (ix2 n (K2.col p u)) = Spec.gate0 S (x p) (st0 p) Wru0 bru0 n (Fin.natAdd 64 u) := by
  have := p.isLt; have := u.isLt
  unfold val_v45 k1_pay11
  refine (slice2_axis1_apply 128 _ slices_S512x256_o0_128_S512x128 n _ ⟨128 + (64 * p.val + u.val), by omega⟩ rfl).trans ?_
  exact gates_eq h p 1 (by omega) n u _ (by show 128 + (64 * p.val + u.val) = 128 * 1 + 64 * p.val + u.val; omega) (Fin.natAdd 64 u)
    (by show 64 + u.val = 64 * 1 + u.val; omega)

theorem v46_eq (p : Fin 2) (n : Fin 512) (u : Fin 64) :
    val_v46 I (ix2 n (K2.col p u)) = Spec.rs0 S (x p) (st0 p) Wru0 bru0 n u := by
  have := p.isLt; have := u.isLt
  unfold val_v46 k1_pay12 Spec.rs0
  exact congrArg₂ (· * ·)
    ((slice2_axis1_apply 0 _ slices_S512x256_o0_0_S512x128 n _ ⟨64 * p.val + u.val, by omega⟩
        (by show 64 * p.val + u.val = 0 + (64 * p.val + u.val); omega)).trans
      (gates_eq h p 0 (by omega) n u _ (by show 64 * p.val + u.val = 128 * 0 + 64 * p.val + u.val; omega) (Fin.castAdd 64 u)
        (by show u.val = 64 * 0 + u.val; omega)))
    (v12_eq h p n u)

end Values

end Cert.KernelIdeal.Hand

end
-- ==== Proof.Val.K3Lib.lean ====
import proofs.«104790_g19069654794669_cont_sun_m_30_11_alg».proof.Proof.Gen.KernelIdeal.Skeleton
import proofs.«104790_g19069654794669_cont_sun_m_30_11_alg».proof.Proof.Regroup
import proofs.«104790_g19069654794669_cont_sun_m_30_11_alg».proof.Proof.Val.K2Lib
import Idealize.ShloMosaic.Lib.Pipeline.Value
import Idealize.ShloMosaic.Lib.Pipeline.FrameBody
import Idealize.ShloMosaic.Lib.ValueLayout
import Idealize.ShloMosaic.Lib.ValueIdx
import Idealize.ShloMosaic.PureOps.Ideal.Laws

noncomputable section

namespace Cert.KernelIdeal.Hand.K3

open Cert.KernelIdeal Cert.KernelIdeal.Gen
open Idealize.ShloMosaic Idealize.ShloMosaic.TcCoe Idealize.ShloMosaic.ValueIdx
open scoped BigOperators

theorem ofBits_one_f32 : Ideal.ofBits .f32 0x3F800000#32 = 1 := by
  simp [Ideal.ofBits, Ideal.ieee, -EReal.coe_mul]; norm_num
theorem wslice_apply (X : Vec Ideal S3x128x128 .bf16) (o : ℕ) (inb : ∀ a, (![o, 0, 0] : Fin 3 → ℕ) a + S1x128x128.size a ≤ S3x128x128.size a)
    (k : Fin 3) (hk : k.val = o) (j c : Fin 128) :
    shapeCast S128x128 (View.ld X (Rect.unit (s := S3x128x128) ![o, 0, 0] S1x128x128.size inb)) shapeCasts_S1x128x128_S128x128 (ix2 j c) = X (ix3 k j c) :=
  (shapeCast_1ab_ab_apply _ _ j c).trans (K2.ld3 X o inb k hk j c)

theorem bias_apply (X : Vec Ideal S1x128 .f32) (inb : ∀ a, (![0, 0] : Fin 2 → ℕ) a + S1x128.size a ≤ S1x128.size a) (n : Fin 512) (c : Fin 128) :
    broadcastTo S512x128 (shapeCast S1x128 (View.ld X (Rect.unit (s := S1x128) ![0, 0] S1x128.size inb)) shapeCasts_S1x128_S1x128) broadcasts_S1x128_S512x128 (ix2 n c)
      = X (ix2 0 c) :=
  (broadcastTo_1b_ab_apply _ _ n c).trans
    ((congrFun (shapeCast_self (s := S1x128) _ shapeCasts_S1x128_S1x128) (ix2 0 c)).trans (K2.ld2 X inb _))

theorem wp_apply (X : Vec Ideal S128x2 .bf16) (inb : ∀ a, (![0, 0] : Fin 2 → ℕ) a + S128x2.size a ≤ S128x2.size a) (j : Fin 128) (c : Fin 2) :
    shapeCast S128x2 (View.ld X (Rect.unit (s := S128x2) ![0, 0] S128x2.size inb)) shapeCasts_S128x2_S128x2 (ix2 j c) = X (ix2 j c) :=
  (congrFun (shapeCast_self (s := S128x2) _ shapeCasts_S128x2_S128x2) (ix2 j c)).trans (K2.ld2 X inb _)

theorem bp_apply (X : Vec Ideal S1x1 .f32) (inb : ∀ a, (![0, 0] : Fin 2 → ℕ) a + S1x1.size a ≤ S1x1.size a) (n : Fin 512) (c : Fin 2) :
    broadcastTo S512x2 (shapeCast S1x1 (View.ld X (Rect.unit (s := S1x1) ![0, 0] S1x1.size inb)) shapeCasts_S1x1_S1x1) broadcasts_S1x1_S512x2 (ix2 n c)
      = X (ix2 0 0) := by
  refine (broadcastTo_apply _ _ (ix2 n c) (ix2 (0 : Fin 1) (0 : Fin 1)) fun a => ?_).trans ?_
  · match a with
    | ⟨0, _⟩ => rfl
    | ⟨1, _⟩ => rfl
  exact (congrFun (shapeCast_self (s := S1x1) _ shapeCasts_S1x1_S1x1) (ix2 0 0)).trans (K2.ld2 X inb _)

abbrev col (p : Fin 2) (u : Fin 64) : Fin 128 := ⟨64 * p.val + u.val, by have := p.isLt; have := u.isLt; omega⟩

theorem sum_cc_col (a : Fin 128 → EReal) (w : Fin 64 → Fin 64 → EReal) (p : Fin 2) (u : Fin 64) :
    ∑ j : Fin 128, a j * Pair.cc (r := 64) w j (col p u) = ∑ j' : Fin 64, a (col p j') * w j' u := by
  refine (Regroup.sum_cc (r := 64) a w (col p u)).trans ?_
  refine Finset.sum_congr rfl fun j' _ => ?_
  have hp := p.isLt
  have hu := u.isLt
  have e1 : (⟨((col p u).val / 64) * 64 + j'.val, by have := j'.isLt; show (64 * p.val + u.val) / 64 * 64 + j'.val < 128; omega⟩ : Fin 128) = col p j' :=
    Fin.ext (by show (64 * p.val + u.val) / 64 * 64 + j'.val = 64 * p.val + j'.val; omega)
  have e2 : (⟨(col p u).val % 64, Nat.mod_lt _ (by decide)⟩ : Fin 64) = u :=
    Fin.ext (by show (64 * p.val + u.val) % 64 = u.val; omega)
  exact congrArg₂ (fun s t => a s * w j' t) e1 e2

theorem sum_pp_col (a : Fin 128 → EReal) (w : Fin 64 → EReal) (p : Fin 2) :
    ∑ j : Fin 128, a j * Pair.pp w j p = ∑ u : Fin 64, a (col p u) * w u := by
  refine (Regroup.sum_pp a w p).trans ?_
  refine Finset.sum_congr rfl fun u _ => ?_
  have e1 : (⟨p.val * 64 + u.val, by have := p.isLt; have := u.isLt; omega⟩ : Fin 128) = col p u :=
    Fin.ext (by show p.val * 64 + u.val = 64 * p.val + u.val; omega)
  exact congrArg (fun s => a s * w u) e1

theorem bcc_col (b : Fin 64 → EReal) (p : Fin 2) (u : Fin 64) : Pair.bcc b (col p u) = b u := by
  have hp := p.isLt
  have hu := u.isLt
  exact congrArg b (Fin.ext (by show (64 * p.val + u.val) % 64 = u.val; omega))

theorem prod_cc (a : FVec Ideal S512x128 .f32) (W : FVec Ideal S128x128 .bf16) (w : Fin 64 → Fin 64 → EReal)
    (hW : ∀ j c, W (ix2 j c) = Pair.cc (r := 64) w j c) (A : Fin 64 → EReal) (p : Fin 2) (n : Fin 512) (u : Fin 64)
    (ha : ∀ j', a (ix2 n (col p j')) = A j') :
    matmul dot_S512x128_S128x128_S512x128_1_0_0_1_n_n none (truncf .bf16 a bitsLt_bf16_f32) W (constant (F := Ideal) S512x128 .f32 0x00000000#32) (ix2 n (col p u))
      = ∑ j' : Fin 64, A j' * w j' u := by
  refine (K2.mm _ _ n (col p u)).trans ?_
  have e : ∀ j : Fin 128, (truncf .bf16 a bitsLt_bf16_f32 : FVec Ideal S512x128 .bf16) (ix2 n j) * W (ix2 j (col p u)) = a (ix2 n j) * Pair.cc (r := 64) w j (col p u) :=
    fun j => congrArg (a (ix2 n j) * ·) (hW j (col p u))
  refine (Finset.sum_congr rfl fun j _ => e j).trans ?_
  refine (sum_cc_col (fun j => a (ix2 n j)) w p u).trans ?_
  exact Finset.sum_congr rfl fun j' _ => congrArg (· * w j' u) (ha j')

theorem prod_pp (a : FVec Ideal S512x128 .f32) (W : FVec Ideal S128x2 .bf16) (w : Fin 64 → EReal)
    (hW : ∀ j c, W (ix2 j c) = Pair.pp w j c) (A : Fin 64 → EReal) (p : Fin 2) (n : Fin 512)
    (ha : ∀ u, a (ix2 n (col p u)) = A u) :
    matmul dot_S512x128_S128x2_S512x2_1_0_0_1_n_n none (truncf .bf16 a bitsLt_bf16_f32) W (constant (F := Ideal) S512x2 .f32 0x00000000#32) (ix2 n p)
      = ∑ u : Fin 64, A u * w u := by
  refine (K2.mm _ _ n p).trans ?_
  have e : ∀ j : Fin 128, (truncf .bf16 a bitsLt_bf16_f32 : FVec Ideal S512x128 .bf16) (ix2 n j) * W (ix2 j p) = a (ix2 n j) * Pair.pp w j p :=
    fun j => congrArg (a (ix2 n j) * ·) (hW j p)
  refine (Finset.sum_congr rfl fun j _ => e j).trans ?_
  refine (sum_pp_col (fun j => a (ix2 n j)) w p).trans ?_
  exact Finset.sum_congr rfl fun u _ => congrArg (· * w u) (ha u)

end Cert.KernelIdeal.Hand.K3

end
-- ==== Proof.Val.K1b.lean ====
import proofs.«104790_g19069654794669_cont_sun_m_30_11_alg».proof.Proof.Val.K1a
import proofs.«104790_g19069654794669_cont_sun_m_30_11_alg».proof.Proof.Val.K3Lib

noncomputable section

namespace Cert.KernelIdeal.Hand

open Cert.KernelIdeal Cert.KernelIdeal.Gen
open Idealize.ShloMosaic Idealize.ShloMosaic.TcCoe Idealize.ShloMosaic.ValueIdx
open scoped BigOperators

namespace K1b

def wS (Wc0 : Fin 195 → Fin 64 → EReal) (k : Fin 3) : Fin 64 → Fin 64 → EReal :=
  fun j q => Wc0 ⟨(1 + j.val) * 3 + k.val, by have := k.isLt; have := j.isLt; omega⟩ q

def r1 (I : Ins Ideal) : FVec Ideal S512x128 .f32 :=
  k1_pay13 (val_v2 I) (val_v12 I) (val_v25 I) (val_v27 I) (val_v29 I) (val_v30 I) (val_cst_24 I) (ld_v38 I)

-- Against paired input-feature candidate weights only the three columns of the column's own batch element remain.
theorem sum_cc3 (a : Fin 6 → EReal) (w : Fin 3 → Fin 64 → EReal) (p : Fin 2) (u : Fin 64) :
    ∑ j, a j * Pair.cc (r := 3) w j (K2.col p u)
      = ∑ k : Fin 3, a ⟨3 * p.val + k.val, by have := p.isLt; have := k.isLt; omega⟩ * w k u := by
  refine (Regroup.sum_cc a w _).trans (Finset.sum_congr rfl fun k _ => ?_)
  have := p.isLt; have := u.isLt; have := k.isLt
  exact congrArg₂ (fun s t => a s * w k t)
    (Fin.ext (by show (64 * p.val + u.val) / 64 * 3 + k.val = 3 * p.val + k.val; omega))
    (Fin.ext (by show (64 * p.val + u.val) % 64 = u.val; omega))

end K1b

variable {I : Ins Ideal} {S : Fin 512 → Fin 512 → EReal} {x : Fin 2 → Fin 512 → EReal}
  {st0 st1 : Fin 2 → Fin 512 → Fin 64 → EReal}
  {Wru0 : Fin 195 → Fin 128 → EReal} {bru0 : Fin 128 → EReal} {Wc0 : Fin 195 → Fin 64 → EReal} {bc0 : Fin 64 → EReal}
  {Wru1 : Fin 384 → Fin 128 → EReal} {bru1 : Fin 128 → EReal} {Wc1 : Fin 384 → Fin 64 → EReal} {bc1 : Fin 64 → EReal}
  {Wp : Fin 64 → EReal} {bp : EReal}
  (h : Holds I S x st0 st1 Wru0 bru0 Wc0 bc0 Wru1 bru1 Wc1 bc1 Wp bp)
include h

namespace K1b

theorem wS_eq (k : Fin 3) (inb : ∀ a, (![k.val, 0, 0] : Fin 3 → ℕ) a + S1x128x128.size a ≤ S3x128x128.size a) (j c : Fin 128) :
    (shapeCast S128x128 (View.ld I.x8 (Rect.unit (s := S3x128x128) ![k.val, 0, 0] S1x128x128.size inb)) shapeCasts_S1x128x128_S128x128 : FVec Ideal S128x128 .bf16) (ix2 j c)
      = Pair.cc (r := 64) (wS Wc0 k) j c :=
  (K3.wslice_apply I.x8 k.val inb k rfl j c).trans (h.h8 k j c)

theorem r1_eq (p : Fin 2) (n : Fin 512) (u : Fin 64) :
    r1 I (ix2 n (K2.col p u)) = Spec.cheb S 1 (fun m => Spec.rs0 S (x p) (st0 p) Wru0 bru0 m u) n :=
  K2.prod_S (val_v2 I) (val_v46 I) S (v2_eq h) n (K2.col p u) _ (fun m => v46_eq h p m u)

end K1b

theorem v82_eq (p : Fin 2) (n : Fin 512) (u : Fin 64) :
    val_v82 I (ix2 n (K2.col p u)) = Spec.cell0 S (x p) (st0 p) Wru0 bru0 Wc0 bc0 n u := by
  have hA : matmul dot_S512x6_S6x128_S512x128_1_0_0_1_n_n none (truncf .bf16 (val_v7 I) bitsLt_bf16_f32)
        (shapeCast S6x128 (ld_v49 I) shapeCasts_S6x128_S6x128 : FVec Ideal S6x128 .bf16) (constant (F := Ideal) S512x128 .f32 0x00000000#32) (ix2 n (K2.col p u))
      = ∑ k : Fin 3, Spec.cheb S k (x p) n * Wc0 ⟨k.val, by have := k.isLt; omega⟩ u :=
    (K2.mm _ _ n _).trans ((Finset.sum_congr rfl fun j _ => congrArg (val_v7 I (ix2 n j) * ·)
        ((congrFun (shapeCast_self (ld_v49 I) shapeCasts_S6x128_S6x128) _).trans ((K2.ld2 I.x7 _ _).trans (h.h7 j _)))).trans
      ((K1b.sum_cc3 (fun j => val_v7 I (ix2 n j)) _ p u).trans (Finset.sum_congr rfl fun k _ => congrArg (· * _) (v7_eq h p n k))))
  unfold val_v82 k1_pay16 val_v66 k1_pay14 Spec.cell0 Spec.mix
  refine congrArg₂ (· + ·) (congrArg₂ (· * ·) (v45_eq h p n u) (v12_eq h p n u))
    (congrArg₂ (· * ·) (congrArg₂ (· - ·) K3.ofBits_one_f32 (v45_eq h p n u)) (congrArg Ideal.tanh ?_))
  refine (congrArg₂ (· + ·) (congrArg₂ (· + ·) (congrArg₂ (· + ·) (congrArg₂ (· + ·)
      ((K3.bias_apply I.x9 _ n _).trans ((h.h9 _).trans (K3.bcc_col bc0 p u))) hA)
      (K3.prod_cc (val_v46 I) _ (K1b.wS Wc0 0) (K1b.wS_eq h 0 _) _ p n u fun j' => v46_eq h p n j'))
      (K3.prod_cc (K1b.r1 I) _ (K1b.wS Wc0 1) (K1b.wS_eq h 1 _) _ p n u fun j' => K1b.r1_eq h p n j'))
      (K3.prod_cc (K2.q2 (val_v2 I) (val_v46 I) (K1b.r1 I)) _ (K1b.wS Wc0 2) (K1b.wS_eq h 2 _) _ p n u fun j' =>
        K2.q2_eq _ _ _ S (v2_eq h) (K2.col p j') _ (fun m => v46_eq h p m j') (fun m => K1b.r1_eq h p m j') n)).trans ?_
  rw [Regroup.gconv0_split]
  simp only [Fin.sum_univ_three, Regroup.feat0_zero, Regroup.feat0_succ]
  exact K2.regroup7 _ _ _ _ _ _ _

theorem blk_h0 (p : Fin 2) (n : Fin 512) (u : Fin 64) :
    out1_19 I (ix3 p n u) = Spec.cell0 S (x p) (st0 p) Wru0 bru0 Wc0 bc0 n u := by
  unfold out1_19
  refine K2.canon2 _ _ _ _ (fun p n u => Spec.cell0 S (x p) (st0 p) Wru0 bru0 Wc0 bc0 n u) (fun n u => ?_) (fun n u => ?_) p n u
  · unfold k1_pay17
    exact (shapeCast_ab_1ab_apply _ _ 0 n u).trans
      ((slice2_axis1_apply 0 _ _ n u (K2.col 0 u) (by show 64 * 0 + u.val = 0 + u.val; omega)).trans (v82_eq h 0 n u))
  · unfold k1_pay18
    exact (shapeCast_ab_1ab_apply _ _ 0 n u).trans
      ((slice2_axis1_apply 64 _ _ n u (K2.col 1 u) (by show 64 * 1 + u.val = 64 + u.val; omega)).trans (v82_eq h 1 n u))

end Cert.KernelIdeal.Hand

end
-- ==== Proof.Val.K2.lean ====
import proofs.«104790_g19069654794669_cont_sun_m_30_11_alg».proof.Proof.Val.K1b
import proofs.«104790_g19069654794669_cont_sun_m_30_11_alg».proof.Proof.Val.K2Lib

noncomputable section

namespace Cert.KernelIdeal.Hand

open Cert.KernelIdeal Cert.KernelIdeal.Gen
open Idealize.ShloMosaic Idealize.ShloMosaic.TcCoe Idealize.ShloMosaic.ValueIdx
open scoped BigOperators

variable {I : Ins Ideal} {S : Fin 512 → Fin 512 → EReal} {x : Fin 2 → Fin 512 → EReal}
  {st0 st1 : Fin 2 → Fin 512 → Fin 64 → EReal}
  {Wru0 : Fin 195 → Fin 128 → EReal} {bru0 : Fin 128 → EReal} {Wc0 : Fin 195 → Fin 64 → EReal} {bc0 : Fin 64 → EReal}
  {Wru1 : Fin 384 → Fin 128 → EReal} {bru1 : Fin 128 → EReal} {Wc1 : Fin 384 → Fin 64 → EReal} {bc1 : Fin 64 → EReal}
  {Wp : Fin 64 → EReal} {bp : EReal}
  (h : Holds I S x st0 st1 Wru0 bru0 Wc0 bc0 Wru1 bru1 Wc1 bc1 Wp bp)
include h

theorem v95_eq (p : Fin 2) (n : Fin 512) (u : Fin 64) : val_v95 I (ix2 n (K2.col p u)) = st1 p n u := by
  unfold val_v95 ld_v91 ld_v93
  exact (K2.pack_ld I.x3 p n u).trans (h.hH1 p n u)

-- One diffusion of a packed value whose column 64 p + u holds A · u.
theorem d1_eq (a : FVec Ideal S512x128 .f32) (A : Fin 512 → Fin 64 → EReal) (p : Fin 2)
    (ha : ∀ m u, a (ix2 m (K2.col p u)) = A m u) (n : Fin 512) (u : Fin 64) :
    k1_pay21 (val_v2 I) a (ix2 n (K2.col p u)) = Spec.cheb S 1 (fun m => A m u) n := by
  unfold k1_pay21
  refine (K2.mm _ _ n _).trans ?_
  show _ = Spec.diff S _ n
  unfold Spec.diff
  exact Finset.sum_congr rfl fun m _ => congrArg₂ (· * ·) (v2_eq h n m) (ha m u)

-- Its second Chebyshev term.
theorem c2_eq (a : FVec Ideal S512x128 .f32) (A : Fin 512 → Fin 64 → EReal) (p : Fin 2)
    (ha : ∀ m u, a (ix2 m (K2.col p u)) = A m u) (n : Fin 512) (u : Fin 64) :
    k1_pay23 (val_v2 I) a (ix2 n (K2.col p u)) = Spec.cheb S 2 (fun m => A m u) n :=
  K2.q2_eq (val_v2 I) a (k1_pay21 (val_v2 I) a) S (v2_eq h) (K2.col p u) _ (fun m => ha m u) (fun m => d1_eq h a A p ha m u) n

theorem v110_eq (p : Fin 2) (n : Fin 512) (u : Fin 64) :
    val_v110 I (ix2 n (K2.col p u)) = Spec.cheb S 1 (fun m => (Spec.cell0 S (x p) (st0 p) Wru0 bru0 Wc0 bc0) m u) n :=
  d1_eq h (val_v82 I) _ p (fun m u => v82_eq h p m u) n u

theorem v127_eq (p : Fin 2) (n : Fin 512) (u : Fin 64) :
    val_v127 I (ix2 n (K2.col p u)) = Spec.cheb S 2 (fun m => (Spec.cell0 S (x p) (st0 p) Wru0 bru0 Wc0 bc0) m u) n :=
  c2_eq h (val_v82 I) _ p (fun m u => v82_eq h p m u) n u

theorem k2_d1_st1 (p : Fin 2) (n : Fin 512) (u : Fin 64) :
    k1_pay22 (val_v2 I) (val_v95 I) (ix2 n (K2.col p u)) = Spec.cheb S 1 (fun m => st1 p m u) n :=
  d1_eq h (val_v95 I) (st1 p) p (fun m u => v95_eq h p m u) n u

theorem k2_v137_eq (p : Fin 2) (n : Fin 512) (u : Fin 64) :
    val_v137 I (ix2 n (K2.col p u)) = Spec.cheb S 2 (fun m => st1 p m u) n :=
  c2_eq h (val_v95 I) (st1 p) p (fun m u => v95_eq h p m u) n u

-- The gates of the second cell at the paired column 128 g + 64 p + u: gate column 64 g + u of batch element p.
theorem k2_gates_eq (g p : Fin 2) (u : Fin 64) (n : Fin 512) (c : Fin 256) (q : Fin 128)
    (hc : c.val = 128 * g.val + 64 * p.val + u.val) (hq : q.val = 64 * g.val + u.val) :
    k1_pay26 (val_v132 I) (val_v137 I) (val_v138 I) (ix2 n c) = Spec.gate1 S (Spec.cell0 S (x p) (st0 p) Wru0 bru0 Wc0 bc0) (st1 p) Wru1 bru1 n q := by
  have hlt : 64 * g.val + u.val < 128 := by clear hq hc; have := g.isLt; have := u.isLt; omega
  obtain rfl : q = ⟨64 * g.val + u.val, hlt⟩ := Fin.ext hq
  have hbias : I.x12 (ix2 (0 : Fin 1) c) = bru1 ⟨64 * g.val + u.val, by have := g.isLt; have := u.isLt; omega⟩ := by
    refine (h.h12 c).trans ?_
    unfold Pair.bru
    exact congrArg bru1 (Fin.ext (by
      show (c.val / 128) * 64 + c.val % 64 = 64 * g.val + u.val
      have := g.isLt; have := p.isLt; have := u.isLt; omega))
  have sp := fun w a wv A => K2.sum_pair w a wv A g p u c hc
  unfold k1_pay26 val_v132 k1_pay24 val_v103 k1_pay20 Spec.gate1 Spec.gate
  refine congrArg Ideal.logistic ((congrArg₂ (· + ·) (congrArg₂ (· + ·) (congrArg₂ (· + ·) (congrArg₂ (· + ·) (congrArg₂ (· + ·) (congrArg₂ (· + ·)
    ((broadcastTo_1b_ab_apply _ broadcasts_S1x256_S512x256 n c).trans ((congrFun (shapeCast_self (ld_v96 I) shapeCasts_S1x256_S1x256) _).trans ((K2.ld2 I.x12 _ _).trans hbias)))
    ((K2.mm_cast (val_v82 I) (ld_v98 I) _ n c).trans (sp (K2.wX Wru1 0) (fun j => val_v82 I (ix2 n j)) (fun j => ld_v98 I (ix3 (0 : Fin 1) j c)) _
      (fun j => (K2.ld3 I.x10 0 _ 0 rfl j c).trans (h.h10 0 j c)) (fun j' => v82_eq h p n j'))))
    ((K2.mm_cast (val_v95 I) (ld_v104 I) _ n c).trans (sp (K2.wH Wru1 0) (fun j => val_v95 I (ix2 n j)) (fun j => ld_v104 I (ix3 (0 : Fin 1) j c)) _
      (fun j => (K2.ld3 I.x11 0 _ 0 rfl j c).trans (h.h11 0 j c)) (fun j' => v95_eq h p n j'))))
    ((K2.mm_cast (val_v110 I) (ld_v111 I) _ n c).trans (sp (K2.wX Wru1 1) (fun j => val_v110 I (ix2 n j)) (fun j => ld_v111 I (ix3 (0 : Fin 1) j c)) _
      (fun j => (K2.ld3 I.x10 1 _ 1 rfl j c).trans (h.h10 1 j c)) (fun j' => v110_eq h p n j'))))
    ((K2.mm_cast (k1_pay22 (val_v2 I) (val_v95 I)) (ld_v118 I) _ n c).trans (sp (K2.wH Wru1 1) (fun j => k1_pay22 (val_v2 I) (val_v95 I) (ix2 n j)) (fun j => ld_v118 I (ix3 (0 : Fin 1) j c)) _
      (fun j => (K2.ld3 I.x11 1 _ 1 rfl j c).trans (h.h11 1 j c)) (fun j' => k2_d1_st1 h p n j'))))
    ((K2.mm_cast (val_v127 I) (ld_v128 I) _ n c).trans (sp (K2.wX Wru1 2) (fun j => val_v127 I (ix2 n j)) (fun j => ld_v128 I (ix3 (0 : Fin 1) j c)) _
      (fun j => (K2.ld3 I.x10 2 _ 2 rfl j c).trans (h.h10 2 j c)) (fun j' => v127_eq h p n j'))))
    ((K2.mm_cast (val_v137 I) (val_v138 I) _ n c).trans (sp (K2.wH Wru1 2) (fun j => val_v137 I (ix2 n j)) (fun j => val_v138 I (ix3 (0 : Fin 1) j c)) _
      (fun j => (K2.ld3 I.x11 2 _ 2 rfl j c).trans (h.h11 2 j c)) (fun j' => k2_v137_eq h p n j')))).trans
    (K2.gconv1_alt S (Spec.cell0 S (x p) (st0 p) Wru0 bru0 Wc0 bc0) (st1 p) Wru1 bru1 n _))

theorem v145_eq (p : Fin 2) (n : Fin 512) (u : Fin 64) :
    val_v145 I (ix2 n (K2.col p u)) = Spec.gate1 S (Spec.cell0 S (x p) (st0 p) Wru0 bru0 Wc0 bc0) (st1 p) Wru1 bru1 n (Fin.natAdd 64 u) := by
  unfold val_v145 k1_pay27
  exact (slice2_axis1_apply 128 _ slices_S512x256_o0_128_S512x128 n _ ⟨128 + (64 * p.val + u.val), by have := p.isLt; have := u.isLt; omega⟩ rfl).trans
    (k2_gates_eq h 1 p u n _ _
      (by show 128 + (64 * p.val + u.val) = 128 * 1 + 64 * p.val + u.val; omega)
      (by show 64 + u.val = 64 * 1 + u.val; omega))

theorem v146_eq (p : Fin 2) (n : Fin 512) (u : Fin 64) :
    val_v146 I (ix2 n (K2.col p u)) = Spec.rs1 S (Spec.cell0 S (x p) (st0 p) Wru0 bru0 Wc0 bc0) (st1 p) Wru1 bru1 n u := by
  unfold val_v146 k1_pay28 Spec.rs1
  exact congrArg₂ (· * ·)
    ((slice2_axis1_apply 0 _ slices_S512x256_o0_0_S512x128 n _ ⟨64 * p.val + u.val, by have := p.isLt; have := u.isLt; omega⟩
        (by show 64 * p.val + u.val = 0 + (64 * p.val + u.val); omega)).trans
      (k2_gates_eq h 0 p u n _ (Fin.castAdd 64 u)
        (by show 64 * p.val + u.val = 128 * 0 + 64 * p.val + u.val; omega)
        (by show u.val = 64 * 0 + u.val; omega)))
    (v95_eq h p n u)

end Cert.KernelIdeal.Hand

end
-- ==== Proof.Val.K3.lean ====
import proofs.«104790_g19069654794669_cont_sun_m_30_11_alg».proof.Proof.Val.K2
import proofs.«104790_g19069654794669_cont_sun_m_30_11_alg».proof.Proof.Val.K3Lib

noncomputable section

namespace Cert.KernelIdeal.Hand

open Cert.KernelIdeal Cert.KernelIdeal.Gen
open Idealize.ShloMosaic Idealize.ShloMosaic.TcCoe Idealize.ShloMosaic.ValueIdx
open scoped BigOperators

variable {I : Ins Ideal} {S : Fin 512 → Fin 512 → EReal} {x : Fin 2 → Fin 512 → EReal}
  {st0 st1 : Fin 2 → Fin 512 → Fin 64 → EReal}
  {Wru0 : Fin 195 → Fin 128 → EReal} {bru0 : Fin 128 → EReal} {Wc0 : Fin 195 → Fin 64 → EReal} {bc0 : Fin 64 → EReal}
  {Wru1 : Fin 384 → Fin 128 → EReal} {bru1 : Fin 128 → EReal} {Wc1 : Fin 384 → Fin 64 → EReal} {bc1 : Fin 64 → EReal}
  {Wp : Fin 64 → EReal} {bp : EReal}
  (h : Holds I S x st0 st1 Wru0 bru0 Wc0 bc0 Wru1 bru1 Wc1 bc1 Wp bp)
include h

namespace K3

theorem wX_eq (k : Fin 3) (inb : ∀ a, (![k.val, 0, 0] : Fin 3 → ℕ) a + S1x128x128.size a ≤ S3x128x128.size a) (j c : Fin 128) :
    (shapeCast S128x128 (View.ld I.x13 (Rect.unit (s := S3x128x128) ![k.val, 0, 0] S1x128x128.size inb)) shapeCasts_S1x128x128_S128x128 : FVec Ideal S128x128 .bf16) (ix2 j c)
      = Pair.cc (r := 64) (K2.wX Wc1 k) j c :=
  (wslice_apply I.x13 k.val inb k rfl j c).trans (h.h13 k j c)

theorem wH_eq (k : Fin 3) (inb : ∀ a, (![k.val, 0, 0] : Fin 3 → ℕ) a + S1x128x128.size a ≤ S3x128x128.size a) (j c : Fin 128) :
    (shapeCast S128x128 (View.ld I.x14 (Rect.unit (s := S3x128x128) ![k.val, 0, 0] S1x128x128.size inb)) shapeCasts_S1x128x128_S128x128 : FVec Ideal S128x128 .bf16) (ix2 j c)
      = Pair.cc (r := 64) (K2.wH Wc1 k) j c :=
  (wslice_apply I.x14 k.val inb k rfl j c).trans (h.h14 k j c)

theorem v169_eq (p : Fin 2) (n : Fin 512) (u : Fin 64) :
    val_v169 I (ix2 n (col p u))
      = ((((bc1 u + K2.candX S (Spec.cell0 S (x p) (st0 p) Wru0 bru0 Wc0 bc0) Wc1 0 n u) + K2.candX S (Spec.cell0 S (x p) (st0 p) Wru0 bru0 Wc0 bc0) Wc1 1 n u) + K2.candX S (Spec.cell0 S (x p) (st0 p) Wru0 bru0 Wc0 bc0) Wc1 2 n u)
          + K2.candH S (Spec.rs1 S (Spec.cell0 S (x p) (st0 p) Wru0 bru0 Wc0 bc0) (st1 p) Wru1 bru1) Wc1 0 n u) := by
  unfold val_v169 k1_pay29
  refine congrArg₂ (· + ·) (congrArg₂ (· + ·) (congrArg₂ (· + ·) (congrArg₂ (· + ·) ?_ ?_) ?_) ?_) ?_
  · exact (bias_apply I.x15 _ n (col p u)).trans ((h.h15 (col p u)).trans (bcc_col bc1 p u))
  · exact prod_cc (val_v82 I) _ (K2.wX Wc1 0) (wX_eq h 0 _) _ p n u (fun j' => v82_eq h p n j')
  · exact prod_cc (val_v110 I) _ (K2.wX Wc1 1) (wX_eq h 1 _) _ p n u (fun j' => v110_eq h p n j')
  · exact prod_cc (val_v127 I) _ (K2.wX Wc1 2) (wX_eq h 2 _) _ p n u (fun j' => v127_eq h p n j')
  · exact prod_cc (val_v146 I) _ (K2.wH Wc1 0) (wH_eq h 0 _) _ p n u (fun j' => v146_eq h p n j')

theorem v171_eq (p : Fin 2) (n : Fin 512) (u : Fin 64) :
    val_v171 I (ix2 n (col p u)) = Spec.cheb S 1 (fun m => (Spec.rs1 S (Spec.cell0 S (x p) (st0 p) Wru0 bru0 Wc0 bc0) (st1 p) Wru1 bru1) m u) n :=
  K2.prod_S (val_v2 I) (val_v146 I) S (v2_eq h) n (col p u) _ (fun m => v146_eq h p m u)

theorem q2_eq (p : Fin 2) (n : Fin 512) (u : Fin 64) :
    K2.q2 (val_v2 I) (val_v146 I) (val_v171 I) (ix2 n (col p u)) = Spec.cheb S 2 (fun m => (Spec.rs1 S (Spec.cell0 S (x p) (st0 p) Wru0 bru0 Wc0 bc0) (st1 p) Wru1 bru1) m u) n :=
  K2.q2_eq _ _ _ S (v2_eq h) (col p u) _ (fun m => v146_eq h p m u) (fun m => v171_eq h p m u) n

def h1n (I : Ins Ideal) : FVec Ideal S512x128 .f32 :=
  k1_pay33 (val_v2 I) (val_v95 I) (val_v145 I) (val_v146 I) (val_v169 I) (val_v171 I) (val_v173 I) (val_v174 I) (val_cst_117 I) (ld_v182 I)

theorem h1n_eq (p : Fin 2) (n : Fin 512) (u : Fin 64) :
    h1n I (ix2 n (col p u)) = (Spec.cell1 S (Spec.cell0 S (x p) (st0 p) Wru0 bru0 Wc0 bc0) (st1 p) Wru1 bru1 Wc1 bc1) n u := by
  have hT1 : matmul dot_S512x128_S128x128_S512x128_1_0_0_1_n_n none (val_v174 I) (val_v173 I) (constant (F := Ideal) S512x128 .f32 0x00000000#32) (ix2 n (col p u)) = K2.candH S (Spec.rs1 S (Spec.cell0 S (x p) (st0 p) Wru0 bru0 Wc0 bc0) (st1 p) Wru1 bru1) Wc1 1 n u :=
    prod_cc (val_v171 I) (val_v173 I) (K2.wH Wc1 1) (wH_eq h 1 _) _ p n u (fun j' => v171_eq h p n j')
  have hT2 : matmul dot_S512x128_S128x128_S512x128_1_0_0_1_n_n none (truncf .bf16 (K2.q2 (val_v2 I) (val_v146 I) (val_v171 I)) bitsLt_bf16_f32) (shapeCast S128x128 (ld_v182 I) shapeCasts_S1x128x128_S128x128 : FVec Ideal S128x128 .bf16) (constant (F := Ideal) S512x128 .f32 0x00000000#32) (ix2 n (col p u)) = K2.candH S (Spec.rs1 S (Spec.cell0 S (x p) (st0 p) Wru0 bru0 Wc0 bc0) (st1 p) Wru1 bru1) Wc1 2 n u :=
    prod_cc (K2.q2 (val_v2 I) (val_v146 I) (val_v171 I)) _ (K2.wH Wc1 2) (wH_eq h 2 _) _ p n u (fun j' => q2_eq h p n j')
  have hc := K2.cand_eq S (Spec.cell0 S (x p) (st0 p) Wru0 bru0 Wc0 bc0) (Spec.rs1 S (Spec.cell0 S (x p) (st0 p) Wru0 bru0 Wc0 bc0) (st1 p) Wru1 bru1) Wc1 bc1 n u
  unfold h1n k1_pay33 Spec.cell1 Spec.mix
  exact congrArg₂ (· + ·) (congrArg₂ (· * ·) (v145_eq h p n u) (v95_eq h p n u))
    (congrArg₂ (· * ·) (congrArg₂ (· - ·) ofBits_one_f32 (v145_eq h p n u))
      (congrArg Ideal.tanh ((congrArg₂ (· + ·) (congrArg₂ (· + ·) (v169_eq h p n u) hT1) hT2).trans hc)))

theorem v208_eq (p : Fin 2) (n : Fin 512) :
    val_v208 I (ix2 n p) = Spec.proj (Spec.cell1 S (Spec.cell0 S (x p) (st0 p) Wru0 bru0 Wc0 bc0) (st1 p) Wru1 bru1 Wc1 bc1) Wp bp n := by
  unfold val_v208 k1_pay36 Spec.proj
  refine congrArg₂ (· + ·) ?_ ((bp_apply I.x17 _ n p).trans h.h17)
  exact prod_pp (h1n I) _ Wp (fun j c => (wp_apply I.x16 _ j c).trans (h.h16 j c)) _ p n (fun u => h1n_eq h p n u)

end K3

theorem blk_h1 (p : Fin 2) (n : Fin 512) (u : Fin 64) :
    out1_20 I (ix3 p n u) = Spec.cell1 S (Spec.cell0 S (x p) (st0 p) Wru0 bru0 Wc0 bc0) (st1 p) Wru1 bru1 Wc1 bc1 n u := by
  unfold out1_20
  refine K2.canon2 _ _ _ _ (fun p n u => Spec.cell1 S (Spec.cell0 S (x p) (st0 p) Wru0 bru0 Wc0 bc0) (st1 p) Wru1 bru1 Wc1 bc1 n u) (fun n u => ?_) (fun n u => ?_) p n u
  · unfold k1_pay34
    exact (shapeCast_ab_1ab_apply _ _ 0 n u).trans
      ((slice2_axis1_apply 0 _ _ n u (K3.col 0 u) (by show 64 * 0 + u.val = 0 + u.val; omega)).trans (K3.h1n_eq h 0 n u))
  · unfold k1_pay35
    exact (shapeCast_ab_1ab_apply _ _ 0 n u).trans
      ((slice2_axis1_apply 64 _ _ n u (K3.col 1 u) (by show 64 * 1 + u.val = 64 + u.val; omega)).trans (K3.h1n_eq h 1 n u))

theorem blk_out (p : Fin 2) (n : Fin 512) :
    out1_18 I (ix3 p n 0) = Spec.proj (Spec.cell1 S (Spec.cell0 S (x p) (st0 p) Wru0 bru0 Wc0 bc0) (st1 p) Wru1 bru1 Wc1 bc1) Wp bp n := by
  unfold out1_18
  refine K2.canon2 _ _ _ _ (fun p n _ => Spec.proj (Spec.cell1 S (Spec.cell0 S (x p) (st0 p) Wru0 bru0 Wc0 bc0) (st1 p) Wru1 bru1 Wc1 bc1) Wp bp n) (fun n u => ?_) (fun n u => ?_) p n 0
  · unfold k1_pay1
    refine (shapeCast_ab_1ab_apply _ _ 0 n u).trans ?_
    unfold val_v209 k1_pay37
    exact (slice2_axis1_apply 0 _ _ n u (0 : Fin 2) (by have := u.isLt; show 0 = 0 + u.val; omega)).trans (K3.v208_eq h 0 n)
  · unfold k1_pay2
    exact (shapeCast_ab_1ab_apply _ _ 0 n u).trans
      ((slice2_axis1_apply 1 _ _ n u (1 : Fin 2) (by have := u.isLt; show 1 = 1 + u.val; omega)).trans (K3.v208_eq h 1 n))

end Cert.KernelIdeal.Hand

end
-- ==== Proof.Val.KFinal.lean ====
import proofs.«104790_g19069654794669_cont_sun_m_30_11_alg».proof.Proof.KI.RunDefs
import proofs.«104790_g19069654794669_cont_sun_m_30_11_alg».proof.Proof.Val.HostA
import proofs.«104790_g19069654794669_cont_sun_m_30_11_alg».proof.Proof.Val.HostA2
import proofs.«104790_g19069654794669_cont_sun_m_30_11_alg».proof.Proof.Val.HostA3
import proofs.«104790_g19069654794669_cont_sun_m_30_11_alg».proof.Proof.Val.HostA4
import proofs.«104790_g19069654794669_cont_sun_m_30_11_alg».proof.Proof.Val.HostA5
import proofs.«104790_g19069654794669_cont_sun_m_30_11_alg».proof.Proof.Val.HostB
import proofs.«104790_g19069654794669_cont_sun_m_30_11_alg».proof.Proof.Val.HostL
import proofs.«104790_g19069654794669_cont_sun_m_30_11_alg».proof.Proof.Val.Reg0
import proofs.«104790_g19069654794669_cont_sun_m_30_11_alg».proof.Proof.Val.Reg1
import proofs.«104790_g19069654794669_cont_sun_m_30_11_alg».proof.Proof.Val.K3
import proofs.«104790_g19069654794669_cont_sun_m_30_11_alg».proof.Proof.Adapt

noncomputable section

namespace Cert.KernelIdeal.Hand

open Cert.KernelIdeal Cert.KernelIdeal.Gen
open Idealize.ShloMosaic Idealize.ShloMosaic.TcCoe Idealize.ShloMosaic.ValueIdx
open Cert.Adapt

variable (m : (ℓ : Loc nD τ sig) → Buf (Elt Ideal) ℓ) (ρ : Dev nD → PrngReg) (c : Dev nD)

abbrev A0 : S64x512.Idx → EReal := m ((c : Thread nD τ).loc main_arg0)
abbrev A1 : S2x64x32768.Idx → EReal := m ((c : Thread nD τ).loc main_arg1)
abbrev A2 : S512x512.Idx → EReal := m ((c : Thread nD τ).loc main_arg2)
abbrev A3 : S195x128.Idx → EReal := m ((c : Thread nD τ).loc main_arg3)
abbrev A4 : S128.Idx → EReal := m ((c : Thread nD τ).loc main_arg4)
abbrev A5 : S195x64.Idx → EReal := m ((c : Thread nD τ).loc main_arg5)
abbrev A6 : S64.Idx → EReal := m ((c : Thread nD τ).loc main_arg6)
abbrev A7 : S384x128.Idx → EReal := m ((c : Thread nD τ).loc main_arg7)
abbrev A8 : S128.Idx → EReal := m ((c : Thread nD τ).loc main_arg8)
abbrev A9 : S384x64.Idx → EReal := m ((c : Thread nD τ).loc main_arg9)
abbrev A10 : S64.Idx → EReal := m ((c : Thread nD τ).loc main_arg10)
abbrev A11 : S64x1.Idx → EReal := m ((c : Thread nD τ).loc main_arg11)
abbrev A12 : S1.Idx → EReal := m ((c : Thread nD τ).loc main_arg12)

abbrev Ssup : Fin 512 → Fin 512 → EReal := Spec.sup (mat (A2 m c))

theorem v4_arg2 (i j : Fin 512) : (V4 m ρ c main_arg2 : S512x512.Idx → EReal) (ix2 i j) = mat (A2 m c) i j :=
  congrFun ((W4_of m ρ c main_arg2 (by decide)).trans ((W3_of m ρ c main_arg2 (by decide)).trans
    ((W2_of m ρ c main_arg2 (by decide)).trans (W1_of m ρ c main_arg2 (by decide))))) (ix2 i j)

theorem v4_v200 (i j : Fin 512) : (V4 m ρ c main_v200 : S512x512.Idx → EReal) (ix2 i j) = mat (A2 m c) j i :=
  hw_v200 (W0 m ρ c) i j

theorem v4_v0 (n : Fin 512) (b : Fin 64) : (V4 m ρ c main_v0 : S512x64.Idx → EReal) (ix2 n b) = mat (A0 m c) b n :=
  hw_v0 (W0 m ρ c) n b

theorem w6_keep (r : Ref sig .tc) (h5 : ∀ w, Pipeline.arrRef spec0 w ≠ r)
    (h6 : r ∉ ([main_v202, main_v203, main_v204, main_v205, main_v206, main_v207, main_v208, main_v209, main_v210] : List (Ref sig .tc))) :
    W6 m ρ c (Proc.devRef .tc r) = W4 m ρ c (Proc.devRef .tc r) :=
  (hl_keep1 (W5 m ρ c) r h6).trans (W5_of_ne m ρ c r h5)

theorem v6_sup (i j : Fin 512) : (V6 m ρ c main_v201_0 : S512x512.Idx → EReal) (ix2 i j) = Ssup m c i j :=
  (congrFun (hl_keep1 (W5 m ρ c) main_v201_0 (by decide)) (ix2 i j)).trans ((congrFun (W5_arr m ρ c 3) (ix2 i j)).trans
    (r0_sup (V4 m ρ) c (mat (A2 m c)) (v4_arg2 m ρ c) (v4_v200 m ρ c) i j))

theorem v6_acat (b : Fin 64) (n : Fin 512) (k : Fin 3) :
    (V6 m ρ c main_v206 : S64x512x3.Idx → EReal) (ix3 b n k) = Spec.cheb (Ssup m c) k (mat (A0 m c) b) n := by
  refine (hl_v206 (W5 m ρ c) b n k).trans ?_
  match k with
  | 0 => exact (congrFun ((W5_arr m ρ c 2).trans (((dat0 (V4 m ρ) c).arrAt_in 2 rfl _).trans (A_eq0 (V4 m ρ) c 2))) (ix2 n b)).trans (hw_v0 (W0 m ρ c) n b)
  | 1 => exact (congrFun (W5_arr m ρ c 4) (ix2 n b)).trans (r0_a1 (V4 m ρ) c (mat (A2 m c)) (mat (A0 m c)) (v4_arg2 m ρ c) (v4_v200 m ρ c) (v4_v0 m ρ c) n b)
  | 2 => exact (congrFun (W5_arr m ρ c 5) (ix2 n b)).trans (r0_a2 (V4 m ρ) c (mat (A2 m c)) (mat (A0 m c)) (v4_arg2 m ρ c) (v4_v200 m ρ c) (v4_v0 m ρ c) n b)

theorem v6_st0 (b : Fin 64) (n : Fin 512) (u : Fin 64) :
    (V6 m ρ c main_v208 : S64x512x64.Idx → EReal) (ix3 b n u) = hid (A1 m c) 0 b n u :=
  (hl_v208 (W5 m ρ c) b n u).trans
    ((congrFun (W5_of_ne m ρ c main_v1 (by decide)) (ix4 0 b n u)).trans (hw_v1 (W0 m ρ c) 0 b n u))

theorem v6_st1 (b : Fin 64) (n : Fin 512) (u : Fin 64) :
    (V6 m ρ c main_v210 : S64x512x64.Idx → EReal) (ix3 b n u) = hid (A1 m c) 1 b n u :=
  (hl_v210 (W5 m ρ c) b n u).trans
    ((congrFun (W5_of_ne m ρ c main_v1 (by decide)) (ix4 1 b n u)).trans (hw_v1 (W0 m ρ c) 1 b n u))

def rowOf (t : Fin cfg1.N) (p : Fin 2) : Fin 64 := ⟨2 * t.val + p.val, row_lt t p⟩

theorem rowOf_pair (b : Fin 64) : rowOf ⟨b.val / 2, half_lt b⟩ ⟨b.val % 2, Nat.mod_lt _ (by decide)⟩ = b :=
  Fin.ext (by show 2 * (b.val / 2) + b.val % 2 = b.val; omega)

theorem holds (t : Fin cfg1.N) :
    Holds (ins1 (V6 m ρ) c t) (Ssup m c)
      (fun p => mat (A0 m c) (rowOf t p))
      (fun p => hid (A1 m c) 0 (rowOf t p))
      (fun p => hid (A1 m c) 1 (rowOf t p))
      (mat (A3 m c)) (vec (A4 m c)) (mat (A5 m c)) (vec (A6 m c))
      (mat (A7 m c)) (vec (A8 m c)) (mat (A9 m c)) (vec (A10 m c)) (col (A11 m c)) (scal (A12 m c)) where
  hS n k := (ins_x0 (V6 m ρ) c t (ix2 n k)).trans (v6_sup m ρ c n k)
  hA p n k := (ins_x1 (V6 m ρ) c t p n k).trans (v6_acat m ρ c (rowOf t p) n k)
  hH0 p n u := (ins_x2 (V6 m ρ) c t p n u).trans (v6_st0 m ρ c (rowOf t p) n u)
  hH1 p n u := (ins_x3 (V6 m ρ) c t p n u).trans (v6_st1 m ρ c (rowOf t p) n u)
  h4 j q := (ins_x4 (V6 m ρ) c t _).trans ((congrFun (w6_keep m ρ c main_v191 (by decide) (by decide)) _).trans (hw_v191 (W0 m ρ c) j q))
  h5 k j q := (ins_x5 (V6 m ρ) c t _).trans ((congrFun (w6_keep m ρ c main_v192 (by decide) (by decide)) _).trans (hw_v192 (W0 m ρ c) k j q))
  h6 q := (ins_x6 (V6 m ρ) c t _).trans ((congrFun (w6_keep m ρ c main_v175 (by decide) (by decide)) _).trans (hw_v175 (W0 m ρ c) q))
  h7 j q := (ins_x7 (V6 m ρ) c t _).trans ((congrFun (w6_keep m ρ c main_v193 (by decide) (by decide)) _).trans (hw_v193 (W0 m ρ c) j q))
  h8 k j q := (ins_x8 (V6 m ρ) c t _).trans ((congrFun (w6_keep m ρ c main_v194 (by decide) (by decide)) _).trans (hw_v194 (W0 m ρ c) k j q))
  h9 q := (ins_x9 (V6 m ρ) c t _).trans ((congrFun (w6_keep m ρ c main_v177 (by decide) (by decide)) _).trans (hw_v177 (W0 m ρ c) q))
  h10 k j q := (ins_x10 (V6 m ρ) c t _).trans ((congrFun (w6_keep m ρ c main_v195 (by decide) (by decide)) _).trans (hw_v195 (W0 m ρ c) k j q))
  h11 k j q := (ins_x11 (V6 m ρ) c t _).trans ((congrFun (w6_keep m ρ c main_v196 (by decide) (by decide)) _).trans (hw_v196 (W0 m ρ c) k j q))
  h12 q := (ins_x12 (V6 m ρ) c t _).trans ((congrFun (w6_keep m ρ c main_v183 (by decide) (by decide)) _).trans (hw_v183 (W0 m ρ c) q))
  h13 k j q := (ins_x13 (V6 m ρ) c t _).trans ((congrFun (w6_keep m ρ c main_v197 (by decide) (by decide)) _).trans (hw_v197 (W0 m ρ c) k j q))
  h14 k j q := (ins_x14 (V6 m ρ) c t _).trans ((congrFun (w6_keep m ρ c main_v198 (by decide) (by decide)) _).trans (hw_v198 (W0 m ρ c) k j q))
  h15 q := (ins_x15 (V6 m ρ) c t _).trans ((congrFun (w6_keep m ρ c main_v185 (by decide) (by decide)) _).trans (hw_v185 (W0 m ρ c) q))
  h16 j q := (ins_x16 (V6 m ρ) c t _).trans ((congrFun (w6_keep m ρ c main_v199 (by decide) (by decide)) _).trans (hw_v199 (W0 m ρ c) j q))
  h17 := (ins_x17 (V6 m ρ) c t _).trans ((congrFun (w6_keep m ρ c main_v190 (by decide) (by decide)) _).trans (hw_v190 (W0 m ρ c)))

theorem w7_h0 (b : Fin 64) (n : Fin 512) (u : Fin 64) :
    (W7 m ρ c (Proc.devRef .tc main_v211_1) : S64x512x64.Idx → EReal) (ix3 b n u) = H0 (A0 m c) (A1 m c) (A2 m c) (A3 m c) (A4 m c) (A5 m c) (A6 m c) b n u :=
  (congrFun (W7_arr m ρ c 19) (ix3 b n u)).trans ((r1_h0 (V6 m ρ) c b n u).trans
    ((blk_h0 (holds m ρ c ⟨b.val / 2, half_lt b⟩) ⟨b.val % 2, Nat.mod_lt _ (by decide)⟩ n u).trans
      (congrArg (fun b' => H0 (A0 m c) (A1 m c) (A2 m c) (A3 m c) (A4 m c) (A5 m c) (A6 m c) b' n u) (rowOf_pair b))))

theorem w7_h1 (b : Fin 64) (n : Fin 512) (u : Fin 64) :
    (W7 m ρ c (Proc.devRef .tc main_v211_2) : S64x512x64.Idx → EReal) (ix3 b n u) = H1 (A0 m c) (A1 m c) (A2 m c) (A3 m c) (A4 m c) (A5 m c) (A6 m c) (A7 m c) (A8 m c) (A9 m c) (A10 m c) b n u :=
  (congrFun (W7_arr m ρ c 20) (ix3 b n u)).trans ((r1_h1 (V6 m ρ) c b n u).trans
    ((blk_h1 (holds m ρ c ⟨b.val / 2, half_lt b⟩) ⟨b.val % 2, Nat.mod_lt _ (by decide)⟩ n u).trans
      (congrArg (fun b' => H1 (A0 m c) (A1 m c) (A2 m c) (A3 m c) (A4 m c) (A5 m c) (A6 m c) (A7 m c) (A8 m c) (A9 m c) (A10 m c) b' n u) (rowOf_pair b))))

theorem ker_out :
    (W8 m ρ c (Proc.devRef .tc main_v212) : S64x512.Idx → EReal)
      = R0 (A0 m c) (A1 m c) (A2 m c) (A3 m c) (A4 m c) (A5 m c) (A6 m c) (A7 m c) (A8 m c) (A9 m c) (A10 m c) (A11 m c) (A12 m c) := by
  funext i
  rw [eq_ix2 i]
  exact (hl_v212 (W7 m ρ c) (i 0) (i 1)).trans ((congrFun (W7_arr m ρ c 18) (ix3 (i 0) (i 1) 0)).trans
    ((r1_out (V6 m ρ) c (i 0) (i 1)).trans
      ((blk_out (holds m ρ c ⟨(i 0).val / 2, half_lt (i 0)⟩) ⟨(i 0).val % 2, Nat.mod_lt _ (by decide)⟩ (i 1)).trans
        (congrArg (fun b' => R0 (A0 m c) (A1 m c) (A2 m c) (A3 m c) (A4 m c) (A5 m c) (A6 m c) (A7 m c) (A8 m c) (A9 m c) (A10 m c) (A11 m c) (A12 m c) (ix2 b' (i 1))) (rowOf_pair (i 0))))))

theorem ker_hidden :
    (W8 m ρ c (Proc.devRef .tc main_v217) : S2x64x32768.Idx → EReal)
      = R1 (A0 m c) (A1 m c) (A2 m c) (A3 m c) (A4 m c) (A5 m c) (A6 m c) (A7 m c) (A8 m c) (A9 m c) (A10 m c) := by
  funext i
  have h2 : (i 2).val < 32768 := (i 2).isLt
  have hi : i = ix3 (i 0) (i 1) ⟨(⟨(i 2).val / 64, by omega⟩ : Fin 512).val * 64 + (⟨(i 2).val % 64, Nat.mod_lt _ (by decide)⟩ : Fin 64).val,
      by show (i 2).val / 64 * 64 + (i 2).val % 64 < 32768; omega⟩ :=
    (eq_ix3 i).trans (congrArg (ix3 (i 0) (i 1)) (Fin.ext (by show (i 2).val = (i 2).val / 64 * 64 + (i 2).val % 64; omega)))
  refine (congrArg (W8 m ρ c (Proc.devRef .tc main_v217) : S2x64x32768.Idx → EReal) hi).trans
    ((hl_v217 (W7 m ρ c) (i 0) (i 1) ⟨(i 2).val / 64, by omega⟩ ⟨(i 2).val % 64, Nat.mod_lt _ (by decide)⟩).trans ?_)
  unfold R1
  by_cases h0 : (i 0).val = 0
  · rw [if_pos h0, if_pos h0]; exact w7_h0 m ρ c (i 1) _ _
  · rw [if_neg h0, if_neg h0]; exact w7_h1 m ρ c (i 1) _ _

end Cert.KernelIdeal.Hand

end
-- ==== Proof.Ref.Base.lean ====
import proofs.«104790_g19069654794669_cont_sun_m_30_11_alg».proof.Proof.Ref.ReadP
-- ==== Proof.LibSsa.lean ====
import Idealize.ShloMosaic.Lib.Pipeline.Frame

namespace Idealize.ShloMosaic.StableHlo

open Idealize.ShloMosaic Idealize.SL.Sem TcCoe

variable {τ : Topo} {sig : RefSig} {Val : EltTy → Type}

/-- Single assignment: the operations write, one each and in order, the references numbered n, n + 1, … -/
def WritesFrom : ℕ → List (HloOp τ sig Val) → Prop
  | _, [] => True
  | n, op :: ops => (∃ y : Ref sig .tc, op.writes = {(Proc.devRef .tc y : DevRef τ sig)} ∧ y.idx.val = n) ∧ WritesFrom (n + 1) ops

theorem WritesFrom.drop : ∀ {n : ℕ} {ops : List (HloOp τ sig Val)} (k : ℕ), WritesFrom n ops → WritesFrom (n + k) (ops.drop k)
  | _, [], _, _ => by rw [List.drop_nil]; trivial
  | _, _ :: _, 0, h => h
  | n, _ :: _, k + 1, h => by rw [← Nat.add_assoc, Nat.add_right_comm]; exact WritesFrom.drop k h.2

variable {n : ℕ} {ops : List (HloOp τ sig Val)} (hW : WritesFrom n ops) (F0 : Valuation τ sig Val)
include hW

/-- A reference numbered below every written one holds at the end what it held at the start. -/
theorem after_keep {r : Ref sig .tc} (hr : r.idx.val < n) : after ops F0 r = F0 r := by
  induction ops generalizing n F0 with
  | nil => rfl
  | cons op ops ih =>
    obtain ⟨⟨y, hy, hn⟩, ht⟩ := hW
    rw [after_cons, ih ht _ (Nat.lt_succ_of_lt hr), HloOp.result_of_not_mem]
    rw [hy, Finset.mem_singleton]
    exact fun e => Nat.ne_of_lt hr (Proc.devRef_injective _ e ▸ hn)

variable (k : ℕ) {x a b c y : Ref sig .tc}

theorem after_eq_take (hx : x.idx.val < n + k) : after ops F0 x = after (ops.take k) F0 x := by
  conv_lhs => rw [← List.take_append_drop k ops, after_append]
  exact after_keep (hW.drop k) _ hx

theorem after_eq_result {op : HloOp τ sig Val} (hk : ops[k]? = some op) (hy : y.idx.val < n + k + 1) :
    after ops F0 y = op.result (after (ops.take k) F0) y := by
  obtain ⟨hlt, rfl⟩ := List.getElem?_eq_some_iff.mp hk
  conv_lhs => rw [← List.take_append_drop k ops, after_append, List.drop_eq_getElem_cons hlt, after_cons]
  exact after_keep (hW.drop (k + 1)) _ hy

variable {F0} {vx : x.ty.Contents Val} {va : a.ty.Contents Val} {vb : b.ty.Contents Val} {vc : c.ty.Contents Val}
  {v : y.ty.Contents Val}

/-- The k-th operation's result ends at its function of what the operands end at: nothing later writes either. -/
theorem WritesFrom.nullary {u hy} (hk : ops[k]? = some (nullary y u hy) := by rfl)
    (hy' : y.idx.val < n + k + 1 := by decide) (hv : u = v := by rfl) : after ops F0 y = v := by
  subst hv
  rw [after_eq_result hW F0 k hk hy']
  exact nullary_result y u hy _

theorem WritesFrom.unary {f : x.ty.Contents Val → y.ty.Contents Val} {hx hy} (ex : after ops F0 x = vx)
    (hk : ops[k]? = some (unary x y f hx hy) := by rfl) (hx' : x.idx.val < n + k := by decide)
    (hy' : y.idx.val < n + k + 1 := by decide) (hv : f vx = v := by rfl) : after ops F0 y = v := by
  subst ex hv
  rw [after_eq_result hW F0 k hk hy', after_eq_take hW F0 k hx']
  exact unary_result x y f hx hy _

theorem WritesFrom.reshape {he : x.ty.elt = y.ty.elt} {hn : x.ty.shape.ShapeCasts y.ty.shape} {hx hy}
    (ex : after ops F0 x = vx) (hk : ops[k]? = some (reshape x y he hn hx hy) := by rfl)
    (hx' : x.idx.val < n + k := by decide) (hy' : y.idx.val < n + k + 1 := by decide)
    (hv : (fun i => he ▸ shapeCast y.ty.shape vx hn i) = v := by rfl) : after ops F0 y = v := by
  subst ex hv
  rw [after_eq_result hW F0 k hk hy', after_eq_take hW F0 k hx']
  exact reshape_result x y he hn hx hy _

theorem WritesFrom.binary {f : a.ty.Contents Val → b.ty.Contents Val → y.ty.Contents Val} {ha hb hy}
    (ea : after ops F0 a = va) (eb : after ops F0 b = vb) (hk : ops[k]? = some (binary a b y f ha hb hy) := by rfl)
    (ha' : a.idx.val < n + k := by decide) (hb' : b.idx.val < n + k := by decide)
    (hy' : y.idx.val < n + k + 1 := by decide) (hv : f va vb = v := by rfl) : after ops F0 y = v := by
  subst ea eb hv
  rw [after_eq_result hW F0 k hk hy', after_eq_take hW F0 k ha', after_eq_take hW F0 k hb']
  exact binary_result a b y f ha hb hy _

theorem WritesFrom.ternary {f : c.ty.Contents Val → a.ty.Contents Val → b.ty.Contents Val → y.ty.Contents Val}
    {hc ha hb hy} (ec : after ops F0 c = vc) (ea : after ops F0 a = va) (eb : after ops F0 b = vb)
    (hk : ops[k]? = some (ternary c a b y f hc ha hb hy) := by rfl) (hc' : c.idx.val < n + k := by decide)
    (ha' : a.idx.val < n + k := by decide) (hb' : b.idx.val < n + k := by decide)
    (hy' : y.idx.val < n + k + 1 := by decide) (hv : f vc va vb = v := by rfl) : after ops F0 y = v := by
  subst ec ea eb hv
  rw [after_eq_result hW F0 k hk hy', after_eq_take hW F0 k hc', after_eq_take hW F0 k ha', after_eq_take hW F0 k hb']
  exact ternary_result c a b y f hc ha hb hy _

/-- Three operands given as a literal family, the family of their contents laid out entry by entry. -/
theorem WritesFrom.nary3
    {f : ((j : Fin 3) → ((![x, a, b] : Fin 3 → Ref sig .tc) j).ty.Contents Val) → y.ty.Contents Val} {hxs hy}
    (ex : after ops F0 x = vx) (ea : after ops F0 a = va) (eb : after ops F0 b = vb)
    (hk : ops[k]? = some (nary ![x, a, b] y f hxs hy) := by rfl) (hx' : x.idx.val < n + k := by decide)
    (ha' : a.idx.val < n + k := by decide) (hb' : b.idx.val < n + k := by decide)
    (hy' : y.idx.val < n + k + 1 := by decide)
    (hv : f (Fin.cons vx (Fin.cons va (Fin.cons vb fun i => i.elim0))) = v := by rfl) : after ops F0 y = v := by
  subst ex ea eb hv
  rw [after_eq_result hW F0 k hk hy', nary_result]
  congr 1; funext j
  fin_cases j
  exacts [(after_eq_take hW F0 k hx').symm, (after_eq_take hW F0 k ha').symm, (after_eq_take hW F0 k hb').symm]

end Idealize.ShloMosaic.StableHlo
-- ==== Proof.Ref.StageBase.lean ====
import proofs.«104790_g19069654794669_cont_sun_m_30_11_alg».proof.Proof.Ref.RunP
import proofs.«104790_g19069654794669_cont_sun_m_30_11_alg».proof.Proof.Ref.Base
import proofs.«104790_g19069654794669_cont_sun_m_30_11_alg».proof.Proof.LibSsa

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

/-- The thirteen arguments are numbered 0 to 12, and the k-th operation writes the reference numbered 13 + k. -/
theorem ssa : WritesFrom 13 (RunP.ops (F := Ideal)) := by
  repeat' first | refine ⟨⟨_, rfl, rfl⟩, ?_⟩ | trivial

abbrev res (F0 : Valuation τ sig (Elt Ideal)) (r : Ref sig .tc) := after RunP.ops F0 r

theorem st_arg {F0 : Valuation τ sig (Elt Ideal)} (r : Ref sig .tc) (hr : r.idx.val < 13 := by decide) : res F0 r = F0 r :=
  after_keep ssa F0 hr

end Cert.Ref

end
-- ==== Proof.Ref.StageTable.lean ====
import proofs.«104790_g19069654794669_cont_sun_m_30_11_alg».proof.Proof.Ref.StageBase

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable (F0 : Valuation τ sig (Elt Ideal))

theorem st_main_v30 : res F0 main_v30 = val_main_v30 (F0 main_arg2) := by
  have v0 : res F0 main_v0 = val_main_v0 _ := ssa.unary 0 (st_arg main_arg2)
  have v1 : res F0 main_v1 = val_main_v1 _ := ssa.binary 1 (st_arg main_arg2) v0
  have cst : res F0 main_cst = val_main_cst := ssa.nullary 2
  have v2 : res F0 main_v2 = val_main_v2 _ := ssa.binary 3 v1 cst
  have cst_0 : res F0 main_cst_0 = val_main_cst_0 := ssa.nullary 4
  have v3 : res F0 main_v3 = val_main_v3 := ssa.unary 5 cst_0
  have v4 : res F0 main_v4 = val_main_v4 _ := ssa.binary 6 v2 v3
  have v5 : res F0 main_v5 = val_main_v5 _ := ssa.unary 7 v2
  have cst_1 : res F0 main_cst_1 = val_main_cst_1 := ssa.nullary 8
  have v6 : res F0 main_v6 = val_main_v6 := ssa.unary 9 cst_1
  have v7 : res F0 main_v7 = val_main_v7 _ := ssa.binary 10 v6 v5
  have cst_2 : res F0 main_cst_2 = val_main_cst_2 := ssa.nullary 11
  have call0_v0 : res F0 main_call0_v0 = val_main_call0_v0 := ssa.unary 12 cst_2
  have call0_v1 : res F0 main_call0_v1 = val_main_call0_v1 := ssa.unary 13 call0_v0
  have v8 : res F0 main_v8 = val_main_v8 _ := ssa.ternary 14 v4 v7 call0_v1
  have v9 : res F0 main_v9 = val_main_v9 := ssa.nullary 15
  have v10 : res F0 main_v10 = val_main_v10 := ssa.nullary 16
  have c : res F0 main_c = val_main_c := ssa.nullary 17
  have v11 : res F0 main_v11 = val_main_v11 := ssa.unary 18 c
  have v12 : res F0 main_v12 = val_main_v12 := ssa.binary 19 v9 v11
  have v13 : res F0 main_v13 = val_main_v13 := ssa.binary 20 v12 v10
  have v14 : res F0 main_v14 = val_main_v14 := ssa.unary 21 v13
  have v15 : res F0 main_v15 = val_main_v15 _ := ssa.unary 22 v8
  have v16 : res F0 main_v16 = val_main_v16 _ := ssa.unary 23 v15
  have v17 : res F0 main_v17 = val_main_v17 _ := ssa.binary 24 v16 v1
  have v18 : res F0 main_v18 = val_main_v18 _ := ssa.unary 25 v8
  have v19 : res F0 main_v19 = val_main_v19 _ := ssa.unary 26 v18
  have v20 : res F0 main_v20 = val_main_v20 _ := ssa.binary 27 v17 v19
  have v21 : res F0 main_v21 = val_main_v21 _ := ssa.binary 28 v14 v20
  have cst_3 : res F0 main_cst_3 = val_main_cst_3 := ssa.nullary 29
  have v22 : res F0 main_v22 = val_main_v22 := ssa.unary 30 cst_3
  have v23 : res F0 main_v23 = val_main_v23 _ := ssa.binary 31 v22 v21
  have v24 : res F0 main_v24 = val_main_v24 := ssa.nullary 32
  have v25 : res F0 main_v25 = val_main_v25 := ssa.nullary 33
  have c_4 : res F0 main_c_4 = val_main_c_4 := ssa.nullary 34
  have v26 : res F0 main_v26 = val_main_v26 := ssa.unary 35 c_4
  have v27 : res F0 main_v27 = val_main_v27 := ssa.binary 36 v24 v26
  have v28 : res F0 main_v28 = val_main_v28 := ssa.binary 37 v27 v25
  have v29 : res F0 main_v29 = val_main_v29 := ssa.unary 38 v28
  exact ssa.binary 39 v23 v29

theorem st_main_v94 : res F0 main_v94 = val_main_v94 (F0 main_arg0) (F0 main_arg1) (F0 main_arg2) (F0 main_arg3) (F0 main_arg4) (F0 main_arg5) (F0 main_arg6) := by
  have v30 := st_main_v30 F0
  have v31 : res F0 main_v31 = val_main_v31 _ := ssa.unary 40 (st_arg main_arg1)
  have v32 : res F0 main_v32 = val_main_v32 _ := ssa.reshape 41 v31
  have v33 : res F0 main_v33 = val_main_v33 _ := ssa.reshape 42 (st_arg main_arg0)
  have v34 : res F0 main_v34 = val_main_v34 _ := ssa.reshape 43 v32
  have v35 : res F0 main_v35 = val_main_v35 _ _ := ssa.binary 44 v33 v34
  have v36 : res F0 main_v36 = val_main_v36 _ _ := ssa.unary 45 v35
  have v37 : res F0 main_v37 = val_main_v37 _ _ := ssa.reshape 46 v36
  have v38 : res F0 main_v38 = val_main_v38 _ _ _ := ssa.binary 47 v30 v37
  have v39 : res F0 main_v39 = val_main_v39 _ _ _ := ssa.binary 48 v30 v38
  have cst_5 : res F0 main_cst_5 = val_main_cst_5 := ssa.nullary 49
  have v40 : res F0 main_v40 = val_main_v40 := ssa.unary 50 cst_5
  have v41 : res F0 main_v41 = val_main_v41 _ _ _ := ssa.binary 51 v40 v39
  have v42 : res F0 main_v42 = val_main_v42 _ _ _ := ssa.binary 52 v41 v37
  have v43 : res F0 main_v43 = val_main_v43 _ _ := ssa.unary 53 v37
  have v44 : res F0 main_v44 = val_main_v44 _ _ _ := ssa.unary 54 v38
  have v45 : res F0 main_v45 = val_main_v45 _ _ _ := ssa.unary 55 v42
  have v46 : res F0 main_v46 = val_main_v46 _ _ _ := ssa.nary3 56 v43 v44 v45
  have v47 : res F0 main_v47 = val_main_v47 _ _ _ := ssa.reshape 57 v46
  have v48 : res F0 main_v48 = val_main_v48 _ _ _ := ssa.unary 58 v47
  have v49 : res F0 main_v49 = val_main_v49 _ _ _ := ssa.reshape 59 v48
  have v50 : res F0 main_v50 = val_main_v50 _ _ _ _ := ssa.binary 60 v49 (st_arg main_arg3)
  have v51 : res F0 main_v51 = val_main_v51 _ := ssa.unary 61 (st_arg main_arg4)
  have v52 : res F0 main_v52 = val_main_v52 _ := ssa.unary 62 v51
  have v53 : res F0 main_v53 = val_main_v53 _ _ _ _ _ := ssa.binary 63 v50 v52
  have v54 : res F0 main_v54 = val_main_v54 _ _ _ _ _ := ssa.reshape 64 v53
  have v55 : res F0 main_v55 = val_main_v55 _ _ _ _ _ := ssa.unary 65 v54
  have v56 : res F0 main_v56 = val_main_v56 _ _ _ _ _ := ssa.unary 66 v55
  have cst_6 : res F0 main_cst_6 = val_main_cst_6 := ssa.nullary 67
  have v57 : res F0 main_v57 = val_main_v57 := ssa.unary 68 cst_6
  have v58 : res F0 main_v58 = val_main_v58 _ _ _ _ _ := ssa.binary 69 v57 v56
  have cst_7 : res F0 main_cst_7 = val_main_cst_7 := ssa.nullary 70
  have v59 : res F0 main_v59 = val_main_v59 := ssa.unary 71 cst_7
  have v60 : res F0 main_v60 = val_main_v60 _ _ _ _ _ := ssa.binary 72 v59 v58
  have v61 : res F0 main_v61 = val_main_v61 _ _ _ _ _ := ssa.reshape 73 v60
  have v62 : res F0 main_v62 = val_main_v62 _ _ _ _ _ := ssa.unary 74 v61
  have v63 : res F0 main_v63 = val_main_v63 _ _ _ _ _ := ssa.reshape 75 v62
  have v64 : res F0 main_v64 = val_main_v64 _ _ _ _ _ := ssa.unary 76 v61
  have v65 : res F0 main_v65 = val_main_v65 _ _ _ _ _ := ssa.reshape 77 v64
  have v66 : res F0 main_v66 = val_main_v66 _ _ _ _ _ := ssa.binary 78 v63 v32
  have v67 : res F0 main_v67 = val_main_v67 _ := ssa.reshape 79 (st_arg main_arg0)
  have v68 : res F0 main_v68 = val_main_v68 _ _ _ _ _ := ssa.reshape 80 v66
  have v69 : res F0 main_v69 = val_main_v69 _ _ _ _ _ := ssa.binary 81 v67 v68
  have v70 : res F0 main_v70 = val_main_v70 _ _ _ _ _ := ssa.unary 82 v69
  have v71 : res F0 main_v71 = val_main_v71 _ _ _ _ _ := ssa.reshape 83 v70
  have v72 : res F0 main_v72 = val_main_v72 _ _ _ _ _ := ssa.binary 84 v30 v71
  have v73 : res F0 main_v73 = val_main_v73 _ _ _ _ _ := ssa.binary 85 v30 v72
  have cst_8 : res F0 main_cst_8 = val_main_cst_8 := ssa.nullary 86
  have v74 : res F0 main_v74 = val_main_v74 := ssa.unary 87 cst_8
  have v75 : res F0 main_v75 = val_main_v75 _ _ _ _ _ := ssa.binary 88 v74 v73
  have v76 : res F0 main_v76 = val_main_v76 _ _ _ _ _ := ssa.binary 89 v75 v71
  have v77 : res F0 main_v77 = val_main_v77 _ _ _ _ _ := ssa.unary 90 v71
  have v78 : res F0 main_v78 = val_main_v78 _ _ _ _ _ := ssa.unary 91 v72
  have v79 : res F0 main_v79 = val_main_v79 _ _ _ _ _ := ssa.unary 92 v76
  have v80 : res F0 main_v80 = val_main_v80 _ _ _ _ _ := ssa.nary3 93 v77 v78 v79
  have v81 : res F0 main_v81 = val_main_v81 _ _ _ _ _ := ssa.reshape 94 v80
  have v82 : res F0 main_v82 = val_main_v82 _ _ _ _ _ := ssa.unary 95 v81
  have v83 : res F0 main_v83 = val_main_v83 _ _ _ _ _ := ssa.reshape 96 v82
  have v84 : res F0 main_v84 = val_main_v84 _ _ _ _ _ _ := ssa.binary 97 v83 (st_arg main_arg5)
  have v85 : res F0 main_v85 = val_main_v85 _ := ssa.unary 98 (st_arg main_arg6)
  have v86 : res F0 main_v86 = val_main_v86 _ := ssa.unary 99 v85
  have v87 : res F0 main_v87 = val_main_v87 _ _ _ _ _ _ _ := ssa.binary 100 v84 v86
  have v88 : res F0 main_v88 = val_main_v88 _ _ _ _ _ _ _ := ssa.reshape 101 v87
  have v89 : res F0 main_v89 = val_main_v89 _ _ _ _ _ _ _ := ssa.unary 102 v88
  have v90 : res F0 main_v90 = val_main_v90 _ _ _ _ _ := ssa.binary 103 v65 v32
  have cst_9 : res F0 main_cst_9 = val_main_cst_9 := ssa.nullary 104
  have v91 : res F0 main_v91 = val_main_v91 := ssa.unary 105 cst_9
  have v92 : res F0 main_v92 = val_main_v92 _ _ _ _ _ := ssa.binary 106 v91 v65
  have v93 : res F0 main_v93 = val_main_v93 _ _ _ _ _ _ _ := ssa.binary 107 v92 v89
  exact ssa.binary 108 v90 v93

theorem st_main_v158 : res F0 main_v158 = val_main_v158 (F0 main_arg0) (F0 main_arg1) (F0 main_arg2) (F0 main_arg3) (F0 main_arg4) (F0 main_arg5) (F0 main_arg6) (F0 main_arg7) (F0 main_arg8) (F0 main_arg9) (F0 main_arg10) := by
  have v30 := st_main_v30 F0
  have v94 := st_main_v94 F0
  have v95 : res F0 main_v95 = val_main_v95 _ := ssa.unary 109 (st_arg main_arg1)
  have v96 : res F0 main_v96 = val_main_v96 _ := ssa.reshape 110 v95
  have v97 : res F0 main_v97 = val_main_v97 _ _ _ _ _ _ _ := ssa.reshape 111 v94
  have v98 : res F0 main_v98 = val_main_v98 _ := ssa.reshape 112 v96
  have v99 : res F0 main_v99 = val_main_v99 _ _ _ _ _ _ _ := ssa.binary 113 v97 v98
  have v100 : res F0 main_v100 = val_main_v100 _ _ _ _ _ _ _ := ssa.unary 114 v99
  have v101 : res F0 main_v101 = val_main_v101 _ _ _ _ _ _ _ := ssa.reshape 115 v100
  have v102 : res F0 main_v102 = val_main_v102 _ _ _ _ _ _ _ := ssa.binary 116 v30 v101
  have v103 : res F0 main_v103 = val_main_v103 _ _ _ _ _ _ _ := ssa.binary 117 v30 v102
  have cst_10 : res F0 main_cst_10 = val_main_cst_10 := ssa.nullary 118
  have v104 : res F0 main_v104 = val_main_v104 := ssa.unary 119 cst_10
  have v105 : res F0 main_v105 = val_main_v105 _ _ _ _ _ _ _ := ssa.binary 120 v104 v103
  have v106 : res F0 main_v106 = val_main_v106 _ _ _ _ _ _ _ := ssa.binary 121 v105 v101
  have v107 : res F0 main_v107 = val_main_v107 _ _ _ _ _ _ _ := ssa.unary 122 v101
  have v108 : res F0 main_v108 = val_main_v108 _ _ _ _ _ _ _ := ssa.unary 123 v102
  have v109 : res F0 main_v109 = val_main_v109 _ _ _ _ _ _ _ := ssa.unary 124 v106
  have v110 : res F0 main_v110 = val_main_v110 _ _ _ _ _ _ _ := ssa.nary3 125 v107 v108 v109
  have v111 : res F0 main_v111 = val_main_v111 _ _ _ _ _ _ _ := ssa.reshape 126 v110
  have v112 : res F0 main_v112 = val_main_v112 _ _ _ _ _ _ _ := ssa.unary 127 v111
  have v113 : res F0 main_v113 = val_main_v113 _ _ _ _ _ _ _ := ssa.reshape 128 v112
  have v114 : res F0 main_v114 = val_main_v114 _ _ _ _ _ _ _ _ := ssa.binary 129 v113 (st_arg main_arg7)
  have v115 : res F0 main_v115 = val_main_v115 _ := ssa.unary 130 (st_arg main_arg8)
  have v116 : res F0 main_v116 = val_main_v116 _ := ssa.unary 131 v115
  have v117 : res F0 main_v117 = val_main_v117 _ _ _ _ _ _ _ _ _ := ssa.binary 132 v114 v116
  have v118 : res F0 main_v118 = val_main_v118 _ _ _ _ _ _ _ _ _ := ssa.reshape 133 v117
  have v119 : res F0 main_v119 = val_main_v119 _ _ _ _ _ _ _ _ _ := ssa.unary 134 v118
  have v120 : res F0 main_v120 = val_main_v120 _ _ _ _ _ _ _ _ _ := ssa.unary 135 v119
  have cst_11 : res F0 main_cst_11 = val_main_cst_11 := ssa.nullary 136
  have v121 : res F0 main_v121 = val_main_v121 := ssa.unary 137 cst_11
  have v122 : res F0 main_v122 = val_main_v122 _ _ _ _ _ _ _ _ _ := ssa.binary 138 v121 v120
  have cst_12 : res F0 main_cst_12 = val_main_cst_12 := ssa.nullary 139
  have v123 : res F0 main_v123 = val_main_v123 := ssa.unary 140 cst_12
  have v124 : res F0 main_v124 = val_main_v124 _ _ _ _ _ _ _ _ _ := ssa.binary 141 v123 v122
  have v125 : res F0 main_v125 = val_main_v125 _ _ _ _ _ _ _ _ _ := ssa.reshape 142 v124
  have v126 : res F0 main_v126 = val_main_v126 _ _ _ _ _ _ _ _ _ := ssa.unary 143 v125
  have v127 : res F0 main_v127 = val_main_v127 _ _ _ _ _ _ _ _ _ := ssa.reshape 144 v126
  have v128 : res F0 main_v128 = val_main_v128 _ _ _ _ _ _ _ _ _ := ssa.unary 145 v125
  have v129 : res F0 main_v129 = val_main_v129 _ _ _ _ _ _ _ _ _ := ssa.reshape 146 v128
  have v130 : res F0 main_v130 = val_main_v130 _ _ _ _ _ _ _ _ _ := ssa.binary 147 v127 v96
  have v131 : res F0 main_v131 = val_main_v131 _ _ _ _ _ _ _ := ssa.reshape 148 v94
  have v132 : res F0 main_v132 = val_main_v132 _ _ _ _ _ _ _ _ _ := ssa.reshape 149 v130
  have v133 : res F0 main_v133 = val_main_v133 _ _ _ _ _ _ _ _ _ := ssa.binary 150 v131 v132
  have v134 : res F0 main_v134 = val_main_v134 _ _ _ _ _ _ _ _ _ := ssa.unary 151 v133
  have v135 : res F0 main_v135 = val_main_v135 _ _ _ _ _ _ _ _ _ := ssa.reshape 152 v134
  have v136 : res F0 main_v136 = val_main_v136 _ _ _ _ _ _ _ _ _ := ssa.binary 153 v30 v135
  have v137 : res F0 main_v137 = val_main_v137 _ _ _ _ _ _ _ _ _ := ssa.binary 154 v30 v136
  have cst_13 : res F0 main_cst_13 = val_main_cst_13 := ssa.nullary 155
  have v138 : res F0 main_v138 = val_main_v138 := ssa.unary 156 cst_13
  have v139 : res F0 main_v139 = val_main_v139 _ _ _ _ _ _ _ _ _ := ssa.binary 157 v138 v137
  have v140 : res F0 main_v140 = val_main_v140 _ _ _ _ _ _ _ _ _ := ssa.binary 158 v139 v135
  have v141 : res F0 main_v141 = val_main_v141 _ _ _ _ _ _ _ _ _ := ssa.unary 159 v135
  have v142 : res F0 main_v142 = val_main_v142 _ _ _ _ _ _ _ _ _ := ssa.unary 160 v136
  have v143 : res F0 main_v143 = val_main_v143 _ _ _ _ _ _ _ _ _ := ssa.unary 161 v140
  have v144 : res F0 main_v144 = val_main_v144 _ _ _ _ _ _ _ _ _ := ssa.nary3 162 v141 v142 v143
  have v145 : res F0 main_v145 = val_main_v145 _ _ _ _ _ _ _ _ _ := ssa.reshape 163 v144
  have v146 : res F0 main_v146 = val_main_v146 _ _ _ _ _ _ _ _ _ := ssa.unary 164 v145
  have v147 : res F0 main_v147 = val_main_v147 _ _ _ _ _ _ _ _ _ := ssa.reshape 165 v146
  have v148 : res F0 main_v148 = val_main_v148 _ _ _ _ _ _ _ _ _ _ := ssa.binary 166 v147 (st_arg main_arg9)
  have v149 : res F0 main_v149 = val_main_v149 _ := ssa.unary 167 (st_arg main_arg10)
  have v150 : res F0 main_v150 = val_main_v150 _ := ssa.unary 168 v149
  have v151 : res F0 main_v151 = val_main_v151 _ _ _ _ _ _ _ _ _ _ _ := ssa.binary 169 v148 v150
  have v152 : res F0 main_v152 = val_main_v152 _ _ _ _ _ _ _ _ _ _ _ := ssa.reshape 170 v151
  have v153 : res F0 main_v153 = val_main_v153 _ _ _ _ _ _ _ _ _ _ _ := ssa.unary 171 v152
  have v154 : res F0 main_v154 = val_main_v154 _ _ _ _ _ _ _ _ _ := ssa.binary 172 v129 v96
  have cst_14 : res F0 main_cst_14 = val_main_cst_14 := ssa.nullary 173
  have v155 : res F0 main_v155 = val_main_v155 := ssa.unary 174 cst_14
  have v156 : res F0 main_v156 = val_main_v156 _ _ _ _ _ _ _ _ _ := ssa.binary 175 v155 v129
  have v157 : res F0 main_v157 = val_main_v157 _ _ _ _ _ _ _ _ _ _ _ := ssa.binary 176 v156 v153
  exact ssa.binary 177 v154 v157

theorem st_main_v164 : res F0 main_v164 = val_main_v164 (F0 main_arg0) (F0 main_arg1) (F0 main_arg2) (F0 main_arg3) (F0 main_arg4) (F0 main_arg5) (F0 main_arg6) (F0 main_arg7) (F0 main_arg8) (F0 main_arg9) (F0 main_arg10) (F0 main_arg11) (F0 main_arg12) := by
  have v158 := st_main_v158 F0
  have v159 : res F0 main_v159 = val_main_v159 _ _ _ _ _ _ _ _ _ _ _ := ssa.reshape 178 v158
  have v160 : res F0 main_v160 = val_main_v160 _ _ _ _ _ _ _ _ _ _ _ _ := ssa.binary 179 v159 (st_arg main_arg11)
  have v161 : res F0 main_v161 = val_main_v161 _ := ssa.unary 180 (st_arg main_arg12)
  have v162 : res F0 main_v162 = val_main_v162 _ := ssa.unary 181 v161
  have v163 : res F0 main_v163 = val_main_v163 _ _ _ _ _ _ _ _ _ _ _ _ _ := ssa.binary 182 v160 v162
  exact ssa.reshape 183 v163

theorem st_main_v167 : res F0 main_v167 = val_main_v167 (F0 main_arg0) (F0 main_arg1) (F0 main_arg2) (F0 main_arg3) (F0 main_arg4) (F0 main_arg5) (F0 main_arg6) (F0 main_arg7) (F0 main_arg8) (F0 main_arg9) (F0 main_arg10) := by
  have v94 := st_main_v94 F0
  have v158 := st_main_v158 F0
  have v165 : res F0 main_v165 = val_main_v165 _ _ _ _ _ _ _ := ssa.unary 184 v94
  have v166 : res F0 main_v166 = val_main_v166 _ _ _ _ _ _ _ _ _ _ _ := ssa.unary 185 v158
  exact ssa.binary 186 v165 v166

end Cert.Ref

end
-- ==== Proof.Ref.Stages.lean ====
import proofs.«104790_g19069654794669_cont_sun_m_30_11_alg».proof.Proof.Ref.StageTable

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v164) = val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v167) = val_main_v167 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono
    (fun _ h c => ⟨(h c _).trans (st_main_v164 _), (h c _).trans (st_main_v167 _), (h c _).trans (st_arg _),
      (h c _).trans (st_arg _), (h c _).trans (st_arg _), (h c _).trans (st_arg _), (h c _).trans (st_arg _),
      (h c _).trans (st_arg _), (h c _).trans (st_arg _), (h c _).trans (st_arg _), (h c _).trans (st_arg _),
      (h c _).trans (st_arg _), (h c _).trans (st_arg _), (h c _).trans (st_arg _), (h c _).trans (st_arg _)⟩)
    (run_seq RunP.scopedRefs_eq RunP.scopedSems_eq defs main (fun _ => RunP.ops) RunP.main_eq (fun _ => RunP.ops_sub) m ρ
      fun _ => List.forall_iff_forall_mem.mp (by repeat' constructor))

end Cert.Ref

end
-- ==== Proof.Ref.Sup.lean ====
import proofs.«104790_g19069654794669_cont_sun_m_30_11_alg».proof.Proof.Ref.Base
import proofs.«104790_g19069654794669_cont_sun_m_30_11_alg».proof.Proof.Adapt
import Idealize.ShloMosaic.Lib.IdealHost
import Idealize.ShloMosaic.Lib.StableHlo.Predicate

noncomputable section

namespace Cert.Ref

open Cert.ReferenceIdeal Cert.ReferenceIdeal.Gen Cert.ReferenceIdeal.ReadP Idealize.ShloMosaic Idealize.ShloMosaic.TcCoe Idealize.ShloMosaic.ValueIdx
open Cert.Adapt
open scoped BigOperators

-- at x = ⊥ both sides are ⊤, at x = ⊤ both are ⊥, at a real it is arithmetic
private theorem shift_cancel (e : ℝ) (x : EReal) : 1 * ((e : EReal) - x) - (e : EReal) = -x := by
  rw [one_mul]
  induction x using EReal.rec with
  | bot => simp
  | top => simp
  | coe r =>
    rw [← EReal.coe_sub, ← EReal.coe_sub, ← EReal.coe_neg]
    congr 1; ring

-- row and column numbers are below 512, so distinct numbers are distinct words
private theorem eye_word (i j : Fin 512) :
    (((IntOp.cmpi .eq (IntOp.addi (BitVec.ofNat 32 i.val) 0#32) (BitVec.ofNat 32 j.val)).toNat : ℝ) : EReal)
      = (((if i = j then 1 else 0 : ℝ)) : EReal) := by
  have hi := i.isLt
  have hj := j.isLt
  by_cases h : i = j
  · subst h
    rw [if_pos rfl]
    have : IntOp.cmpi .eq (IntOp.addi (BitVec.ofNat 32 i.val) 0#32) (BitVec.ofNat 32 i.val) = 1#1 := by
      rw [StableHlo.Predicate.cmpi_eq_iff]; simp [IntOp.addi]
    rw [this]; simp
  · rw [if_neg h]
    have : IntOp.cmpi .eq (IntOp.addi (BitVec.ofNat 32 i.val) 0#32) (BitVec.ofNat 32 j.val) = 0#1 := by
      refine eq_zero_of_ne_one fun he => h ?_
      rw [StableHlo.Predicate.cmpi_eq_iff] at he
      have := congrArg BitVec.toNat he
      simp only [IntOp.addi, BitVec.add_zero, BitVec.toNat_ofNat] at this
      apply Fin.ext; omega
    rw [this]; simp

private theorem select_pos (d a b : EReal) :
    Scalar.select (Ideal.cmp .ogt d 0) a b = if 0 < d then a else b := by
  unfold Scalar.select Ideal.cmp
  by_cases h : 0 < d <;> simp [h]

private theorem ref_amax (x2 : (⟨S512x512, .f32⟩ : BufTy).Contents (Elt Ideal)) (i j : Fin 512) :
    val_main_v1 (F := Ideal) x2 (ix2 i j) = Spec.amax (mat x2) i j := by
  rw [val_main_v1_apply, val_main_v0_apply, show idx_main_v0 (ix2 i j) = ix2 j i from eq_ix2 _]
  rfl

private theorem ref_deg (x2 : (⟨S512x512, .f32⟩ : BufTy).Contents (Elt Ideal)) (i : Fin 512) :
    val_main_v2 (F := Ideal) x2 (ix1 i) = Spec.deg (mat x2) i := by
  rw [val_main_v2_apply, val_main_cst_apply, Ideal.ofBits_def, Ideal.ofBits_zero_f32, zero_add]
  unfold Spec.deg
  exact Finset.sum_congr rfl fun k _ => by rw [show idx_main_v2 (ix1 i) k = ix2 i k from eq_ix2 _, ref_amax]

private theorem ref_dis (x2 : (⟨S512x512, .f32⟩ : BufTy).Contents (Elt Ideal)) (i : Fin 512) :
    val_main_v8 (F := Ideal) x2 (ix1 i) = Spec.dis (mat x2) i := by
  rw [val_main_v8_apply, val_main_v4_apply, val_main_v3_apply, val_main_cst_0_apply, val_main_v7_apply, val_main_v6_apply,
    val_main_cst_1_apply, val_main_v5_apply, val_main_call0_v1_apply, val_main_call0_v0_apply, val_main_cst_2_apply, ref_deg]
  simp only [Ideal.ofBits_def, Ideal.ofBits_zero_f32, Ideal.ofBits_one_f32, Ideal.cmpf_def, Ideal.hostDivf_def,
    Ideal.hostUnary_sqrt_def]
  rw [select_pos]
  rfl

private theorem ref_eye (i j : Fin 512) :
    val_main_v14 (F := Ideal) (ix2 i j) = (((if i = j then 1 else 0 : ℝ)) : EReal) := by
  rw [val_main_v14_apply, val_main_v13_apply, val_main_v12_apply, val_main_v9_apply, val_main_v11_apply, val_main_c_apply,
    val_main_v10_apply]
  exact eye_word i j

private theorem ref_eye' (i j : Fin 512) :
    val_main_v29 (F := Ideal) (ix2 i j) = (((if i = j then 1 else 0 : ℝ)) : EReal) := by
  rw [val_main_v29_apply, val_main_v28_apply, val_main_v27_apply, val_main_v24_apply, val_main_v26_apply, val_main_c_4_apply,
    val_main_v25_apply]
  exact eye_word i j

theorem ref_sup (x2 : (⟨S512x512, .f32⟩ : BufTy).Contents (Elt Ideal)) (i j : Fin 512) :
    val_main_v30 (F := Ideal) x2 (ix2 i j) = Spec.sup (mat x2) i j := by
  rw [val_main_v30_apply, val_main_v23_apply, val_main_v22_apply, val_main_cst_3_apply, val_main_v21_apply, val_main_v20_apply,
    val_main_v17_apply, val_main_v16_apply, val_main_v15_apply, val_main_v19_apply, val_main_v18_apply,
    show idx_main_v15 (idx_main_v16 (ix2 i j)) = ix1 i from eq_ix1 _, show idx_main_v18 (idx_main_v19 (ix2 i j)) = ix1 j from eq_ix1 _,
    ref_eye, ref_eye', ref_dis, ref_dis, ref_amax]
  simp only [Ideal.ofBits_def, Ideal.ofBits_one_f32, Ideal.subf_def, Ideal.mulf_def]
  exact shift_cancel _ _

theorem f32_two : Ideal.ofBits .f32 0x40000000#32 = 2 := by
  rw [show (2 : EReal) = ((2 : ℝ) : EReal) by norm_cast]
  simp [Ideal.ofBits, Ideal.ieee, -EReal.coe_mul]; norm_num

abbrev rowIx (b : Fin 64) (n : Fin 512) : Fin 32768 := ⟨b.val * 512 + n.val, by have := b.isLt; have := n.isLt; omega⟩
abbrev posIx (m : Fin 512) (u : Fin 64) : Fin 32768 := ⟨m.val * 64 + u.val, by have := m.isLt; have := u.isLt; omega⟩
abbrev col65 (f : Fin 65) (b : Fin 64) : Fin 4160 := ⟨f.val * 64 + b.val, by have := f.isLt; have := b.isLt; omega⟩
abbrev col128 (f : Fin 128) (b : Fin 64) : Fin 8192 := ⟨f.val * 64 + b.val, by have := f.isLt; have := b.isLt; omega⟩

theorem unflat (b : Fin 64) (m : Fin 512) (u : Fin 64) : idx_main_v34 (ix3 b m u) = ix2 b (posIx m u) :=
  funext fun a => Fin.ext (by
    have := b.isLt; have := m.isLt; have := u.isLt
    match a with
    | ⟨0, _⟩ => show ((b.val * 512 + m.val) * 64 + u.val) / 32768 = b.val; omega
    | ⟨1, _⟩ => show ((b.val * 512 + m.val) * 64 + u.val) % 32768 = m.val * 64 + u.val; omega)

theorem unit_last (b : Fin 64) (m : Fin 512) : idx_main_v33 (ix3 b m 0) = ix2 b m :=
  funext fun a => Fin.ext (by
    have := b.isLt; have := m.isLt
    match a with
    | ⟨0, _⟩ => show ((b.val * 512 + m.val) * 1 + 0) / 512 = b.val; omega
    | ⟨1, _⟩ => show ((b.val * 512 + m.val) * 1 + 0) % 512 = m.val; omega)

theorem flat65 (m : Fin 512) (f : Fin 65) (b : Fin 64) : idx_main_v36 (idx_main_v37 (ix2 m (col65 f b))) = ix3 b m f :=
  funext fun a => Fin.ext (by
    have := m.isLt; have := f.isLt; have := b.isLt
    match a with
    | ⟨0, _⟩ => show (m.val * 4160 + (f.val * 64 + b.val)) % 64 = b.val; omega
    | ⟨1, _⟩ => show (m.val * 4160 + (f.val * 64 + b.val)) / 4160 = m.val; omega
    | ⟨2, _⟩ => show (m.val * 4160 + (f.val * 64 + b.val)) / 64 % 65 = f.val; omega)

theorem flat128 (m : Fin 512) (f : Fin 128) (b : Fin 64) : idx_main_v100 (idx_main_v101 (ix2 m (col128 f b))) = ix3 b m f :=
  funext fun a => Fin.ext (by
    have := m.isLt; have := f.isLt; have := b.isLt
    match a with
    | ⟨0, _⟩ => show (m.val * 8192 + (f.val * 64 + b.val)) % 64 = b.val; omega
    | ⟨1, _⟩ => show (m.val * 8192 + (f.val * 64 + b.val)) / 8192 = m.val; omega
    | ⟨2, _⟩ => show (m.val * 8192 + (f.val * 64 + b.val)) / 64 % 128 = f.val; omega)

theorem regroup65 (b : Fin 64) (n : Fin 512) (j : Fin 195) :
    idx_main_v47 (idx_main_v48 (idx_main_v49 (ix2 (rowIx b n) j)))
      = ix3 (⟨j.val % 3, Nat.mod_lt _ (by decide)⟩ : Fin 3) n (col65 ⟨j.val / 3, by have := j.isLt; omega⟩ b) := by
  have := b.isLt; have := n.isLt; have := j.isLt
  have e : idx_main_v49 (ix2 (rowIx b n) j)
      = ix4 b n (⟨j.val / 3, by omega⟩ : Fin 65) (⟨j.val % 3, Nat.mod_lt _ (by decide)⟩ : Fin 3) :=
    funext fun a => Fin.ext (by
      match a with
      | ⟨0, _⟩ => show ((b.val * 512 + n.val) * 195 + j.val) / 99840 = b.val; omega
      | ⟨1, _⟩ => show ((b.val * 512 + n.val) * 195 + j.val) / 195 % 512 = n.val; omega
      | ⟨2, _⟩ => show ((b.val * 512 + n.val) * 195 + j.val) / 3 % 65 = j.val / 3; omega
      | ⟨3, _⟩ => show ((b.val * 512 + n.val) * 195 + j.val) % 3 = j.val % 3; omega)
  rw [e]
  refine funext fun a => Fin.ext ?_
  have h : (((j.val % 3 * 512 + n.val) * 65 + j.val / 3) * 64 + b.val) / 4160 = j.val % 3 * 512 + n.val := by omega
  match a with
  | ⟨0, _⟩ => show (((j.val % 3 * 512 + n.val) * 65 + j.val / 3) * 64 + b.val) / 2129920 = j.val % 3; omega
  | ⟨1, _⟩ => show (((j.val % 3 * 512 + n.val) * 65 + j.val / 3) * 64 + b.val) / 4160 % 512 = n.val; omega
  | ⟨2, _⟩ => show (((j.val % 3 * 512 + n.val) * 65 + j.val / 3) * 64 + b.val) % 4160 = j.val / 3 * 64 + b.val; omega

theorem regroup128 (b : Fin 64) (n : Fin 512) (j : Fin 384) :
    idx_main_v111 (idx_main_v112 (idx_main_v113 (ix2 (rowIx b n) j)))
      = ix3 (⟨j.val % 3, Nat.mod_lt _ (by decide)⟩ : Fin 3) n (col128 ⟨j.val / 3, by have := j.isLt; omega⟩ b) := by
  have := b.isLt; have := n.isLt; have := j.isLt
  have e : idx_main_v113 (ix2 (rowIx b n) j)
      = ix4 b n (⟨j.val / 3, by omega⟩ : Fin 128) (⟨j.val % 3, Nat.mod_lt _ (by decide)⟩ : Fin 3) :=
    funext fun a => Fin.ext (by
      match a with
      | ⟨0, _⟩ => show ((b.val * 512 + n.val) * 384 + j.val) / 196608 = b.val; omega
      | ⟨1, _⟩ => show ((b.val * 512 + n.val) * 384 + j.val) / 384 % 512 = n.val; omega
      | ⟨2, _⟩ => show ((b.val * 512 + n.val) * 384 + j.val) / 3 % 128 = j.val / 3; omega
      | ⟨3, _⟩ => show ((b.val * 512 + n.val) * 384 + j.val) % 3 = j.val % 3; omega)
  rw [e]
  refine funext fun a => Fin.ext ?_
  have h : (((j.val % 3 * 512 + n.val) * 128 + j.val / 3) * 64 + b.val) / 8192 = j.val % 3 * 512 + n.val := by omega
  match a with
  | ⟨0, _⟩ => show (((j.val % 3 * 512 + n.val) * 128 + j.val / 3) * 64 + b.val) / 4194304 = j.val % 3; omega
  | ⟨1, _⟩ => show (((j.val % 3 * 512 + n.val) * 128 + j.val / 3) * 64 + b.val) / 8192 % 512 = n.val; omega
  | ⟨2, _⟩ => show (((j.val % 3 * 512 + n.val) * 128 + j.val / 3) * 64 + b.val) % 8192 = j.val / 3 * 64 + b.val; omega

section Generic

variable {α : Type} {C : ℕ}

-- the stack of three arrays along a new leading axis, read at layer k
theorem stack3_read (h : Shape.Concatenates [(⟨3, ![1, 512, C]⟩ : Shape), ⟨3, ![1, 512, C]⟩, ⟨3, ![1, 512, C]⟩] ⟨3, ![3, 512, C]⟩ 0)
    (y0 y1 y2 : (⟨3, ![1, 512, C]⟩ : Shape).Idx → α) (k : Fin 3) (n : Fin 512) (c : Fin C) :
    concatenate ⟨3, ![3, 512, C]⟩ 0 [⟨⟨3, ![1, 512, C]⟩, y0⟩, ⟨⟨3, ![1, 512, C]⟩, y1⟩, ⟨⟨3, ![1, 512, C]⟩, y2⟩] h (ix3 k n c)
      = (match k with | 0 => y0 | 1 => y1 | 2 => y2) (ix3 0 n c) := by
  have hi : ∀ k' : Fin 3, ∀ a : Fin 3, a.cast rfl ≠ (0 : Fin 3) →
      ((ix3 (0 : Fin 1) n c) a).val = ((ix3 k' n c) (a.cast rfl)).val := fun k' a ha => by
    match a with
    | ⟨0, _⟩ => exact absurd rfl ha
    | ⟨1, _⟩ => rfl
    | ⟨2, _⟩ => rfl
  match k with
  | ⟨0, _⟩ => exact concatenate_apply_piece (t := ⟨3, ![3, 512, C]⟩) 0 [⟨_, y0⟩, ⟨_, y1⟩, ⟨_, y2⟩] h _ 0 (by show 0 < 3; decide) ⟨3, ![1, 512, C]⟩ y0 rfl rfl 0 rfl (ix3 0 n c) (hi _) rfl
  | ⟨1, _⟩ => exact concatenate_apply_piece (t := ⟨3, ![3, 512, C]⟩) 0 [⟨_, y0⟩, ⟨_, y1⟩, ⟨_, y2⟩] h _ 1 (by show 1 < 3; decide) ⟨3, ![1, 512, C]⟩ y1 rfl rfl 1 rfl (ix3 0 n c) (hi _) rfl
  | ⟨2, _⟩ => exact concatenate_apply_piece (t := ⟨3, ![3, 512, C]⟩) 0 [⟨_, y0⟩, ⟨_, y1⟩, ⟨_, y2⟩] h _ 2 (by show 2 < 3; decide) ⟨3, ![1, 512, C]⟩ y2 rfl rfl 2 rfl (ix3 0 n c) (hi _) rfl

theorem feat0_read {A : S64x512x1.Idx → EReal} {B : S64x512x64.Idx → EReal} {x : Fin 64 → Fin 512 → EReal}
    {st : Fin 64 → Fin 512 → Fin 64 → EReal} (hA : ∀ b m, A (ix3 b m 0) = x b m) (hB : ∀ b m u, B (ix3 b m u) = st b m u)
    (b : Fin 64) (m : Fin 512) (f : Fin 65) :
    concatenate S64x512x65 2 [⟨S64x512x1, A⟩, ⟨S64x512x64, B⟩] concatenates_S64x512x1_S64x512x64_S64x512x65_d2 (ix3 b m f)
      = Spec.feat0 (x b) (st b) f m := by
  refine Fin.cases ?_ (fun u => ?_) f
  · exact (concatenate_pair_apply_left (t := S64x512x65) 2 A B concatenates_S64x512x1_S64x512x64_S64x512x65_d2 (ix3 b m 0) rfl
      (ix3 b m 0) fun a => by
        match a with
        | ⟨0, _⟩ => rfl
        | ⟨1, _⟩ => rfl
        | ⟨2, _⟩ => rfl).trans (hA b m)
  · exact (concatenate_pair_apply_right (t := S64x512x65) 2 A B concatenates_S64x512x1_S64x512x64_S64x512x65_d2 (ix3 b m u.succ)
      rfl rfl (ix3 b m u) (fun a ha => by
        match a with
        | ⟨0, _⟩ => rfl
        | ⟨1, _⟩ => rfl
        | ⟨2, _⟩ => exact absurd rfl ha) rfl).trans (hB b m u)

theorem feat1_read {A B : S64x512x64.Idx → EReal} {x st : Fin 64 → Fin 512 → Fin 64 → EReal}
    (hA : ∀ b m u, A (ix3 b m u) = x b m u) (hB : ∀ b m u, B (ix3 b m u) = st b m u)
    (b : Fin 64) (m : Fin 512) (f : Fin 128) :
    concatenate S64x512x128 2 [⟨S64x512x64, A⟩, ⟨S64x512x64, B⟩] concatenates_S64x512x64_S64x512x64_S64x512x128_d2 (ix3 b m f)
      = Spec.feat1 (x b) (st b) f m := by
  refine Fin.addCases (m := 64) (n := 64) (fun u => ?_) (fun u => ?_) f
  · exact (concatenate_pair_apply_left (t := S64x512x128) 2 A B concatenates_S64x512x64_S64x512x64_S64x512x128_d2
      (ix3 b m (Fin.castAdd 64 u)) rfl (ix3 b m u) fun a => by
        match a with
        | ⟨0, _⟩ => rfl
        | ⟨1, _⟩ => rfl
        | ⟨2, _⟩ => rfl).trans ((hA b m u).trans (by unfold Spec.feat1; rw [Fin.addCases_left]))
  · exact (concatenate_pair_apply_right (t := S64x512x128) 2 A B concatenates_S64x512x64_S64x512x64_S64x512x128_d2
      (ix3 b m (Fin.natAdd 64 u)) rfl rfl (ix3 b m u) (fun a ha => by
        match a with
        | ⟨0, _⟩ => rfl
        | ⟨1, _⟩ => rfl
        | ⟨2, _⟩ => exact absurd rfl ha) (by show u.val + 64 = 64 + u.val; omega)).trans
      ((hB b m u).trans (by unfold Spec.feat1; rw [Fin.addCases_right]))

variable {F J Q : ℕ} {Sup : S512x512.Idx → EReal} {S : Fin 512 → Fin 512 → EReal}

-- every graph convolution of the reference: columns T, two diffusions D1 D2, third term E, their stack regrouped to R, result O
theorem gconv_read {col : Fin F → Fin 64 → Fin C} {Y : Fin 64 → Fin F → Fin 512 → EReal}
    {T D1 D2 E : (⟨2, ![512, C]⟩ : Shape).Idx → EReal}
    {l1 l2 : (⟨2, ![512, C]⟩ : Shape).Idx → Fin 512 → S512x512.Idx}
    {r1 r2 : (⟨2, ![512, C]⟩ : Shape).Idx → Fin 512 → (⟨2, ![512, C]⟩ : Shape).Idx}
    (hS : ∀ i j, Sup (ix2 i j) = S i j) (hT : ∀ b f m, T (ix2 m (col f b)) = Y b f m)
    (hD1 : ∀ i, D1 i = ∑ k, Sup (l1 i k) * T (r1 i k))
    (hl1 : ∀ n c k, l1 (ix2 n c) k = ix2 n k) (hr1 : ∀ n c k, r1 (ix2 n c) k = ix2 k c)
    (hD2 : ∀ i, D2 i = ∑ k, Sup (l2 i k) * D1 (r2 i k))
    (hl2 : ∀ n c k, l2 (ix2 n c) k = ix2 n k) (hr2 : ∀ n c k, r2 (ix2 n c) k = ix2 k c)
    (hE : ∀ i, E i = 2 * D2 i - T i)
    {y0 y1 y2 : (⟨3, ![1, 512, C]⟩ : Shape).Idx → EReal}
    (h0 : ∀ n c, y0 (ix3 0 n c) = T (ix2 n c)) (h1 : ∀ n c, y1 (ix3 0 n c) = D1 (ix2 n c))
    (h2 : ∀ n c, y2 (ix3 0 n c) = E (ix2 n c))
    (hc : Shape.Concatenates [(⟨3, ![1, 512, C]⟩ : Shape), ⟨3, ![1, 512, C]⟩, ⟨3, ![1, 512, C]⟩] ⟨3, ![3, 512, C]⟩ 0)
    {R : (⟨2, ![32768, J]⟩ : Shape).Idx → EReal} {g : (⟨2, ![32768, J]⟩ : Shape).Idx → (⟨3, ![3, 512, C]⟩ : Shape).Idx}
    (hR : ∀ i, R i = concatenate ⟨3, ![3, 512, C]⟩ 0 [⟨⟨3, ![1, 512, C]⟩, y0⟩, ⟨⟨3, ![1, 512, C]⟩, y1⟩, ⟨⟨3, ![1, 512, C]⟩, y2⟩] hc (g i))
    (hJ : ∀ j : Fin J, j.val / 3 < F)
    (hg : ∀ b n j, g (ix2 (rowIx b n) j) = ix3 (⟨j.val % 3, Nat.mod_lt _ (by decide)⟩ : Fin 3) n (col ⟨j.val / 3, hJ j⟩ b))
    {W : (⟨2, ![J, Q]⟩ : Shape).Idx → EReal} {bias : (⟨1, ![Q]⟩ : Shape).Idx → EReal}
    {O : (⟨2, ![32768, Q]⟩ : Shape).Idx → EReal}
    {lo : (⟨2, ![32768, Q]⟩ : Shape).Idx → Fin J → (⟨2, ![32768, J]⟩ : Shape).Idx}
    {ro : (⟨2, ![32768, Q]⟩ : Shape).Idx → Fin J → (⟨2, ![J, Q]⟩ : Shape).Idx}
    {bo : (⟨2, ![32768, Q]⟩ : Shape).Idx → (⟨1, ![Q]⟩ : Shape).Idx}
    (hO : ∀ i, O i = (∑ j, R (lo i j) * W (ro i j)) + bias (bo i))
    (hlo : ∀ r q j, lo (ix2 r q) j = ix2 r j) (hro : ∀ r q j, ro (ix2 r q) j = ix2 j q) (hbo : ∀ r q, bo (ix2 r q) = ix1 q)
    (b : Fin 64) (n : Fin 512) (q : Fin Q) :
    O (ix2 (rowIx b n) q)
      = (∑ j : Fin J, Spec.cheb S ⟨j.val % 3, Nat.mod_lt _ (by decide)⟩ (Y b ⟨j.val / 3, hJ j⟩) n * mat W j q)
        + vec bias q := by
  have d1 : ∀ b f n, D1 (ix2 n (col f b)) = Spec.diff S (Y b f) n := fun b f n => by
    rw [hD1]; unfold Spec.diff
    exact Finset.sum_congr rfl fun k _ => by rw [hl1, hr1, hS, hT]
  have d2 : ∀ b f n, D2 (ix2 n (col f b)) = Spec.diff S (Spec.diff S (Y b f)) n :=
    fun b f n => by
      rw [hD2]; show _ = ∑ m, S n m * Spec.diff S (Y b f) m
      exact Finset.sum_congr rfl fun k _ => by rw [hl2, hr2, hS, d1]
  have hk : ∀ k b f n, concatenate ⟨3, ![3, 512, C]⟩ 0 [⟨⟨3, ![1, 512, C]⟩, y0⟩, ⟨⟨3, ![1, 512, C]⟩, y1⟩, ⟨⟨3, ![1, 512, C]⟩, y2⟩] hc
      (ix3 k n (col f b)) = Spec.cheb S k (Y b f) n := fun k b f n => by
    rw [stack3_read]
    match k with
    | ⟨0, _⟩ => exact (h0 _ _).trans (hT b f n)
    | ⟨1, _⟩ => exact (h1 _ _).trans (d1 b f n)
    | ⟨2, _⟩ => exact (h2 _ _).trans (by rw [hE, d2, hT]; rfl)
  rw [hO, hbo]
  exact congrArg (· + vec bias q) (Finset.sum_congr rfl fun j _ => by rw [hlo, hro, hR, hg, hk]; rfl)

end Generic

end Cert.Ref

end
-- ==== Proof.Ref.G0ru.lean ====
import proofs.«104790_g19069654794669_cont_sun_m_30_11_alg».proof.Proof.Ref.Base
import proofs.«104790_g19069654794669_cont_sun_m_30_11_alg».proof.Proof.Adapt
import proofs.«104790_g19069654794669_cont_sun_m_30_11_alg».proof.Proof.Ref.Sup

noncomputable section

namespace Cert.Ref

open Cert.ReferenceIdeal Cert.ReferenceIdeal.Gen Cert.ReferenceIdeal.ReadP Idealize.ShloMosaic Idealize.ShloMosaic.TcCoe Idealize.ShloMosaic.ValueIdx
open Cert.Adapt

theorem ref_g0ru (x0 : (⟨S64x512, .f32⟩ : BufTy).Contents (Elt Ideal)) (x1 : (⟨S2x64x32768, .f32⟩ : BufTy).Contents (Elt Ideal))
    (x2 : (⟨S512x512, .f32⟩ : BufTy).Contents (Elt Ideal)) (x3 : (⟨S195x128, .f32⟩ : BufTy).Contents (Elt Ideal))
    (x4 : (⟨S128, .f32⟩ : BufTy).Contents (Elt Ideal))
    (b : Fin 64) (n : Fin 512) (q : Fin 128) :
    val_main_v53 (F := Ideal) x0 x1 x2 x3 x4 (ix2 (rowIx b n) q)
      = Spec.gconv0 (Spec.sup (mat x2))
          (Spec.feat0 (mat x0 b) fun m u => val_main_v32 (F := Ideal) x1 (ix2 b (posIx m u)))
          (mat x3) (vec x4) n q :=
  gconv_read (col := col65)
    (Y := fun b => Spec.feat0 (mat x0 b) fun m u => val_main_v32 (F := Ideal) x1 (ix2 b (posIx m u)))
    (ref_sup x2)
    (fun b f m => by
      rw [val_main_v37_apply, val_main_v36_apply]
      exact (congrArg _ (flat65 m f b)).trans (feat0_read (x := mat x0) (st := fun b m u => val_main_v32 (F := Ideal) x1 (ix2 b (posIx m u)))
        (fun b m => by rw [val_main_v33_apply]; exact congrArg x0 (unit_last b m))
        (fun b m u => by rw [val_main_v34_apply]; exact congrArg _ (unflat b m u)) b m f))
    (val_main_v38_apply x0 x1 x2) (fun _ _ _ => eq_ix2 _) (fun _ _ _ => eq_ix2 _)
    (val_main_v39_apply x0 x1 x2) (fun _ _ _ => eq_ix2 _) (fun _ _ _ => eq_ix2 _)
    (fun i => by
      rw [val_main_v42_apply, val_main_v41_apply, val_main_v40_apply, val_main_cst_5_apply, Ideal.subf_def,
        Ideal.mulf_def, Ideal.ofBits_def, f32_two])
    (fun _ _ => (val_main_v43_apply x0 x1 _).trans (congrArg _ (eq_ix2 _)))
    (fun _ _ => (val_main_v44_apply x0 x1 x2 _).trans (congrArg _ (eq_ix2 _)))
    (fun _ _ => (val_main_v45_apply x0 x1 x2 _).trans (congrArg _ (eq_ix2 _)))
    concatenates_S1x512x4160_S1x512x4160_S1x512x4160_S3x512x4160_d0
    (R := val_main_v49 (F := Ideal) x0 x1 x2) (g := fun i => idx_main_v47 (idx_main_v48 (idx_main_v49 i)))
    (fun i => by rw [val_main_v49_apply, val_main_v48_apply, val_main_v47_apply]; rfl)
    (fun j => by have := j.isLt; omega) regroup65
    (O := val_main_v53 (F := Ideal) x0 x1 x2 x3 x4) (lo := lidx_main_v50) (ro := ridx_main_v50)
    (bo := fun i => idx_main_v51 (idx_main_v52 i))
    (fun i => by rw [val_main_v53_apply, Ideal.addf_def, val_main_v50_apply, val_main_v52_apply, val_main_v51_apply])
    (fun _ _ _ => eq_ix2 _) (fun _ _ _ => eq_ix2 _) (fun _ _ => eq_ix1 _) b n q

end Cert.Ref

end
-- ==== Proof.Ref.G0c.lean ====
import proofs.«104790_g19069654794669_cont_sun_m_30_11_alg».proof.Proof.Ref.Base
import proofs.«104790_g19069654794669_cont_sun_m_30_11_alg».proof.Proof.Adapt
import proofs.«104790_g19069654794669_cont_sun_m_30_11_alg».proof.Proof.Ref.Sup

noncomputable section

namespace Cert.Ref

open Cert.ReferenceIdeal Cert.ReferenceIdeal.Gen Cert.ReferenceIdeal.ReadP Idealize.ShloMosaic Idealize.ShloMosaic.TcCoe Idealize.ShloMosaic.ValueIdx
open Cert.Adapt

theorem ref_g0c (x0 : (⟨S64x512, .f32⟩ : BufTy).Contents (Elt Ideal)) (x1 : (⟨S2x64x32768, .f32⟩ : BufTy).Contents (Elt Ideal))
    (x2 : (⟨S512x512, .f32⟩ : BufTy).Contents (Elt Ideal)) (x3 : (⟨S195x128, .f32⟩ : BufTy).Contents (Elt Ideal))
    (x4 : (⟨S128, .f32⟩ : BufTy).Contents (Elt Ideal)) (x5 : (⟨S195x64, .f32⟩ : BufTy).Contents (Elt Ideal))
    (x6 : (⟨S64, .f32⟩ : BufTy).Contents (Elt Ideal))
    (b : Fin 64) (n : Fin 512) (q : Fin 64) :
    val_main_v87 (F := Ideal) x0 x1 x2 x3 x4 x5 x6 (ix2 (rowIx b n) q)
      = Spec.gconv0 (Spec.sup (mat x2))
          (Spec.feat0 (mat x0 b) fun m u => val_main_v66 (F := Ideal) x0 x1 x2 x3 x4 (ix2 b (posIx m u)))
          (mat x5) (vec x6) n q :=
  gconv_read (col := col65)
    (Y := fun b => Spec.feat0 (mat x0 b) fun m u => val_main_v66 (F := Ideal) x0 x1 x2 x3 x4 (ix2 b (posIx m u)))
    (ref_sup x2)
    (fun b f m => by
      rw [val_main_v71_apply, val_main_v70_apply]
      exact (congrArg _ (flat65 m f b)).trans (feat0_read (x := mat x0) (st := fun b m u => val_main_v66 (F := Ideal) x0 x1 x2 x3 x4 (ix2 b (posIx m u)))
        (fun b m => by rw [val_main_v67_apply]; exact congrArg x0 (unit_last b m))
        (fun b m u => by rw [val_main_v68_apply]; exact congrArg _ (unflat b m u)) b m f))
    (val_main_v72_apply x0 x1 x2 x3 x4) (fun _ _ _ => eq_ix2 _) (fun _ _ _ => eq_ix2 _)
    (val_main_v73_apply x0 x1 x2 x3 x4) (fun _ _ _ => eq_ix2 _) (fun _ _ _ => eq_ix2 _)
    (fun i => by
      rw [val_main_v76_apply, val_main_v75_apply, val_main_v74_apply, val_main_cst_8_apply, Ideal.subf_def,
        Ideal.mulf_def, Ideal.ofBits_def, f32_two])
    (fun _ _ => (val_main_v77_apply x0 x1 x2 x3 x4 _).trans (congrArg _ (eq_ix2 _)))
    (fun _ _ => (val_main_v78_apply x0 x1 x2 x3 x4 _).trans (congrArg _ (eq_ix2 _)))
    (fun _ _ => (val_main_v79_apply x0 x1 x2 x3 x4 _).trans (congrArg _ (eq_ix2 _)))
    concatenates_S1x512x4160_S1x512x4160_S1x512x4160_S3x512x4160_d0
    (R := val_main_v83 (F := Ideal) x0 x1 x2 x3 x4) (g := fun i => idx_main_v81 (idx_main_v82 (idx_main_v83 i)))
    (fun i => by rw [val_main_v83_apply, val_main_v82_apply, val_main_v81_apply]; rfl)
    (fun j => by have := j.isLt; omega) regroup65
    (O := val_main_v87 (F := Ideal) x0 x1 x2 x3 x4 x5 x6) (lo := lidx_main_v84) (ro := ridx_main_v84)
    (bo := fun i => idx_main_v85 (idx_main_v86 i))
    (fun i => by rw [val_main_v87_apply, Ideal.addf_def, val_main_v84_apply, val_main_v86_apply, val_main_v85_apply])
    (fun _ _ _ => eq_ix2 _) (fun _ _ _ => eq_ix2 _) (fun _ _ => eq_ix1 _) b n q

end Cert.Ref

end
-- ==== Proof.Ref.G1ru.lean ====
import proofs.«104790_g19069654794669_cont_sun_m_30_11_alg».proof.Proof.Ref.Base
import proofs.«104790_g19069654794669_cont_sun_m_30_11_alg».proof.Proof.Adapt
import proofs.«104790_g19069654794669_cont_sun_m_30_11_alg».proof.Proof.Ref.Sup

noncomputable section

namespace Cert.Ref

open Cert.ReferenceIdeal Cert.ReferenceIdeal.Gen Cert.ReferenceIdeal.ReadP Idealize.ShloMosaic Idealize.ShloMosaic.TcCoe Idealize.ShloMosaic.ValueIdx
open Cert.Adapt

theorem ref_g1ru (x0 : (⟨S64x512, .f32⟩ : BufTy).Contents (Elt Ideal)) (x1 : (⟨S2x64x32768, .f32⟩ : BufTy).Contents (Elt Ideal))
    (x2 : (⟨S512x512, .f32⟩ : BufTy).Contents (Elt Ideal)) (x3 : (⟨S195x128, .f32⟩ : BufTy).Contents (Elt Ideal))
    (x4 : (⟨S128, .f32⟩ : BufTy).Contents (Elt Ideal)) (x5 : (⟨S195x64, .f32⟩ : BufTy).Contents (Elt Ideal))
    (x6 : (⟨S64, .f32⟩ : BufTy).Contents (Elt Ideal)) (x7 : (⟨S384x128, .f32⟩ : BufTy).Contents (Elt Ideal))
    (x8 : (⟨S128, .f32⟩ : BufTy).Contents (Elt Ideal))
    (b : Fin 64) (n : Fin 512) (q : Fin 128) :
    val_main_v117 (F := Ideal) x0 x1 x2 x3 x4 x5 x6 x7 x8 (ix2 (rowIx b n) q)
      = Spec.gconv1 (Spec.sup (mat x2))
          (Spec.feat1 (fun m u => val_main_v94 (F := Ideal) x0 x1 x2 x3 x4 x5 x6 (ix2 b (posIx m u))) fun m u => val_main_v96 (F := Ideal) x1 (ix2 b (posIx m u)))
          (mat x7) (vec x8) n q :=
  gconv_read (col := col128)
    (Y := fun b => Spec.feat1 (fun m u => val_main_v94 (F := Ideal) x0 x1 x2 x3 x4 x5 x6 (ix2 b (posIx m u))) fun m u => val_main_v96 (F := Ideal) x1 (ix2 b (posIx m u)))
    (ref_sup x2)
    (fun b f m => by
      rw [val_main_v101_apply, val_main_v100_apply]
      exact (congrArg _ (flat128 m f b)).trans (feat1_read (x := fun b m u => val_main_v94 (F := Ideal) x0 x1 x2 x3 x4 x5 x6 (ix2 b (posIx m u))) (st := fun b m u => val_main_v96 (F := Ideal) x1 (ix2 b (posIx m u)))
        (fun b m u => by rw [val_main_v97_apply]; exact congrArg _ (unflat b m u))
        (fun b m u => by rw [val_main_v98_apply]; exact congrArg _ (unflat b m u)) b m f))
    (val_main_v102_apply x0 x1 x2 x3 x4 x5 x6) (fun _ _ _ => eq_ix2 _) (fun _ _ _ => eq_ix2 _)
    (val_main_v103_apply x0 x1 x2 x3 x4 x5 x6) (fun _ _ _ => eq_ix2 _) (fun _ _ _ => eq_ix2 _)
    (fun i => by
      rw [val_main_v106_apply, val_main_v105_apply, val_main_v104_apply, val_main_cst_10_apply, Ideal.subf_def,
        Ideal.mulf_def, Ideal.ofBits_def, f32_two])
    (fun _ _ => (val_main_v107_apply x0 x1 x2 x3 x4 x5 x6 _).trans (congrArg _ (eq_ix2 _)))
    (fun _ _ => (val_main_v108_apply x0 x1 x2 x3 x4 x5 x6 _).trans (congrArg _ (eq_ix2 _)))
    (fun _ _ => (val_main_v109_apply x0 x1 x2 x3 x4 x5 x6 _).trans (congrArg _ (eq_ix2 _)))
    concatenates_S1x512x8192_S1x512x8192_S1x512x8192_S3x512x8192_d0
    (R := val_main_v113 (F := Ideal) x0 x1 x2 x3 x4 x5 x6) (g := fun i => idx_main_v111 (idx_main_v112 (idx_main_v113 i)))
    (fun i => by rw [val_main_v113_apply, val_main_v112_apply, val_main_v111_apply]; rfl)
    (fun j => by have := j.isLt; omega) regroup128
    (O := val_main_v117 (F := Ideal) x0 x1 x2 x3 x4 x5 x6 x7 x8) (lo := lidx_main_v114) (ro := ridx_main_v114)
    (bo := fun i => idx_main_v115 (idx_main_v116 i))
    (fun i => by rw [val_main_v117_apply, Ideal.addf_def, val_main_v114_apply, val_main_v116_apply, val_main_v115_apply])
    (fun _ _ _ => eq_ix2 _) (fun _ _ _ => eq_ix2 _) (fun _ _ => eq_ix1 _) b n q

end Cert.Ref

end
-- ==== Proof.Ref.G1c.lean ====
import proofs.«104790_g19069654794669_cont_sun_m_30_11_alg».proof.Proof.Ref.Base
import proofs.«104790_g19069654794669_cont_sun_m_30_11_alg».proof.Proof.Adapt
import proofs.«104790_g19069654794669_cont_sun_m_30_11_alg».proof.Proof.Ref.Sup
import Idealize.ShloMosaic.Lib.Pipeline.Value
import Idealize.ShloMosaic.Lib.ValueIdx
import Idealize.ShloMosaic.PureOps.Ideal.Laws
import Idealize.ShloMosaic.Lib.IdealHost

noncomputable section

namespace Cert.Ref

open Cert.ReferenceIdeal Cert.ReferenceIdeal.Gen Cert.ReferenceIdeal.ReadP Idealize.ShloMosaic Idealize.ShloMosaic.TcCoe Idealize.ShloMosaic.ValueIdx
open Cert.Adapt

theorem ref_g1c (x0 : (⟨S64x512, .f32⟩ : BufTy).Contents (Elt Ideal)) (x1 : (⟨S2x64x32768, .f32⟩ : BufTy).Contents (Elt Ideal))
    (x2 : (⟨S512x512, .f32⟩ : BufTy).Contents (Elt Ideal)) (x3 : (⟨S195x128, .f32⟩ : BufTy).Contents (Elt Ideal))
    (x4 : (⟨S128, .f32⟩ : BufTy).Contents (Elt Ideal)) (x5 : (⟨S195x64, .f32⟩ : BufTy).Contents (Elt Ideal))
    (x6 : (⟨S64, .f32⟩ : BufTy).Contents (Elt Ideal)) (x7 : (⟨S384x128, .f32⟩ : BufTy).Contents (Elt Ideal))
    (x8 : (⟨S128, .f32⟩ : BufTy).Contents (Elt Ideal)) (x9 : (⟨S384x64, .f32⟩ : BufTy).Contents (Elt Ideal))
    (x10 : (⟨S64, .f32⟩ : BufTy).Contents (Elt Ideal))
    (b : Fin 64) (n : Fin 512) (q : Fin 64) :
    val_main_v151 (F := Ideal) x0 x1 x2 x3 x4 x5 x6 x7 x8 x9 x10 (ix2 (rowIx b n) q)
      = Spec.gconv1 (Spec.sup (mat x2))
          (Spec.feat1 (fun m u => val_main_v94 (F := Ideal) x0 x1 x2 x3 x4 x5 x6 (ix2 b (posIx m u))) fun m u => val_main_v130 (F := Ideal) x0 x1 x2 x3 x4 x5 x6 x7 x8 (ix2 b (posIx m u)))
          (mat x9) (vec x10) n q :=
  gconv_read (col := col128)
    (Y := fun b => Spec.feat1 (fun m u => val_main_v94 (F := Ideal) x0 x1 x2 x3 x4 x5 x6 (ix2 b (posIx m u))) fun m u => val_main_v130 (F := Ideal) x0 x1 x2 x3 x4 x5 x6 x7 x8 (ix2 b (posIx m u)))
    (ref_sup x2)
    (fun b f m => by
      rw [val_main_v135_apply, val_main_v134_apply]
      exact (congrArg _ (flat128 m f b)).trans (feat1_read (x := fun b m u => val_main_v94 (F := Ideal) x0 x1 x2 x3 x4 x5 x6 (ix2 b (posIx m u)))
        (st := fun b m u => val_main_v130 (F := Ideal) x0 x1 x2 x3 x4 x5 x6 x7 x8 (ix2 b (posIx m u)))
        (fun b m u => by rw [val_main_v131_apply]; exact congrArg _ (unflat b m u))
        (fun b m u => by rw [val_main_v132_apply]; exact congrArg _ (unflat b m u)) b m f))
    (val_main_v136_apply x0 x1 x2 x3 x4 x5 x6 x7 x8) (fun _ _ _ => eq_ix2 _) (fun _ _ _ => eq_ix2 _)
    (val_main_v137_apply x0 x1 x2 x3 x4 x5 x6 x7 x8) (fun _ _ _ => eq_ix2 _) (fun _ _ _ => eq_ix2 _)
    (fun i => by
      rw [val_main_v140_apply, val_main_v139_apply, val_main_v138_apply, val_main_cst_13_apply, Ideal.subf_def,
        Ideal.mulf_def, Ideal.ofBits_def, f32_two])
    (fun _ _ => (val_main_v141_apply x0 x1 x2 x3 x4 x5 x6 x7 x8 _).trans (congrArg _ (eq_ix2 _)))
    (fun _ _ => (val_main_v142_apply x0 x1 x2 x3 x4 x5 x6 x7 x8 _).trans (congrArg _ (eq_ix2 _)))
    (fun _ _ => (val_main_v143_apply x0 x1 x2 x3 x4 x5 x6 x7 x8 _).trans (congrArg _ (eq_ix2 _)))
    concatenates_S1x512x8192_S1x512x8192_S1x512x8192_S3x512x8192_d0
    (R := val_main_v147 (F := Ideal) x0 x1 x2 x3 x4 x5 x6 x7 x8) (g := fun i => idx_main_v145 (idx_main_v146 (idx_main_v147 i)))
    (fun i => by rw [val_main_v147_apply, val_main_v146_apply, val_main_v145_apply]; rfl)
    (fun j => by have := j.isLt; omega) regroup128
    (O := val_main_v151 (F := Ideal) x0 x1 x2 x3 x4 x5 x6 x7 x8 x9 x10) (lo := lidx_main_v148) (ro := ridx_main_v148)
    (bo := fun i => idx_main_v149 (idx_main_v150 i))
    (fun i => by rw [val_main_v151_apply, Ideal.addf_def, val_main_v148_apply, val_main_v150_apply, val_main_v149_apply])
    (fun _ _ _ => eq_ix2 _) (fun _ _ _ => eq_ix2 _) (fun _ _ => eq_ix1 _) b n q

end Cert.Ref

end
-- ==== Proof.Ref.Final.lean ====
import proofs.«104790_g19069654794669_cont_sun_m_30_11_alg».proof.Proof.Ref.Base
import proofs.«104790_g19069654794669_cont_sun_m_30_11_alg».proof.Proof.Adapt
import proofs.«104790_g19069654794669_cont_sun_m_30_11_alg».proof.Proof.Ref.G0ru
import proofs.«104790_g19069654794669_cont_sun_m_30_11_alg».proof.Proof.Ref.G0c
import proofs.«104790_g19069654794669_cont_sun_m_30_11_alg».proof.Proof.Ref.G1ru
import proofs.«104790_g19069654794669_cont_sun_m_30_11_alg».proof.Proof.Ref.G1c
import Idealize.ShloMosaic.Lib.IdealHost
import Idealize.ShloMosaic.Lib.Pipeline.Value

noncomputable section

namespace Cert.Ref

open Cert.ReferenceIdeal Cert.ReferenceIdeal.Gen Cert.ReferenceIdeal.ReadP Idealize.ShloMosaic Idealize.ShloMosaic.TcCoe Idealize.ShloMosaic.ValueIdx
open Cert.Adapt

section

variable (x0 : (⟨S64x512, .f32⟩ : BufTy).Contents (Elt Ideal)) (x1 : (⟨S2x64x32768, .f32⟩ : BufTy).Contents (Elt Ideal))
  (x2 : (⟨S512x512, .f32⟩ : BufTy).Contents (Elt Ideal)) (x3 : (⟨S195x128, .f32⟩ : BufTy).Contents (Elt Ideal))
  (x4 : (⟨S128, .f32⟩ : BufTy).Contents (Elt Ideal)) (x5 : (⟨S195x64, .f32⟩ : BufTy).Contents (Elt Ideal))
  (x6 : (⟨S64, .f32⟩ : BufTy).Contents (Elt Ideal)) (x7 : (⟨S384x128, .f32⟩ : BufTy).Contents (Elt Ideal))
  (x8 : (⟨S128, .f32⟩ : BufTy).Contents (Elt Ideal)) (x9 : (⟨S384x64, .f32⟩ : BufTy).Contents (Elt Ideal))
  (x10 : (⟨S64, .f32⟩ : BufTy).Contents (Elt Ideal)) (x11 : (⟨S64x1, .f32⟩ : BufTy).Contents (Elt Ideal))
  (x12 : (⟨S1, .f32⟩ : BufTy).Contents (Elt Ideal))

private theorem idx_v32 (b : Fin 64) (k : Fin 32768) : idx_main_v31 (idx_main_v32 (ix2 b k)) = ix3 (0 : Fin 2) b k :=
  funext fun a => Fin.ext (by
    have := b.isLt; have := k.isLt
    match a with
    | ⟨0, _⟩ => rfl
    | ⟨1, _⟩ => show (b.val * 32768 + k.val) / 32768 % 64 = b.val; omega
    | ⟨2, _⟩ => show (b.val * 32768 + k.val) % 32768 = k.val; omega)

private theorem idx_v96 (b : Fin 64) (k : Fin 32768) : idx_main_v95 (idx_main_v96 (ix2 b k)) = ix3 (1 : Fin 2) b k :=
  funext fun a => Fin.ext (by
    have := b.isLt; have := k.isLt
    match a with
    | ⟨0, _⟩ => rfl
    | ⟨1, _⟩ => show (b.val * 32768 + k.val) / 32768 % 64 = b.val; omega
    | ⟨2, _⟩ => show (b.val * 32768 + k.val) % 32768 = k.val; omega)

private theorem fold3 (b : Fin 64) (n : Fin 512) (u : Fin 64) : idx_main_v63 (ix2 b (posIx n u)) = ix3 b n u :=
  funext fun a => Fin.ext (by
    have := b.isLt; have := n.isLt; have := u.isLt
    match a with
    | ⟨0, _⟩ => show (b.val * 32768 + (n.val * 64 + u.val)) / 32768 = b.val; omega
    | ⟨1, _⟩ => show (b.val * 32768 + (n.val * 64 + u.val)) / 64 % 512 = n.val; omega
    | ⟨2, _⟩ => show (b.val * 32768 + (n.val * 64 + u.val)) % 64 = u.val; omega)

private theorem fold2 (b : Fin 64) (n : Fin 512) (u : Fin 64) : idx_main_v88 (ix2 b (posIx n u)) = ix2 (rowIx b n) u :=
  funext fun a => Fin.ext (by
    have := b.isLt; have := n.isLt; have := u.isLt
    match a with
    | ⟨0, _⟩ => show (b.val * 32768 + (n.val * 64 + u.val)) / 64 = b.val * 512 + n.val; omega
    | ⟨1, _⟩ => show (b.val * 32768 + (n.val * 64 + u.val)) % 64 = u.val; omega)

theorem ref_v32 (b : Fin 64) (n : Fin 512) (u : Fin 64) : val_main_v32 (F := Ideal) x1 (ix2 b (posIx n u)) = hid x1 0 b n u := by
  rw [val_main_v32_apply, val_main_v31_apply, idx_v32]
  rfl

theorem ref_v96 (b : Fin 64) (n : Fin 512) (u : Fin 64) : val_main_v96 (F := Ideal) x1 (ix2 b (posIx n u)) = hid x1 1 b n u := by
  rw [val_main_v96_apply, val_main_v95_apply, idx_v96]
  rfl

private theorem idx_v61 (b : Fin 64) (n : Fin 512) (q : Fin 128) :
    idx_main_v54 (idx_main_v61 (ix3 b n q)) = ix2 (rowIx b n) q :=
  funext fun a => Fin.ext (by
    have := b.isLt; have := n.isLt; have := q.isLt
    match a with
    | ⟨0, _⟩ =>
      show ((((b.val * 512 + n.val) * 128 + q.val) / 65536) * 65536 + ((b.val * 512 + n.val) * 128 + q.val) % 65536) / 128
        = b.val * 512 + n.val
      omega
    | ⟨1, _⟩ =>
      show ((((b.val * 512 + n.val) * 128 + q.val) / 65536) * 65536 + ((b.val * 512 + n.val) * 128 + q.val) % 65536) % 128
        = q.val
      omega)

private theorem ref_gate0 (b : Fin 64) (n : Fin 512) (q : Fin 128) :
    val_main_v61 (F := Ideal) x0 x1 x2 x3 x4 (ix3 b n q) = Spec.gate0 (Spec.sup (mat x2)) (mat x0 b) (hid x1 0 b) (mat x3) (vec x4) n q := by
  rw [val_main_v61_apply, val_main_v60_apply, val_main_v59_apply, val_main_cst_7_apply, val_main_v58_apply,
    val_main_v57_apply, val_main_cst_6_apply, val_main_v56_apply, val_main_v55_apply, val_main_v54_apply, idx_v61,
    ref_g0ru]
  simp only [ref_v32, Ideal.hostDivf_def, Ideal.addf_def, Ideal.hostUnary_exp_def, Ideal.hostNegf_def, Ideal.negf_def,
    Ideal.ofBits_def, Ideal.ofBits_one_f32]
  rfl

theorem ref_v66 (b : Fin 64) (n : Fin 512) (u : Fin 64) :
    val_main_v66 (F := Ideal) x0 x1 x2 x3 x4 (ix2 b (posIx n u)) = Spec.rs0 (Spec.sup (mat x2)) (mat x0 b) (hid x1 0 b) (mat x3) (vec x4) n u := by
  rw [val_main_v66_apply, val_main_v63_apply, show idx_main_v63 (ix2 b (posIx n u)) = ix3 b n u from fold3 b n u,
    val_main_v62_apply, show idx_main_v62 (ix3 b n u) = ix3 b n (Fin.castAdd 64 u) from eq_ix3 _, ref_gate0, ref_v32]
  simp only [Ideal.mulf_def]
  rfl

theorem ref_h0 (b : Fin 64) (n : Fin 512) (u : Fin 64) :
    val_main_v94 (F := Ideal) x0 x1 x2 x3 x4 x5 x6 (ix2 b (posIx n u)) = H0 x0 x1 x2 x3 x4 x5 x6 b n u := by
  rw [val_main_v94_apply, val_main_v93_apply, val_main_v92_apply, val_main_v91_apply, val_main_cst_9_apply,
    val_main_v90_apply, val_main_v89_apply, val_main_v88_apply, show idx_main_v88 (ix2 b (posIx n u)) = ix2 (rowIx b n) u from fold2 b n u,
    ref_g0c, val_main_v65_apply, show idx_main_v65 (ix2 b (posIx n u)) = ix3 b n u from fold3 b n u,
    val_main_v64_apply, show idx_main_v64 (ix3 b n u) = ix3 b n (Fin.natAdd 64 u) from eq_ix3 _, ref_gate0, ref_v32]
  simp only [ref_v66, Ideal.addf_def, Ideal.mulf_def, Ideal.subf_def, Ideal.hostUnary_tanh_def, Ideal.ofBits_def,
    Ideal.ofBits_one_f32]
  rfl

private theorem idx_v125 (b : Fin 64) (n : Fin 512) (q : Fin 128) :
    idx_main_v118 (idx_main_v125 (ix3 b n q)) = ix2 (rowIx b n) q := idx_v61 b n q

private theorem ref_gate1 (b : Fin 64) (n : Fin 512) (q : Fin 128) :
    val_main_v125 (F := Ideal) x0 x1 x2 x3 x4 x5 x6 x7 x8 (ix3 b n q) = Spec.gate1 (Spec.sup (mat x2)) (H0 x0 x1 x2 x3 x4 x5 x6 b) (hid x1 1 b) (mat x7) (vec x8) n q := by
  rw [val_main_v125_apply, val_main_v124_apply, val_main_v123_apply, val_main_cst_12_apply, val_main_v122_apply,
    val_main_v121_apply, val_main_cst_11_apply, val_main_v120_apply, val_main_v119_apply, val_main_v118_apply, idx_v125,
    ref_g1ru]
  simp only [ref_h0, ref_v96, Ideal.hostDivf_def, Ideal.addf_def, Ideal.hostUnary_exp_def, Ideal.hostNegf_def, Ideal.negf_def,
    Ideal.ofBits_def, Ideal.ofBits_one_f32]
  rfl

theorem ref_v130 (b : Fin 64) (n : Fin 512) (u : Fin 64) :
    val_main_v130 (F := Ideal) x0 x1 x2 x3 x4 x5 x6 x7 x8 (ix2 b (posIx n u)) = Spec.rs1 (Spec.sup (mat x2)) (H0 x0 x1 x2 x3 x4 x5 x6 b) (hid x1 1 b) (mat x7) (vec x8) n u := by
  rw [val_main_v130_apply, val_main_v127_apply, show idx_main_v127 (ix2 b (posIx n u)) = ix3 b n u from fold3 b n u,
    val_main_v126_apply, show idx_main_v126 (ix3 b n u) = ix3 b n (Fin.castAdd 64 u) from eq_ix3 _, ref_gate1, ref_v96]
  simp only [Ideal.mulf_def]
  rfl

theorem ref_h1 (b : Fin 64) (n : Fin 512) (u : Fin 64) :
    val_main_v158 (F := Ideal) x0 x1 x2 x3 x4 x5 x6 x7 x8 x9 x10 (ix2 b (posIx n u)) = H1 x0 x1 x2 x3 x4 x5 x6 x7 x8 x9 x10 b n u := by
  rw [val_main_v158_apply, val_main_v157_apply, val_main_v156_apply, val_main_v155_apply, val_main_cst_14_apply,
    val_main_v154_apply, val_main_v153_apply, val_main_v152_apply, show idx_main_v152 (ix2 b (posIx n u)) = ix2 (rowIx b n) u from fold2 b n u,
    ref_g1c, val_main_v129_apply, show idx_main_v129 (ix2 b (posIx n u)) = ix3 b n u from fold3 b n u,
    val_main_v128_apply, show idx_main_v128 (ix3 b n u) = ix3 b n (Fin.natAdd 64 u) from eq_ix3 _, ref_gate1, ref_v96]
  simp only [ref_h0, ref_v130, Ideal.addf_def, Ideal.mulf_def, Ideal.subf_def, Ideal.hostUnary_tanh_def, Ideal.ofBits_def,
    Ideal.ofBits_one_f32]
  rfl

private theorem idx_v159 (b : Fin 64) (n : Fin 512) (k : Fin 64) :
    idx_main_v159 (lidx_main_v160 (idx_main_v164 (ix2 b n)) k) = ix2 b (posIx n k) :=
  funext fun a => Fin.ext (by
    have := b.isLt; have := n.isLt; have := k.isLt
    match a with
    | ⟨0, _⟩ => show ((b.val * 512 + n.val) / 1 * 64 + k.val) / 32768 = b.val; omega
    | ⟨1, _⟩ => show ((b.val * 512 + n.val) / 1 * 64 + k.val) % 32768 = n.val * 64 + k.val; omega)

theorem ref_out : val_main_v164 (F := Ideal) x0 x1 x2 x3 x4 x5 x6 x7 x8 x9 x10 x11 x12 = R0 x0 x1 x2 x3 x4 x5 x6 x7 x8 x9 x10 x11 x12 := by
  funext i
  obtain ⟨b, n, rfl⟩ : ∃ (b : Fin 64) (n : Fin 512), i = ix2 b n := ⟨i 0, i 1, eq_ix2 i⟩
  have hterm : ∀ k : Fin 64,
      val_main_v159 (F := Ideal) x0 x1 x2 x3 x4 x5 x6 x7 x8 x9 x10 (lidx_main_v160 (idx_main_v164 (ix2 b n)) k)
          * x11 (ridx_main_v160 (idx_main_v164 (ix2 b n)) k)
        = H1 x0 x1 x2 x3 x4 x5 x6 x7 x8 x9 x10 b n k * col x11 k := fun k => by
    rw [val_main_v159_apply, idx_v159, ref_h1, show ridx_main_v160 (idx_main_v164 (ix2 b n)) k = ix2 k (0 : Fin 1) from eq_ix2 _]
    rfl
  rw [val_main_v164_apply, val_main_v163_apply, val_main_v162_apply, val_main_v161_apply,
    show idx_main_v161 (idx_main_v162 (idx_main_v164 (ix2 b n))) = ix1 (0 : Fin 1) from eq_ix1 _, val_main_v160_apply]
  simp only [hterm, Ideal.addf_def]
  rfl

theorem ref_hidden : val_main_v167 (F := Ideal) x0 x1 x2 x3 x4 x5 x6 x7 x8 x9 x10 = R1 x0 x1 x2 x3 x4 x5 x6 x7 x8 x9 x10 := by
  funext i
  obtain ⟨l, b, k, rfl⟩ : ∃ (l : Fin 2) (b : Fin 64) (k : Fin 32768), i = ix3 l b k := ⟨i 0, i 1, i 2, eq_ix3 i⟩
  have hn : k.val / 64 < 512 := by have := k.isLt; omega
  have hu : k.val % 64 < 64 := Nat.mod_lt _ (by decide)
  have hk : k = posIx ⟨k.val / 64, hn⟩ ⟨k.val % 64, hu⟩ := Fin.ext (by show k.val = k.val / 64 * 64 + k.val % 64; omega)
  unfold val_main_v167
  match l with
  | ⟨0, h0⟩ =>
    rw [concatenate_pair_apply_left (t := S2x64x32768) (s₁ := S1x64x32768) (s₂ := S1x64x32768) 0
      (val_main_v165 (F := Ideal) x0 x1 x2 x3 x4 x5 x6) (val_main_v166 (F := Ideal) x0 x1 x2 x3 x4 x5 x6 x7 x8 x9 x10)
      concatenates_S1x64x32768_S1x64x32768_S2x64x32768_d0 (ix3 (⟨0, h0⟩ : Fin 2) b k) rfl (ix3 (0 : Fin 1) b k)
      (fun a => match a with | ⟨0, _⟩ => rfl | ⟨1, _⟩ => rfl | ⟨2, _⟩ => rfl),
      val_main_v165_apply, show idx_main_v165 (ix3 (0 : Fin 1) b k) = ix2 b k from eq_ix2 _]
    exact (congrArg (fun k' => val_main_v94 (F := Ideal) x0 x1 x2 x3 x4 x5 x6 (ix2 b k')) hk).trans
      (ref_h0 x0 x1 x2 x3 x4 x5 x6 b ⟨k.val / 64, hn⟩ ⟨k.val % 64, hu⟩)
  | ⟨1, h1⟩ =>
    rw [concatenate_pair_apply_right (t := S2x64x32768) (s₁ := S1x64x32768) (s₂ := S1x64x32768) 0
      (val_main_v165 (F := Ideal) x0 x1 x2 x3 x4 x5 x6) (val_main_v166 (F := Ideal) x0 x1 x2 x3 x4 x5 x6 x7 x8 x9 x10)
      concatenates_S1x64x32768_S1x64x32768_S2x64x32768_d0 (ix3 (⟨1, h1⟩ : Fin 2) b k) rfl rfl (ix3 (0 : Fin 1) b k)
      (fun a ha => match a, ha with
        | ⟨0, _⟩, ha => absurd (Fin.ext rfl) ha
        | ⟨1, _⟩, _ => rfl
        | ⟨2, _⟩, _ => rfl)
      rfl, val_main_v166_apply, show idx_main_v166 (ix3 (0 : Fin 1) b k) = ix2 b k from eq_ix2 _]
    exact (congrArg (fun k' => val_main_v158 (F := Ideal) x0 x1 x2 x3 x4 x5 x6 x7 x8 x9 x10 (ix2 b k')) hk).trans
      (ref_h1 x0 x1 x2 x3 x4 x5 x6 x7 x8 x9 x10 b ⟨k.val / 64, hn⟩ ⟨k.val % 64, hu⟩)

end

end Cert.Ref

end
-- ==== Proof.lean ====
import proofs.«104790_g19069654794669_cont_sun_m_30_11_alg».proof.Defs
import proofs.«104790_g19069654794669_cont_sun_m_30_11_alg».proof.Proof.Gen.Kernel
import proofs.«104790_g19069654794669_cont_sun_m_30_11_alg».proof.Proof.Gen.KernelIdeal
import proofs.«104790_g19069654794669_cont_sun_m_30_11_alg».proof.Proof.Gen.ReferenceIdeal
import proofs.«104790_g19069654794669_cont_sun_m_30_11_alg».proof.Proof.Gen.Pre_finite_inputs
import proofs.«104790_g19069654794669_cont_sun_m_30_11_alg».proof.Proof.K.Run
import proofs.«104790_g19069654794669_cont_sun_m_30_11_alg».proof.Proof.KI.Run
import proofs.«104790_g19069654794669_cont_sun_m_30_11_alg».proof.Proof.Val.KFinal
import proofs.«104790_g19069654794669_cont_sun_m_30_11_alg».proof.Proof.Ref.Stages
import proofs.«104790_g19069654794669_cont_sun_m_30_11_alg».proof.Proof.Ref.Final
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the two results dropped. -/
theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.Ref.ref_run m ρ)

open Cert.KernelIdeal Cert.KernelIdeal.Hand in
/-- Both programs end at the specification's two result arrays of the arguments, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Adapt.R0 (A0 m c) (A1 m c) (A2 m c) (A3 m c) (A4 m c) (A5 m c) (A6 m c) (A7 m c) (A8 m c) (A9 m c) (A10 m c) (A11 m c) (A12 m c),
    fun c => Cert.Adapt.R1 (A0 m c) (A1 m c) (A2 m c) (A3 m c) (A4 m c) (A5 m c) (A6 m c) (A7 m c) (A8 m c) (A9 m c) (A10 m c), ?_, ?_⟩
  · refine (θ_run Cert.KernelIdeal.defs _ _).mono (fun r h c => ?_) (run_all (F := Ideal) m ρ)
    have k := fun b hb => h c _ (mem_uc b hb)
    exact ⟨(k main_v212 (by decide)).trans (ker_out m ρ c), (k main_v217 (by decide)).trans (ker_hidden m ρ c),
      (k main_arg0 (by decide)).trans (W8_main_arg0 m ρ c),
      (k main_arg1 (by decide)).trans (W8_main_arg1 m ρ c),
      (k main_arg2 (by decide)).trans (W8_main_arg2 m ρ c),
      (k main_arg3 (by decide)).trans (W8_main_arg3 m ρ c),
      (k main_arg4 (by decide)).trans (W8_main_arg4 m ρ c),
      (k main_arg5 (by decide)).trans (W8_main_arg5 m ρ c),
      (k main_arg6 (by decide)).trans (W8_main_arg6 m ρ c),
      (k main_arg7 (by decide)).trans (W8_main_arg7 m ρ c),
      (k main_arg8 (by decide)).trans (W8_main_arg8 m ρ c),
      (k main_arg9 (by decide)).trans (W8_main_arg9 m ρ c),
      (k main_arg10 (by decide)).trans (W8_main_arg10 m ρ c),
      (k main_arg11 (by decide)).trans (W8_main_arg11 m ρ c),
      (k main_arg12 (by decide)).trans (W8_main_arg12 m ρ c)⟩
  · refine (θ_run Cert.ReferenceIdeal.defs _ _).mono (fun r h c => ?_) (Cert.Ref.ref_run m' ρ')
    obtain ⟨h164, h167, hargs⟩ := h c
    obtain ⟨e0, e1, e2, e3, e4, e5, e6, e7, e8, e9, e10, e11, e12⟩ := hagree c
    refine ⟨?_, ?_, hargs⟩
    · rw [h164, Cert.Ref.ref_out, e0, e1, e2, e3, e4, e5, e6, e7, e8, e9, e10, e11, e12]
    · rw [h167, Cert.Ref.ref_hidden, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
